-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x640000 : S_.BroadcastsInDim S2x640000 (![] : Fin 0 → Fin S2x640000.rank)
  reducesTo_S2x640000_S_d0_1 : S2x640000.ReducesTo [0, 1] S_

variable [Facts]

def fn_part4 {F : FTy → Type} [FloatOps F] (main_arg1 : IVec S2x640000 32) (main_v67 : IVec S_ 1) : IVec S_ 1 :=
  let main_c_26 : IVec S_ 32 := constantI S_ 32 10000#32
  let main_v68 : IVec S2x640000 32 := broadcastInDim S2x640000 ![] bcast_S_S2x640000 main_c_26
  let main_v69 : IVec S2x640000 1 := cmpi .slt main_arg1 main_v68
  let main_c_27 : IVec S_ 1 := constantI S_ 1 1#1
  let main_v70 : IVec S_ 1 := (fun x v => Host.reduce IntOp.andi x v reducesTo_S2x640000_S_d0_1 h_S_) main_v69 main_c_27
  let main_v71 : IVec S_ 1 := andi main_v67 main_v70
  main_v71

def fn_part3 {F : FTy → Type} [FloatOps F] (main_arg1 : IVec S2x640000 32) (main_arg12 : FVec F S128x64 .f32) (main_arg13 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_c_24 : IVec S_ 32 := constantI S_ 32 0#32
  let main_v64 : IVec S2x640000 32 := broadcastInDim S2x640000 ![] bcast_S_S2x640000 main_c_24
  let main_v65 : IVec S2x640000 1 := cmpi .sge main_arg1 main_v64
  let main_c_25 : IVec S_ 1 := constantI S_ 1 1#1
  let main_v66 : IVec S_ 1 := (fun x v => Host.reduce IntOp.andi x v reducesTo_S2x640000_S_d0_1 h_S_) main_v65 main_c_25
  let main_v67 : IVec S_ 1 := andi main_v63 main_v66
  fn_part4 (F := F) main_arg1 main_v67

def fn_part2 {F : FTy → Type} [FloatOps F] (main_arg1 : IVec S2x640000 32) (main_arg8 : FVec F S256x128 .f32) (main_arg9 : FVec F S128 .f32) (main_arg10 : FVec F S128x128 .f32) (main_arg11 : FVec F S128 .f32) (main_arg12 : FVec F S128x64 .f32) (main_arg13 : FVec F S64 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_v48 main_v49 main_v50

def fn_part1 {F : FTy → Type} [FloatOps F] (main_arg1 : IVec S2x640000 32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x64 .f32) (main_arg13 : FVec F S64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S10000x128 .f32) (main_arg1 : IVec S2x640000 32) (main_arg2 : FVec F S128x128 .f32) (main_arg3 : FVec F S128 .f32) (main_arg4 : FVec F S256x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x64 .f32) (main_arg13 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_arg6 main_arg7 main_arg8 main_arg9 main_arg10 main_arg11 main_arg12 main_arg13 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S104857600 : Shape := ⟨1, ![104857600]⟩
abbrev S640000x1 : Shape := ⟨2, ![640000, 1]⟩
abbrev S10240x10240 : Shape := ⟨2, ![10240, 10240]⟩
abbrev S10240 : Shape := ⟨1, ![10240]⟩
abbrev S10240x1 : Shape := ⟨2, ![10240, 1]⟩
abbrev S10240x128 : Shape := ⟨2, ![10240, 128]⟩
abbrev S1x128 : Shape := ⟨2, ![1, 128]⟩
abbrev S1280x128 : Shape := ⟨2, ![1280, 128]⟩
abbrev S1280x2048 : Shape := ⟨2, ![1280, 2048]⟩
abbrev S2048x128 : Shape := ⟨2, ![2048, 128]⟩
abbrev S1280x1 : Shape := ⟨2, ![1280, 1]⟩
abbrev S1280x256 : Shape := ⟨2, ![1280, 256]⟩
abbrev S1280 : Shape := ⟨1, ![1280]⟩
abbrev S1x64 : Shape := ⟨2, ![1, 64]⟩
abbrev S10240x64 : Shape := ⟨2, ![10240, 64]⟩
abbrev S1280x64 : Shape := ⟨2, ![1280, 64]⟩
abbrev S10000x64 : Shape := ⟨2, ![10000, 64]⟩

abbrev nBuf : Space → Nat
  | .hbm => 51
  | .vmem => 50
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S104857600, .f32⟩
  | .hbm, ⟨26, _⟩ => ⟨S640000x1, .i32⟩
  | .hbm, ⟨27, _⟩ => ⟨S104857600, .f32⟩
  | .hbm, ⟨28, _⟩ => ⟨S10240x10240, .f32⟩
  | .hbm, ⟨29, _⟩ => ⟨S10240x10240, .bf16⟩
  | .hbm, ⟨30, _⟩ => ⟨S_, .f32⟩
  | .hbm, ⟨31, _⟩ => ⟨S10240, .f32⟩
  | .hbm, ⟨32, _⟩ => ⟨S640000x1, .i32⟩
  | .hbm, ⟨33, _⟩ => ⟨S10240, .f32⟩
  | .hbm, ⟨34, _⟩ => ⟨S10240x1, .f32⟩
  | .hbm, ⟨35, _⟩ => ⟨S_, .i32⟩
  | .hbm, ⟨36, _⟩ => ⟨S_, .f32⟩
  | .hbm, ⟨37, _⟩ => ⟨S10240x128, .f32⟩
  | .hbm, ⟨38, _⟩ => ⟨S1x128, .f32⟩
  | .hbm, ⟨39, _⟩ => ⟨S10240x128, .bf16⟩
  | .hbm, ⟨40, _⟩ => ⟨S10240x128, .f32⟩
  | .hbm, ⟨41, _⟩ => ⟨S1x128, .f32⟩
  | .hbm, ⟨42, _⟩ => ⟨S10240x128, .f32⟩
  | .hbm, ⟨43, _⟩ => ⟨S1x128, .f32⟩
  | .hbm, ⟨44, _⟩ => ⟨S10240x128, .bf16⟩
  | .hbm, ⟨45, _⟩ => ⟨S10240x128, .f32⟩
  | .hbm, ⟨46, _⟩ => ⟨S1x128, .f32⟩
  | .hbm, ⟨47, _⟩ => ⟨S1x128, .f32⟩
  | .hbm, ⟨48, _⟩ => ⟨S1x64, .f32⟩
  | .hbm, ⟨49, _⟩ => ⟨S10240x64, .f32⟩
  | .hbm, ⟨50, _⟩ => ⟨S10000x64, .f32⟩
  | .local _ .vmem, ⟨0, _⟩ => ⟨S1280x128, .f32⟩
  | .local _ .vmem, ⟨1, _⟩ => ⟨S1280x128, .f32⟩
  | .local _ .vmem, ⟨2, _⟩ => ⟨S128x128, .f32⟩
  | .local _ .vmem, ⟨3, _⟩ => ⟨S1x128, .f32⟩
  | .local _ .vmem, ⟨4, _⟩ => ⟨S1280x128, .bf16⟩
  | .local _ .vmem, ⟨5, _⟩ => ⟨S1280x128, .bf16⟩
  | .local _ .vmem, ⟨6, _⟩ => ⟨S1280x2048, .bf16⟩
  | .local _ .vmem, ⟨7, _⟩ => ⟨S1280x2048, .bf16⟩
  | .local _ .vmem, ⟨8, _⟩ => ⟨S2048x128, .bf16⟩
  | .local _ .vmem, ⟨9, _⟩ => ⟨S2048x128, .bf16⟩
  | .local _ .vmem, ⟨10, _⟩ => ⟨S1280x128, .f32⟩
  | .local _ .vmem, ⟨11, _⟩ => ⟨S1280x128, .f32⟩
  | .local _ .vmem, ⟨12, _⟩ => ⟨S1280x128, .f32⟩
  | .local _ .vmem, ⟨13, _⟩ => ⟨S1280x128, .f32⟩
  | .local _ .vmem, ⟨14, _⟩ => ⟨S1280x128, .f32⟩
  | .local _ .vmem, ⟨15, _⟩ => ⟨S1280x128, .f32⟩
  | .local _ .vmem, ⟨16, _⟩ => ⟨S1280x128, .f32⟩
  | .local _ .vmem, ⟨17, _⟩ => ⟨S1280x1, .f32⟩
  | .local _ .vmem, ⟨18, _⟩ => ⟨S1280x1, .f32⟩
  | .local _ .vmem, ⟨19, _⟩ => ⟨S256x128, .f32⟩
  | .local _ .vmem, ⟨20, _⟩ => ⟨S1x128, .f32⟩
  | .local _ .vmem, ⟨21, _⟩ => ⟨S1280x128, .f32⟩
  | .local _ .vmem, ⟨22, _⟩ => ⟨S1280x128, .f32⟩
  | .local _ .vmem, ⟨23, _⟩ => ⟨S1280x128, .f32⟩
  | .local _ .vmem, ⟨24, _⟩ => ⟨S1280x128, .f32⟩
  | .local _ .vmem, ⟨25, _⟩ => ⟨S128x128, .f32⟩
  | .local _ .vmem, ⟨26, _⟩ => ⟨S1x128, .f32⟩
  | .local _ .vmem, ⟨27, _⟩ => ⟨S1280x128, .bf16⟩
  | .local _ .vmem, ⟨28, _⟩ => ⟨S1280x128, .bf16⟩
  | .local _ .vmem, ⟨29, _⟩ => ⟨S1280x2048, .bf16⟩
  | .local _ .vmem, ⟨30, _⟩ => ⟨S1280x2048, .bf16⟩
  | .local _ .vmem, ⟨31, _⟩ => ⟨S2048x128, .bf16⟩
  | .local _ .vmem, ⟨32, _⟩ => ⟨S2048x128, .bf16⟩
  | .local _ .vmem, ⟨33, _⟩ => ⟨S1280x128, .f32⟩
  | .local _ .vmem, ⟨34, _⟩ => ⟨S1280x128, .f32⟩
  | .local _ .vmem, ⟨35, _⟩ => ⟨S1280x128, .f32⟩
  | .local _ .vmem, ⟨36, _⟩ => ⟨S1280x128, .f32⟩
  | .local _ .vmem, ⟨37, _⟩ => ⟨S1280x128, .f32⟩
  | .local _ .vmem, ⟨38, _⟩ => ⟨S1280x128, .f32⟩
  | .local _ .vmem, ⟨39, _⟩ => ⟨S1280x128, .f32⟩
  | .local _ .vmem, ⟨40, _⟩ => ⟨S1280x1, .f32⟩
  | .local _ .vmem, ⟨41, _⟩ => ⟨S1280x1, .f32⟩
  | .local _ .vmem, ⟨42, _⟩ => ⟨S256x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S128x64, .f32⟩
  | .local _ .vmem, ⟨47, _⟩ => ⟨S1x64, .f32⟩
  | .local _ .vmem, ⟨48, _⟩ => ⟨S1280x64, .f32⟩
  | .local _ .vmem, ⟨49, _⟩ => ⟨S1280x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_call0_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg6_0 : Ref sig .tc := ⟨.vmem, 45, rfl⟩
abbrev cc5_stg7_0 : Ref sig .tc := ⟨.vmem, 46, rfl⟩
abbrev cc5_stg8_0 : Ref sig .tc := ⟨.vmem, 47, rfl⟩
abbrev cc5_stg9_0 : Ref sig .tc := ⟨.vmem, 48, rfl⟩
abbrev cc5_stg9_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem7_0 : DmaSem sig := 44
abbrev cc5_sem8_0 : DmaSem sig := 45
abbrev cc5_sem9_0 : DmaSem sig := 46
abbrev cc5_sem9_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1280x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1280x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1280x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1280x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1280x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1280x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1280x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1280x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1280x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![8, 5], ![false, false]⟩

def k4_cond2 (i : grid4.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1280x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2048x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1280x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1280x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1280x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1280x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S1280x64 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S104857600 : S_.BroadcastsInDim S104857600 (![] : Fin 0 → Fin S104857600.rank)
  bcast_S640000_S640000x1_0 : S640000.BroadcastsInDim S640000x1 (![0] : Fin 1 → Fin S640000x1.rank)
  shapeCasts_S104857600_S10240x10240 : S104857600.ShapeCasts S10240x10240
  bitsLt_bf16_f32 : FTy.bits .bf16 < FTy.bits .f32
  bcast_S_S10240 : S_.BroadcastsInDim S10240 (![] : Fin 0 → Fin S10240.rank)
  shapeCasts_S10240_S10240x1 : S10240.ShapeCasts S10240x1
  pads_S10000x128_S10240x128_02400_000 : S10000x128.Pads (![0, 0] : Fin 2 → Nat) ![240, 0] ![0, 0] S10240x128
  h_S_ : 0 < S_.numel
  shapeCasts_S128_S1x128 : S128.ShapeCasts S1x128
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1280x128 : S1x128.Broadcasts S1280x128
  packedbf16_S1280x128_S1280x128_0_0 : (Rect.unit (s := S1280x128) ![0, 0] S1280x128.size inb_S1280x128_S1280x128_0_0).PackedRows (EltTy.packing .bf16)
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1280x1_S1280x1_0_0 : ∀ a, (![0, 0] : Fin 2 → Nat) a + S1280x1.size a ≤ S1280x1.size a
  h_S1280x1 : 0 < S1280x1.numel
  shapeCasts_S1280x1_S1280x1 : S1280x1.ShapeCasts S1280x1
  broadcasts_S1280x1_S1280x128 : S1280x1.Broadcasts S1280x128
  concatenates_S1280x128_S1280x128_S1280x256_d1 : Shape.Concatenates [S1280x128, S1280x128] S1280x256 1
  inb_S256x128_S256x128_0_0 : ∀ a, (![0, 0] : Fin 2 → Nat) a + S256x128.size a ≤ S256x128.size a
  h_S256x128 : 0 < S256x128.numel
  reduces_S1280x128_S1280 : S1280x128.Reduces [1] S1280
  shapeCasts_S1280_S1280x1 : S1280.ShapeCasts S1280x1
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1280x64 : S1x64.Broadcasts S1280x64
  reduces_S1280x64_S1280 : S1280x64.Reduces [1] S1280
  broadcasts_S1280x1_S1280x64 : S1280x1.Broadcasts S1280x64
  inb_S1280x64_S1280x64_0_0 : ∀ a, (![0, 0] : Fin 2 → Nat) a + S1280x64.size a ≤ S1280x64.size a
  h_S1280x64 : 0 < S1280x64.numel
  slices_S10240x64_S10000x64_0_0 : S10240x64.Slices ![0, 0] S10000x64
  scatter_S104857600_S640000x1_S640000_n_0_0_1_wf : ScatterDims.WF S104857600 S640000x1 S640000 [] [0] [0] 1
  scatter_S10240_S640000x1_S640000_n_0_0_1_wf : ScatterDims.WF S10240 S640000x1 S640000 [] [0] [0] 1
  dot_S1280x128_S128x128_S1280x128_1_0_0_1_n_n_wf : DotDims.WF S1280x128 S128x128 S1280x128 [1] [0] [0] [1] [] []
  dot_S1280x2048_S2048x128_S1280x128_1_0_0_1_n_n_wf : DotDims.WF S1280x2048 S2048x128 S1280x128 [1] [0] [0] [1] [] []
  dot_S1280x256_S256x128_S1280x128_1_0_0_1_n_n_wf : DotDims.WF S1280x256 S256x128 S1280x128 [1] [0] [0] [1] [] []
  dot_S1280x128_S128x64_S1280x64_1_0_0_1_n_n_wf : DotDims.WF S1280x128 S128x64 S1280x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x128.size a ≤ S10240x128.size a
  hwx0_0 : ∀ i : grid0.Coords, EltTy.bits .f32 = 32 ∨ (Rect.block (s := S10240x128) S1280x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x128.size a ≤ S10240x128.size a
  hwx0_3 : ∀ i : grid0.Coords, EltTy.bits .bf16 = 32 ∨ (Rect.block (s := S10240x128) S1280x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x2048.size a ≤ S10240x10240.size a
  hwx1_0 : ∀ i : grid1.Coords, EltTy.bits .bf16 = 32 ∨ (Rect.block (s := S10240x10240) S1280x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S10240x128.size a
  hwx1_1 : ∀ i : grid1.Coords, EltTy.bits .bf16 = 32 ∨ (Rect.block (s := S10240x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1280x128.size a ≤ S10240x128.size a
  hwx1_2 : ∀ i : grid1.Coords, EltTy.bits .f32 = 32 ∨ (Rect.block (s := S10240x128) S1280x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x128.size a ≤ S10240x128.size a
  hwx2_0 : ∀ i : grid2.Coords, EltTy.bits .f32 = 32 ∨ (Rect.block (s := S10240x128) S1280x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1280x128.size a ≤ S10240x128.size a
  hwx2_1 : ∀ i : grid2.Coords, EltTy.bits .f32 = 32 ∨ (Rect.block (s := S10240x128) S1280x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1280x1.size a ≤ S10240x1.size a
  hwx2_2 : ∀ i : grid2.Coords, EltTy.bits .f32 = 32 ∨ (Rect.block (s := S10240x1) S1280x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1280x128.size a ≤ S10240x128.size a
  hwx2_5 : ∀ i : grid2.Coords, EltTy.bits .f32 = 32 ∨ (Rect.block (s := S10240x128) S1280x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1280x128.size a ≤ S10240x128.size a
  hwx3_0 : ∀ i : grid3.Coords, EltTy.bits .f32 = 32 ∨ (Rect.block (s := S10240x128) S1280x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1280x128.size a ≤ S10240x128.size a
  hwx3_3 : ∀ i : grid3.Coords, EltTy.bits .bf16 = 32 ∨ (Rect.block (s := S10240x128) S1280x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1280x2048.size a ≤ S10240x10240.size a
  hwx4_0 : ∀ i : grid4.Coords, EltTy.bits .bf16 = 32 ∨ (Rect.block (s := S10240x10240) S1280x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S10240x128.size a
  hwx4_1 : ∀ i : grid4.Coords, EltTy.bits .bf16 = 32 ∨ (Rect.block (s := S10240x128) S2048x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1280x128.size a ≤ S10240x128.size a
  hwx4_2 : ∀ i : grid4.Coords, EltTy.bits .f32 = 32 ∨ (Rect.block (s := S10240x128) S1280x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1280x128.size a ≤ S10240x128.size a
  hwx5_0 : ∀ i : grid5.Coords, EltTy.bits .f32 = 32 ∨ (Rect.block (s := S10240x128) S1280x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1280x128.size a ≤ S10240x128.size a
  hwx5_1 : ∀ i : grid5.Coords, EltTy.bits .f32 = 32 ∨ (Rect.block (s := S10240x128) S1280x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1280x1.size a ≤ S10240x1.size a
  hwx5_2 : ∀ i : grid5.Coords, EltTy.bits .f32 = 32 ∨ (Rect.block (s := S10240x1) S1280x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x128.size a ≤ S256x128.size a
  hwx5_3 : ∀ i : grid5.Coords, EltTy.bits .f32 = 32 ∨ (Rect.block (s := S256x128) S256x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x64.size a ≤ S128x64.size a
  hwx5_7 : ∀ i : grid5.Coords, EltTy.bits .f32 = 32 ∨ (Rect.block (s := S128x64) S128x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x64.size a ≤ S1x64.size a
  hwx5_8 : ∀ i : grid5.Coords, EltTy.bits .f32 = 32 ∨ (Rect.block (s := S1x64) S1x64.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S1280x64.size a ≤ S10240x64.size a
  hwx5_9 : ∀ i : grid5.Coords, EltTy.bits .f32 = 32 ∨ (Rect.block (s := S10240x64) S1280x64.size (cc5_transform_9 i) (hinb5_9 i)).WholeWords (EltTy.packing .f32)

variable [Facts₀]

def scatter_S104857600_S640000x1_S640000_n_0_0_1 : ScatterDims S104857600 S640000x1 S640000 where
  updateWindowDims := []
  insertedWindowDims := [0]
  scatterDimsToOperandDims := [0]
  indexVectorDim := 1
  wf := scatter_S104857600_S640000x1_S640000_n_0_0_1_wf
def scatter_S10240_S640000x1_S640000_n_0_0_1 : ScatterDims S10240 S640000x1 S640000 where
  updateWindowDims := []
  insertedWindowDims := [0]
  scatterDimsToOperandDims := [0]
  indexVectorDim := 1
  wf := scatter_S10240_S640000x1_S640000_n_0_0_1_wf
def dot_S1280x128_S128x128_S1280x128_1_0_0_1_n_n : DotDims S1280x128 S128x128 S1280x128 where
  lhsContracting := [1]
  rhsContracting := [0]
  lhsNonContracting := [0]
  rhsNonContracting := [1]
  lhsBatch := []
  rhsBatch := []
  wf := dot_S1280x128_S128x128_S1280x128_1_0_0_1_n_n_wf
def dot_S1280x2048_S2048x128_S1280x128_1_0_0_1_n_n : DotDims S1280x2048 S2048x128 S1280x128 where
  lhsContracting := [1]
  rhsContracting := [0]
  lhsNonContracting := [0]
  rhsNonContracting := [1]
  lhsBatch := []
  rhsBatch := []
  wf := dot_S1280x2048_S2048x128_S1280x128_1_0_0_1_n_n_wf
def dot_S1280x256_S256x128_S1280x128_1_0_0_1_n_n : DotDims S1280x256 S256x128 S1280x128 where
  lhsContracting := [1]
  rhsContracting := [0]
  lhsNonContracting := [0]
  rhsNonContracting := [1]
  lhsBatch := []
  rhsBatch := []
  wf := dot_S1280x256_S256x128_S1280x128_1_0_0_1_n_n_wf
def dot_S1280x128_S128x64_S1280x64_1_0_0_1_n_n : DotDims S1280x128 S128x64 S1280x64 where
  lhsContracting := [1]
  rhsContracting := [0]
  lhsNonContracting := [0]
  rhsNonContracting := [1]
  lhsBatch := []
  rhsBatch := []
  wf := dot_S1280x128_S128x64_S1280x64_1_0_0_1_n_n_wf

abbrev win0_0 : Pipeline.Window sig grid0 :=
  Pipeline.Window.ofSpec (Memref.whole main_v17) S1280x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1280x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S1280x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1280x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v17) S1280x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1280x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1280x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S1280x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v22) S1280x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v23) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S1280x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v12) S1280x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v25) S1280x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v22) S1280x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v25) S1280x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v16) S1280x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg8) S256x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v26) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg10) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v27) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg12) S128x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v28) S1x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v29) S1280x64.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S10000 : Shape := ⟨1, ![10000]⟩
abbrev S10000x1 : Shape := ⟨2, ![10000, 1]⟩
abbrev S10000x256 : Shape := ⟨2, ![10000, 256]⟩
abbrev S10000x64 : Shape := ⟨2, ![10000, 64]⟩
abbrev S1x64 : Shape := ⟨2, ![1, 64]⟩

abbrev nBuf : Space → Nat
  | .hbm => 147
  | .vmem => 0
  | .smem => 0
  | _ => 0

abbrev hbmTy0_0 (i : Nat) : BufTy := match i % 128 with
  | 0 => ⟨S10000x128, .f32⟩
  | 1 => ⟨S2x640000, .i32⟩
  | 2 => ⟨S128x128, .f32⟩
  | 3 => ⟨S128, .f32⟩
  | 4 => ⟨S256x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x128, .f32⟩
  | 11 => ⟨S128, .f32⟩
  | 12 => ⟨S128x64, .f32⟩
  | 13 => ⟨S64, .f32⟩
  | 14 => ⟨S1x640000, .i32⟩
  | 15 => ⟨S640000, .i32⟩
  | 16 => ⟨S1x640000, .i32⟩
  | 17 => ⟨S640000, .i32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S640000x128, .f32⟩
  | 27 => ⟨S640000x128, .f32⟩
  | 28 => ⟨S1x128, .f32⟩
  | 29 => ⟨S640000x128, .f32⟩
  | 30 => ⟨S640000x128, .f32⟩
  | 31 => ⟨S_, .f32⟩
  | 32 => ⟨S640000x128, .f32⟩
  | 33 => ⟨S640000x128, .f32⟩
  | 34 => ⟨S_, .f32⟩
  | 35 => ⟨S10000x128, .f32⟩
  | 36 => ⟨S640000x1, .i32⟩
  | 37 => ⟨S10000x128, .f32⟩
  | 38 => ⟨S_, .f32⟩
  | 39 => ⟨S640000, .f32⟩
  | 40 => ⟨S_, .f32⟩
  | 41 => ⟨S10000, .f32⟩
  | 42 => ⟨S640000x1, .i32⟩
  | 43 => ⟨S10000, .f32⟩
  | 44 => ⟨S_, .f32⟩
  | 45 => ⟨S10000, .f32⟩
  | 46 => ⟨S10000, .f32⟩
  | 47 => ⟨S10000x1, .f32⟩
  | 48 => ⟨S10000x128, .f32⟩
  | 49 => ⟨S10000x128, .f32⟩
  | 50 => ⟨S10000x256, .f32⟩
  | 51 => ⟨S10000x128, .f32⟩
  | 52 => ⟨S1x128, .f32⟩
  | 53 => ⟨S10000x128, .f32⟩
  | 54 => ⟨S10000x128, .f32⟩
  | 55 => ⟨S_, .f32⟩
  | 56 => ⟨S10000x128, .f32⟩
  | 57 => ⟨S10000x128, .f32⟩
  | 58 => ⟨S10000x128, .f32⟩
  | 59 => ⟨S_, .f32⟩
  | 60 => ⟨S10000, .f32⟩
  | 61 => ⟨S10000x1, .f32⟩
  | 62 => ⟨S10000x1, .f32⟩
  | 63 => ⟨S_, .f32⟩
  | 64 => ⟨S10000x1, .f32⟩
  | 65 => ⟨S10000x1, .f32⟩
  | 66 => ⟨S10000x128, .f32⟩
  | 67 => ⟨S10000x128, .f32⟩
  | 68 => ⟨S_, .f32⟩
  | 69 => ⟨S10000x128, .f32⟩
  | 70 => ⟨S10000x128, .f32⟩
  | 71 => ⟨S_, .i32⟩
  | 72 => ⟨S640000, .i32⟩
  | 73 => ⟨S640000, .i1⟩
  | 74 => ⟨S_, .i32⟩
  | 75 => ⟨S640000, .i32⟩
  | 76 => ⟨S640000, .i32⟩
  | 77 => ⟨S640000, .i32⟩
  | 78 => ⟨S640000x1, .i32⟩
  | 79 => ⟨S640000x128, .f32⟩
  | 80 => ⟨S640000x128, .f32⟩
  | 81 => ⟨S1x128, .f32⟩
  | 82 => ⟨S640000x128, .f32⟩
  | 83 => ⟨S640000x128, .f32⟩
  | 84 => ⟨S_, .f32⟩
  | 85 => ⟨S640000x128, .f32⟩
  | 86 => ⟨S640000x128, .f32⟩
  | 87 => ⟨S_, .f32⟩
  | 88 => ⟨S10000x128, .f32⟩
  | 89 => ⟨S640000x1, .i32⟩
  | 90 => ⟨S10000x128, .f32⟩
  | 91 => ⟨S_, .f32⟩
  | 92 => ⟨S640000, .f32⟩
  | 93 => ⟨S_, .f32⟩
  | 94 => ⟨S10000, .f32⟩
  | 95 => ⟨S640000x1, .i32⟩
  | 96 => ⟨S10000, .f32⟩
  | 97 => ⟨S_, .f32⟩
  | 98 => ⟨S10000, .f32⟩
  | 99 => ⟨S10000, .f32⟩
  | 100 => ⟨S10000x1, .f32⟩
  | 101 => ⟨S10000x128, .f32⟩
  | 102 => ⟨S10000x128, .f32⟩
  | 103 => ⟨S10000x256, .f32⟩
  | 104 => ⟨S10000x128, .f32⟩
  | 105 => ⟨S1x128, .f32⟩
  | 106 => ⟨S10000x128, .f32⟩
  | 107 => ⟨S10000x128, .f32⟩
  | 108 => ⟨S_, .f32⟩
  | 109 => ⟨S10000x128, .f32⟩
  | 110 => ⟨S10000x128, .f32⟩
  | 111 => ⟨S10000x128, .f32⟩
  | 112 => ⟨S_, .f32⟩
  | 113 => ⟨S10000, .f32⟩
  | 114 => ⟨S10000x1, .f32⟩
  | 115 => ⟨S10000x1, .f32⟩
  | 116 => ⟨S_, .f32⟩
  | 117 => ⟨S10000x1, .f32⟩
  | 118 => ⟨S10000x1, .f32⟩
  | 119 => ⟨S10000x128, .f32⟩
  | 120 => ⟨S10000x128, .f32⟩
  | 121 => ⟨S_, .f32⟩
  | 122 => ⟨S10000x128, .f32⟩
  | 123 => ⟨S10000x128, .f32⟩
  | 124 => ⟨S10000x128, .f32⟩
  | 125 => ⟨S1x128, .f32⟩
  | 126 => ⟨S10000x128, .f32⟩
  | 127 => ⟨S10000x128, .f32⟩
  | _ => ⟨S10000x128, .f32⟩

abbrev hbmTy0_1 (i : Nat) : BufTy := match i % 128 with
  | 0 => ⟨S10000x64, .f32⟩
  | 1 => ⟨S1x64, .f32⟩
  | 2 => ⟨S10000x64, .f32⟩
  | 3 => ⟨S10000x64, .f32⟩
  | 4 => ⟨S_, .f32⟩
  | 5 => ⟨S10000, .f32⟩
  | 6 => ⟨S_, .f32⟩
  | 7 => ⟨S10000, .f32⟩
  | 8 => ⟨S10000, .f32⟩
  | 9 => ⟨S10000x1, .f32⟩
  | 10 => ⟨S10000x64, .f32⟩
  | 11 => ⟨S10000x64, .f32⟩
  | 12 => ⟨S10000x64, .f32⟩
  | 13 => ⟨S_, .f32⟩
  | 14 => ⟨S10000, .f32⟩
  | 15 => ⟨S10000x1, .f32⟩
  | 16 => ⟨S10000x1, .f32⟩
  | 17 => ⟨S10000x64, .f32⟩
  | 18 => ⟨S10000x64, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call0_cst : Ref sig .tc := ⟨.hbm, 31, rfl⟩
abbrev main_call0_v0 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call1_cst : Ref sig .tc := ⟨.hbm, 55, rfl⟩
abbrev main_call1_v0 : Ref sig .tc := ⟨.hbm, 56, rfl⟩
abbrev main_v33 : Ref sig .tc := ⟨.hbm, 57, rfl⟩
abbrev main_call2_v0 : Ref sig .tc := ⟨.hbm, 58, rfl⟩
abbrev main_call2_cst : Ref sig .tc := ⟨.hbm, 59, rfl⟩
abbrev main_call2_v1 : Ref sig .tc := ⟨.hbm, 60, rfl⟩
abbrev main_call2_v2 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call3_cst : Ref sig .tc := ⟨.hbm, 68, rfl⟩
abbrev main_call3_v0 : Ref sig .tc := ⟨.hbm, 69, rfl⟩
abbrev main_v39 : Ref sig .tc := ⟨.hbm, 70, rfl⟩
abbrev main_c_5 : Ref sig .tc := ⟨.hbm, 71, rfl⟩
abbrev main_v40 : Ref sig .tc := ⟨.hbm, 72, rfl⟩
abbrev main_v41 : Ref sig .tc := ⟨.hbm, 73, rfl⟩
abbrev main_c_6 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_call4_cst : Ref sig .tc := ⟨.hbm, 84, rfl⟩
abbrev main_call4_v0 : Ref sig .tc := ⟨.hbm, 85, rfl⟩
abbrev main_v51 : Ref sig .tc := ⟨.hbm, 86, rfl⟩
abbrev main_cst_7 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_8 : Ref sig .tc := ⟨.hbm, 91, rfl⟩
abbrev main_v55 : Ref sig .tc := ⟨.hbm, 92, rfl⟩
abbrev main_cst_9 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_10 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_call5_cst : Ref sig .tc := ⟨.hbm, 108, rfl⟩
abbrev main_call5_v0 : Ref sig .tc := ⟨.hbm, 109, rfl⟩
abbrev main_v69 : Ref sig .tc := ⟨.hbm, 110, rfl⟩
abbrev main_call6_v0 : Ref sig .tc := ⟨.hbm, 111, rfl⟩
abbrev main_call6_cst : Ref sig .tc := ⟨.hbm, 112, rfl⟩
abbrev main_call6_v1 : Ref sig .tc := ⟨.hbm, 113, rfl⟩
abbrev main_call6_v2 : Ref sig .tc := ⟨.hbm, 114, rfl⟩
abbrev main_v70 : Ref sig .tc := ⟨.hbm, 115, rfl⟩
abbrev main_cst_11 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_call7_cst : Ref sig .tc := ⟨.hbm, 121, rfl⟩
abbrev main_call7_v0 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_call8_cst : Ref sig .tc := ⟨.hbm, 132, rfl⟩
abbrev main_call8_v0 : Ref sig .tc := ⟨.hbm, 133, rfl⟩
abbrev main_call8_cst_0 : Ref sig .tc := ⟨.hbm, 134, rfl⟩
abbrev main_call8_v1 : Ref sig .tc := ⟨.hbm, 135, rfl⟩
abbrev main_call8_v2 : Ref sig .tc := ⟨.hbm, 136, rfl⟩
abbrev main_call8_v3 : Ref sig .tc := ⟨.hbm, 137, rfl⟩
abbrev main_call8_v4 : Ref sig .tc := ⟨.hbm, 138, rfl⟩
abbrev main_call8_v5 : Ref sig .tc := ⟨.hbm, 139, rfl⟩
abbrev main_call8_v6 : Ref sig .tc := ⟨.hbm, 140, rfl⟩
abbrev main_call8_cst_1 : Ref sig .tc := ⟨.hbm, 141, rfl⟩
abbrev main_call8_v7 : Ref sig .tc := ⟨.hbm, 142, rfl⟩
abbrev main_call8_v8 : Ref sig .tc := ⟨.hbm, 143, rfl⟩
abbrev main_call8_v9 : Ref sig .tc := ⟨.hbm, 144, rfl⟩
abbrev main_call8_v10 : Ref sig .tc := ⟨.hbm, 145, rfl⟩
abbrev main_v84 : Ref sig .tc := ⟨.hbm, 146, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S_S10000x1 : S_.BroadcastsInDim S10000x1 (![] : Fin 0 → Fin S10000x1.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  bcast_S10000x1_S10000x64_0_1 : S10000x1.BroadcastsInDim S10000x64 (![0, 1] : Fin 2 → Fin S10000x64.rank)
  gather_S10000x128_S640000x1_S640000x128_1_0_n_n_0_1_1128_wf : GatherDims.WF S10000x128 S640000x1 S640000x128 [1] [0] [] [0] [] 1 ![1, 128]
  dot_S640000x128_S128x128_S640000x128_1_0_0_1_n_n_wf : DotDims.WF S640000x128 S128x128 S640000x128 [1] [0] [0] [1] [] []
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x256_S256x128_S10000x128_1_0_0_1_n_n_wf : DotDims.WF S10000x256 S256x128 S10000x128 [1] [0] [0] [1] [] []
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.K.Reg0.lean ====
import proofs.«403197_j58634893525189_3_alg».proof.Proof.Gen.Kernel.Launch
import proofs.«403197_j58634893525189_3_alg».proof.Proof.Gen.Kernel.Skeleton
import proofs.«403197_j58634893525189_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1280x128 := Rect.unit (s := S1280x128) ![0, 0] S1280x128.size inb_S1280x128_S1280x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S1280x128 := Rect.unit (s := S1280x128) ![0, 0] S1280x128.size inb_S1280x128_S1280x128_0_0

def out0_3 (x0 : Vec F S1280x128 .f32) (x1 : Vec F S128x128 .f32) (x2 : Vec F S1x128 .f32) : Vec F S1280x128 .bf16 :=
  View.canon [⟨r0_3, k0_pay1 (View.ld x0 r0_0) (View.ld x1 r0_1) (View.ld x2 r0_2)⟩]

theorem cover0_3 (p0 : Vec F S1280x128 .bf16) (y : S1280x128.Idx) :
    ∃ pc ∈ ([⟨r0_3, p0⟩] : List (View.Piece (Elt F) S1280x128 .bf16)), y ∈ pc.1.set :=
  View.cover_of_tiled [⟨r0_3, p0⟩] S1280x128.size (by rfl) y

set_option maxHeartbeats 4000000 in
theorem sound_kernel0 (c : Dev nD) (E : Set ℕ) (i : grid0.Coords)
    (arg0 : Memref sig .tc .vmem S1280x128 .f32) (harg0 : arg0.IsWhole) (arg1 : Memref sig .tc .vmem S128x128 .f32) (harg1 : arg1.IsWhole)
    (arg2 : Memref sig .tc .vmem S1x128 .f32) (harg2 : arg2.IsWhole) (arg3 : Memref sig .tc .vmem S1280x128 .bf16) (harg3 : arg3.IsWhole)
    (x0 : Vec F S1280x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__linear_relu_kernel i arg0 harg0 arg1 harg1 arg2 harg2 arg3 harg3) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Pipeline.ΦA spec0 c from rfl]
theorem hout0 (c : Dev nD) : (dat0 V c).Φ (Fin.last cfg0.N) ⊢ Pipeline.ΦA spec0 c := by
  rw [show (dat0 V c).Φ (Fin.last cfg0.N) = Pipeline.ΦA spec0 c from rfl]

end Cert.Kernel.Hand

end
-- ==== Proof.K.Reg1.lean ====
import proofs.«403197_j58634893525189_3_alg».proof.Proof.Gen.Kernel.Launch
import proofs.«403197_j58634893525189_3_alg».proof.Proof.Gen.Kernel.Skeleton
import proofs.«403197_j58634893525189_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 5 = 0 :=
  (by decide +kernel : ∀ t : Fin grid1.N, cond1_0 (grid1.coords t) ↔ t.val % 5 = 0)

abbrev cond1_1 (i : grid1.Coords) : Prop := k1_cond2 i = 1#1

theorem hcond1_1 : ∀ t : Fin cfg1.N, cond1_1 (grid1.coords t) ↔ t.val % 5 = 4 :=
  (by decide +kernel : ∀ t : Fin grid1.N, cond1_1 (grid1.coords t) ↔ t.val % 5 = 4)

theorem liveAt1_0 : ∀ t : Fin cfg1.N, cfg1.idle 0 (grid1.coords t) = false := by decide +kernel
theorem liveAt1_1 : ∀ t : Fin cfg1.N, cfg1.idle 1 (grid1.coords t) = false := by decide +kernel

theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel

theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel

theorem liveAt1_2_C : ∀ t : Fin cfg1.N, ¬cond1_0 (grid1.coords t) → cond1_1 (grid1.coords t) → cfg1.idle 2 (grid1.coords t) = false := by decide +kernel

abbrev VO1_2 : View sig .tc .vmem S1280x128 .f32 := (Memref.whole cc1_stg2_0 : Memref sig .tc .vmem S1280x128 .f32).view

abbrev ms1_0 (t : Fin cfg1.N) : Memref sig .tc .vmem S1280x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1280x128 .f32 := win1_2.stage (cfg1.slots t 2)
abbrev hs1_2 (t : Fin cfg1.N) : (ms1_2 t).IsWhole := hstage1_2 ((cfg1.slots t 2).cast nbuf1_2)

abbrev scM1_0 : Memref sig .tc .vmem S1280x128 .f32 := Memref.whole cc1_scratch0

abbrev VS1_0 : View sig .tc .vmem S1280x128 .f32 := scM1_0.view

theorem PhiA1_eq (c : Dev nD) :
    (Pipeline.ΦA spec1 c : sProp 𝕄)
      = iprop(iprop(iprop((∃ d, owns (c : Thread nD τ) scM1_0 fullShare d)) ∗ Pipeline.scopedRestBut spec1 c [cc1_scratch0]) ∗ (∃ r, prngReg c r)) := by
  unfold Pipeline.ΦA; rw [scopedRest1_split]; simp only [scM1_0, owns_whole]; try rfl

set_option maxHeartbeats 4000000 in
noncomputable def kernelRun1_A (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : cond1_0 i) (hc1 : ¬cond1_1 i)
    (x0 : Vec F S1280x2048 .bf16) (x1 : Vec F S2048x128 .bf16) :
    Σ' (L2 : List (View.Piece (Elt F) S1280x128 .f32)), { LS0 : List (View.Piece (Elt F) S1280x128 .f32) //
      ∀ (xi2 : Vec F S1280x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__message_pass_kernel i arg2 harg2 arg3 harg3 arg4 harg4 arg5 harg5) K } := by
  refine ⟨[], ?_, fun xi2 E K => ?run⟩
  case run =>
    simp only [cc1__message_pass_kernel_eq_skeleton]; unfold cc1__message_pass_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
noncomputable def kernelRun1_B (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : ¬cond1_1 i)
    (x0 : Vec F S1280x2048 .bf16) (x1 : Vec F S2048x128 .bf16) (xs0 : Vec F S1280x128 .f32) :
    Σ' (L2 : List (View.Piece (Elt F) S1280x128 .f32)), { LS0 : List (View.Piece (Elt F) S1280x128 .f32) //
      ∀ (xi2 : Vec F S1280x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__message_pass_kernel i arg2 harg2 arg3 harg3 arg4 harg4 arg5 harg5) K } := by
  refine ⟨[], ?_, fun xi2 E K => ?run⟩
  case run =>
    simp only [cc1__message_pass_kernel_eq_skeleton]; unfold cc1__message_pass_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
noncomputable def kernelRun1_C (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : cond1_1 i)
    (x0 : Vec F S1280x2048 .bf16) (x1 : Vec F S2048x128 .bf16) (xs0 : Vec F S1280x128 .f32) :
    Σ' (L2 : List (View.Piece (Elt F) S1280x128 .f32)), { LS0 : List (View.Piece (Elt F) S1280x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__message_pass_kernel i arg2 harg2 arg3 harg3 arg4 harg4 arg5 harg5) K } := by
  refine ⟨?_, ?_, fun E K => ?run⟩
  case run =>
    simp only [cc1__message_pass_kernel_eq_skeleton]; unfold cc1__message_pass_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

def out1_A_2 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : cond1_0 i) (hc1 : ¬cond1_1 i)
    (x0 : Vec F S1280x2048 .bf16) (x1 : Vec F S2048x128 .bf16) : Vec F S1280x128 .f32 :=
  VO1_2.read (Elt F) (VO1_2.writes (Elt F) VO1_2.junk (kernelRun1_A c i arg2 harg2 arg3 harg3 arg4 harg4 arg5 harg5 hc0 hc1 x0 x1).1)

theorem scover1_A_0 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : cond1_0 i) (hc1 : ¬cond1_1 i)
    (x0 : Vec F S1280x2048 .bf16) (x1 : Vec F S2048x128 .bf16) (y : S1280x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1280x128.size (by sl_kernel_rfl) y

def sout1_A_0 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : cond1_0 i) (hc1 : ¬cond1_1 i)
    (x0 : Vec F S1280x2048 .bf16) (x1 : Vec F S2048x128 .bf16) : Vec F S1280x128 .f32 :=
  VS1_0.read (Elt F) (VS1_0.writes (Elt F) VS1_0.junk (kernelRun1_A c i arg2 harg2 arg3 harg3 arg4 harg4 arg5 harg5 hc0 hc1 x0 x1).2.1)

def out1_B_2 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : ¬cond1_1 i)
    (x0 : Vec F S1280x2048 .bf16) (x1 : Vec F S2048x128 .bf16) (xs0 : Vec F S1280x128 .f32) : Vec F S1280x128 .f32 :=
  VO1_2.read (Elt F) (VO1_2.writes (Elt F) VO1_2.junk (kernelRun1_B c i arg2 harg2 arg3 harg3 arg4 harg4 arg5 harg5 hc0 hc1 x0 x1 xs0).1)

theorem scover1_B_0 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : ¬cond1_1 i)
    (x0 : Vec F S1280x2048 .bf16) (x1 : Vec F S2048x128 .bf16) (xs0 : Vec F S1280x128 .f32) (y : S1280x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1280x128.size (by sl_kernel_rfl) y

def sout1_B_0 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : ¬cond1_1 i)
    (x0 : Vec F S1280x2048 .bf16) (x1 : Vec F S2048x128 .bf16) (xs0 : Vec F S1280x128 .f32) : Vec F S1280x128 .f32 :=
  VS1_0.read (Elt F) (VS1_0.writes (Elt F) VS1_0.junk (kernelRun1_B c i arg2 harg2 arg3 harg3 arg4 harg4 arg5 harg5 hc0 hc1 x0 x1 xs0).2.1)

theorem cover1_C_2 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : cond1_1 i)
    (x0 : Vec F S1280x2048 .bf16) (x1 : Vec F S2048x128 .bf16) (xs0 : Vec F S1280x128 .f32) (y : S1280x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1280x128.size (by sl_kernel_rfl) y

def out1_C_2 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : cond1_1 i)
    (x0 : Vec F S1280x2048 .bf16) (x1 : Vec F S2048x128 .bf16) (xs0 : Vec F S1280x128 .f32) : Vec F S1280x128 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : cond1_1 i)
    (x0 : Vec F S1280x2048 .bf16) (x1 : Vec F S2048x128 .bf16) (xs0 : Vec F S1280x128 .f32) (y : S1280x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1280x128.size (by sl_kernel_rfl) y

def sout1_C_0 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : cond1_1 i)
    (x0 : Vec F S1280x2048 .bf16) (x1 : Vec F S2048x128 .bf16) (xs0 : Vec F S1280x128 .f32) : Vec F S1280x128 .f32 :=
  VS1_0.read (Elt F) (VS1_0.writes (Elt F) VS1_0.junk (kernelRun1_C c i arg2 harg2 arg3 harg3 arg4 harg4 arg5 harg5 hc0 hc1 x0 x1 xs0).2.1)

def outsAt1 (c : Dev nD) : (n : ℕ) → n < cfg1.N → Vec F S1280x128 .f32 × Vec F S1280x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 5 = 0 then
      if h1 : (n + 1) % 5 = 4 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 5 = 4 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 5 = 0) (h1 : ¬t.val % 5 = 4) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 5 = 0) (h1 : t.val % 5 = 4) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 40 := lt_of_lt_of_eq t.isLt (show cfg1.N = 40 from N_1)
  by_cases h0 : t.val % 5 = 0
  · by_cases h1 : t.val % 5 = 4
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 5 = 4
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _)
          iexact HR
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 40 := N_1; omega)

end Cert.Kernel.Hand

end
-- ==== Proof.K.Reg2.lean ====
import proofs.«403197_j58634893525189_3_alg».proof.Proof.Gen.Kernel.Launch
import proofs.«403197_j58634893525189_3_alg».proof.Proof.Gen.Kernel.Skeleton
import proofs.«403197_j58634893525189_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1280x128 := Rect.unit (s := S1280x128) ![0, 0] S1280x128.size inb_S1280x128_S1280x128_0_0
abbrev r2_1 : Rect S1280x128 := Rect.unit (s := S1280x128) ![0, 0] S1280x128.size inb_S1280x128_S1280x128_0_0
abbrev r2_2 : Rect S1280x1 := Rect.unit (s := S1280x1) ![0, 0] S1280x1.size inb_S1280x1_S1280x1_0_0
abbrev r2_3 : Rect S256x128 := Rect.unit (s := S256x128) ![0, 0] S256x128.size inb_S256x128_S256x128_0_0
abbrev r2_4 : Rect S1x128 := Rect.unit (s := S1x128) ![0, 0] S1x128.size inb_S1x128_S1x128_0_0
abbrev r2_5 : Rect S1280x128 := Rect.unit (s := S1280x128) ![0, 0] S1280x128.size inb_S1280x128_S1280x128_0_0

def out2_5 (x0 : Vec F S1280x128 .f32) (x1 : Vec F S1280x128 .f32) (x2 : Vec F S1280x1 .f32) (x3 : Vec F S256x128 .f32) (x4 : Vec F S1x128 .f32) : Vec F S1280x128 .f32 :=
  View.canon [⟨r2_5, k2_pay1 (View.ld x0 r2_0) (View.ld x1 r2_1) (View.ld x2 r2_2) (View.ld x3 r2_3) (View.ld x4 r2_4)⟩]

theorem cover2_5 (p0 : Vec F S1280x128 .f32) (y : S1280x128.Idx) :
    ∃ pc ∈ ([⟨r2_5, p0⟩] : List (View.Piece (Elt F) S1280x128 .f32)), y ∈ pc.1.set :=
  View.cover_of_tiled [⟨r2_5, p0⟩] S1280x128.size (by rfl) y

set_option maxHeartbeats 4000000 in
theorem sound_kernel2 (c : Dev nD) (E : Set ℕ) (i : grid2.Coords) (arg0 : Memref sig .tc .vmem S1280x128 .f32) (harg0 : arg0.IsWhole) (arg1 : Memref sig .tc .vmem S1280x128 .f32) (harg1 : arg1.IsWhole) (arg2 : Memref sig .tc .vmem S1280x1 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S1280x128 .f32) (harg5 : arg5.IsWhole)
    (x0 : Vec F S1280x128 .f32) (x1 : Vec F S1280x128 .f32) (x2 : Vec F S1280x1 .f32) (x3 : Vec F S256x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__update_kernel i arg0 harg0 arg1 harg1 arg2 harg2 arg3 harg3 arg4 harg4 arg5 harg5) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Pipeline.ΦA spec2 c from rfl]
theorem hout2 (c : Dev nD) : (dat2 V c).Φ (Fin.last cfg2.N) ⊢ Pipeline.ΦA spec2 c := by
  rw [show (dat2 V c).Φ (Fin.last cfg2.N) = Pipeline.ΦA spec2 c from rfl]

end Cert.Kernel.Hand

end
-- ==== Proof.K.Reg3.lean ====
import proofs.«403197_j58634893525189_3_alg».proof.Proof.K.Reg0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem cc3_eq_cc0 (i : grid3.Coords) (a0 : Memref sig .tc .vmem S1280x128 .f32) (h0 : a0.IsWhole) (a1 : Memref sig .tc .vmem S128x128 .f32) (h1 : a1.IsWhole)
    (a2 : Memref sig .tc .vmem S1x128 .f32) (h2 : a2.IsWhole) (a3 : Memref sig .tc .vmem S1280x128 .bf16) (h3 : a3.IsWhole) :
    cc3__linear_relu_kernel (F := F) i a0 h0 a1 h1 a2 h2 a3 h3 = cc0__linear_relu_kernel i a0 h0 a1 h1 a2 h2 a3 h3 := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out0_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out0_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq_cc0]
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel0 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = Pipeline.ΦA spec3 c from rfl]
theorem hout3 (c : Dev nD) : (dat3 V c).Φ (Fin.last cfg3.N) ⊢ Pipeline.ΦA spec3 c := by
  rw [show (dat3 V c).Φ (Fin.last cfg3.N) = Pipeline.ΦA spec3 c from rfl]

end Cert.Kernel.Hand

end
-- ==== Proof.K.Reg4.lean ====
import proofs.«403197_j58634893525189_3_alg».proof.Proof.K.Reg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 1).val) 0#32)) 0#32) = 1#1

theorem hcond4_0 : ∀ t : Fin cfg4.N, cond4_0 (grid4.coords t) ↔ t.val % 5 = 0 :=
  (by decide +kernel : ∀ t : Fin grid4.N, cond4_0 (grid4.coords t) ↔ t.val % 5 = 0)

abbrev cond4_1 (i : grid4.Coords) : Prop := k4_cond2 i = 1#1

theorem hcond4_1 : ∀ t : Fin cfg4.N, cond4_1 (grid4.coords t) ↔ t.val % 5 = 4 :=
  (by decide +kernel : ∀ t : Fin grid4.N, cond4_1 (grid4.coords t) ↔ t.val % 5 = 4)

theorem liveAt4_0 : ∀ t : Fin cfg4.N, cfg4.idle 0 (grid4.coords t) = false := by decide +kernel
theorem liveAt4_1 : ∀ t : Fin cfg4.N, cfg4.idle 1 (grid4.coords t) = false := by decide +kernel

theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel

theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel

theorem liveAt4_2_C : ∀ t : Fin cfg4.N, ¬cond4_0 (grid4.coords t) → cond4_1 (grid4.coords t) → cfg4.idle 2 (grid4.coords t) = false := by decide +kernel

abbrev VO4_2 : View sig .tc .vmem S1280x128 .f32 := (Memref.whole cc4_stg2_0 : Memref sig .tc .vmem S1280x128 .f32).view

abbrev ms4_0 (t : Fin cfg4.N) : Memref sig .tc .vmem S1280x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1280x128 .f32 := win4_2.stage (cfg4.slots t 2)
abbrev hs4_2 (t : Fin cfg4.N) : (ms4_2 t).IsWhole := hstage4_2 ((cfg4.slots t 2).cast nbuf4_2)

abbrev scM4_0 : Memref sig .tc .vmem S1280x128 .f32 := Memref.whole cc4_scratch0

abbrev VS4_0 : View sig .tc .vmem S1280x128 .f32 := scM4_0.view

theorem PhiA4_eq (c : Dev nD) :
    (Pipeline.ΦA spec4 c : sProp 𝕄)
      = iprop(iprop(iprop((∃ d, owns (c : Thread nD τ) scM4_0 fullShare d)) ∗ Pipeline.scopedRestBut spec4 c [cc4_scratch0]) ∗ (∃ r, prngReg c r)) := by
  unfold Pipeline.ΦA; rw [scopedRest4_split]; simp only [scM4_0, owns_whole]; try rfl

theorem cc4_eq_cc1 (i : grid4.Coords) (a2 : Memref sig .tc .vmem S1280x2048 .bf16) (h2 : a2.IsWhole) (a3 : Memref sig .tc .vmem S2048x128 .bf16) (h3 : a3.IsWhole)
    (a4 : Memref sig .tc .vmem S1280x128 .f32) (h4 : a4.IsWhole) (a5 : Memref sig .tc .vmem S1280x128 .f32) (h5 : a5.IsWhole) :
    cc4__message_pass_kernel (F := F) i a2 h2 a3 h3 a4 h4 a5 h5 = cc1__message_pass_kernel i a2 h2 a3 h3 a4 h4 a5 h5 := rfl

def out4_A_2 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : cond4_0 i) (hc1 : ¬cond4_1 i)
    (x0 : Vec F S1280x2048 .bf16) (x1 : Vec F S2048x128 .bf16) : Vec F S1280x128 .f32 :=
  VO4_2.read (Elt F) (VO4_2.writes (Elt F) VO4_2.junk (kernelRun1_A c i arg2 harg2 arg3 harg3 arg4 harg4 arg5 harg5 hc0 hc1 x0 x1).1)

theorem scover4_A_0 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : cond4_0 i) (hc1 : ¬cond4_1 i)
    (x0 : Vec F S1280x2048 .bf16) (x1 : Vec F S2048x128 .bf16) (y : S1280x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1280x128.size (by sl_kernel_rfl) y

def sout4_A_0 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : cond4_0 i) (hc1 : ¬cond4_1 i)
    (x0 : Vec F S1280x2048 .bf16) (x1 : Vec F S2048x128 .bf16) : Vec F S1280x128 .f32 :=
  VS4_0.read (Elt F) (VS4_0.writes (Elt F) VS4_0.junk (kernelRun1_A c i arg2 harg2 arg3 harg3 arg4 harg4 arg5 harg5 hc0 hc1 x0 x1).2.1)

def out4_B_2 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond4_0 i) (hc1 : ¬cond4_1 i)
    (x0 : Vec F S1280x2048 .bf16) (x1 : Vec F S2048x128 .bf16) (xs0 : Vec F S1280x128 .f32) : Vec F S1280x128 .f32 :=
  VO4_2.read (Elt F) (VO4_2.writes (Elt F) VO4_2.junk (kernelRun1_B c i arg2 harg2 arg3 harg3 arg4 harg4 arg5 harg5 hc0 hc1 x0 x1 xs0).1)

theorem scover4_B_0 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond4_0 i) (hc1 : ¬cond4_1 i)
    (x0 : Vec F S1280x2048 .bf16) (x1 : Vec F S2048x128 .bf16) (xs0 : Vec F S1280x128 .f32) (y : S1280x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1280x128.size (by sl_kernel_rfl) y

def sout4_B_0 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond4_0 i) (hc1 : ¬cond4_1 i)
    (x0 : Vec F S1280x2048 .bf16) (x1 : Vec F S2048x128 .bf16) (xs0 : Vec F S1280x128 .f32) : Vec F S1280x128 .f32 :=
  VS4_0.read (Elt F) (VS4_0.writes (Elt F) VS4_0.junk (kernelRun1_B c i arg2 harg2 arg3 harg3 arg4 harg4 arg5 harg5 hc0 hc1 x0 x1 xs0).2.1)

theorem cover4_C_2 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond4_0 i) (hc1 : cond4_1 i)
    (x0 : Vec F S1280x2048 .bf16) (x1 : Vec F S2048x128 .bf16) (xs0 : Vec F S1280x128 .f32) (y : S1280x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1280x128.size (by sl_kernel_rfl) y

def out4_C_2 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond4_0 i) (hc1 : cond4_1 i)
    (x0 : Vec F S1280x2048 .bf16) (x1 : Vec F S2048x128 .bf16) (xs0 : Vec F S1280x128 .f32) : Vec F S1280x128 .f32 :=
  VO4_2.read (Elt F) (VO4_2.writes (Elt F) VO4_2.junk (kernelRun1_C c i arg2 harg2 arg3 harg3 arg4 harg4 arg5 harg5 hc0 hc1 x0 x1 xs0).1)

theorem scover4_C_0 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond4_0 i) (hc1 : cond4_1 i)
    (x0 : Vec F S1280x2048 .bf16) (x1 : Vec F S2048x128 .bf16) (xs0 : Vec F S1280x128 .f32) (y : S1280x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1280x128.size (by sl_kernel_rfl) y

def sout4_C_0 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond4_0 i) (hc1 : cond4_1 i)
    (x0 : Vec F S1280x2048 .bf16) (x1 : Vec F S2048x128 .bf16) (xs0 : Vec F S1280x128 .f32) : Vec F S1280x128 .f32 :=
  VS4_0.read (Elt F) (VS4_0.writes (Elt F) VS4_0.junk (kernelRun1_C c i arg2 harg2 arg3 harg3 arg4 harg4 arg5 harg5 hc0 hc1 x0 x1 xs0).2.1)

def outsAt4 (c : Dev nD) : (n : ℕ) → n < cfg4.N → Vec F S1280x128 .f32 × Vec F S1280x128 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 5 = 0 then
      if h1 : (n + 1) % 5 = 4 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 5 = 4 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

theorem outsAt4_A (c : Dev nD) (t : Fin cfg4.N) (h0 : t.val % 5 = 0) (h1 : ¬t.val % 5 = 4) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

theorem outsAt4_B (c : Dev nD) (t : Fin cfg4.N) (h0 : ¬t.val % 5 = 0) (h1 : ¬t.val % 5 = 4) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 5 = 0) (h1 : t.val % 5 = 4) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut spec4 c [cc4_scratch0]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_eq_cc1]
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 40 := lt_of_lt_of_eq t.isLt (show cfg4.N = 40 from N_4)
  by_cases h0 : t.val % 5 = 0
  · by_cases h1 : t.val % 5 = 4
    · exfalso; omega
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩⟩
        iapply ((kernelRun1_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _)
            iexact HR
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun1_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 5 = 4
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      have hz : t.val ≠ 0 := by omega
      rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun1_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      have hz : t.val ≠ 0 := by omega
      rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun1_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _ _)
          iexact HR
        iexact Hg
      isplitl [Ho]; · iexact Ho
      isplitl [H0]; · iexact H0
      isplitl [H1]; · iexact H1
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

theorem hout4 (c : Dev nD) : (dat4 V c).Φ (Fin.last cfg4.N) ⊢ Pipeline.ΦA spec4 c :=
  Phi_out4 V c _ (by rw [Fin.val_last]; have : cfg4.N = 40 := N_4; omega)

end Cert.Kernel.Hand

end
-- ==== Proof.K.Reg5.lean ====
import proofs.«403197_j58634893525189_3_alg».proof.Proof.Gen.Kernel.Launch
import proofs.«403197_j58634893525189_3_alg».proof.Proof.Gen.Kernel.Skeleton
import proofs.«403197_j58634893525189_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S1280x128 := Rect.unit (s := S1280x128) ![0, 0] S1280x128.size inb_S1280x128_S1280x128_0_0
abbrev r5_1 : Rect S1280x128 := Rect.unit (s := S1280x128) ![0, 0] S1280x128.size inb_S1280x128_S1280x128_0_0
abbrev r5_2 : Rect S1280x1 := Rect.unit (s := S1280x1) ![0, 0] S1280x1.size inb_S1280x1_S1280x1_0_0
abbrev r5_3 : Rect S256x128 := Rect.unit (s := S256x128) ![0, 0] S256x128.size inb_S256x128_S256x128_0_0
abbrev r5_4 : Rect S1x128 := Rect.unit (s := S1x128) ![0, 0] S1x128.size inb_S1x128_S1x128_0_0
abbrev r5_5 : Rect S128x128 := Rect.unit (s := S128x128) ![0, 0] S128x128.size inb_S128x128_S128x128_0_0
abbrev r5_6 : Rect S1x128 := Rect.unit (s := S1x128) ![0, 0] S1x128.size inb_S1x128_S1x128_0_0
abbrev r5_7 : Rect S128x64 := Rect.unit (s := S128x64) ![0, 0] S128x64.size inb_S128x64_S128x64_0_0
abbrev r5_8 : Rect S1x64 := Rect.unit (s := S1x64) ![0, 0] S1x64.size inb_S1x64_S1x64_0_0
abbrev r5_9 : Rect S1280x64 := Rect.unit (s := S1280x64) ![0, 0] S1280x64.size inb_S1280x64_S1280x64_0_0

def out5_9 (x0 : Vec F S1280x128 .f32) (x1 : Vec F S1280x128 .f32) (x2 : Vec F S1280x1 .f32) (x3 : Vec F S256x128 .f32) (x4 : Vec F S1x128 .f32) (x5 : Vec F S128x128 .f32) (x6 : Vec F S1x128 .f32) (x7 : Vec F S128x64 .f32) (x8 : Vec F S1x64 .f32) : Vec F S1280x64 .f32 :=
  View.canon [⟨r5_9, k5_pay1 (k5_pay2 (View.ld x0 r5_0) (View.ld x1 r5_1) (View.ld x2 r5_2) (View.ld x3 r5_3) (View.ld x4 r5_4) (View.ld x5 r5_5) (View.ld x6 r5_6)) (View.ld x7 r5_7) (View.ld x8 r5_8)⟩]

theorem cover5_9 (p0 : Vec F S1280x64 .f32) (y : S1280x64.Idx) :
    ∃ pc ∈ ([⟨r5_9, p0⟩] : List (View.Piece (Elt F) S1280x64 .f32)), y ∈ pc.1.set :=
  View.cover_of_tiled [⟨r5_9, p0⟩] S1280x64.size (by rfl) y

set_option maxHeartbeats 4000000 in
theorem sound_kernel5 (c : Dev nD) (E : Set ℕ) (i : grid5.Coords) (arg0 : Memref sig .tc .vmem S1280x128 .f32) (harg0 : arg0.IsWhole) (arg1 : Memref sig .tc .vmem S1280x128 .f32) (harg1 : arg1.IsWhole) (arg2 : Memref sig .tc .vmem S1280x1 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S1280x64 .f32) (harg9 : arg9.IsWhole)
    (x0 : Vec F S1280x128 .f32) (x1 : Vec F S1280x128 .f32) (x2 : Vec F S1280x1 .f32) (x3 : Vec F S256x128 .f32) (x4 : Vec F S1x128 .f32) (x5 : Vec F S128x128 .f32) (x6 : Vec F S1x128 .f32) (x7 : Vec F S128x64 .f32) (x8 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out5_9 x0 x1 x2 x3 x4 x5 x6 x7 x8)) -∗ K ⟨⟩))
      ⊢ wp frame (wpE (defs₀ (F := F)) Variants.none c none) E (cc5__update_postmp_kernel i arg0 harg0 arg1 harg1 arg2 harg2 arg3 harg3 arg4 harg4 arg5 harg5 arg6 harg6 arg7 harg7 arg8 harg8 arg9 harg9) K := by
  simp only [cc5__update_postmp_kernel_eq_skeleton]; unfold cc5__update_postmp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover5_9 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

set_option maxHeartbeats 1000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = Pipeline.ΦA spec5 c from rfl]
theorem hout5 (c : Dev nD) : (dat5 V c).Φ (Fin.last cfg5.N) ⊢ Pipeline.ΦA spec5 c := by
  rw [show (dat5 V c).Φ (Fin.last cfg5.N) = Pipeline.ΦA spec5 c from rfl]

end Cert.Kernel.Hand

end
-- ==== Proof.K.Chain.lean ====
import proofs.«403197_j58634893525189_3_alg».proof.Proof.Gen.Kernel.Regions
import proofs.«403197_j58634893525189_3_alg».proof.Proof.K.Reg0
import proofs.«403197_j58634893525189_3_alg».proof.Proof.K.Reg1
import proofs.«403197_j58634893525189_3_alg».proof.Proof.K.Reg2
import proofs.«403197_j58634893525189_3_alg».proof.Proof.K.Reg3
import proofs.«403197_j58634893525189_3_alg».proof.Proof.K.Reg4
import proofs.«403197_j58634893525189_3_alg».proof.Proof.K.Reg5

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev U3 : (c : Dev nD) → (b : Ref sig .tc) → Buf (Elt F) ((c : Thread nD τ).loc b) := fun c b => V3 m c b

def o19 (c : Dev nD) : Buf (Elt F) ((c : Thread nD τ).loc main_v19) := (dat0 (U3 m) c).arrAt 3 cfg0.N
def W4 (c : Dev nD) : Valuation τ sig (Elt F) := Function.update (V3 m c) main_v19 (o19 m c)
abbrev U4 : (c : Dev nD) → (b : Ref sig .tc) → Buf (Elt F) ((c : Thread nD τ).loc b) := fun c b => W4 m c b

def o20 (c : Dev nD) : Buf (Elt F) ((c : Thread nD τ).loc main_v20) := (dat1 (U4 m) c).arrAt 2 cfg1.N
def W5 (c : Dev nD) : Valuation τ sig (Elt F) := Function.update (W4 m c) main_v20 (o20 m c)
def W6 (c : Dev nD) : Valuation τ sig (Elt F) := StableHlo.after hostOps2 (W5 m c)
abbrev U6 : (c : Dev nD) → (b : Ref sig .tc) → Buf (Elt F) ((c : Thread nD τ).loc b) := fun c b => W6 m c b

def o22 (c : Dev nD) : Buf (Elt F) ((c : Thread nD τ).loc main_v22) := (dat2 (U6 m) c).arrAt 5 cfg2.N
def W7 (c : Dev nD) : Valuation τ sig (Elt F) := Function.update (W6 m c) main_v22 (o22 m c)
def W8 (c : Dev nD) : Valuation τ sig (Elt F) := StableHlo.after hostOps3 (W7 m c)
abbrev U8 : (c : Dev nD) → (b : Ref sig .tc) → Buf (Elt F) ((c : Thread nD τ).loc b) := fun c b => W8 m c b

def o24 (c : Dev nD) : Buf (Elt F) ((c : Thread nD τ).loc main_v24) := (dat3 (U8 m) c).arrAt 3 cfg3.N
def W9 (c : Dev nD) : Valuation τ sig (Elt F) := Function.update (W8 m c) main_v24 (o24 m c)
abbrev U9 : (c : Dev nD) → (b : Ref sig .tc) → Buf (Elt F) ((c : Thread nD τ).loc b) := fun c b => W9 m c b

def o25 (c : Dev nD) : Buf (Elt F) ((c : Thread nD τ).loc main_v25) := (dat4 (U9 m) c).arrAt 2 cfg4.N
def W10 (c : Dev nD) : Valuation τ sig (Elt F) := Function.update (W9 m c) main_v25 (o25 m c)
def W11 (c : Dev nD) : Valuation τ sig (Elt F) := StableHlo.after hostOps5 (W10 m c)
abbrev U11 : (c : Dev nD) → (b : Ref sig .tc) → Buf (Elt F) ((c : Thread nD τ).loc b) := fun c b => W11 m c b

def o29 (c : Dev nD) : Buf (Elt F) ((c : Thread nD τ).loc main_v29) := (dat5 (U11 m) c).arrAt 9 cfg5.N
def W12 (c : Dev nD) : Valuation τ sig (Elt F) := Function.update (W11 m c) main_v29 (o29 m c)

def W13 (c : Dev nD) : Valuation τ sig (Elt F) := StableHlo.after hostOps6 (W12 m c)

def outs : Outs (F := F) := fun J r c =>
  match J with
  | 4 => W4 m c r
  | 5 => W5 m c r
  | 7 => W7 m c r
  | 9 => W9 m c r
  | 10 => W10 m c r
  | 12 => W12 m c r
  | _ => V3 m c r

end Cert.Kernel.Hand

end
-- ==== Proof.K.Run.lean ====
import proofs.«403197_j58634893525189_3_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_self (c : Dev nD) : W4 m c main_v19 = o19 m c := by
  unfold W4; exact Function.update_self ..
theorem W4_ne (c : Dev nD) (b : Ref sig .tc) (h : b ≠ main_v19) : W4 m c b = V3 m c b := by
  unfold W4; exact Function.update_of_ne (StableHlo.devRef_ne_of_ne h) _ _
theorem W5_self (c : Dev nD) : W5 m c main_v20 = o20 m c := by
  unfold W5; exact Function.update_self ..
theorem W5_ne (c : Dev nD) (b : Ref sig .tc) (h : b ≠ main_v20) : W5 m c b = W4 m c b := by
  unfold W5; exact Function.update_of_ne (StableHlo.devRef_ne_of_ne h) _ _
theorem W7_self (c : Dev nD) : W7 m c main_v22 = o22 m c := by
  unfold W7; exact Function.update_self ..
theorem W7_ne (c : Dev nD) (b : Ref sig .tc) (h : b ≠ main_v22) : W7 m c b = W6 m c b := by
  unfold W7; exact Function.update_of_ne (StableHlo.devRef_ne_of_ne h) _ _
theorem W9_self (c : Dev nD) : W9 m c main_v24 = o24 m c := by
  unfold W9; exact Function.update_self ..
theorem W9_ne (c : Dev nD) (b : Ref sig .tc) (h : b ≠ main_v24) : W9 m c b = W8 m c b := by
  unfold W9; exact Function.update_of_ne (StableHlo.devRef_ne_of_ne h) _ _
theorem W10_self (c : Dev nD) : W10 m c main_v25 = o25 m c := by
  unfold W10; exact Function.update_self ..
theorem W10_ne (c : Dev nD) (b : Ref sig .tc) (h : b ≠ main_v25) : W10 m c b = W9 m c b := by
  unfold W10; exact Function.update_of_ne (StableHlo.devRef_ne_of_ne h) _ _
theorem W12_self (c : Dev nD) : W12 m c main_v29 = o29 m c := by
  unfold W12; exact Function.update_self ..
theorem W12_ne (c : Dev nD) (b : Ref sig .tc) (h : b ≠ main_v29) : W12 m c b = W11 m c b := by
  unfold W12; exact Function.update_of_ne (StableHlo.devRef_ne_of_ne h) _ _

theorem V4_eq (c : Dev nD) : V4 m (outs m) c = W4 m c := by
  show Function.update (V3 m c) main_v19 (W4 m c main_v19) = W4 m c
  rw [W4_self]; rfl
theorem V5_eq (c : Dev nD) : V5 m (outs m) c = W5 m c := by
  show Function.update (V4 m (outs m) c) main_v20 (W5 m c main_v20) = W5 m c
  rw [V4_eq, W5_self]; rfl
theorem V6_eq (c : Dev nD) : V6 m (outs m) c = W6 m c := by
  show StableHlo.after hostOps2 (V5 m (outs m) c) = W6 m c
  rw [V5_eq]; rfl
theorem V7_eq (c : Dev nD) : V7 m (outs m) c = W7 m c := by
  show Function.update (V6 m (outs m) c) main_v22 (W7 m c main_v22) = W7 m c
  rw [V6_eq, W7_self]; rfl
theorem V8_eq (c : Dev nD) : V8 m (outs m) c = W8 m c := by
  show StableHlo.after hostOps3 (V7 m (outs m) c) = W8 m c
  rw [V7_eq]; rfl
theorem V9_eq (c : Dev nD) : V9 m (outs m) c = W9 m c := by
  show Function.update (V8 m (outs m) c) main_v24 (W9 m c main_v24) = W9 m c
  rw [V8_eq, W9_self]; rfl
theorem V10_eq (c : Dev nD) : V10 m (outs m) c = W10 m c := by
  show Function.update (V9 m (outs m) c) main_v25 (W10 m c main_v25) = W10 m c
  rw [V9_eq, W10_self]; rfl
theorem V11_eq (c : Dev nD) : V11 m (outs m) c = W11 m c := by
  show StableHlo.after hostOps5 (V10 m (outs m) c) = W11 m c
  rw [V10_eq]; rfl
theorem V12_eq (c : Dev nD) : V12 m (outs m) c = W12 m c := by
  show Function.update (V11 m (outs m) c) main_v29 (W12 m c main_v29) = W12 m c
  rw [V11_eq, W12_self]; rfl
theorem V13_eq (c : Dev nD) : V13 m (outs m) c = W13 m c := by
  show StableHlo.after hostOps6 (V12 m (outs m) c) = W13 m c
  rw [V12_eq]; rfl

def pdats : (p : Fin 6) → (c : Dev nD) → Dat τ (Elt F) Unit ℕ (UR sig nD τ) ℕ (cfgs p) c
  | ⟨0, _⟩ => fun c => dat0 (U3 m) c
  | ⟨1, _⟩ => fun c => dat1 (U4 m) c
  | ⟨2, _⟩ => fun c => dat2 (U6 m) c
  | ⟨3, _⟩ => fun c => dat3 (U8 m) c
  | ⟨4, _⟩ => fun c => dat4 (U9 m) c
  | ⟨5, _⟩ => fun c => dat5 (U11 m) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev U5 : (c : Dev nD) → (b : Ref sig .tc) → Buf (Elt F) ((c : Thread nD τ).loc b) := fun c b => W5 m c b
abbrev U7 : (c : Dev nD) → (b : Ref sig .tc) → Buf (Elt F) ((c : Thread nD τ).loc b) := fun c b => W7 m c b
abbrev U10 : (c : Dev nD) → (b : Ref sig .tc) → Buf (Elt F) ((c : Thread nD τ).loc b) := fun c b => W10 m c b
abbrev U12 : (c : Dev nD) → (b : Ref sig .tc) → Buf (Elt F) ((c : Thread nD τ).loc b) := fun c b => W12 m c b

set_option backward.isDefEq.respectTransparency.types false in
def mkReg (p : Fin 6) (launch : Pipeline.LaunchFacts (nD := nD) (τ := τ) cfgs p) (Win Wout : Dev nD → Valuation τ sig (Elt F))
    (hbody : ∀ c, BodyObligation (pdats m p c) (defs₀ (F := F)) Variants.none () Set.univ)
    (hq : ∀ c w, (pdats m p c).q w = fullShare) (howed : ∀ c t, (pdats m p c).owed t = 0)
    (hrec : ∀ c x, x ∈ (pdats m p c).recorded 0)
    (hA : ∀ c w, (pdats m p c).A w = Win c (Pipeline.arrRef (cfgs p).spec w))
    (hΦ0 : ∀ c, Pipeline.ΦA (cfgs p).spec c ⊢ (pdats m p c).Φ 0)
    (hΦN : ∀ c, (pdats m p c).Φ (Fin.last (cfgs p).N) ⊢ Pipeline.ΦA (cfgs p).spec c)
    (hF : ∀ c w, (pdats m p c).arrAt w (cfgs p).N = Wout c (Pipeline.arrRef (cfgs p).spec w))
    (hrest : ∀ c b, b ∉ Finset.univ.image (Pipeline.arrRef (cfgs p).spec) → Wout c b = Win c b) :
    Pipeline.RegionSeg (pcfgs (F := F)) adm (pdats m) () defs₀ Variants.none L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m) launch.win launch.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c _)
      iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    rw [Pipeline.ownSems0_none]
    refine BIBase.Entails.trans (hΦN c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (fun b => Win c b) (fun b => Wout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

theorem hF0 (c : Dev nD) : ∀ w : Fin cfg0.W, (dat0 (U3 m) c).arrAt w cfg0.N = U4 m c (Pipeline.arrRef spec0 w)
  | ⟨0, _⟩ => ((dat0 (U3 m) c).arrAt_in 0 rfl _).trans ((A_eq0 (U3 m) c 0).trans (W4_ne m c _ (by decide)).symm)
  | ⟨1, _⟩ => ((dat0 (U3 m) c).arrAt_in 1 rfl _).trans ((A_eq0 (U3 m) c 1).trans (W4_ne m c _ (by decide)).symm)
  | ⟨2, _⟩ => ((dat0 (U3 m) c).arrAt_in 2 rfl _).trans ((A_eq0 (U3 m) c 2).trans (W4_ne m c _ (by decide)).symm)
  | ⟨3, _⟩ => (W4_self m c).symm

theorem hrest0 (c : Dev nD) : ∀ b, b ∉ Finset.univ.image (Pipeline.arrRef spec0) → U4 m c b = U3 m c b :=
  fun b hb => W4_ne m c b fun e => hb (Finset.mem_image.mpr ⟨3, Finset.mem_univ _, e.symm⟩)

def reg0 : Pipeline.RegionSeg (pcfgs (F := F)) adm (pdats m) () defs₀ Variants.none L lv 0 :=
  mkReg m 0 launch0 (V3 m) (W4 m) (body_obligation0 (U3 m)) (fun _ _ => rfl) (fun _ _ => rfl) (fun _ _ => trivial) (fun _ _ => rfl)
    (hin0 (U3 m)) (hout0 (U3 m)) (hF0 m) (hrest0 m)

theorem hF1 (c : Dev nD) : ∀ w : Fin cfg1.W, (dat1 (U4 m) c).arrAt w cfg1.N = U5 m c (Pipeline.arrRef spec1 w)
  | ⟨0, _⟩ => ((dat1 (U4 m) c).arrAt_in 0 rfl _).trans ((A_eq1 (U4 m) c 0).trans (W5_ne m c _ (by decide)).symm)
  | ⟨1, _⟩ => ((dat1 (U4 m) c).arrAt_in 1 rfl _).trans ((A_eq1 (U4 m) c 1).trans (W5_ne m c _ (by decide)).symm)
  | ⟨2, _⟩ => (W5_self m c).symm

theorem hrest1 (c : Dev nD) : ∀ b, b ∉ Finset.univ.image (Pipeline.arrRef spec1) → U5 m c b = U4 m c b :=
  fun b hb => W5_ne m c b fun e => hb (Finset.mem_image.mpr ⟨2, Finset.mem_univ _, e.symm⟩)

def reg1 : Pipeline.RegionSeg (pcfgs (F := F)) adm (pdats m) () defs₀ Variants.none L lv 1 :=
  mkReg m 1 launch1 (W4 m) (W5 m) (body_obligation1 (U4 m)) (fun _ _ => rfl) (fun _ _ => rfl) (fun _ _ => trivial) (fun _ _ => rfl)
    (hin1 (U4 m)) (hout1 (U4 m)) (hF1 m) (hrest1 m)

theorem hF2 (c : Dev nD) : ∀ w : Fin cfg2.W, (dat2 (U6 m) c).arrAt w cfg2.N = U7 m c (Pipeline.arrRef spec2 w)
  | ⟨0, _⟩ => ((dat2 (U6 m) c).arrAt_in 0 rfl _).trans ((A_eq2 (U6 m) c 0).trans (W7_ne m c _ (by decide)).symm)
  | ⟨1, _⟩ => ((dat2 (U6 m) c).arrAt_in 1 rfl _).trans ((A_eq2 (U6 m) c 1).trans (W7_ne m c _ (by decide)).symm)
  | ⟨2, _⟩ => ((dat2 (U6 m) c).arrAt_in 2 rfl _).trans ((A_eq2 (U6 m) c 2).trans (W7_ne m c _ (by decide)).symm)
  | ⟨3, _⟩ => ((dat2 (U6 m) c).arrAt_in 3 rfl _).trans ((A_eq2 (U6 m) c 3).trans (W7_ne m c _ (by decide)).symm)
  | ⟨4, _⟩ => ((dat2 (U6 m) c).arrAt_in 4 rfl _).trans ((A_eq2 (U6 m) c 4).trans (W7_ne m c _ (by decide)).symm)
  | ⟨5, _⟩ => (W7_self m c).symm

theorem hrest2 (c : Dev nD) : ∀ b, b ∉ Finset.univ.image (Pipeline.arrRef spec2) → U7 m c b = U6 m c b :=
  fun b hb => W7_ne m c b fun e => hb (Finset.mem_image.mpr ⟨5, Finset.mem_univ _, e.symm⟩)

def reg2 : Pipeline.RegionSeg (pcfgs (F := F)) adm (pdats m) () defs₀ Variants.none L lv 2 :=
  mkReg m 2 launch2 (W6 m) (W7 m) (body_obligation2 (U6 m)) (fun _ _ => rfl) (fun _ _ => rfl) (fun _ _ => trivial) (fun _ _ => rfl)
    (hin2 (U6 m)) (hout2 (U6 m)) (hF2 m) (hrest2 m)

theorem hF3 (c : Dev nD) : ∀ w : Fin cfg3.W, (dat3 (U8 m) c).arrAt w cfg3.N = U9 m c (Pipeline.arrRef spec3 w)
  | ⟨0, _⟩ => ((dat3 (U8 m) c).arrAt_in 0 rfl _).trans ((A_eq3 (U8 m) c 0).trans (W9_ne m c _ (by decide)).symm)
  | ⟨1, _⟩ => ((dat3 (U8 m) c).arrAt_in 1 rfl _).trans ((A_eq3 (U8 m) c 1).trans (W9_ne m c _ (by decide)).symm)
  | ⟨2, _⟩ => ((dat3 (U8 m) c).arrAt_in 2 rfl _).trans ((A_eq3 (U8 m) c 2).trans (W9_ne m c _ (by decide)).symm)
  | ⟨3, _⟩ => (W9_self m c).symm

theorem hrest3 (c : Dev nD) : ∀ b, b ∉ Finset.univ.image (Pipeline.arrRef spec3) → U9 m c b = U8 m c b :=
  fun b hb => W9_ne m c b fun e => hb (Finset.mem_image.mpr ⟨3, Finset.mem_univ _, e.symm⟩)

def reg3 : Pipeline.RegionSeg (pcfgs (F := F)) adm (pdats m) () defs₀ Variants.none L lv 3 :=
  mkReg m 3 launch3 (W8 m) (W9 m) (body_obligation3 (U8 m)) (fun _ _ => rfl) (fun _ _ => rfl) (fun _ _ => trivial) (fun _ _ => rfl)
    (hin3 (U8 m)) (hout3 (U8 m)) (hF3 m) (hrest3 m)

theorem hF4 (c : Dev nD) : ∀ w : Fin cfg4.W, (dat4 (U9 m) c).arrAt w cfg4.N = U10 m c (Pipeline.arrRef spec4 w)
  | ⟨0, _⟩ => ((dat4 (U9 m) c).arrAt_in 0 rfl _).trans ((A_eq4 (U9 m) c 0).trans (W10_ne m c _ (by decide)).symm)
  | ⟨1, _⟩ => ((dat4 (U9 m) c).arrAt_in 1 rfl _).trans ((A_eq4 (U9 m) c 1).trans (W10_ne m c _ (by decide)).symm)
  | ⟨2, _⟩ => (W10_self m c).symm

theorem hrest4 (c : Dev nD) : ∀ b, b ∉ Finset.univ.image (Pipeline.arrRef spec4) → U10 m c b = U9 m c b :=
  fun b hb => W10_ne m c b fun e => hb (Finset.mem_image.mpr ⟨2, Finset.mem_univ _, e.symm⟩)

def reg4 : Pipeline.RegionSeg (pcfgs (F := F)) adm (pdats m) () defs₀ Variants.none L lv 4 :=
  mkReg m 4 launch4 (W9 m) (W10 m) (body_obligation4 (U9 m)) (fun _ _ => rfl) (fun _ _ => rfl) (fun _ _ => trivial) (fun _ _ => rfl)
    (hin4 (U9 m)) (hout4 (U9 m)) (hF4 m) (hrest4 m)

theorem in5 : ∀ w : Fin cfg5.W, w ≠ 9 → (cfg5.win w).isOut = false ∧ Pipeline.arrRef spec5 w ≠ main_v29 := by decide

theorem hF5 (c : Dev nD) (w : Fin cfg5.W) : (dat5 (U11 m) c).arrAt w cfg5.N = U12 m c (Pipeline.arrRef spec5 w) := by
  by_cases hw : w = 9
  · subst hw; exact (W12_self m c).symm
  · exact ((dat5 (U11 m) c).arrAt_in w (in5 w hw).1 _).trans ((A_eq5 (U11 m) c w).trans (W12_ne m c _ (in5 w hw).2).symm)

theorem hrest5 (c : Dev nD) : ∀ b, b ∉ Finset.univ.image (Pipeline.arrRef spec5) → U12 m c b = U11 m c b :=
  fun b hb => W12_ne m c b fun e => hb (Finset.mem_image.mpr ⟨9, Finset.mem_univ _, e.symm⟩)

def reg5 : Pipeline.RegionSeg (pcfgs (F := F)) adm (pdats m) () defs₀ Variants.none L lv 5 :=
  mkReg m 5 launch5 (W11 m) (W12 m) (body_obligation5 (U11 m)) (fun _ _ => rfl) (fun _ _ => rfl) (fun _ _ => trivial) (fun _ _ => rfl)
    (hin5 (U11 m)) (hout5 (U11 m)) (hF5 m) (hrest5 m)

theorem hpre0 (c : Dev nD) : iprop(StableHlo.held (c : Thread nD τ) (Pipeline.ucRefs τ sig) (V3 m c) ∗ R c) ⊢ (reg0 m).pre c := .rfl
theorem hpost0 (c : Dev nD) : (reg0 m).post c ⊢ iprop(StableHlo.held (c : Thread nD τ) (Pipeline.ucRefs τ sig) (V4 m (outs m) c) ∗ R c) := by
  rw [V4_eq]; exact .rfl
theorem hpre1 (c : Dev nD) : iprop(StableHlo.held (c : Thread nD τ) (Pipeline.ucRefs τ sig) (V4 m (outs m) c) ∗ R c) ⊢ (reg1 m).pre c := by
  rw [V4_eq]; exact .rfl
theorem hpost1 (c : Dev nD) : (reg1 m).post c ⊢ iprop(StableHlo.held (c : Thread nD τ) (Pipeline.ucRefs τ sig) (V5 m (outs m) c) ∗ R c) := by
  rw [V5_eq]; exact .rfl
theorem hpre2 (c : Dev nD) : iprop(StableHlo.held (c : Thread nD τ) (Pipeline.ucRefs τ sig) (V6 m (outs m) c) ∗ R c) ⊢ (reg2 m).pre c := by
  rw [V6_eq]; exact .rfl
theorem hpost2 (c : Dev nD) : (reg2 m).post c ⊢ iprop(StableHlo.held (c : Thread nD τ) (Pipeline.ucRefs τ sig) (V7 m (outs m) c) ∗ R c) := by
  rw [V7_eq]; exact .rfl
theorem hpre3 (c : Dev nD) : iprop(StableHlo.held (c : Thread nD τ) (Pipeline.ucRefs τ sig) (V8 m (outs m) c) ∗ R c) ⊢ (reg3 m).pre c := by
  rw [V8_eq]; exact .rfl
theorem hpost3 (c : Dev nD) : (reg3 m).post c ⊢ iprop(StableHlo.held (c : Thread nD τ) (Pipeline.ucRefs τ sig) (V9 m (outs m) c) ∗ R c) := by
  rw [V9_eq]; exact .rfl
theorem hpre4 (c : Dev nD) : iprop(StableHlo.held (c : Thread nD τ) (Pipeline.ucRefs τ sig) (V9 m (outs m) c) ∗ R c) ⊢ (reg4 m).pre c := by
  rw [V9_eq]; exact .rfl
theorem hpost4 (c : Dev nD) : (reg4 m).post c ⊢ iprop(StableHlo.held (c : Thread nD τ) (Pipeline.ucRefs τ sig) (V10 m (outs m) c) ∗ R c) := by
  rw [V10_eq]; exact .rfl
theorem hpre5 (c : Dev nD) : iprop(StableHlo.held (c : Thread nD τ) (Pipeline.ucRefs τ sig) (V11 m (outs m) c) ∗ R c) ⊢ (reg5 m).pre c := by
  rw [V11_eq]; exact .rfl
theorem hpost5 (c : Dev nD) : (reg5 m).post c ⊢ iprop(StableHlo.held (c : Thread nD τ) (Pipeline.ucRefs τ sig) (V12 m (outs m) c) ∗ R c) := by
  rw [V12_eq]; exact .rfl

theorem hE6 (c : Dev nD) : (R c : sProp 𝕄) ⊢ iprop(∃ W, owes (c : Thread nD τ) (0 : CellTallies nD τ sig Unit) W) := by
  iintro ⟨-, HO⟩; iexact HO

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W13 m c b) := by
  refine Pipeline.θ_run_regions_kit_dev (pcfgs (F := F)) adm (pdats m) () cellOf_inj emb₁ defs₀ Variants.none L lv m ρ main
    (segs m (outs m) Variants.none L lv (fun _ => R) () (pdats m) (reg0 m) (reg1 m) (reg2 m) (reg3 m) (reg4 m) (reg5 m))
    (fun c Q => by
      rewrite [main_chain c, Pipeline.Seg.run_eq_chain,
        show (segs m (outs m) Variants.none L lv (fun _ => R) () (pdats m) (reg0 m) (reg1 m) (reg2 m) (reg3 m) (reg4 m) (reg5 m) c).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := hu₀)
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, .rfl, .rfl, hpre0 m c, (hpost0 m c).trans (hpre1 m c), hpost1 m c, hpre2 m c, hpost2 m c, hpre3 m c,
      (hpost3 m c).trans (hpre4 m c), hpost4 m c, hpre5 m c, hpost5 m c, sep_mono .rfl (hE6 c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V13 m (outs m) c b)
    (hfin := fun c s' => by
      iintro ⟨Hh, HSI⟩
      unfold StableHlo.held
      imodintro
      iapply (pointsTo_read_all (Pipeline.ucRefs τ sig) (fun b => ((c : Thread nD τ).1, b)) (V13 m (outs m) c) s')
      isplitl [Hh] <;> iassumption)
    (hQ := fun s h c b hb => (h c b hb).trans (congrFun (V13_eq m c) b))

theorem W13_main_arg0 (c : Dev nD) : W13 m c main_arg0 = m ((c : Thread nD τ).loc main_arg0) :=
  (congrFun (V13_eq m c) _).symm.trans (V13_main_arg0 m (outs m) c)
theorem W13_main_arg1 (c : Dev nD) : W13 m c main_arg1 = m ((c : Thread nD τ).loc main_arg1) :=
  (congrFun (V13_eq m c) _).symm.trans (V13_main_arg1 m (outs m) c)
theorem W13_main_arg2 (c : Dev nD) : W13 m c main_arg2 = m ((c : Thread nD τ).loc main_arg2) :=
  (congrFun (V13_eq m c) _).symm.trans (V13_main_arg2 m (outs m) c)
theorem W13_main_arg3 (c : Dev nD) : W13 m c main_arg3 = m ((c : Thread nD τ).loc main_arg3) :=
  (congrFun (V13_eq m c) _).symm.trans (V13_main_arg3 m (outs m) c)
theorem W13_main_arg4 (c : Dev nD) : W13 m c main_arg4 = m ((c : Thread nD τ).loc main_arg4) :=
  (congrFun (V13_eq m c) _).symm.trans (V13_main_arg4 m (outs m) c)
theorem W13_main_arg5 (c : Dev nD) : W13 m c main_arg5 = m ((c : Thread nD τ).loc main_arg5) :=
  (congrFun (V13_eq m c) _).symm.trans (V13_main_arg5 m (outs m) c)
theorem W13_main_arg6 (c : Dev nD) : W13 m c main_arg6 = m ((c : Thread nD τ).loc main_arg6) :=
  (congrFun (V13_eq m c) _).symm.trans (V13_main_arg6 m (outs m) c)
theorem W13_main_arg7 (c : Dev nD) : W13 m c main_arg7 = m ((c : Thread nD τ).loc main_arg7) :=
  (congrFun (V13_eq m c) _).symm.trans (V13_main_arg7 m (outs m) c)
theorem W13_main_arg8 (c : Dev nD) : W13 m c main_arg8 = m ((c : Thread nD τ).loc main_arg8) :=
  (congrFun (V13_eq m c) _).symm.trans (V13_main_arg8 m (outs m) c)
theorem W13_main_arg9 (c : Dev nD) : W13 m c main_arg9 = m ((c : Thread nD τ).loc main_arg9) :=
  (congrFun (V13_eq m c) _).symm.trans (V13_main_arg9 m (outs m) c)
theorem W13_main_arg10 (c : Dev nD) : W13 m c main_arg10 = m ((c : Thread nD τ).loc main_arg10) :=
  (congrFun (V13_eq m c) _).symm.trans (V13_main_arg10 m (outs m) c)
theorem W13_main_arg11 (c : Dev nD) : W13 m c main_arg11 = m ((c : Thread nD τ).loc main_arg11) :=
  (congrFun (V13_eq m c) _).symm.trans (V13_main_arg11 m (outs m) c)
theorem W13_main_arg12 (c : Dev nD) : W13 m c main_arg12 = m ((c : Thread nD τ).loc main_arg12) :=
  (congrFun (V13_eq m c) _).symm.trans (V13_main_arg12 m (outs m) c)
theorem W13_main_arg13 (c : Dev nD) : W13 m c main_arg13 = m ((c : Thread nD τ).loc main_arg13) :=
  (congrFun (V13_eq m c) _).symm.trans (V13_main_arg13 m (outs m) c)

theorem run_full : θ_run defs (onTc (τ := τ) (main (F := F))) ⟨m, fun _ => 0, ρ⟩ (fun r => ∀ c : Dev nD,
      r.2.mem ((c.tc : Thread nD τ).loc main_v30) = W13 m c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v30 (by decide)),
     (h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c),
     (h c _ (mem_uc main_arg4 (by decide))).trans (W13_main_arg4 m c),
     (h c _ (mem_uc main_arg5 (by decide))).trans (W13_main_arg5 m c),
     (h c _ (mem_uc main_arg6 (by decide))).trans (W13_main_arg6 m c),
     (h c _ (mem_uc main_arg7 (by decide))).trans (W13_main_arg7 m c),
     (h c _ (mem_uc main_arg8 (by decide))).trans (W13_main_arg8 m c),
     (h c _ (mem_uc main_arg9 (by decide))).trans (W13_main_arg9 m c),
     (h c _ (mem_uc main_arg10 (by decide))).trans (W13_main_arg10 m c),
     (h c _ (mem_uc main_arg11 (by decide))).trans (W13_main_arg11 m c),
     (h c _ (mem_uc main_arg12 (by decide))).trans (W13_main_arg12 m c),
     (h c _ (mem_uc main_arg13 (by decide))).trans (W13_main_arg13 m c)⟩) (run_all m ρ)

end Cert.Kernel.Hand

end
-- ==== Proof.KI.Reg0.lean ====
import proofs.«403197_j58634893525189_3_alg».proof.Proof.Gen.KernelIdeal.Launch
import proofs.«403197_j58634893525189_3_alg».proof.Proof.Gen.KernelIdeal.Skeleton
import proofs.«403197_j58634893525189_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1280x128 := Rect.unit (s := S1280x128) ![0, 0] S1280x128.size inb_S1280x128_S1280x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S1280x128 := Rect.unit (s := S1280x128) ![0, 0] S1280x128.size inb_S1280x128_S1280x128_0_0

def out0_3 (x0 : Vec F S1280x128 .f32) (x1 : Vec F S128x128 .f32) (x2 : Vec F S1x128 .f32) : Vec F S1280x128 .bf16 :=
  View.canon [⟨r0_3, k0_pay1 (View.ld x0 r0_0) (View.ld x1 r0_1) (View.ld x2 r0_2)⟩]

theorem cover0_3 (p0 : Vec F S1280x128 .bf16) (y : S1280x128.Idx) :
    ∃ pc ∈ ([⟨r0_3, p0⟩] : List (View.Piece (Elt F) S1280x128 .bf16)), y ∈ pc.1.set :=
  View.cover_of_tiled [⟨r0_3, p0⟩] S1280x128.size (by rfl) y

set_option maxHeartbeats 4000000 in
theorem sound_kernel0 (c : Dev nD) (E : Set ℕ) (i : grid0.Coords)
    (arg0 : Memref sig .tc .vmem S1280x128 .f32) (harg0 : arg0.IsWhole) (arg1 : Memref sig .tc .vmem S128x128 .f32) (harg1 : arg1.IsWhole)
    (arg2 : Memref sig .tc .vmem S1x128 .f32) (harg2 : arg2.IsWhole) (arg3 : Memref sig .tc .vmem S1280x128 .bf16) (harg3 : arg3.IsWhole)
    (x0 : Vec F S1280x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__linear_relu_kernel i arg0 harg0 arg1 harg1 arg2 harg2 arg3 harg3) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Pipeline.ΦA spec0 c from rfl]
theorem hout0 (c : Dev nD) : (dat0 V c).Φ (Fin.last cfg0.N) ⊢ Pipeline.ΦA spec0 c := by
  rw [show (dat0 V c).Φ (Fin.last cfg0.N) = Pipeline.ΦA spec0 c from rfl]

end Cert.KernelIdeal.Hand

end
-- ==== Proof.KI.Reg1.lean ====
import proofs.«403197_j58634893525189_3_alg».proof.Proof.Gen.KernelIdeal.Launch
import proofs.«403197_j58634893525189_3_alg».proof.Proof.Gen.KernelIdeal.Skeleton
import proofs.«403197_j58634893525189_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 5 = 0 :=
  (by decide +kernel : ∀ t : Fin grid1.N, cond1_0 (grid1.coords t) ↔ t.val % 5 = 0)

abbrev cond1_1 (i : grid1.Coords) : Prop := k1_cond2 i = 1#1

theorem hcond1_1 : ∀ t : Fin cfg1.N, cond1_1 (grid1.coords t) ↔ t.val % 5 = 4 :=
  (by decide +kernel : ∀ t : Fin grid1.N, cond1_1 (grid1.coords t) ↔ t.val % 5 = 4)

theorem liveAt1_0 : ∀ t : Fin cfg1.N, cfg1.idle 0 (grid1.coords t) = false := by decide +kernel
theorem liveAt1_1 : ∀ t : Fin cfg1.N, cfg1.idle 1 (grid1.coords t) = false := by decide +kernel

theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel

theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel

theorem liveAt1_2_C : ∀ t : Fin cfg1.N, ¬cond1_0 (grid1.coords t) → cond1_1 (grid1.coords t) → cfg1.idle 2 (grid1.coords t) = false := by decide +kernel

abbrev VO1_2 : View sig .tc .vmem S1280x128 .f32 := (Memref.whole cc1_stg2_0 : Memref sig .tc .vmem S1280x128 .f32).view

abbrev ms1_0 (t : Fin cfg1.N) : Memref sig .tc .vmem S1280x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1280x128 .f32 := win1_2.stage (cfg1.slots t 2)
abbrev hs1_2 (t : Fin cfg1.N) : (ms1_2 t).IsWhole := hstage1_2 ((cfg1.slots t 2).cast nbuf1_2)

abbrev scM1_0 : Memref sig .tc .vmem S1280x128 .f32 := Memref.whole cc1_scratch0

abbrev VS1_0 : View sig .tc .vmem S1280x128 .f32 := scM1_0.view

theorem PhiA1_eq (c : Dev nD) :
    (Pipeline.ΦA spec1 c : sProp 𝕄)
      = iprop(iprop(iprop((∃ d, owns (c : Thread nD τ) scM1_0 fullShare d)) ∗ Pipeline.scopedRestBut spec1 c [cc1_scratch0]) ∗ (∃ r, prngReg c r)) := by
  unfold Pipeline.ΦA; rw [scopedRest1_split]; simp only [scM1_0, owns_whole]; try rfl

set_option maxHeartbeats 4000000 in
noncomputable def kernelRun1_A (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : cond1_0 i) (hc1 : ¬cond1_1 i)
    (x0 : Vec F S1280x2048 .bf16) (x1 : Vec F S2048x128 .bf16) :
    Σ' (L2 : List (View.Piece (Elt F) S1280x128 .f32)), { LS0 : List (View.Piece (Elt F) S1280x128 .f32) //
      ∀ (xi2 : Vec F S1280x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__message_pass_kernel i arg2 harg2 arg3 harg3 arg4 harg4 arg5 harg5) K } := by
  refine ⟨[], ?_, fun xi2 E K => ?run⟩
  case run =>
    simp only [cc1__message_pass_kernel_eq_skeleton]; unfold cc1__message_pass_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
noncomputable def kernelRun1_B (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : ¬cond1_1 i)
    (x0 : Vec F S1280x2048 .bf16) (x1 : Vec F S2048x128 .bf16) (xs0 : Vec F S1280x128 .f32) :
    Σ' (L2 : List (View.Piece (Elt F) S1280x128 .f32)), { LS0 : List (View.Piece (Elt F) S1280x128 .f32) //
      ∀ (xi2 : Vec F S1280x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__message_pass_kernel i arg2 harg2 arg3 harg3 arg4 harg4 arg5 harg5) K } := by
  refine ⟨[], ?_, fun xi2 E K => ?run⟩
  case run =>
    simp only [cc1__message_pass_kernel_eq_skeleton]; unfold cc1__message_pass_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
noncomputable def kernelRun1_C (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : cond1_1 i)
    (x0 : Vec F S1280x2048 .bf16) (x1 : Vec F S2048x128 .bf16) (xs0 : Vec F S1280x128 .f32) :
    Σ' (L2 : List (View.Piece (Elt F) S1280x128 .f32)), { LS0 : List (View.Piece (Elt F) S1280x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__message_pass_kernel i arg2 harg2 arg3 harg3 arg4 harg4 arg5 harg5) K } := by
  refine ⟨?_, ?_, fun E K => ?run⟩
  case run =>
    simp only [cc1__message_pass_kernel_eq_skeleton]; unfold cc1__message_pass_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

def out1_A_2 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : cond1_0 i) (hc1 : ¬cond1_1 i)
    (x0 : Vec F S1280x2048 .bf16) (x1 : Vec F S2048x128 .bf16) : Vec F S1280x128 .f32 :=
  VO1_2.read (Elt F) (VO1_2.writes (Elt F) VO1_2.junk (kernelRun1_A c i arg2 harg2 arg3 harg3 arg4 harg4 arg5 harg5 hc0 hc1 x0 x1).1)

theorem scover1_A_0 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : cond1_0 i) (hc1 : ¬cond1_1 i)
    (x0 : Vec F S1280x2048 .bf16) (x1 : Vec F S2048x128 .bf16) (y : S1280x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1280x128.size (by sl_kernel_rfl) y

def sout1_A_0 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : cond1_0 i) (hc1 : ¬cond1_1 i)
    (x0 : Vec F S1280x2048 .bf16) (x1 : Vec F S2048x128 .bf16) : Vec F S1280x128 .f32 :=
  VS1_0.read (Elt F) (VS1_0.writes (Elt F) VS1_0.junk (kernelRun1_A c i arg2 harg2 arg3 harg3 arg4 harg4 arg5 harg5 hc0 hc1 x0 x1).2.1)

def out1_B_2 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : ¬cond1_1 i)
    (x0 : Vec F S1280x2048 .bf16) (x1 : Vec F S2048x128 .bf16) (xs0 : Vec F S1280x128 .f32) : Vec F S1280x128 .f32 :=
  VO1_2.read (Elt F) (VO1_2.writes (Elt F) VO1_2.junk (kernelRun1_B c i arg2 harg2 arg3 harg3 arg4 harg4 arg5 harg5 hc0 hc1 x0 x1 xs0).1)

theorem scover1_B_0 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : ¬cond1_1 i)
    (x0 : Vec F S1280x2048 .bf16) (x1 : Vec F S2048x128 .bf16) (xs0 : Vec F S1280x128 .f32) (y : S1280x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1280x128.size (by sl_kernel_rfl) y

def sout1_B_0 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : ¬cond1_1 i)
    (x0 : Vec F S1280x2048 .bf16) (x1 : Vec F S2048x128 .bf16) (xs0 : Vec F S1280x128 .f32) : Vec F S1280x128 .f32 :=
  VS1_0.read (Elt F) (VS1_0.writes (Elt F) VS1_0.junk (kernelRun1_B c i arg2 harg2 arg3 harg3 arg4 harg4 arg5 harg5 hc0 hc1 x0 x1 xs0).2.1)

theorem cover1_C_2 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : cond1_1 i)
    (x0 : Vec F S1280x2048 .bf16) (x1 : Vec F S2048x128 .bf16) (xs0 : Vec F S1280x128 .f32) (y : S1280x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1280x128.size (by sl_kernel_rfl) y

def out1_C_2 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : cond1_1 i)
    (x0 : Vec F S1280x2048 .bf16) (x1 : Vec F S2048x128 .bf16) (xs0 : Vec F S1280x128 .f32) : Vec F S1280x128 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : cond1_1 i)
    (x0 : Vec F S1280x2048 .bf16) (x1 : Vec F S2048x128 .bf16) (xs0 : Vec F S1280x128 .f32) (y : S1280x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1280x128.size (by sl_kernel_rfl) y

def sout1_C_0 (c : Dev nD) (i : grid1.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond1_0 i) (hc1 : cond1_1 i)
    (x0 : Vec F S1280x2048 .bf16) (x1 : Vec F S2048x128 .bf16) (xs0 : Vec F S1280x128 .f32) : Vec F S1280x128 .f32 :=
  VS1_0.read (Elt F) (VS1_0.writes (Elt F) VS1_0.junk (kernelRun1_C c i arg2 harg2 arg3 harg3 arg4 harg4 arg5 harg5 hc0 hc1 x0 x1 xs0).2.1)

def outsAt1 (c : Dev nD) : (n : ℕ) → n < cfg1.N → Vec F S1280x128 .f32 × Vec F S1280x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 5 = 0 then
      if h1 : (n + 1) % 5 = 4 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 5 = 4 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 5 = 0) (h1 : ¬t.val % 5 = 4) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 5 = 0) (h1 : t.val % 5 = 4) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 40 := lt_of_lt_of_eq t.isLt (show cfg1.N = 40 from N_1)
  by_cases h0 : t.val % 5 = 0
  · by_cases h1 : t.val % 5 = 4
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 5 = 4
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _)
          iexact HR
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 40 := N_1; omega)

end Cert.KernelIdeal.Hand

end
-- ==== Proof.KI.Reg2.lean ====
import proofs.«403197_j58634893525189_3_alg».proof.Proof.Gen.KernelIdeal.Launch
import proofs.«403197_j58634893525189_3_alg».proof.Proof.Gen.KernelIdeal.Skeleton
import proofs.«403197_j58634893525189_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1280x128 := Rect.unit (s := S1280x128) ![0, 0] S1280x128.size inb_S1280x128_S1280x128_0_0
abbrev r2_1 : Rect S1280x128 := Rect.unit (s := S1280x128) ![0, 0] S1280x128.size inb_S1280x128_S1280x128_0_0
abbrev r2_2 : Rect S1280x1 := Rect.unit (s := S1280x1) ![0, 0] S1280x1.size inb_S1280x1_S1280x1_0_0
abbrev r2_3 : Rect S256x128 := Rect.unit (s := S256x128) ![0, 0] S256x128.size inb_S256x128_S256x128_0_0
abbrev r2_4 : Rect S1x128 := Rect.unit (s := S1x128) ![0, 0] S1x128.size inb_S1x128_S1x128_0_0
abbrev r2_5 : Rect S1280x128 := Rect.unit (s := S1280x128) ![0, 0] S1280x128.size inb_S1280x128_S1280x128_0_0

def out2_5 (x0 : Vec F S1280x128 .f32) (x1 : Vec F S1280x128 .f32) (x2 : Vec F S1280x1 .f32) (x3 : Vec F S256x128 .f32) (x4 : Vec F S1x128 .f32) : Vec F S1280x128 .f32 :=
  View.canon [⟨r2_5, k2_pay1 (View.ld x0 r2_0) (View.ld x1 r2_1) (View.ld x2 r2_2) (View.ld x3 r2_3) (View.ld x4 r2_4)⟩]

theorem cover2_5 (p0 : Vec F S1280x128 .f32) (y : S1280x128.Idx) :
    ∃ pc ∈ ([⟨r2_5, p0⟩] : List (View.Piece (Elt F) S1280x128 .f32)), y ∈ pc.1.set :=
  View.cover_of_tiled [⟨r2_5, p0⟩] S1280x128.size (by rfl) y

set_option maxHeartbeats 4000000 in
theorem sound_kernel2 (c : Dev nD) (E : Set ℕ) (i : grid2.Coords) (arg0 : Memref sig .tc .vmem S1280x128 .f32) (harg0 : arg0.IsWhole) (arg1 : Memref sig .tc .vmem S1280x128 .f32) (harg1 : arg1.IsWhole) (arg2 : Memref sig .tc .vmem S1280x1 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S1280x128 .f32) (harg5 : arg5.IsWhole)
    (x0 : Vec F S1280x128 .f32) (x1 : Vec F S1280x128 .f32) (x2 : Vec F S1280x1 .f32) (x3 : Vec F S256x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__update_kernel i arg0 harg0 arg1 harg1 arg2 harg2 arg3 harg3 arg4 harg4 arg5 harg5) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Pipeline.ΦA spec2 c from rfl]
theorem hout2 (c : Dev nD) : (dat2 V c).Φ (Fin.last cfg2.N) ⊢ Pipeline.ΦA spec2 c := by
  rw [show (dat2 V c).Φ (Fin.last cfg2.N) = Pipeline.ΦA spec2 c from rfl]

end Cert.KernelIdeal.Hand

end
-- ==== Proof.KI.Reg3.lean ====
import proofs.«403197_j58634893525189_3_alg».proof.Proof.KI.Reg0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem cc3_eq_cc0 (i : grid3.Coords) (a0 : Memref sig .tc .vmem S1280x128 .f32) (h0 : a0.IsWhole) (a1 : Memref sig .tc .vmem S128x128 .f32) (h1 : a1.IsWhole)
    (a2 : Memref sig .tc .vmem S1x128 .f32) (h2 : a2.IsWhole) (a3 : Memref sig .tc .vmem S1280x128 .bf16) (h3 : a3.IsWhole) :
    cc3__linear_relu_kernel (F := F) i a0 h0 a1 h1 a2 h2 a3 h3 = cc0__linear_relu_kernel i a0 h0 a1 h1 a2 h2 a3 h3 := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out0_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out0_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq_cc0]
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel0 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = Pipeline.ΦA spec3 c from rfl]
theorem hout3 (c : Dev nD) : (dat3 V c).Φ (Fin.last cfg3.N) ⊢ Pipeline.ΦA spec3 c := by
  rw [show (dat3 V c).Φ (Fin.last cfg3.N) = Pipeline.ΦA spec3 c from rfl]

end Cert.KernelIdeal.Hand

end
-- ==== Proof.KI.Reg4.lean ====
import proofs.«403197_j58634893525189_3_alg».proof.Proof.KI.Reg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 1).val) 0#32)) 0#32) = 1#1

theorem hcond4_0 : ∀ t : Fin cfg4.N, cond4_0 (grid4.coords t) ↔ t.val % 5 = 0 :=
  (by decide +kernel : ∀ t : Fin grid4.N, cond4_0 (grid4.coords t) ↔ t.val % 5 = 0)

abbrev cond4_1 (i : grid4.Coords) : Prop := k4_cond2 i = 1#1

theorem hcond4_1 : ∀ t : Fin cfg4.N, cond4_1 (grid4.coords t) ↔ t.val % 5 = 4 :=
  (by decide +kernel : ∀ t : Fin grid4.N, cond4_1 (grid4.coords t) ↔ t.val % 5 = 4)

theorem liveAt4_0 : ∀ t : Fin cfg4.N, cfg4.idle 0 (grid4.coords t) = false := by decide +kernel
theorem liveAt4_1 : ∀ t : Fin cfg4.N, cfg4.idle 1 (grid4.coords t) = false := by decide +kernel

theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel

theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel

theorem liveAt4_2_C : ∀ t : Fin cfg4.N, ¬cond4_0 (grid4.coords t) → cond4_1 (grid4.coords t) → cfg4.idle 2 (grid4.coords t) = false := by decide +kernel

abbrev VO4_2 : View sig .tc .vmem S1280x128 .f32 := (Memref.whole cc4_stg2_0 : Memref sig .tc .vmem S1280x128 .f32).view

abbrev ms4_0 (t : Fin cfg4.N) : Memref sig .tc .vmem S1280x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1280x128 .f32 := win4_2.stage (cfg4.slots t 2)
abbrev hs4_2 (t : Fin cfg4.N) : (ms4_2 t).IsWhole := hstage4_2 ((cfg4.slots t 2).cast nbuf4_2)

abbrev scM4_0 : Memref sig .tc .vmem S1280x128 .f32 := Memref.whole cc4_scratch0

abbrev VS4_0 : View sig .tc .vmem S1280x128 .f32 := scM4_0.view

theorem PhiA4_eq (c : Dev nD) :
    (Pipeline.ΦA spec4 c : sProp 𝕄)
      = iprop(iprop(iprop((∃ d, owns (c : Thread nD τ) scM4_0 fullShare d)) ∗ Pipeline.scopedRestBut spec4 c [cc4_scratch0]) ∗ (∃ r, prngReg c r)) := by
  unfold Pipeline.ΦA; rw [scopedRest4_split]; simp only [scM4_0, owns_whole]; try rfl

theorem cc4_eq_cc1 (i : grid4.Coords) (a2 : Memref sig .tc .vmem S1280x2048 .bf16) (h2 : a2.IsWhole) (a3 : Memref sig .tc .vmem S2048x128 .bf16) (h3 : a3.IsWhole)
    (a4 : Memref sig .tc .vmem S1280x128 .f32) (h4 : a4.IsWhole) (a5 : Memref sig .tc .vmem S1280x128 .f32) (h5 : a5.IsWhole) :
    cc4__message_pass_kernel (F := F) i a2 h2 a3 h3 a4 h4 a5 h5 = cc1__message_pass_kernel i a2 h2 a3 h3 a4 h4 a5 h5 := rfl

def out4_A_2 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : cond4_0 i) (hc1 : ¬cond4_1 i)
    (x0 : Vec F S1280x2048 .bf16) (x1 : Vec F S2048x128 .bf16) : Vec F S1280x128 .f32 :=
  VO4_2.read (Elt F) (VO4_2.writes (Elt F) VO4_2.junk (kernelRun1_A c i arg2 harg2 arg3 harg3 arg4 harg4 arg5 harg5 hc0 hc1 x0 x1).1)

theorem scover4_A_0 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : cond4_0 i) (hc1 : ¬cond4_1 i)
    (x0 : Vec F S1280x2048 .bf16) (x1 : Vec F S2048x128 .bf16) (y : S1280x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1280x128.size (by sl_kernel_rfl) y

def sout4_A_0 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : cond4_0 i) (hc1 : ¬cond4_1 i)
    (x0 : Vec F S1280x2048 .bf16) (x1 : Vec F S2048x128 .bf16) : Vec F S1280x128 .f32 :=
  VS4_0.read (Elt F) (VS4_0.writes (Elt F) VS4_0.junk (kernelRun1_A c i arg2 harg2 arg3 harg3 arg4 harg4 arg5 harg5 hc0 hc1 x0 x1).2.1)

def out4_B_2 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond4_0 i) (hc1 : ¬cond4_1 i)
    (x0 : Vec F S1280x2048 .bf16) (x1 : Vec F S2048x128 .bf16) (xs0 : Vec F S1280x128 .f32) : Vec F S1280x128 .f32 :=
  VO4_2.read (Elt F) (VO4_2.writes (Elt F) VO4_2.junk (kernelRun1_B c i arg2 harg2 arg3 harg3 arg4 harg4 arg5 harg5 hc0 hc1 x0 x1 xs0).1)

theorem scover4_B_0 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond4_0 i) (hc1 : ¬cond4_1 i)
    (x0 : Vec F S1280x2048 .bf16) (x1 : Vec F S2048x128 .bf16) (xs0 : Vec F S1280x128 .f32) (y : S1280x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1280x128.size (by sl_kernel_rfl) y

def sout4_B_0 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond4_0 i) (hc1 : ¬cond4_1 i)
    (x0 : Vec F S1280x2048 .bf16) (x1 : Vec F S2048x128 .bf16) (xs0 : Vec F S1280x128 .f32) : Vec F S1280x128 .f32 :=
  VS4_0.read (Elt F) (VS4_0.writes (Elt F) VS4_0.junk (kernelRun1_B c i arg2 harg2 arg3 harg3 arg4 harg4 arg5 harg5 hc0 hc1 x0 x1 xs0).2.1)

theorem cover4_C_2 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond4_0 i) (hc1 : cond4_1 i)
    (x0 : Vec F S1280x2048 .bf16) (x1 : Vec F S2048x128 .bf16) (xs0 : Vec F S1280x128 .f32) (y : S1280x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1280x128.size (by sl_kernel_rfl) y

def out4_C_2 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond4_0 i) (hc1 : cond4_1 i)
    (x0 : Vec F S1280x2048 .bf16) (x1 : Vec F S2048x128 .bf16) (xs0 : Vec F S1280x128 .f32) : Vec F S1280x128 .f32 :=
  VO4_2.read (Elt F) (VO4_2.writes (Elt F) VO4_2.junk (kernelRun1_C c i arg2 harg2 arg3 harg3 arg4 harg4 arg5 harg5 hc0 hc1 x0 x1 xs0).1)

theorem scover4_C_0 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond4_0 i) (hc1 : cond4_1 i)
    (x0 : Vec F S1280x2048 .bf16) (x1 : Vec F S2048x128 .bf16) (xs0 : Vec F S1280x128 .f32) (y : S1280x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1280x128.size (by sl_kernel_rfl) y

def sout4_C_0 (c : Dev nD) (i : grid4.Coords) (arg2 : Memref sig .tc .vmem S1280x2048 .bf16) (harg2 : arg2.IsWhole) (arg3 : Memref sig .tc .vmem S2048x128 .bf16) (harg3 : arg3.IsWhole) (arg4 : Memref sig .tc .vmem S1280x128 .f32) (harg4 : arg4.IsWhole) (arg5 : Memref sig .tc .vmem S1280x128 .f32) (harg5 : arg5.IsWhole) (hc0 : ¬cond4_0 i) (hc1 : cond4_1 i)
    (x0 : Vec F S1280x2048 .bf16) (x1 : Vec F S2048x128 .bf16) (xs0 : Vec F S1280x128 .f32) : Vec F S1280x128 .f32 :=
  VS4_0.read (Elt F) (VS4_0.writes (Elt F) VS4_0.junk (kernelRun1_C c i arg2 harg2 arg3 harg3 arg4 harg4 arg5 harg5 hc0 hc1 x0 x1 xs0).2.1)

def outsAt4 (c : Dev nD) : (n : ℕ) → n < cfg4.N → Vec F S1280x128 .f32 × Vec F S1280x128 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 5 = 0 then
      if h1 : (n + 1) % 5 = 4 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 5 = 4 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

theorem outsAt4_A (c : Dev nD) (t : Fin cfg4.N) (h0 : t.val % 5 = 0) (h1 : ¬t.val % 5 = 4) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

theorem outsAt4_B (c : Dev nD) (t : Fin cfg4.N) (h0 : ¬t.val % 5 = 0) (h1 : ¬t.val % 5 = 4) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 5 = 0) (h1 : t.val % 5 = 4) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut spec4 c [cc4_scratch0]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_eq_cc1]
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 40 := lt_of_lt_of_eq t.isLt (show cfg4.N = 40 from N_4)
  by_cases h0 : t.val % 5 = 0
  · by_cases h1 : t.val % 5 = 4
    · exfalso; omega
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩⟩
        iapply ((kernelRun1_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _)
            iexact HR
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun1_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 5 = 4
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      have hz : t.val ≠ 0 := by omega
      rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun1_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      have hz : t.val ≠ 0 := by omega
      rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun1_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _ _)
          iexact HR
        iexact Hg
      isplitl [Ho]; · iexact Ho
      isplitl [H0]; · iexact H0
      isplitl [H1]; · iexact H1
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

theorem hout4 (c : Dev nD) : (dat4 V c).Φ (Fin.last cfg4.N) ⊢ Pipeline.ΦA spec4 c :=
  Phi_out4 V c _ (by rw [Fin.val_last]; have : cfg4.N = 40 := N_4; omega)

end Cert.KernelIdeal.Hand

end
-- ==== Proof.KI.Reg5.lean ====
import proofs.«403197_j58634893525189_3_alg».proof.Proof.Gen.KernelIdeal.Launch
import proofs.«403197_j58634893525189_3_alg».proof.Proof.Gen.KernelIdeal.Skeleton
import proofs.«403197_j58634893525189_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S1280x128 := Rect.unit (s := S1280x128) ![0, 0] S1280x128.size inb_S1280x128_S1280x128_0_0
abbrev r5_1 : Rect S1280x128 := Rect.unit (s := S1280x128) ![0, 0] S1280x128.size inb_S1280x128_S1280x128_0_0
abbrev r5_2 : Rect S1280x1 := Rect.unit (s := S1280x1) ![0, 0] S1280x1.size inb_S1280x1_S1280x1_0_0
abbrev r5_3 : Rect S256x128 := Rect.unit (s := S256x128) ![0, 0] S256x128.size inb_S256x128_S256x128_0_0
abbrev r5_4 : Rect S1x128 := Rect.unit (s := S1x128) ![0, 0] S1x128.size inb_S1x128_S1x128_0_0
abbrev r5_5 : Rect S128x128 := Rect.unit (s := S128x128) ![0, 0] S128x128.size inb_S128x128_S128x128_0_0
abbrev r5_6 : Rect S1x128 := Rect.unit (s := S1x128) ![0, 0] S1x128.size inb_S1x128_S1x128_0_0
abbrev r5_7 : Rect S128x64 := Rect.unit (s := S128x64) ![0, 0] S128x64.size inb_S128x64_S128x64_0_0
abbrev r5_8 : Rect S1x64 := Rect.unit (s := S1x64) ![0, 0] S1x64.size inb_S1x64_S1x64_0_0
abbrev r5_9 : Rect S1280x64 := Rect.unit (s := S1280x64) ![0, 0] S1280x64.size inb_S1280x64_S1280x64_0_0

def out5_9 (x0 : Vec F S1280x128 .f32) (x1 : Vec F S1280x128 .f32) (x2 : Vec F S1280x1 .f32) (x3 : Vec F S256x128 .f32) (x4 : Vec F S1x128 .f32) (x5 : Vec F S128x128 .f32) (x6 : Vec F S1x128 .f32) (x7 : Vec F S128x64 .f32) (x8 : Vec F S1x64 .f32) : Vec F S1280x64 .f32 :=
  View.canon [⟨r5_9, k5_pay1 (k5_pay2 (View.ld x0 r5_0) (View.ld x1 r5_1) (View.ld x2 r5_2) (View.ld x3 r5_3) (View.ld x4 r5_4) (View.ld x5 r5_5) (View.ld x6 r5_6)) (View.ld x7 r5_7) (View.ld x8 r5_8)⟩]

theorem cover5_9 (p0 : Vec F S1280x64 .f32) (y : S1280x64.Idx) :
    ∃ pc ∈ ([⟨r5_9, p0⟩] : List (View.Piece (Elt F) S1280x64 .f32)), y ∈ pc.1.set :=
  View.cover_of_tiled [⟨r5_9, p0⟩] S1280x64.size (by rfl) y

set_option maxHeartbeats 4000000 in
theorem sound_kernel5 (c : Dev nD) (E : Set ℕ) (i : grid5.Coords) (arg0 : Memref sig .tc .vmem S1280x128 .f32) (harg0 : arg0.IsWhole) (arg1 : Memref sig .tc .vmem S1280x128 .f32) (harg1 : arg1.IsWhole) (arg2 : Memref sig .tc .vmem S1280x1 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S1280x64 .f32) (harg9 : arg9.IsWhole)
    (x0 : Vec F S1280x128 .f32) (x1 : Vec F S1280x128 .f32) (x2 : Vec F S1280x1 .f32) (x3 : Vec F S256x128 .f32) (x4 : Vec F S1x128 .f32) (x5 : Vec F S128x128 .f32) (x6 : Vec F S1x128 .f32) (x7 : Vec F S128x64 .f32) (x8 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out5_9 x0 x1 x2 x3 x4 x5 x6 x7 x8)) -∗ K ⟨⟩))
      ⊢ wp frame (wpE (defs₀ (F := F)) Variants.none c none) E (cc5__update_postmp_kernel i arg0 harg0 arg1 harg1 arg2 harg2 arg3 harg3 arg4 harg4 arg5 harg5 arg6 harg6 arg7 harg7 arg8 harg8 arg9 harg9) K := by
  simp only [cc5__update_postmp_kernel_eq_skeleton]; unfold cc5__update_postmp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover5_9 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

set_option maxHeartbeats 1000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = Pipeline.ΦA spec5 c from rfl]
theorem hout5 (c : Dev nD) : (dat5 V c).Φ (Fin.last cfg5.N) ⊢ Pipeline.ΦA spec5 c := by
  rw [show (dat5 V c).Φ (Fin.last cfg5.N) = Pipeline.ΦA spec5 c from rfl]

end Cert.KernelIdeal.Hand

end
-- ==== Proof.KI.Chain.lean ====
import proofs.«403197_j58634893525189_3_alg».proof.Proof.Gen.KernelIdeal.Regions
import proofs.«403197_j58634893525189_3_alg».proof.Proof.KI.Reg0
import proofs.«403197_j58634893525189_3_alg».proof.Proof.KI.Reg1
import proofs.«403197_j58634893525189_3_alg».proof.Proof.KI.Reg2
import proofs.«403197_j58634893525189_3_alg».proof.Proof.KI.Reg3
import proofs.«403197_j58634893525189_3_alg».proof.Proof.KI.Reg4
import proofs.«403197_j58634893525189_3_alg».proof.Proof.KI.Reg5

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev U3 : (c : Dev nD) → (b : Ref sig .tc) → Buf (Elt F) ((c : Thread nD τ).loc b) := fun c b => V3 m c b

def o19 (c : Dev nD) : Buf (Elt F) ((c : Thread nD τ).loc main_v19) := (dat0 (U3 m) c).arrAt 3 cfg0.N
def W4 (c : Dev nD) : Valuation τ sig (Elt F) := Function.update (V3 m c) main_v19 (o19 m c)
abbrev U4 : (c : Dev nD) → (b : Ref sig .tc) → Buf (Elt F) ((c : Thread nD τ).loc b) := fun c b => W4 m c b

def o20 (c : Dev nD) : Buf (Elt F) ((c : Thread nD τ).loc main_v20) := (dat1 (U4 m) c).arrAt 2 cfg1.N
def W5 (c : Dev nD) : Valuation τ sig (Elt F) := Function.update (W4 m c) main_v20 (o20 m c)
def W6 (c : Dev nD) : Valuation τ sig (Elt F) := StableHlo.after hostOps2 (W5 m c)
abbrev U6 : (c : Dev nD) → (b : Ref sig .tc) → Buf (Elt F) ((c : Thread nD τ).loc b) := fun c b => W6 m c b

def o22 (c : Dev nD) : Buf (Elt F) ((c : Thread nD τ).loc main_v22) := (dat2 (U6 m) c).arrAt 5 cfg2.N
def W7 (c : Dev nD) : Valuation τ sig (Elt F) := Function.update (W6 m c) main_v22 (o22 m c)
def W8 (c : Dev nD) : Valuation τ sig (Elt F) := StableHlo.after hostOps3 (W7 m c)
abbrev U8 : (c : Dev nD) → (b : Ref sig .tc) → Buf (Elt F) ((c : Thread nD τ).loc b) := fun c b => W8 m c b

def o24 (c : Dev nD) : Buf (Elt F) ((c : Thread nD τ).loc main_v24) := (dat3 (U8 m) c).arrAt 3 cfg3.N
def W9 (c : Dev nD) : Valuation τ sig (Elt F) := Function.update (W8 m c) main_v24 (o24 m c)
abbrev U9 : (c : Dev nD) → (b : Ref sig .tc) → Buf (Elt F) ((c : Thread nD τ).loc b) := fun c b => W9 m c b

def o25 (c : Dev nD) : Buf (Elt F) ((c : Thread nD τ).loc main_v25) := (dat4 (U9 m) c).arrAt 2 cfg4.N
def W10 (c : Dev nD) : Valuation τ sig (Elt F) := Function.update (W9 m c) main_v25 (o25 m c)
def W11 (c : Dev nD) : Valuation τ sig (Elt F) := StableHlo.after hostOps5 (W10 m c)
abbrev U11 : (c : Dev nD) → (b : Ref sig .tc) → Buf (Elt F) ((c : Thread nD τ).loc b) := fun c b => W11 m c b

def o29 (c : Dev nD) : Buf (Elt F) ((c : Thread nD τ).loc main_v29) := (dat5 (U11 m) c).arrAt 9 cfg5.N
def W12 (c : Dev nD) : Valuation τ sig (Elt F) := Function.update (W11 m c) main_v29 (o29 m c)

def W13 (c : Dev nD) : Valuation τ sig (Elt F) := StableHlo.after hostOps6 (W12 m c)

def outs : Outs (F := F) := fun J r c =>
  match J with
  | 4 => W4 m c r
  | 5 => W5 m c r
  | 7 => W7 m c r
  | 9 => W9 m c r
  | 10 => W10 m c r
  | 12 => W12 m c r
  | _ => V3 m c r

end Cert.KernelIdeal.Hand

end
-- ==== Proof.KI.Run.lean ====
import proofs.«403197_j58634893525189_3_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_self (c : Dev nD) : W4 m c main_v19 = o19 m c := by
  unfold W4; exact Function.update_self ..
theorem W4_ne (c : Dev nD) (b : Ref sig .tc) (h : b ≠ main_v19) : W4 m c b = V3 m c b := by
  unfold W4; exact Function.update_of_ne (StableHlo.devRef_ne_of_ne h) _ _
theorem W5_self (c : Dev nD) : W5 m c main_v20 = o20 m c := by
  unfold W5; exact Function.update_self ..
theorem W5_ne (c : Dev nD) (b : Ref sig .tc) (h : b ≠ main_v20) : W5 m c b = W4 m c b := by
  unfold W5; exact Function.update_of_ne (StableHlo.devRef_ne_of_ne h) _ _
theorem W7_self (c : Dev nD) : W7 m c main_v22 = o22 m c := by
  unfold W7; exact Function.update_self ..
theorem W7_ne (c : Dev nD) (b : Ref sig .tc) (h : b ≠ main_v22) : W7 m c b = W6 m c b := by
  unfold W7; exact Function.update_of_ne (StableHlo.devRef_ne_of_ne h) _ _
theorem W9_self (c : Dev nD) : W9 m c main_v24 = o24 m c := by
  unfold W9; exact Function.update_self ..
theorem W9_ne (c : Dev nD) (b : Ref sig .tc) (h : b ≠ main_v24) : W9 m c b = W8 m c b := by
  unfold W9; exact Function.update_of_ne (StableHlo.devRef_ne_of_ne h) _ _
theorem W10_self (c : Dev nD) : W10 m c main_v25 = o25 m c := by
  unfold W10; exact Function.update_self ..
theorem W10_ne (c : Dev nD) (b : Ref sig .tc) (h : b ≠ main_v25) : W10 m c b = W9 m c b := by
  unfold W10; exact Function.update_of_ne (StableHlo.devRef_ne_of_ne h) _ _
theorem W12_self (c : Dev nD) : W12 m c main_v29 = o29 m c := by
  unfold W12; exact Function.update_self ..
theorem W12_ne (c : Dev nD) (b : Ref sig .tc) (h : b ≠ main_v29) : W12 m c b = W11 m c b := by
  unfold W12; exact Function.update_of_ne (StableHlo.devRef_ne_of_ne h) _ _

theorem V4_eq (c : Dev nD) : V4 m (outs m) c = W4 m c := by
  show Function.update (V3 m c) main_v19 (W4 m c main_v19) = W4 m c
  rw [W4_self]; rfl
theorem V5_eq (c : Dev nD) : V5 m (outs m) c = W5 m c := by
  show Function.update (V4 m (outs m) c) main_v20 (W5 m c main_v20) = W5 m c
  rw [V4_eq, W5_self]; rfl
theorem V6_eq (c : Dev nD) : V6 m (outs m) c = W6 m c := by
  show StableHlo.after hostOps2 (V5 m (outs m) c) = W6 m c
  rw [V5_eq]; rfl
theorem V7_eq (c : Dev nD) : V7 m (outs m) c = W7 m c := by
  show Function.update (V6 m (outs m) c) main_v22 (W7 m c main_v22) = W7 m c
  rw [V6_eq, W7_self]; rfl
theorem V8_eq (c : Dev nD) : V8 m (outs m) c = W8 m c := by
  show StableHlo.after hostOps3 (V7 m (outs m) c) = W8 m c
  rw [V7_eq]; rfl
theorem V9_eq (c : Dev nD) : V9 m (outs m) c = W9 m c := by
  show Function.update (V8 m (outs m) c) main_v24 (W9 m c main_v24) = W9 m c
  rw [V8_eq, W9_self]; rfl
theorem V10_eq (c : Dev nD) : V10 m (outs m) c = W10 m c := by
  show Function.update (V9 m (outs m) c) main_v25 (W10 m c main_v25) = W10 m c
  rw [V9_eq, W10_self]; rfl
theorem V11_eq (c : Dev nD) : V11 m (outs m) c = W11 m c := by
  show StableHlo.after hostOps5 (V10 m (outs m) c) = W11 m c
  rw [V10_eq]; rfl
theorem V12_eq (c : Dev nD) : V12 m (outs m) c = W12 m c := by
  show Function.update (V11 m (outs m) c) main_v29 (W12 m c main_v29) = W12 m c
  rw [V11_eq, W12_self]; rfl
theorem V13_eq (c : Dev nD) : V13 m (outs m) c = W13 m c := by
  show StableHlo.after hostOps6 (V12 m (outs m) c) = W13 m c
  rw [V12_eq]; rfl

def pdats : (p : Fin 6) → (c : Dev nD) → Dat τ (Elt F) Unit ℕ (UR sig nD τ) ℕ (cfgs p) c
  | ⟨0, _⟩ => fun c => dat0 (U3 m) c
  | ⟨1, _⟩ => fun c => dat1 (U4 m) c
  | ⟨2, _⟩ => fun c => dat2 (U6 m) c
  | ⟨3, _⟩ => fun c => dat3 (U8 m) c
  | ⟨4, _⟩ => fun c => dat4 (U9 m) c
  | ⟨5, _⟩ => fun c => dat5 (U11 m) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev U5 : (c : Dev nD) → (b : Ref sig .tc) → Buf (Elt F) ((c : Thread nD τ).loc b) := fun c b => W5 m c b
abbrev U7 : (c : Dev nD) → (b : Ref sig .tc) → Buf (Elt F) ((c : Thread nD τ).loc b) := fun c b => W7 m c b
abbrev U10 : (c : Dev nD) → (b : Ref sig .tc) → Buf (Elt F) ((c : Thread nD τ).loc b) := fun c b => W10 m c b
abbrev U12 : (c : Dev nD) → (b : Ref sig .tc) → Buf (Elt F) ((c : Thread nD τ).loc b) := fun c b => W12 m c b

set_option backward.isDefEq.respectTransparency.types false in
def mkReg (p : Fin 6) (launch : Pipeline.LaunchFacts (nD := nD) (τ := τ) cfgs p) (Win Wout : Dev nD → Valuation τ sig (Elt F))
    (hbody : ∀ c, BodyObligation (pdats m p c) (defs₀ (F := F)) Variants.none () Set.univ)
    (hq : ∀ c w, (pdats m p c).q w = fullShare) (howed : ∀ c t, (pdats m p c).owed t = 0)
    (hrec : ∀ c x, x ∈ (pdats m p c).recorded 0)
    (hA : ∀ c w, (pdats m p c).A w = Win c (Pipeline.arrRef (cfgs p).spec w))
    (hΦ0 : ∀ c, Pipeline.ΦA (cfgs p).spec c ⊢ (pdats m p c).Φ 0)
    (hΦN : ∀ c, (pdats m p c).Φ (Fin.last (cfgs p).N) ⊢ Pipeline.ΦA (cfgs p).spec c)
    (hF : ∀ c w, (pdats m p c).arrAt w (cfgs p).N = Wout c (Pipeline.arrRef (cfgs p).spec w))
    (hrest : ∀ c b, b ∉ Finset.univ.image (Pipeline.arrRef (cfgs p).spec) → Wout c b = Win c b) :
    Pipeline.RegionSeg (pcfgs (F := F)) adm (pdats m) () defs₀ Variants.none L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m) launch.win launch.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c _)
      iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    rw [Pipeline.ownSems0_none]
    refine BIBase.Entails.trans (hΦN c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (fun b => Win c b) (fun b => Wout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

theorem hF0 (c : Dev nD) : ∀ w : Fin cfg0.W, (dat0 (U3 m) c).arrAt w cfg0.N = U4 m c (Pipeline.arrRef spec0 w)
  | ⟨0, _⟩ => ((dat0 (U3 m) c).arrAt_in 0 rfl _).trans ((A_eq0 (U3 m) c 0).trans (W4_ne m c _ (by decide)).symm)
  | ⟨1, _⟩ => ((dat0 (U3 m) c).arrAt_in 1 rfl _).trans ((A_eq0 (U3 m) c 1).trans (W4_ne m c _ (by decide)).symm)
  | ⟨2, _⟩ => ((dat0 (U3 m) c).arrAt_in 2 rfl _).trans ((A_eq0 (U3 m) c 2).trans (W4_ne m c _ (by decide)).symm)
  | ⟨3, _⟩ => (W4_self m c).symm

theorem hrest0 (c : Dev nD) : ∀ b, b ∉ Finset.univ.image (Pipeline.arrRef spec0) → U4 m c b = U3 m c b :=
  fun b hb => W4_ne m c b fun e => hb (Finset.mem_image.mpr ⟨3, Finset.mem_univ _, e.symm⟩)

def reg0 : Pipeline.RegionSeg (pcfgs (F := F)) adm (pdats m) () defs₀ Variants.none L lv 0 :=
  mkReg m 0 launch0 (V3 m) (W4 m) (body_obligation0 (U3 m)) (fun _ _ => rfl) (fun _ _ => rfl) (fun _ _ => trivial) (fun _ _ => rfl)
    (hin0 (U3 m)) (hout0 (U3 m)) (hF0 m) (hrest0 m)

theorem hF1 (c : Dev nD) : ∀ w : Fin cfg1.W, (dat1 (U4 m) c).arrAt w cfg1.N = U5 m c (Pipeline.arrRef spec1 w)
  | ⟨0, _⟩ => ((dat1 (U4 m) c).arrAt_in 0 rfl _).trans ((A_eq1 (U4 m) c 0).trans (W5_ne m c _ (by decide)).symm)
  | ⟨1, _⟩ => ((dat1 (U4 m) c).arrAt_in 1 rfl _).trans ((A_eq1 (U4 m) c 1).trans (W5_ne m c _ (by decide)).symm)
  | ⟨2, _⟩ => (W5_self m c).symm

theorem hrest1 (c : Dev nD) : ∀ b, b ∉ Finset.univ.image (Pipeline.arrRef spec1) → U5 m c b = U4 m c b :=
  fun b hb => W5_ne m c b fun e => hb (Finset.mem_image.mpr ⟨2, Finset.mem_univ _, e.symm⟩)

def reg1 : Pipeline.RegionSeg (pcfgs (F := F)) adm (pdats m) () defs₀ Variants.none L lv 1 :=
  mkReg m 1 launch1 (W4 m) (W5 m) (body_obligation1 (U4 m)) (fun _ _ => rfl) (fun _ _ => rfl) (fun _ _ => trivial) (fun _ _ => rfl)
    (hin1 (U4 m)) (hout1 (U4 m)) (hF1 m) (hrest1 m)

theorem hF2 (c : Dev nD) : ∀ w : Fin cfg2.W, (dat2 (U6 m) c).arrAt w cfg2.N = U7 m c (Pipeline.arrRef spec2 w)
  | ⟨0, _⟩ => ((dat2 (U6 m) c).arrAt_in 0 rfl _).trans ((A_eq2 (U6 m) c 0).trans (W7_ne m c _ (by decide)).symm)
  | ⟨1, _⟩ => ((dat2 (U6 m) c).arrAt_in 1 rfl _).trans ((A_eq2 (U6 m) c 1).trans (W7_ne m c _ (by decide)).symm)
  | ⟨2, _⟩ => ((dat2 (U6 m) c).arrAt_in 2 rfl _).trans ((A_eq2 (U6 m) c 2).trans (W7_ne m c _ (by decide)).symm)
  | ⟨3, _⟩ => ((dat2 (U6 m) c).arrAt_in 3 rfl _).trans ((A_eq2 (U6 m) c 3).trans (W7_ne m c _ (by decide)).symm)
  | ⟨4, _⟩ => ((dat2 (U6 m) c).arrAt_in 4 rfl _).trans ((A_eq2 (U6 m) c 4).trans (W7_ne m c _ (by decide)).symm)
  | ⟨5, _⟩ => (W7_self m c).symm

theorem hrest2 (c : Dev nD) : ∀ b, b ∉ Finset.univ.image (Pipeline.arrRef spec2) → U7 m c b = U6 m c b :=
  fun b hb => W7_ne m c b fun e => hb (Finset.mem_image.mpr ⟨5, Finset.mem_univ _, e.symm⟩)

def reg2 : Pipeline.RegionSeg (pcfgs (F := F)) adm (pdats m) () defs₀ Variants.none L lv 2 :=
  mkReg m 2 launch2 (W6 m) (W7 m) (body_obligation2 (U6 m)) (fun _ _ => rfl) (fun _ _ => rfl) (fun _ _ => trivial) (fun _ _ => rfl)
    (hin2 (U6 m)) (hout2 (U6 m)) (hF2 m) (hrest2 m)

theorem hF3 (c : Dev nD) : ∀ w : Fin cfg3.W, (dat3 (U8 m) c).arrAt w cfg3.N = U9 m c (Pipeline.arrRef spec3 w)
  | ⟨0, _⟩ => ((dat3 (U8 m) c).arrAt_in 0 rfl _).trans ((A_eq3 (U8 m) c 0).trans (W9_ne m c _ (by decide)).symm)
  | ⟨1, _⟩ => ((dat3 (U8 m) c).arrAt_in 1 rfl _).trans ((A_eq3 (U8 m) c 1).trans (W9_ne m c _ (by decide)).symm)
  | ⟨2, _⟩ => ((dat3 (U8 m) c).arrAt_in 2 rfl _).trans ((A_eq3 (U8 m) c 2).trans (W9_ne m c _ (by decide)).symm)
  | ⟨3, _⟩ => (W9_self m c).symm

theorem hrest3 (c : Dev nD) : ∀ b, b ∉ Finset.univ.image (Pipeline.arrRef spec3) → U9 m c b = U8 m c b :=
  fun b hb => W9_ne m c b fun e => hb (Finset.mem_image.mpr ⟨3, Finset.mem_univ _, e.symm⟩)

def reg3 : Pipeline.RegionSeg (pcfgs (F := F)) adm (pdats m) () defs₀ Variants.none L lv 3 :=
  mkReg m 3 launch3 (W8 m) (W9 m) (body_obligation3 (U8 m)) (fun _ _ => rfl) (fun _ _ => rfl) (fun _ _ => trivial) (fun _ _ => rfl)
    (hin3 (U8 m)) (hout3 (U8 m)) (hF3 m) (hrest3 m)

theorem hF4 (c : Dev nD) : ∀ w : Fin cfg4.W, (dat4 (U9 m) c).arrAt w cfg4.N = U10 m c (Pipeline.arrRef spec4 w)
  | ⟨0, _⟩ => ((dat4 (U9 m) c).arrAt_in 0 rfl _).trans ((A_eq4 (U9 m) c 0).trans (W10_ne m c _ (by decide)).symm)
  | ⟨1, _⟩ => ((dat4 (U9 m) c).arrAt_in 1 rfl _).trans ((A_eq4 (U9 m) c 1).trans (W10_ne m c _ (by decide)).symm)
  | ⟨2, _⟩ => (W10_self m c).symm

theorem hrest4 (c : Dev nD) : ∀ b, b ∉ Finset.univ.image (Pipeline.arrRef spec4) → U10 m c b = U9 m c b :=
  fun b hb => W10_ne m c b fun e => hb (Finset.mem_image.mpr ⟨2, Finset.mem_univ _, e.symm⟩)

def reg4 : Pipeline.RegionSeg (pcfgs (F := F)) adm (pdats m) () defs₀ Variants.none L lv 4 :=
  mkReg m 4 launch4 (W9 m) (W10 m) (body_obligation4 (U9 m)) (fun _ _ => rfl) (fun _ _ => rfl) (fun _ _ => trivial) (fun _ _ => rfl)
    (hin4 (U9 m)) (hout4 (U9 m)) (hF4 m) (hrest4 m)

theorem in5 : ∀ w : Fin cfg5.W, w ≠ 9 → (cfg5.win w).isOut = false ∧ Pipeline.arrRef spec5 w ≠ main_v29 := by decide

theorem hF5 (c : Dev nD) (w : Fin cfg5.W) : (dat5 (U11 m) c).arrAt w cfg5.N = U12 m c (Pipeline.arrRef spec5 w) := by
  by_cases hw : w = 9
  · subst hw; exact (W12_self m c).symm
  · exact ((dat5 (U11 m) c).arrAt_in w (in5 w hw).1 _).trans ((A_eq5 (U11 m) c w).trans (W12_ne m c _ (in5 w hw).2).symm)

theorem hrest5 (c : Dev nD) : ∀ b, b ∉ Finset.univ.image (Pipeline.arrRef spec5) → U12 m c b = U11 m c b :=
  fun b hb => W12_ne m c b fun e => hb (Finset.mem_image.mpr ⟨9, Finset.mem_univ _, e.symm⟩)

def reg5 : Pipeline.RegionSeg (pcfgs (F := F)) adm (pdats m) () defs₀ Variants.none L lv 5 :=
  mkReg m 5 launch5 (W11 m) (W12 m) (body_obligation5 (U11 m)) (fun _ _ => rfl) (fun _ _ => rfl) (fun _ _ => trivial) (fun _ _ => rfl)
    (hin5 (U11 m)) (hout5 (U11 m)) (hF5 m) (hrest5 m)

theorem hpre0 (c : Dev nD) : iprop(StableHlo.held (c : Thread nD τ) (Pipeline.ucRefs τ sig) (V3 m c) ∗ R c) ⊢ (reg0 m).pre c := .rfl
theorem hpost0 (c : Dev nD) : (reg0 m).post c ⊢ iprop(StableHlo.held (c : Thread nD τ) (Pipeline.ucRefs τ sig) (V4 m (outs m) c) ∗ R c) := by
  rw [V4_eq]; exact .rfl
theorem hpre1 (c : Dev nD) : iprop(StableHlo.held (c : Thread nD τ) (Pipeline.ucRefs τ sig) (V4 m (outs m) c) ∗ R c) ⊢ (reg1 m).pre c := by
  rw [V4_eq]; exact .rfl
theorem hpost1 (c : Dev nD) : (reg1 m).post c ⊢ iprop(StableHlo.held (c : Thread nD τ) (Pipeline.ucRefs τ sig) (V5 m (outs m) c) ∗ R c) := by
  rw [V5_eq]; exact .rfl
theorem hpre2 (c : Dev nD) : iprop(StableHlo.held (c : Thread nD τ) (Pipeline.ucRefs τ sig) (V6 m (outs m) c) ∗ R c) ⊢ (reg2 m).pre c := by
  rw [V6_eq]; exact .rfl
theorem hpost2 (c : Dev nD) : (reg2 m).post c ⊢ iprop(StableHlo.held (c : Thread nD τ) (Pipeline.ucRefs τ sig) (V7 m (outs m) c) ∗ R c) := by
  rw [V7_eq]; exact .rfl
theorem hpre3 (c : Dev nD) : iprop(StableHlo.held (c : Thread nD τ) (Pipeline.ucRefs τ sig) (V8 m (outs m) c) ∗ R c) ⊢ (reg3 m).pre c := by
  rw [V8_eq]; exact .rfl
theorem hpost3 (c : Dev nD) : (reg3 m).post c ⊢ iprop(StableHlo.held (c : Thread nD τ) (Pipeline.ucRefs τ sig) (V9 m (outs m) c) ∗ R c) := by
  rw [V9_eq]; exact .rfl
theorem hpre4 (c : Dev nD) : iprop(StableHlo.held (c : Thread nD τ) (Pipeline.ucRefs τ sig) (V9 m (outs m) c) ∗ R c) ⊢ (reg4 m).pre c := by
  rw [V9_eq]; exact .rfl
theorem hpost4 (c : Dev nD) : (reg4 m).post c ⊢ iprop(StableHlo.held (c : Thread nD τ) (Pipeline.ucRefs τ sig) (V10 m (outs m) c) ∗ R c) := by
  rw [V10_eq]; exact .rfl
theorem hpre5 (c : Dev nD) : iprop(StableHlo.held (c : Thread nD τ) (Pipeline.ucRefs τ sig) (V11 m (outs m) c) ∗ R c) ⊢ (reg5 m).pre c := by
  rw [V11_eq]; exact .rfl
theorem hpost5 (c : Dev nD) : (reg5 m).post c ⊢ iprop(StableHlo.held (c : Thread nD τ) (Pipeline.ucRefs τ sig) (V12 m (outs m) c) ∗ R c) := by
  rw [V12_eq]; exact .rfl

theorem hE6 (c : Dev nD) : (R c : sProp 𝕄) ⊢ iprop(∃ W, owes (c : Thread nD τ) (0 : CellTallies nD τ sig Unit) W) := by
  iintro ⟨-, HO⟩; iexact HO

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W13 m c b) := by
  refine Pipeline.θ_run_regions_kit_dev (pcfgs (F := F)) adm (pdats m) () cellOf_inj emb₁ defs₀ Variants.none L lv m ρ main
    (segs m (outs m) Variants.none L lv (fun _ => R) () (pdats m) (reg0 m) (reg1 m) (reg2 m) (reg3 m) (reg4 m) (reg5 m))
    (fun c Q => by
      rewrite [main_chain c, Pipeline.Seg.run_eq_chain,
        show (segs m (outs m) Variants.none L lv (fun _ => R) () (pdats m) (reg0 m) (reg1 m) (reg2 m) (reg3 m) (reg4 m) (reg5 m) c).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := hu₀)
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, .rfl, .rfl, hpre0 m c, (hpost0 m c).trans (hpre1 m c), hpost1 m c, hpre2 m c, hpost2 m c, hpre3 m c,
      (hpost3 m c).trans (hpre4 m c), hpost4 m c, hpre5 m c, hpost5 m c, sep_mono .rfl (hE6 c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V13 m (outs m) c b)
    (hfin := fun c s' => by
      iintro ⟨Hh, HSI⟩
      unfold StableHlo.held
      imodintro
      iapply (pointsTo_read_all (Pipeline.ucRefs τ sig) (fun b => ((c : Thread nD τ).1, b)) (V13 m (outs m) c) s')
      isplitl [Hh] <;> iassumption)
    (hQ := fun s h c b hb => (h c b hb).trans (congrFun (V13_eq m c) b))

theorem W13_main_arg0 (c : Dev nD) : W13 m c main_arg0 = m ((c : Thread nD τ).loc main_arg0) :=
  (congrFun (V13_eq m c) _).symm.trans (V13_main_arg0 m (outs m) c)
theorem W13_main_arg1 (c : Dev nD) : W13 m c main_arg1 = m ((c : Thread nD τ).loc main_arg1) :=
  (congrFun (V13_eq m c) _).symm.trans (V13_main_arg1 m (outs m) c)
theorem W13_main_arg2 (c : Dev nD) : W13 m c main_arg2 = m ((c : Thread nD τ).loc main_arg2) :=
  (congrFun (V13_eq m c) _).symm.trans (V13_main_arg2 m (outs m) c)
theorem W13_main_arg3 (c : Dev nD) : W13 m c main_arg3 = m ((c : Thread nD τ).loc main_arg3) :=
  (congrFun (V13_eq m c) _).symm.trans (V13_main_arg3 m (outs m) c)
theorem W13_main_arg4 (c : Dev nD) : W13 m c main_arg4 = m ((c : Thread nD τ).loc main_arg4) :=
  (congrFun (V13_eq m c) _).symm.trans (V13_main_arg4 m (outs m) c)
theorem W13_main_arg5 (c : Dev nD) : W13 m c main_arg5 = m ((c : Thread nD τ).loc main_arg5) :=
  (congrFun (V13_eq m c) _).symm.trans (V13_main_arg5 m (outs m) c)
theorem W13_main_arg6 (c : Dev nD) : W13 m c main_arg6 = m ((c : Thread nD τ).loc main_arg6) :=
  (congrFun (V13_eq m c) _).symm.trans (V13_main_arg6 m (outs m) c)
theorem W13_main_arg7 (c : Dev nD) : W13 m c main_arg7 = m ((c : Thread nD τ).loc main_arg7) :=
  (congrFun (V13_eq m c) _).symm.trans (V13_main_arg7 m (outs m) c)
theorem W13_main_arg8 (c : Dev nD) : W13 m c main_arg8 = m ((c : Thread nD τ).loc main_arg8) :=
  (congrFun (V13_eq m c) _).symm.trans (V13_main_arg8 m (outs m) c)
theorem W13_main_arg9 (c : Dev nD) : W13 m c main_arg9 = m ((c : Thread nD τ).loc main_arg9) :=
  (congrFun (V13_eq m c) _).symm.trans (V13_main_arg9 m (outs m) c)
theorem W13_main_arg10 (c : Dev nD) : W13 m c main_arg10 = m ((c : Thread nD τ).loc main_arg10) :=
  (congrFun (V13_eq m c) _).symm.trans (V13_main_arg10 m (outs m) c)
theorem W13_main_arg11 (c : Dev nD) : W13 m c main_arg11 = m ((c : Thread nD τ).loc main_arg11) :=
  (congrFun (V13_eq m c) _).symm.trans (V13_main_arg11 m (outs m) c)
theorem W13_main_arg12 (c : Dev nD) : W13 m c main_arg12 = m ((c : Thread nD τ).loc main_arg12) :=
  (congrFun (V13_eq m c) _).symm.trans (V13_main_arg12 m (outs m) c)
theorem W13_main_arg13 (c : Dev nD) : W13 m c main_arg13 = m ((c : Thread nD τ).loc main_arg13) :=
  (congrFun (V13_eq m c) _).symm.trans (V13_main_arg13 m (outs m) c)

theorem run_full : θ_run defs (onTc (τ := τ) (main (F := F))) ⟨m, fun _ => 0, ρ⟩ (fun r => ∀ c : Dev nD,
      r.2.mem ((c.tc : Thread nD τ).loc main_v30) = W13 m c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v30 (by decide)),
     (h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c),
     (h c _ (mem_uc main_arg4 (by decide))).trans (W13_main_arg4 m c),
     (h c _ (mem_uc main_arg5 (by decide))).trans (W13_main_arg5 m c),
     (h c _ (mem_uc main_arg6 (by decide))).trans (W13_main_arg6 m c),
     (h c _ (mem_uc main_arg7 (by decide))).trans (W13_main_arg7 m c),
     (h c _ (mem_uc main_arg8 (by decide))).trans (W13_main_arg8 m c),
     (h c _ (mem_uc main_arg9 (by decide))).trans (W13_main_arg9 m c),
     (h c _ (mem_uc main_arg10 (by decide))).trans (W13_main_arg10 m c),
     (h c _ (mem_uc main_arg11 (by decide))).trans (W13_main_arg11 m c),
     (h c _ (mem_uc main_arg12 (by decide))).trans (W13_main_arg12 m c),
     (h c _ (mem_uc main_arg13 (by decide))).trans (W13_main_arg13 m c)⟩) (run_all m ρ)

end Cert.KernelIdeal.Hand

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev row2 {n0 n1 : ℕ} (a : (⟨2, ![n0, n1]⟩ : Shape).Idx → EReal) (i : Fin n0) : Fin n1 → EReal := fun k => a (ix2 i k)

abbrev mat2 {n0 n1 : ℕ} (a : (⟨2, ![n0, n1]⟩ : Shape).Idx → EReal) : Fin n0 → Fin n1 → EReal := fun k j => a (ix2 k j)

abbrev vec1 {n : ℕ} (a : (⟨1, ![n]⟩ : Shape).Idx → EReal) : Fin n → EReal := fun k => a (ix1 k)

def lin {n m : ℕ} (w : Fin n → Fin m → EReal) (b : Fin m → EReal) (x : Fin n → EReal) : Fin m → EReal :=
  fun j => max ((∑ k, x k * w k j) + b j) 0

def aff {n m : ℕ} (w : Fin n → Fin m → EReal) (b : Fin m → EReal) (x : Fin n → EReal) : Fin m → EReal :=
  fun j => (∑ k, x k * w k j) + b j

def cat (x a : Fin 128 → EReal) : Fin 256 → EReal :=
  fun k => if h : k.val < 128 then x ⟨k.val, h⟩ else a ⟨k.val - 128, by omega⟩

def upd (one eps : EReal) (w : Fin 256 → Fin 128 → EReal) (b : Fin 128 → EReal)
    (x s : Fin 128 → EReal) (cnt : EReal) : Fin 128 → EReal :=
  fun j =>
    Ideal.div (lin w b (cat x (fun k => Ideal.div (s k) (max cnt one))) j)
      (max (Ideal.sqrt (∑ j', lin w b (cat x (fun k => Ideal.div (s k) (max cnt one))) j'
                              * lin w b (cat x (fun k => Ideal.div (s k) (max cnt one))) j')) eps)

def lsm {m : ℕ} (o : Fin m → EReal) : Fin m → EReal :=
  fun j => (o j - Finset.univ.sup o) - Ideal.log (∑ j', Ideal.exp (o j' - Finset.univ.sup o))

def head (w1 : Fin 128 → Fin 128 → EReal) (b1 : Fin 128 → EReal) (w2 : Fin 128 → Fin 64 → EReal) (b2 : Fin 64 → EReal)
    (h : Fin 128 → EReal) : Fin 64 → EReal :=
  lsm (aff w2 b2 (aff w1 b1 h))

theorem lin_nonneg {n m : ℕ} (w : Fin n → Fin m → EReal) (b : Fin m → EReal) (x : Fin n → EReal) (j : Fin m) :
    0 ≤ lin w b x j := le_max_right _ _

theorem div_nonneg_of_pos {a c : EReal} (ha : 0 ≤ a) (hc : 0 < c) : 0 ≤ Ideal.div a c := by
  unfold Ideal.div
  rw [if_neg (ne_of_gt hc)]
  exact mul_nonneg ha (EReal.inv_nonneg_of_nonneg hc.le)

theorem upd_nonneg (one eps : EReal) (heps : 0 < eps) (w : Fin 256 → Fin 128 → EReal) (b : Fin 128 → EReal)
    (x s : Fin 128 → EReal) (cnt : EReal) (j : Fin 128) : 0 ≤ upd one eps w b x s cnt j := by
  unfold upd
  exact div_nonneg_of_pos (lin_nonneg _ _ _ _) (lt_of_lt_of_le heps (le_max_right _ _))

theorem relu_upd (one eps : EReal) (heps : 0 < eps) (w : Fin 256 → Fin 128 → EReal) (b : Fin 128 → EReal)
    (x s : Fin 128 → EReal) (cnt : EReal) (j : Fin 128) :
    max (upd one eps w b x s cnt j) 0 = upd one eps w b x s cnt j :=
  max_eq_left (upd_nonneg one eps heps w b x s cnt j)

theorem ones_mul_eq {E : Type} (T : Finset E) (c : EReal) :
    (∑ _e ∈ T, (1 : EReal)) * c = ∑ _e ∈ T, c := by
  classical
  induction T using Finset.induction_on with
  | empty => simp
  | insert a T ha ih =>
    rw [Finset.sum_insert ha, Finset.sum_insert ha,
      EReal.right_distrib_of_nonneg zero_le_one (Finset.sum_nonneg (fun _ _ => zero_le_one)), one_mul, ih]

theorem adjacency_sum {E : Type} [Fintype E] {N : ℕ} (src dst : E → Fin N) (y : Fin N → EReal) (d : Fin N) :
    ∑ s : Fin N, (∑ e ∈ Finset.univ.filter (fun e => dst e = d ∧ src e = s), (1 : EReal)) * y s
      = ∑ e ∈ Finset.univ.filter (fun e => dst e = d), y (src e) := by
  classical

  have h1 : ∀ s : Fin N,
      (∑ e ∈ Finset.univ.filter (fun e => dst e = d ∧ src e = s), (1 : EReal)) * y s
        = ∑ e ∈ (Finset.univ.filter (fun e => dst e = d)).filter (fun e => src e = s), y (src e) := by
    intro s
    rw [ones_mul_eq, Finset.filter_filter]
    refine Finset.sum_congr rfl (fun e he => ?_)
    rw [(Finset.mem_filter.mp he).2.2]

  rw [Finset.sum_congr rfl (fun s _ => h1 s)]
  exact Finset.sum_fiberwise _ src (fun e => y (src e))

theorem ofBits_one : Ideal.ofBits .f32 0x3F800000#32 = (1 : EReal) := by
  rw [show (1 : EReal) = ((1 : ℝ) : EReal) by norm_cast]
  simp [Ideal.ofBits, Ideal.ieee, -EReal.coe_mul]; norm_num

theorem ofBits_zero : Ideal.ofBits .f32 0x00000000#32 = (0 : EReal) := Ideal.ofBits_zero_f32

theorem ofBits_eps_pos : (0 : EReal) < Ideal.ofBits .f32 0x2B8CBCCC#32 := by
  simp [Ideal.ofBits, Ideal.ieee, -EReal.coe_mul]

theorem ofBits_neg_inf : Ideal.ofBits .f32 0xFF800000#32 = (⊥ : EReal) := by
  simp [Ideal.ofBits, Ideal.ieee]

theorem count_eq (E : Type) [Fintype E] (p : E → Prop) [DecidablePred p] :
    (0 : EReal) + ∑ e ∈ Finset.univ.filter p, (1 : EReal) = ∑ e ∈ Finset.univ.filter p, (1 : EReal) :=
  zero_add _

end Cert.Spec

end
-- ==== Proof.Model.lean ====
import proofs.«403197_j58634893525189_3_alg».proof.Proof.Spec

noncomputable section

namespace Cert.Spec

open Idealize.ShloMosaic Idealize.ShloMosaic.ValueIdx

abbrev EdgeArr : Type := (⟨2, ![2, 640000]⟩ : Shape).Idx → BitVec 32

def InRange (x1 : EdgeArr) : Prop :=
  ∀ (r : Fin 2) (e : Fin 640000), 0 ≤ (x1 (ix2 r e)).toInt ∧ (x1 (ix2 r e)).toInt < 10000

def node (x1 : EdgeArr) (h : InRange x1) (r : Fin 2) (e : Fin 640000) : Fin 10000 :=
  ⟨((x1 (ix2 r e)).toInt).toNat, by have := h r e; omega⟩

theorem node_val (x1 : EdgeArr) (h : InRange x1) (r : Fin 2) (e : Fin 640000) :
    (((node x1 h r e).val : ℕ) : ℤ) = (x1 (ix2 r e)).toInt := by
  unfold node; have := h r e; simp only; omega

section Model

variable (one eps : EReal) (src dst : Fin 640000 → Fin 10000)
variable (wl0 : Fin 128 → Fin 128 → EReal) (bl0 : Fin 128 → EReal) (wa0 : Fin 256 → Fin 128 → EReal) (ba0 : Fin 128 → EReal)
variable (wl1 : Fin 128 → Fin 128 → EReal) (bl1 : Fin 128 → EReal) (wa1 : Fin 256 → Fin 128 → EReal) (ba1 : Fin 128 → EReal)
variable (w1 : Fin 128 → Fin 128 → EReal) (b1 : Fin 128 → EReal) (w2 : Fin 128 → Fin 64 → EReal) (b2 : Fin 64 → EReal)

def cntR (d : Fin 10000) : EReal := ∑ e ∈ Finset.univ.filter (fun e => dst e = d), one

def segsum (msg : Fin 640000 → Fin 128 → EReal) (d : Fin 10000) : Fin 128 → EReal :=
  fun j => ∑ e ∈ Finset.univ.filter (fun e => dst e = d), msg e j

def layerR (wl : Fin 128 → Fin 128 → EReal) (bl : Fin 128 → EReal) (wa : Fin 256 → Fin 128 → EReal) (ba : Fin 128 → EReal)
    (x : Fin 10000 → Fin 128 → EReal) : Fin 10000 → Fin 128 → EReal :=
  fun d j => max (upd one eps wa ba (x d) (segsum dst (fun e => lin wl bl (x (src e))) d) (cntR one dst d) j) 0

def modelR (x : Fin 10000 → Fin 128 → EReal) : Fin 10000 → Fin 64 → EReal :=
  fun d => head w1 b1 w2 b2
    (layerR one eps src dst wl1 bl1 wa1 ba1 (layerR one eps src dst wl0 bl0 wa0 ba0 x) d)

def pad (x : Fin 10000 → Fin 128 → EReal) : Fin 10240 → Fin 128 → EReal :=
  fun s => if h : s.val < 10000 then x ⟨s.val, h⟩ else fun _ => 0

def adj (d s : Fin 10240) : EReal :=
  ∑ e ∈ Finset.univ.filter (fun e => (dst e).val = d.val ∧ (src e).val = s.val), one

def cntK (d : Fin 10240) : EReal := ∑ e ∈ Finset.univ.filter (fun e => (dst e).val = d.val), one

def layerK (wl : Fin 128 → Fin 128 → EReal) (bl : Fin 128 → EReal) (wa : Fin 256 → Fin 128 → EReal) (ba : Fin 128 → EReal)
    (xp : Fin 10240 → Fin 128 → EReal) : Fin 10240 → Fin 128 → EReal :=
  fun d => upd one eps wa ba (xp d) (fun j => ∑ s : Fin 10240, adj one src dst d s * lin wl bl (xp s) j) (cntK one dst d)

def modelK (x : Fin 10000 → Fin 128 → EReal) : Fin 10240 → Fin 64 → EReal :=
  fun d => head w1 b1 w2 b2
    (layerK one eps src dst wl1 bl1 wa1 ba1 (layerK one eps src dst wl0 bl0 wa0 ba0 (pad x)) d)

theorem layerK_eq_layerR (h1 : one = 1) (heps : 0 < eps)
    (wl : Fin 128 → Fin 128 → EReal) (bl : Fin 128 → EReal) (wa : Fin 256 → Fin 128 → EReal) (ba : Fin 128 → EReal)
    (xp : Fin 10240 → Fin 128 → EReal) (x : Fin 10000 → Fin 128 → EReal)
    (hx : ∀ d : Fin 10000, xp (Fin.castLE (by norm_num) d) = x d) (d : Fin 10000) :
    layerK one eps src dst wl bl wa ba xp (Fin.castLE (by norm_num) d) = layerR one eps src dst wl bl wa ba x d := by
  subst h1

  have hc : cntK 1 dst (Fin.castLE (by norm_num) d) = cntR 1 dst d := by
    unfold cntK cntR
    refine Finset.sum_congr (Finset.filter_congr (fun e _ => ?_)) (fun _ _ => rfl)
    simp only [Fin.coe_castLE, Fin.ext_iff]

  have hs : (fun j => ∑ s : Fin 10240, adj 1 src dst (Fin.castLE (by norm_num) d) s * lin wl bl (xp s) j)
      = segsum dst (fun e => lin wl bl (x (src e))) d := by
    funext j
    unfold segsum
    rw [← Spec.adjacency_sum src dst (fun s => lin wl bl (x s) j) d]
    symm
    refine Finset.sum_of_injOn (Fin.castLE (by norm_num : 10000 ≤ 10240))
      (Fin.castLE_injective _).injOn (by simp) ?_ ?_
    ·
      intro s _ hs
      have hge : ¬ s.val < 10000 := fun hlt => hs ⟨⟨s.val, hlt⟩, by simp, Fin.ext rfl⟩
      have hempty : Finset.univ.filter (fun e => (dst e).val = (Fin.castLE (by norm_num : 10000 ≤ 10240) d).val
          ∧ (src e).val = s.val) = ∅ := by
        refine Finset.filter_eq_empty_iff.mpr (fun e _ he => ?_)
        have := (src e).isLt
        omega
      unfold adj
      rw [hempty, Finset.sum_empty, zero_mul]
    ·
      intro s _
      unfold adj
      rw [hx s]
      refine congrArg (fun c => c * lin wl bl (x s) j) ?_
      refine Finset.sum_congr (Finset.filter_congr (fun e _ => ?_)) (fun _ _ => rfl)
      simp only [Fin.coe_castLE, Fin.ext_iff]
  funext j
  unfold layerK layerR
  rw [Spec.relu_upd 1 eps heps, hx d, hc, hs]

theorem modelK_eq_modelR (h1 : one = 1) (heps : 0 < eps) (x : Fin 10000 → Fin 128 → EReal) (d : Fin 10000) :
    modelK one eps src dst wl0 bl0 wa0 ba0 wl1 bl1 wa1 ba1 w1 b1 w2 b2 x (Fin.castLE (by norm_num) d)
      = modelR one eps src dst wl0 bl0 wa0 ba0 wl1 bl1 wa1 ba1 w1 b1 w2 b2 x d := by

  have hpad : ∀ d' : Fin 10000, pad x (Fin.castLE (by norm_num) d') = x d' := by
    intro d'
    unfold pad
    rw [dif_pos (show (Fin.castLE (by norm_num : 10000 ≤ 10240) d').val < 10000 from d'.isLt)]
    rfl

  have hL0 : ∀ d' : Fin 10000,
      layerK one eps src dst wl0 bl0 wa0 ba0 (pad x) (Fin.castLE (by norm_num) d')
        = layerR one eps src dst wl0 bl0 wa0 ba0 x d' :=
    fun d' => layerK_eq_layerR one eps src dst h1 heps wl0 bl0 wa0 ba0 (pad x) x hpad d'
  unfold modelK modelR
  rw [layerK_eq_layerR one eps src dst h1 heps wl1 bl1 wa1 ba1 _ _ hL0 d]

end Model

end Cert.Spec

end
-- ==== Proof.KI.KHostA.lean ====
import proofs.«403197_j58634893525189_3_alg».proof.Proof.KI.Chain
import proofs.«403197_j58634893525189_3_alg».proof.Proof.Model
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

private theorem toNat_lt_of_range (a : BitVec 32) (h0 : 0 ≤ a.toInt) (h1 : a.toInt < 10000) : a.toNat < 10000 := by
  have hlt := a.isLt
  rw [BitVec.toInt_eq_toNat_cond] at h0 h1
  split_ifs at h0 h1 <;> omega

private theorem toInt_of_lt (a : BitVec 32) (h : a.toNat < 2 ^ 31) : a.toInt = (a.toNat : ℤ) :=
  Idealize.ShloMosaic.StableHlo.Predicate.toInt_eq_toNat_of_lt h

private theorem flat_toInt (a b : BitVec 32) (ha : a.toNat < 10000) (hb : b.toNat < 10000) :
    (IntOp.addi (IntOp.muli a 10240#32) b).toInt = ((a.toNat * 10240 + b.toNat : ℕ) : ℤ) := by
  have e : (IntOp.addi (IntOp.muli a 10240#32) b).toNat = a.toNat * 10240 + b.toNat := by
    show (a * 10240#32 + b).toNat = _
    rw [BitVec.toNat_add, BitVec.toNat_mul]
    simp only [BitVec.toNat_ofNat]
    omega
  rw [toInt_of_lt _ (by rw [e]; omega), e]

section Scatter
variable {n : ℕ} (wf : ScatterDims.WF (⟨1, ![n]⟩ : Shape) S640000x1 S640000 [] [0] [0] 1)

private abbrev sd1 : ScatterDims (⟨1, ![n]⟩ : Shape) S640000x1 S640000 := ⟨[], [0], [0], 1, wf⟩

private theorem sd1_siIdx (j : S640000.Idx) (c0 : Fin (sd1 wf).scatterDimsToOperandDims.length) :
    (sd1 wf).siIdx j c0 = ix2 (j 0) (0 : Fin 1) := by
  funext b
  match b with
  | ⟨0, _⟩ =>
    unfold ScatterDims.siIdx
    rw [dif_neg (Nat.zero_ne_one)]
    apply Fin.ext
    rfl
  | ⟨1, _⟩ =>
    unfold ScatterDims.siIdx
    rw [dif_pos (by rfl)]
    apply Fin.ext
    have := c0.isLt
    show c0.val = 0
    have h1 : (sd1 wf).scatterDimsToOperandDims.length = 1 := rfl
    omega

private theorem sd1_start (j : S640000.Idx) (idx : IVec S640000x1 32) (a : Fin 1) :
    (sd1 wf).start j idx a = (idx (ix2 (j 0) (0 : Fin 1))).toInt := by
  have ha : a = 0 := Subsingleton.elim _ _
  subst ha
  unfold ScatterDims.start
  rw [dif_pos (show (0 : Fin 1) ∈ (sd1 wf).scatterDimsToOperandDims from List.mem_singleton_self _), sd1_siIdx]
  rfl

private theorem sd1_window (j : S640000.Idx) (a : Fin 1) : (sd1 wf).window j a = 0 := by
  have ha : a = 0 := Subsingleton.elim _ _
  subst ha
  unfold ScatterDims.window
  have h : (0 : Fin 1) ∉ (sd1 wf).sKept := by
    show (0 : Fin 1) ∉ ((List.finRange 1).filter (· ∉ [(0 : Fin 1)]))
    decide
  rw [dif_neg h]

private theorem sd1_resultIdx (j : S640000.Idx) (idx : IVec S640000x1 32) (k : Fin n) :
    (sd1 wf).resultIdx? j idx = some (ix1 k) ↔ (idx (ix2 (j 0) (0 : Fin 1))).toInt = (k.val : ℤ) := by
  unfold ScatterDims.resultIdx?
  simp only [sd1_start, sd1_window]
  have hk := k.isLt
  constructor
  · intro hh
    split at hh
    · next h =>
      have h0 := (h 0).1
      have hv := congrArg Fin.val (congrFun (Option.some.inj hh) 0)
      replace hv : ((idx (ix2 (j 0) (0 : Fin 1))).toInt + ((0 : ℕ) : ℤ)).toNat = k.val := hv
      omega
    · exact absurd hh (by simp)
  · intro hX
    have hall : ∀ a : Fin 1, 0 ≤ (idx (ix2 (j 0) (0 : Fin 1))).toInt + ((0 : ℕ) : ℤ) ∧ (idx (ix2 (j 0) (0 : Fin 1))).toInt + ((0 : ℕ) : ℤ) < ((![n] a : ℕ) : ℤ) := fun a => by
      have ha : a = 0 := Subsingleton.elim _ _
      subst ha
      show 0 ≤ (idx (ix2 (j 0) (0 : Fin 1))).toInt + ((0 : ℕ) : ℤ) ∧ (idx (ix2 (j 0) (0 : Fin 1))).toInt + ((0 : ℕ) : ℤ) < ((n : ℕ) : ℤ)
      omega
    rw [dif_pos hall]
    congr 1
    funext a
    have ha : a = 0 := Subsingleton.elim _ _
    subst ha
    apply Fin.ext
    show ((idx (ix2 (j 0) (0 : Fin 1))).toInt + ((0 : ℕ) : ℤ)).toNat = k.val
    omega

private def idxEquiv1 {n : ℕ} : (⟨1, ![n]⟩ : Shape).Idx ≃ Fin n where
  toFun j := j 0
  invFun e := ix1 e
  left_inv j := (eq_ix1 j).symm
  right_inv _ := rfl

private theorem sd1_count (x : (⟨1, ![n]⟩ : Shape).Idx → EReal) (idx : IVec S640000x1 32) (upd : S640000.Idx → EReal) (k : Fin n) :
    Ideal.hostScatterAdd (sd1 wf) x idx upd (ix1 k)
      = x (ix1 k) + ∑ e ∈ Finset.univ.filter (fun e : Fin 640000 => (idx (ix2 e (0 : Fin 1))).toInt = (k.val : ℤ)), upd (ix1 e) := by
  unfold Ideal.hostScatterAdd
  refine congrArg (x (ix1 k) + ·) ?_
  refine Finset.sum_equiv (idxEquiv1 (n := 640000)) (fun j => ?_) (fun j _ => congrArg upd (eq_ix1 j))
  simp only [Finset.mem_filter, Finset.mem_univ, true_and]
  exact sd1_resultIdx wf j idx k

end Scatter

private abbrev edgeRow0 (x1 : Spec.EdgeArr) : IVec S640000 32 :=
  shapeCast S640000 (extractStridedSlice S1x640000 ![0, 0] x1 slices_S2x640000_S1x640000_0_0) shapeCasts_S1x640000_S640000
private abbrev edgeRow1 (x1 : Spec.EdgeArr) : IVec S640000 32 :=
  shapeCast S640000 (extractStridedSlice S1x640000 ![1, 0] x1 slices_S2x640000_S1x640000_1_0) shapeCasts_S1x640000_S640000

set_option maxHeartbeats 2000000 in
private theorem v12_term : (U3 m c main_v12 : S10240x10240.Idx → EReal)
    = truncf .bf16 (shapeCast S10240x10240
        (Host.scatterAdd scatter_S104857600_S640000x1_S640000_n_0_0_1
          (broadcastInDim S104857600 ![] bcast_S_S104857600 (constant (F := Ideal) S_ .f32 0x00000000#32))
          (broadcastInDim S640000x1 ![0] bcast_S640000_S640000x1_0
            (addi (muli (edgeRow1 (m ((c : Thread nD τ).loc main_arg1))) (broadcastInDim S640000 ![] bcast_S_S640000 (constantI S_ 32 10240#32)))
              (edgeRow0 (m ((c : Thread nD τ).loc main_arg1)))))
          (broadcastInDim S640000 ![] bcast_S_S640000 (constant (F := Ideal) S_ .f32 0x3F800000#32)))
        shapeCasts_S104857600_S10240x10240) bitsLt_bf16_f32 := by
  show V3 m c (Proc.devRef .tc main_v12) = _
  rw [V3_of m c main_v12 (by decide), V2_of m c main_v12 (by decide)]
  show StableHlo.after hostOps0 _ (Proc.devRef .tc main_v12) = _
  after_results
  rfl

set_option maxHeartbeats 2000000 in
private theorem v16_term : (U3 m c main_v16 : S10240x1.Idx → EReal)
    = shapeCast S10240x1
        (Host.scatterAdd scatter_S10240_S640000x1_S640000_n_0_0_1
          (broadcastInDim S10240 ![] bcast_S_S10240 (constant (F := Ideal) S_ .f32 0x00000000#32))
          (broadcastInDim S640000x1 ![0] bcast_S640000_S640000x1_0 (edgeRow1 (m ((c : Thread nD τ).loc main_arg1))))
          (broadcastInDim S640000 ![] bcast_S_S640000 (constant (F := Ideal) S_ .f32 0x3F800000#32)))
        shapeCasts_S10240_S10240x1 := by
  show V3 m c (Proc.devRef .tc main_v16) = _
  rw [V3_of m c main_v16 (by decide), V2_of m c main_v16 (by decide)]
  show StableHlo.after hostOps0 _ (Proc.devRef .tc main_v16) = _
  after_results
  rfl

private theorem bcast_col {α : Type} (v : S640000.Idx → α) (e : Fin 640000) :
    broadcastInDim S640000x1 ![0] bcast_S640000_S640000x1_0 v (ix2 e (0 : Fin 1)) = v (ix1 e) := by
  simp only [broadcastInDim]
  congr 1
  funext a
  have ha : a = 0 := Subsingleton.elim _ _
  subst ha
  apply Fin.ext
  split
  · next h1 => exact absurd h1 (by decide)
  · rfl

private theorem edgeRow0_apply (x1 : Spec.EdgeArr) (e : Fin 640000) : edgeRow0 x1 (ix1 e) = x1 (ix2 (0 : Fin 2) e) := by
  show shapeCast S640000 _ shapeCasts_S1x640000_S640000 (ix1 e) = _
  rw [shapeCast_1a_a_apply, slice2_axis0_apply 0 x1 _ (0 : Fin 1) e (0 : Fin 2) rfl]
private theorem edgeRow1_apply (x1 : Spec.EdgeArr) (e : Fin 640000) : edgeRow1 x1 (ix1 e) = x1 (ix2 (1 : Fin 2) e) := by
  show shapeCast S640000 _ shapeCasts_S1x640000_S640000 (ix1 e) = _
  rw [shapeCast_1a_a_apply, slice2_axis0_apply 1 x1 _ (0 : Fin 1) e (1 : Fin 2) rfl]

private theorem scatterAdd_ideal {s si u : Shape} {w : ℕ} (d : ScatterDims s si u) (x : FVec Ideal s .f32) (idx : IVec si w)
    (upd : FVec Ideal u .f32) : Host.scatterAdd d x idx upd = Ideal.hostScatterAdd d x idx upd := rfl

private theorem scatterA_eq : scatter_S104857600_S640000x1_S640000_n_0_0_1
    = sd1 Facts₀.scatter_S104857600_S640000x1_S640000_n_0_0_1_wf := rfl
private theorem scatterB_eq : scatter_S10240_S640000x1_S640000_n_0_0_1
    = sd1 Facts₀.scatter_S10240_S640000x1_S640000_n_0_0_1_wf := rfl

private theorem lit_apply {t : Shape} (hb : S_.BroadcastsInDim t ![]) (b : BitVec 32) (j : t.Idx) :
    broadcastInDim t ![] hb (constant (F := Ideal) S_ .f32 b) j = Ideal.ofBits .f32 b := by
  unfold broadcastInDim
  exact constant_apply _ _
private theorem litI_apply {t : Shape} (hb : S_.BroadcastsInDim t ![]) (b : BitVec 32) (j : t.Idx) :
    broadcastInDim t ![] hb (constantI S_ 32 b) j = b := by
  unfold broadcastInDim
  exact constantI_apply _ _

private theorem flatWord_apply (a b k : IVec S640000 32) (i : S640000.Idx) :
    addi (muli a k) b i = IntOp.addi (IntOp.muli (a i) (k i)) (b i) := rfl

variable (h : Spec.InRange (m ((c : Thread nD τ).loc main_arg1)))

private theorem node_toNat (x1 : Spec.EdgeArr) (h : Spec.InRange x1) (r : Fin 2) (e : Fin 640000) :
    (Spec.node x1 h r e).val = (x1 (ix2 r e)).toNat ∧ (x1 (ix2 r e)).toNat < 10000 := by
  have h1 := Spec.node_val x1 h r e
  have h2 := toNat_lt_of_range _ (h r e).1 (h r e).2
  have h3 := toInt_of_lt (x1 (ix2 r e)) (by omega)
  omega

theorem v12_val (d s : Fin 10240) :
    U3 m c main_v12 (ix2 d s)
      = Spec.adj (Ideal.ofBits .f32 0x3F800000#32) (Spec.node (m ((c : Thread nD τ).loc main_arg1)) h 0) (Spec.node (m ((c : Thread nD τ).loc main_arg1)) h 1) d s := by
  have hd := d.isLt
  have hs := s.isLt
  rw [congrFun (v12_term m c) (ix2 d s), truncf_apply,
    shapeCast_apply _ shapeCasts_S104857600_S10240x10240 (ix2 d s) (ix1 (⟨d.val * 10240 + s.val, by omega⟩ : Fin 104857600))
      (by rw [Shape.rowMajor_val_two, Shape.rowMajor_val_one]; rfl),
    scatterAdd_ideal, scatterA_eq, sd1_count, lit_apply, Spec.ofBits_zero, zero_add]
  show (_ : EReal) = _
  unfold Spec.adj
  refine Finset.sum_congr (Finset.filter_congr fun e _ => ?_) (fun e _ => lit_apply _ _ _)
  rw [bcast_col, flatWord_apply, litI_apply, edgeRow1_apply, edgeRow0_apply]
  obtain ⟨e1, b1⟩ := node_toNat _ h 1 e
  obtain ⟨e0, b0⟩ := node_toNat _ h 0 e
  rw [flat_toInt _ _ b1 b0, e1, e0]
  show (((_ : ℕ) : ℤ) = ((d.val * 10240 + s.val : ℕ) : ℤ)) ↔ _
  omega

theorem v16_val (d : Fin 10240) :
    U3 m c main_v16 (ix2 d 0) = Spec.cntK (Ideal.ofBits .f32 0x3F800000#32) (Spec.node (m ((c : Thread nD τ).loc main_arg1)) h 1) d := by
  have hd := d.isLt
  rw [congrFun (v16_term m c) (ix2 d 0),
    shapeCast_apply _ shapeCasts_S10240_S10240x1 (ix2 d (0 : Fin 1)) (ix1 d)
      (by rw [Shape.rowMajor_val_two, Shape.rowMajor_val_one]; show d.val = d.val * 1 + 0; omega),
    scatterAdd_ideal, scatterB_eq, sd1_count, lit_apply, Spec.ofBits_zero, zero_add]
  show (_ : EReal) = _
  unfold Spec.cntK
  refine Finset.sum_congr (Finset.filter_congr fun e _ => ?_) (fun e _ => lit_apply _ _ _)
  rw [bcast_col, edgeRow1_apply]
  obtain ⟨e1, b1⟩ := node_toNat _ h 1 e
  rw [toInt_of_lt _ (by omega), e1]
  omega

end Cert.KernelIdeal.Hand

end
-- ==== Proof.KI.KHostB.lean ====
import proofs.«403197_j58634893525189_3_alg».proof.Proof.KI.Chain
import proofs.«403197_j58634893525189_3_alg».proof.Proof.Model
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

theorem W4_of (r : Ref sig .tc) (h : r ∉ ([main_v19] : List (Ref sig .tc))) : W4 m c r = V3 m c r := by
  simp only [W4, Function.update_of_ne (StableHlo.devRef_ne_of_ne (List.ne_of_not_mem_cons h) : (Proc.devRef .tc r : DevRef τ sig) ≠ Proc.devRef .tc main_v19)]
theorem W4_hit : W4 m c main_v19 = o19 m c := by
  unfold W4; exact Function.update_self _ _ _
theorem W5_of (r : Ref sig .tc) (h : r ∉ ([main_v20] : List (Ref sig .tc))) : W5 m c r = W4 m c r := by
  simp only [W5, Function.update_of_ne (StableHlo.devRef_ne_of_ne (List.ne_of_not_mem_cons h) : (Proc.devRef .tc r : DevRef τ sig) ≠ Proc.devRef .tc main_v20)]
theorem W5_hit : W5 m c main_v20 = o20 m c := by
  unfold W5; exact Function.update_self _ _ _
theorem W6_of (r : Ref sig .tc) (h : r ∉ hostOps2_W) : W6 m c r = W5 m c r := by
  unfold W6; exact StableHlo.after_of_writes_sub hostOps2 _ hostOps2_writes h
theorem W7_of (r : Ref sig .tc) (h : r ∉ ([main_v22] : List (Ref sig .tc))) : W7 m c r = W6 m c r := by
  simp only [W7, Function.update_of_ne (StableHlo.devRef_ne_of_ne (List.ne_of_not_mem_cons h) : (Proc.devRef .tc r : DevRef τ sig) ≠ Proc.devRef .tc main_v22)]
theorem W7_hit : W7 m c main_v22 = o22 m c := by
  unfold W7; exact Function.update_self _ _ _
theorem W8_of (r : Ref sig .tc) (h : r ∉ hostOps3_W) : W8 m c r = W7 m c r := by
  unfold W8; exact StableHlo.after_of_writes_sub hostOps3 _ hostOps3_writes h
theorem W9_of (r : Ref sig .tc) (h : r ∉ ([main_v24] : List (Ref sig .tc))) : W9 m c r = W8 m c r := by
  simp only [W9, Function.update_of_ne (StableHlo.devRef_ne_of_ne (List.ne_of_not_mem_cons h) : (Proc.devRef .tc r : DevRef τ sig) ≠ Proc.devRef .tc main_v24)]
theorem W9_hit : W9 m c main_v24 = o24 m c := by
  unfold W9; exact Function.update_self _ _ _
theorem W10_of (r : Ref sig .tc) (h : r ∉ ([main_v25] : List (Ref sig .tc))) : W10 m c r = W9 m c r := by
  simp only [W10, Function.update_of_ne (StableHlo.devRef_ne_of_ne (List.ne_of_not_mem_cons h) : (Proc.devRef .tc r : DevRef τ sig) ≠ Proc.devRef .tc main_v25)]
theorem W10_hit : W10 m c main_v25 = o25 m c := by
  unfold W10; exact Function.update_self _ _ _
theorem W11_of (r : Ref sig .tc) (h : r ∉ hostOps5_W) : W11 m c r = W10 m c r := by
  unfold W11; exact StableHlo.after_of_writes_sub hostOps5 _ hostOps5_writes h
theorem W12_of (r : Ref sig .tc) (h : r ∉ ([main_v29] : List (Ref sig .tc))) : W12 m c r = W11 m c r := by
  simp only [W12, Function.update_of_ne (StableHlo.devRef_ne_of_ne (List.ne_of_not_mem_cons h) : (Proc.devRef .tc r : DevRef τ sig) ≠ Proc.devRef .tc main_v29)]
theorem W12_hit : W12 m c main_v29 = o29 m c := by
  unfold W12; exact Function.update_self _ _ _
theorem W13_of (r : Ref sig .tc) (h : r ∉ hostOps6_W) : W13 m c r = W12 m c r := by
  unfold W13; exact StableHlo.after_of_writes_sub hostOps6 _ hostOps6_writes h

theorem V3_arg (r : Ref sig .tc) (h0 : r ∉ hostOps0_W) (h1 : r ∉ hostOps0_1_W) (h2 : r ∉ hostOps0_2_W) :
    V3 m c r = m ((c : Thread nD τ).loc r) :=
  (V3_of m c r h2).trans ((V2_of m c r h1).trans ((V1_of m c r h0).trans rfl))

theorem v17_val (s : Fin 10240) (k : Fin 128) :
    U3 m c main_v17 (ix2 s k) = Spec.pad (Spec.mat2 (m ((c : Thread nD τ).loc main_arg0))) s k := by
  have e : (U3 m c main_v17 : S10240x128.Idx → EReal)
      = pad S10240x128 ![0, 0] ![240, 0] ![0, 0] (V1 m c main_arg0 : S10000x128.Idx → EReal)
          (sitofp (F := Ideal) (s := S_) (w := 32) .f32 (V1 m c main_c_2)) pads_S10000x128_S10240x128_02400_000 h_S_ := by
    refine (V3_of m c main_v17 (by decide)).trans ?_
    show StableHlo.after hostOps0_1 _ (Proc.devRef .tc main_v17) = _
    after_results; rfl
  have ec : (V1 m c main_c_2 : S_.Idx → BitVec 32) = constantI S_ 32 0#32 := by
    show StableHlo.after hostOps0 _ (Proc.devRef .tc main_c_2) = _
    after_results
  have ea : (V1 m c main_arg0 : S10000x128.Idx → EReal) = m ((c : Thread nD τ).loc main_arg0) :=
    (V1_of m c main_arg0 (by decide)).trans rfl
  refine (congrFun e (ix2 s k)).trans ?_
  unfold Spec.pad
  by_cases hs : s.val < 10000
  · rw [dif_pos hs]
    refine (pad_apply_of_inside (s := S10000x128) (t := S10240x128) ![0, 0] ![240, 0] ![0, 0] _ _ pads_S10000x128_S10240x128_02400_000 h_S_ (ix2 s k)
      (ix2 (⟨s.val, hs⟩ : Fin 10000) k) (by intro a; fin_cases a <;> simp [ix2])).trans ?_
    rw [ea]
  · rw [dif_neg hs]
    refine (pad_apply_of_not_inside (s := S10000x128) (t := S10240x128) ![0, 0] ![240, 0] ![0, 0] _ _ pads_S10000x128_S10240x128_02400_000 h_S_ (ix2 s k) 0
      ?_).trans ?_
    · intro hin
      have h3 : (s.val - 0) / (0 + 1) < 10000 := hin.2.2
      simp at h3
      first | exact hs h3 | omega
    rw [ec]
    exact sitofp_zero (φ := .f32)
theorem v18_val (j : Fin 128) : U3 m c main_v18 (ix2 0 j) = m ((c : Thread nD τ).loc main_arg3) (ix1 j) := by
  have e : (U3 m c main_v18 : S1x128.Idx → EReal) = shapeCast S1x128 (V2 m c main_arg3 : S128.Idx → EReal) shapeCasts_S128_S1x128 := by
    show StableHlo.after hostOps0_2 _ (Proc.devRef .tc main_v18) = _
    after_results; rfl
  refine (congrFun e (ix2 0 j)).trans ?_
  refine (shapeCast_a_1a_apply (V2 m c main_arg3 : S128.Idx → EReal) shapeCasts_S128_S1x128 0 j).trans ?_
  exact congrFun ((V2_of m c main_arg3 (by decide)).trans ((V1_of m c main_arg3 (by decide)).trans rfl)) (ix1 j)
theorem U3_arg2 : U3 m c main_arg2 = m ((c : Thread nD τ).loc main_arg2) :=
  V3_arg m c main_arg2 (by decide) (by decide) (by decide)

theorem U4_v12 : U4 m c main_v12 = U3 m c main_v12 := W4_of m c main_v12 (by decide)
theorem U4_v19 : U4 m c main_v19 = o19 m c := W4_hit m c

theorem U6_v17 : U6 m c main_v17 = U3 m c main_v17 := (W6_of m c main_v17 (by decide)).trans ((W5_of m c main_v17 (by decide)).trans (W4_of m c main_v17 (by decide)))
theorem U6_v20 : U6 m c main_v20 = o20 m c := (W6_of m c main_v20 (by decide)).trans (W5_hit m c)
theorem U6_v16 : U6 m c main_v16 = U3 m c main_v16 := (W6_of m c main_v16 (by decide)).trans ((W5_of m c main_v16 (by decide)).trans (W4_of m c main_v16 (by decide)))
theorem U6_arg4 : U6 m c main_arg4 = m ((c : Thread nD τ).loc main_arg4) := (W6_of m c main_arg4 (by decide)).trans ((W5_of m c main_arg4 (by decide)).trans ((W4_of m c main_arg4 (by decide)).trans (V3_arg m c main_arg4 (by decide) (by decide) (by decide))))
theorem v21_val (j : Fin 128) : U6 m c main_v21 (ix2 0 j) = m ((c : Thread nD τ).loc main_arg5) (ix1 j) := by
  have e : (U6 m c main_v21 : S1x128.Idx → EReal) = shapeCast S1x128 (W5 m c main_arg5 : S128.Idx → EReal) shapeCasts_S128_S1x128 := by
    show StableHlo.after hostOps2 _ (Proc.devRef .tc main_v21) = _
    after_results; rfl
  refine (congrFun e (ix2 0 j)).trans ?_
  refine (shapeCast_a_1a_apply (W5 m c main_arg5 : S128.Idx → EReal) shapeCasts_S128_S1x128 0 j).trans ?_
  exact congrFun ((W5_of m c main_arg5 (by decide)).trans ((W4_of m c main_arg5 (by decide)).trans (V3_arg m c main_arg5 (by decide) (by decide) (by decide)))) (ix1 j)

theorem U8_v22 : U8 m c main_v22 = o22 m c := (W8_of m c main_v22 (by decide)).trans (W7_hit m c)
theorem U8_arg6 : U8 m c main_arg6 = m ((c : Thread nD τ).loc main_arg6) := (W8_of m c main_arg6 (by decide)).trans ((W7_of m c main_arg6 (by decide)).trans ((W6_of m c main_arg6 (by decide)).trans ((W5_of m c main_arg6 (by decide)).trans ((W4_of m c main_arg6 (by decide)).trans (V3_arg m c main_arg6 (by decide) (by decide) (by decide))))))
theorem v23_val (j : Fin 128) : U8 m c main_v23 (ix2 0 j) = m ((c : Thread nD τ).loc main_arg7) (ix1 j) := by
  have e : (U8 m c main_v23 : S1x128.Idx → EReal) = shapeCast S1x128 (W7 m c main_arg7 : S128.Idx → EReal) shapeCasts_S128_S1x128 := by
    show StableHlo.after hostOps3 _ (Proc.devRef .tc main_v23) = _
    after_results; rfl
  refine (congrFun e (ix2 0 j)).trans ?_
  refine (shapeCast_a_1a_apply (W7 m c main_arg7 : S128.Idx → EReal) shapeCasts_S128_S1x128 0 j).trans ?_
  exact congrFun ((W7_of m c main_arg7 (by decide)).trans ((W6_of m c main_arg7 (by decide)).trans ((W5_of m c main_arg7 (by decide)).trans ((W4_of m c main_arg7 (by decide)).trans (V3_arg m c main_arg7 (by decide) (by decide) (by decide)))))) (ix1 j)

theorem U9_v12 : U9 m c main_v12 = U3 m c main_v12 := (W9_of m c main_v12 (by decide)).trans ((W8_of m c main_v12 (by decide)).trans ((W7_of m c main_v12 (by decide)).trans ((W6_of m c main_v12 (by decide)).trans ((W5_of m c main_v12 (by decide)).trans (W4_of m c main_v12 (by decide))))))
theorem U9_v24 : U9 m c main_v24 = o24 m c := W9_hit m c

theorem U11_v22 : U11 m c main_v22 = o22 m c := (W11_of m c main_v22 (by decide)).trans ((W10_of m c main_v22 (by decide)).trans ((W9_of m c main_v22 (by decide)).trans ((W8_of m c main_v22 (by decide)).trans (W7_hit m c))))
theorem U11_v25 : U11 m c main_v25 = o25 m c := (W11_of m c main_v25 (by decide)).trans (W10_hit m c)
theorem U11_v16 : U11 m c main_v16 = U3 m c main_v16 := (W11_of m c main_v16 (by decide)).trans ((W10_of m c main_v16 (by decide)).trans ((W9_of m c main_v16 (by decide)).trans ((W8_of m c main_v16 (by decide)).trans ((W7_of m c main_v16 (by decide)).trans ((W6_of m c main_v16 (by decide)).trans ((W5_of m c main_v16 (by decide)).trans (W4_of m c main_v16 (by decide))))))))
theorem U11_arg8 : U11 m c main_arg8 = m ((c : Thread nD τ).loc main_arg8) := (W11_of m c main_arg8 (by decide)).trans ((W10_of m c main_arg8 (by decide)).trans ((W9_of m c main_arg8 (by decide)).trans ((W8_of m c main_arg8 (by decide)).trans ((W7_of m c main_arg8 (by decide)).trans ((W6_of m c main_arg8 (by decide)).trans ((W5_of m c main_arg8 (by decide)).trans ((W4_of m c main_arg8 (by decide)).trans (V3_arg m c main_arg8 (by decide) (by decide) (by decide)))))))))
theorem v26_val (j : Fin 128) : U11 m c main_v26 (ix2 0 j) = m ((c : Thread nD τ).loc main_arg9) (ix1 j) := by
  have e : (U11 m c main_v26 : S1x128.Idx → EReal) = shapeCast S1x128 (W10 m c main_arg9 : S128.Idx → EReal) shapeCasts_S128_S1x128 := by
    show StableHlo.after hostOps5 _ (Proc.devRef .tc main_v26) = _
    after_results; rfl
  refine (congrFun e (ix2 0 j)).trans ?_
  refine (shapeCast_a_1a_apply (W10 m c main_arg9 : S128.Idx → EReal) shapeCasts_S128_S1x128 0 j).trans ?_
  exact congrFun ((W10_of m c main_arg9 (by decide)).trans ((W9_of m c main_arg9 (by decide)).trans ((W8_of m c main_arg9 (by decide)).trans ((W7_of m c main_arg9 (by decide)).trans ((W6_of m c main_arg9 (by decide)).trans ((W5_of m c main_arg9 (by decide)).trans ((W4_of m c main_arg9 (by decide)).trans (V3_arg m c main_arg9 (by decide) (by decide) (by decide))))))))) (ix1 j)
theorem U11_arg10 : U11 m c main_arg10 = m ((c : Thread nD τ).loc main_arg10) := (W11_of m c main_arg10 (by decide)).trans ((W10_of m c main_arg10 (by decide)).trans ((W9_of m c main_arg10 (by decide)).trans ((W8_of m c main_arg10 (by decide)).trans ((W7_of m c main_arg10 (by decide)).trans ((W6_of m c main_arg10 (by decide)).trans ((W5_of m c main_arg10 (by decide)).trans ((W4_of m c main_arg10 (by decide)).trans (V3_arg m c main_arg10 (by decide) (by decide) (by decide)))))))))
theorem v27_val (j : Fin 128) : U11 m c main_v27 (ix2 0 j) = m ((c : Thread nD τ).loc main_arg11) (ix1 j) := by
  have e : (U11 m c main_v27 : S1x128.Idx → EReal) = shapeCast S1x128 (W10 m c main_arg11 : S128.Idx → EReal) shapeCasts_S128_S1x128 := by
    show StableHlo.after hostOps5 _ (Proc.devRef .tc main_v27) = _
    after_results; rfl
  refine (congrFun e (ix2 0 j)).trans ?_
  refine (shapeCast_a_1a_apply (W10 m c main_arg11 : S128.Idx → EReal) shapeCasts_S128_S1x128 0 j).trans ?_
  exact congrFun ((W10_of m c main_arg11 (by decide)).trans ((W9_of m c main_arg11 (by decide)).trans ((W8_of m c main_arg11 (by decide)).trans ((W7_of m c main_arg11 (by decide)).trans ((W6_of m c main_arg11 (by decide)).trans ((W5_of m c main_arg11 (by decide)).trans ((W4_of m c main_arg11 (by decide)).trans (V3_arg m c main_arg11 (by decide) (by decide) (by decide))))))))) (ix1 j)
theorem U11_arg12 : U11 m c main_arg12 = m ((c : Thread nD τ).loc main_arg12) := (W11_of m c main_arg12 (by decide)).trans ((W10_of m c main_arg12 (by decide)).trans ((W9_of m c main_arg12 (by decide)).trans ((W8_of m c main_arg12 (by decide)).trans ((W7_of m c main_arg12 (by decide)).trans ((W6_of m c main_arg12 (by decide)).trans ((W5_of m c main_arg12 (by decide)).trans ((W4_of m c main_arg12 (by decide)).trans (V3_arg m c main_arg12 (by decide) (by decide) (by decide)))))))))
theorem v28_val (j : Fin 64) : U11 m c main_v28 (ix2 0 j) = m ((c : Thread nD τ).loc main_arg13) (ix1 j) := by
  have e : (U11 m c main_v28 : S1x64.Idx → EReal) = shapeCast S1x64 (W10 m c main_arg13 : S64.Idx → EReal) shapeCasts_S64_S1x64 := by
    show StableHlo.after hostOps5 _ (Proc.devRef .tc main_v28) = _
    after_results; rfl
  refine (congrFun e (ix2 0 j)).trans ?_
  refine (shapeCast_a_1a_apply (W10 m c main_arg13 : S64.Idx → EReal) shapeCasts_S64_S1x64 0 j).trans ?_
  exact congrFun ((W10_of m c main_arg13 (by decide)).trans ((W9_of m c main_arg13 (by decide)).trans ((W8_of m c main_arg13 (by decide)).trans ((W7_of m c main_arg13 (by decide)).trans ((W6_of m c main_arg13 (by decide)).trans ((W5_of m c main_arg13 (by decide)).trans ((W4_of m c main_arg13 (by decide)).trans (V3_arg m c main_arg13 (by decide) (by decide) (by decide))))))))) (ix1 j)

theorem v30_val (d : Fin 10000) (j : Fin 64) :
    W13 m c main_v30 (ix2 d j) = o29 m c (ix2 (Fin.castLE (by norm_num) d) j) := by
  have e : (W13 m c main_v30 : S10000x64.Idx → EReal)
      = extractStridedSlice S10000x64 ![0, 0] (W12 m c main_v29 : S10240x64.Idx → EReal) slices_S10240x64_S10000x64_0_0 := by
    show StableHlo.after hostOps6 _ (Proc.devRef .tc main_v30) = _
    after_results
  refine (congrFun e (ix2 d j)).trans ?_
  refine (extractStridedSlice_apply ![0, 0] _ slices_S10240x64_S10000x64_0_0 (ix2 d j)
    (ix2 (Fin.castLE (by norm_num) d : Fin 10240) j) (by intro a; fin_cases a <;> simp [ix2])).trans ?_
  rw [W12_hit]

end Cert.KernelIdeal.Hand

end
-- ==== Proof.KI.Val0.lean ====
import proofs.«403197_j58634893525189_3_alg».proof.Proof.KI.Reg0
import proofs.«403197_j58634893525189_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off0 : (![0, 0] : Fin 2 → Nat) = fun _ => 0 := funext fun a => by fin_cases a <;> rfl

theorem lhs_lin0_0 (i : S1280x128.Idx) (q : dot_S1280x128_S128x128_S1280x128_1_0_0_1_n_n.contr.Idx) :
    (dot_S1280x128_S128x128_S1280x128_1_0_0_1_n_n.lhsIdx i q 0).val = (i 0).val := by
  unfold DotDims.lhsIdx
  rw [dif_neg (show ¬(0 : Fin S1280x128.rank) ∈ dot_S1280x128_S128x128_S1280x128_1_0_0_1_n_n.lhsBatch by decide), dif_pos (show (0 : Fin S1280x128.rank) ∈ dot_S1280x128_S128x128_S1280x128_1_0_0_1_n_n.lhsNonContracting by decide)]
  rfl

theorem lhs_lin0_1 (i : S1280x128.Idx) (q : dot_S1280x128_S128x128_S1280x128_1_0_0_1_n_n.contr.Idx) :
    (dot_S1280x128_S128x128_S1280x128_1_0_0_1_n_n.lhsIdx i q 1).val = (q ⟨0, by decide⟩).val :=
  dot_S1280x128_S128x128_S1280x128_1_0_0_1_n_n.lhsIdx_val_of_single rfl i q

theorem rhs_lin0_0 (i : S1280x128.Idx) (q : dot_S1280x128_S128x128_S1280x128_1_0_0_1_n_n.contr.Idx) :
    (dot_S1280x128_S128x128_S1280x128_1_0_0_1_n_n.rhsIdx i q 0).val = (q ⟨0, by decide⟩).val :=
  dot_S1280x128_S128x128_S1280x128_1_0_0_1_n_n.rhsIdx_val_of_single rfl i q

theorem rhs_lin0_1 (i : S1280x128.Idx) (q : dot_S1280x128_S128x128_S1280x128_1_0_0_1_n_n.contr.Idx) :
    (dot_S1280x128_S128x128_S1280x128_1_0_0_1_n_n.rhsIdx i q 1).val = (i 1).val := by
  unfold DotDims.rhsIdx
  rw [dif_neg (show ¬(1 : Fin S128x128.rank) ∈ dot_S1280x128_S128x128_S1280x128_1_0_0_1_n_n.rhsBatch by decide), dif_pos (show (1 : Fin S128x128.rank) ∈ dot_S1280x128_S128x128_S1280x128_1_0_0_1_n_n.rhsNonContracting by decide)]
  rfl

theorem matmul_lin0_apply (a : FVec Ideal S1280x128 .bf16) (w : FVec Ideal S128x128 .bf16) (p : Fin 1280) (q : Fin 128) :
    matmul dot_S1280x128_S128x128_S1280x128_1_0_0_1_n_n none a w (constant (F := Ideal) S1280x128 .f32 0x00000000#32) (ix2 p q)
      = ∑ k : Fin 128, a (ix2 p k) * w (ix2 k q) := by
  show FloatOps.matmul dot_S1280x128_S128x128_S1280x128_1_0_0_1_n_n none a w (constant S1280x128 .f32 0x00000000#32) (ix2 p q) = _
  rw [Ideal.matmul_constant_zero_apply, ← Equiv.sum_comp (contrEquiv1 dot_S1280x128_S128x128_S1280x128_1_0_0_1_n_n 128 rfl rfl).symm]
  refine Finset.sum_congr rfl fun k _ => ?_
  have hk := contrEquiv1_symm_val dot_S1280x128_S128x128_S1280x128_1_0_0_1_n_n 128 rfl rfl k
  have el : dot_S1280x128_S128x128_S1280x128_1_0_0_1_n_n.lhsIdx (ix2 p q) ((contrEquiv1 dot_S1280x128_S128x128_S1280x128_1_0_0_1_n_n 128 rfl rfl).symm k) = ix2 p k := funext fun a => Fin.ext (by
    match a with
    | ⟨0, _⟩ => exact lhs_lin0_0 _ _
    | ⟨1, _⟩ => exact (lhs_lin0_1 _ _).trans hk)
  have er : dot_S1280x128_S128x128_S1280x128_1_0_0_1_n_n.rhsIdx (ix2 p q) ((contrEquiv1 dot_S1280x128_S128x128_S1280x128_1_0_0_1_n_n 128 rfl rfl).symm k) = ix2 k q := funext fun a => Fin.ext (by
    match a with
    | ⟨0, _⟩ => exact (rhs_lin0_0 _ _).trans hk
    | ⟨1, _⟩ => exact rhs_lin0_1 _ _)
  rw [el, er]

theorem bias_row0_apply (b : FVec Ideal S1x128 .f32) (p : Fin 1280) (q : Fin 128) :
    broadcastTo S1280x128 b broadcasts_S1x128_S1280x128 (ix2 p q) = b (ix2 (0 : Fin 1) q) :=
  broadcastTo_apply b broadcasts_S1x128_S1280x128 (ix2 p q) (ix2 (0 : Fin 1) q) (by
    intro a
    match a with
    | ⟨0, _⟩ => rfl
    | ⟨1, _⟩ => rfl)

theorem out0_3_apply (x0 : Vec Ideal S1280x128 .f32) (x1 : Vec Ideal S128x128 .f32) (x2 : Vec Ideal S1x128 .f32)
    (p : Fin 1280) (q : Fin 128) :
    out0_3 x0 x1 x2 (ix2 p q) = Spec.lin (Spec.mat2 x1) (Spec.row2 x2 0) (Spec.row2 x0 p) q := by
  unfold out0_3
  rw [View.canon_unit_zero zero_off0]
  simp only [View.ld_unit_zero (S := S1280x128) zero_off0, View.ld_unit_zero (S := S128x128) zero_off0,
    View.ld_unit_zero (S := S1x128) zero_off0]
  unfold k0_pay1
  simp only [shapeCast_self]
  rw [truncf_apply, maximumf_apply, addf_apply, broadcast_apply, matmul_lin0_apply, bias_row0_apply]
  simp only [truncf_apply]
  unfold Spec.lin
  show max (_ + _) (Ideal.ofBits .f32 0x00000000#32) = _
  rw [Ideal.ofBits_zero_f32]

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem iblk0_0_row (c : Dev nD) (t : Fin cfg0.N) (p : Fin 1280) (r : Fin 10240) (hr : r.val = t.val * 1280 + p.val) :
    Spec.row2 (iblk0 V c 0 t : Vec Ideal S1280x128 .f32) p = Spec.row2 (V c main_v17 : S10240x128.Idx → EReal) r := by
  obtain ⟨e0, e1, -⟩ := idx_facts0 t
  funext k
  show iblk0 V c 0 t (ix2 p k) = V c main_v17 (ix2 r k)
  unfold iblk0
  rw [View.read_apply]
  show V c main_v17 _ = V c main_v17 _
  congr 1
  funext a
  apply Fin.ext
  match a with
  | ⟨0, _⟩ => show win0_0.index t (0 : Fin 2) * 1280 + 1 * p.val = r.val; rw [e0, hr]; omega
  | ⟨1, _⟩ => show win0_0.index t (1 : Fin 2) * 128 + 1 * k.val = k.val; rw [e1]; omega

theorem iblk0_1_eq (c : Dev nD) (t : Fin cfg0.N) :
    (iblk0 V c 1 t : Vec Ideal S128x128 .f32) = (V c main_arg2 : S128x128.Idx → EReal) := by
  obtain ⟨-, -, e0, e1, -⟩ := idx_facts0 t
  funext j
  unfold iblk0
  rw [View.read_apply]
  show V c main_arg2 _ = V c main_arg2 j
  congr 1
  funext a
  apply Fin.ext
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

theorem iblk0_2_eq (c : Dev nD) (t : Fin cfg0.N) :
    (iblk0 V c 2 t : Vec Ideal S1x128 .f32) = (V c main_v18 : S1x128.Idx → EReal) := by
  obtain ⟨-, -, -, -, e0, e1, -⟩ := idx_facts0 t
  funext j
  unfold iblk0
  rw [View.read_apply]
  show V c main_v18 _ = V c main_v18 j
  congr 1
  funext a
  apply Fin.ext
  match a with
  | ⟨0, _⟩ => show win0_2.index t (0 : Fin 2) * 1 + 1 * (j 0).val = (j 0).val; rw [e0]; omega
  | ⟨1, _⟩ => show win0_2.index t (1 : Fin 2) * 128 + 1 * (j 1).val = (j 1).val; rw [e1]; omega

abbrev lin0 (c : Dev nD) : Buf (Elt Ideal) ((c : Thread nD τ).loc main_v19) :=
  fun i => Spec.lin (Spec.mat2 (V c main_arg2)) (Spec.row2 (V c main_v18) 0) (Spec.row2 (V c main_v17) (i 0)) (i 1)

theorem flushed0_eq (c : Dev nD) (t : Fin cfg0.N) :
    (dat0 (F := Ideal) V c).flushed 3 t = ((cfg0.win 3).blk t).view.read (Elt Ideal) (lin0 V c) := by
  show (cfg0.win 3).cut (grid0.coords t) ((dat0 V c).after 3 t) = _
  rw [after0_3]
  obtain ⟨-, -, -, -, -, -, e0, e1⟩ := idx_facts0 t
  have hN : cfg0.N = 8 := N_0
  funext j
  have hj0 : (j 0).val < 1280 := (j 0).isLt
  have hp : t.val * 1280 + (j 0).val < 10240 := by have := t.isLt; omega
  have hemb : ((cfg0.win 3).blk t).view.emb j = ix2 (⟨t.val * 1280 + (j 0).val, hp⟩ : Fin 10240) (j 1) := by
    funext a
    apply Fin.ext
    match a with
    | ⟨0, _⟩ => show win0_3.index t (0 : Fin 2) * 1280 + 1 * (j 0).val = t.val * 1280 + (j 0).val; rw [e0]; omega
    | ⟨1, _⟩ => show win0_3.index t (1 : Fin 2) * 128 + 1 * (j 1).val = (j 1).val; rw [e1]; omega
  refine ((congrArg (out0_3 (iblk0 V c 0 t) (iblk0 V c 1 t) (iblk0 V c 2 t)) (eq_ix2 j)).trans
    (out0_3_apply (iblk0 V c 0 t) (iblk0 V c 1 t) (iblk0 V c 2 t) (j 0) (j 1))).trans ?_
  rw [View.read_apply]
  show _ = lin0 V c (((cfg0.win 3).blk t).view.emb j)
  rw [hemb, iblk0_1_eq V c t, iblk0_2_eq V c t, iblk0_0_row V c t (j 0) ⟨t.val * 1280 + (j 0).val, hp⟩ rfl]
  rfl

theorem mem_blk0 (t : Fin cfg0.N) (i : S10240x128.Idx) :
    i ∈ ((cfg0.win 3).blk t).view.set ↔ ∀ a : Fin 2, win0_3.index t a * S1280x128.size a ≤ (i a).val ∧ (i a).val < win0_3.index t a * S1280x128.size a + S1280x128.size a := by
  show i ∈ ((View.whole main_v19).slice (win0_3.rect t)).set ↔ _
  rw [View.set_slice_whole, Rect.mem_set_unit]
  exact Iff.rfl

theorem cover0 (i : S10240x128.Idx) :
    ∃ t : Fin cfg0.N, (cfg0.win 3).flush t = true ∧ i ∈ ((cfg0.win 3).blk t).view.set := by
  have hi0 : (i 0).val < 10240 := (i 0).isLt
  have hi1 : (i 1).val < 128 := (i 1).isLt
  have hN : cfg0.N = 8 := N_0
  have ht : (i 0).val / 1280 < cfg0.N := by rw [hN]; omega
  obtain ⟨-, -, -, -, -, -, e0, e1⟩ := idx_facts0 ⟨(i 0).val / 1280, ht⟩
  refine ⟨⟨(i 0).val / 1280, ht⟩, flush0_3 _, ?_⟩
  rw [mem_blk0]
  intro a
  match a with
  | ⟨0, _⟩ =>
    show win0_3.index ⟨(i 0).val / 1280, ht⟩ (0 : Fin 2) * 1280 ≤ (i 0).val ∧ (i 0).val < win0_3.index ⟨(i 0).val / 1280, ht⟩ (0 : Fin 2) * 1280 + 1280
    rw [e0]
    show (i 0).val / 1280 * 1280 ≤ (i 0).val ∧ (i 0).val < (i 0).val / 1280 * 1280 + 1280
    omega
  | ⟨1, _⟩ =>
    show win0_3.index ⟨(i 0).val / 1280, ht⟩ (1 : Fin 2) * 128 ≤ (i 1).val ∧ (i 1).val < win0_3.index ⟨(i 0).val / 1280, ht⟩ (1 : Fin 2) * 128 + 128
    rw [e1]
    omega

theorem arrAt0_val (c : Dev nD) :
    (dat0 (F := Ideal) V c).arrAt 3 cfg0.N
      = (fun i => Spec.lin (Spec.mat2 (V c main_arg2)) (Spec.row2 (V c main_v18) 0) (Spec.row2 (V c main_v17) (i 0)) (i 1)
          : Buf (Elt Ideal) ((c : Thread nD τ).loc main_v19)) :=
  (dat0 (F := Ideal) V c).arrAt_eq_of_cover 3 (lin0 V c) (fun t _ => flushed0_eq V c t) cover0

end Cert.KernelIdeal.Hand

end
-- ==== Proof.KI.Val1.lean ====
import proofs.«403197_j58634893525189_3_alg».proof.Proof.KI.Reg1
import proofs.«403197_j58634893525189_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

open Idealize.ShloMosaic.Tactic

section CaseValues
variable {F : FTy → Type} [FloatOps F]

theorem hz1 : (![0, 0] : Fin 2 → Nat) = fun _ => 0 := funext fun a => by fin_cases a <;> rfl

theorem sval1_B (c : Dev nD) (i : grid1.Coords) (a2 : Memref sig .tc .vmem S1280x2048 .bf16) (h2 : a2.IsWhole) (a3 : Memref sig .tc .vmem S2048x128 .bf16) (h3 : a3.IsWhole) (a4 : Memref sig .tc .vmem S1280x128 .f32) (h4 : a4.IsWhole) (a5 : Memref sig .tc .vmem S1280x128 .f32) (h5 : a5.IsWhole) (hc0 : ¬cond1_0 i) (hc1 : ¬cond1_1 i)
    (x0 : Vec F S1280x2048 .bf16) (x1 : Vec F S2048x128 .bf16) (xs0 : Vec F S1280x128 .f32) :
    sout1_B_0 c i a2 h2 a3 h3 a4 h4 a5 h5 hc0 hc1 x0 x1 xs0 = k1_pay2 x0 x1 xs0 := by
  unfold sout1_B_0
  rw [View.read_writes_eq_canon _ _ _ (scover1_B_0 c i a2 h2 a3 h3 a4 h4 a5 h5 hc0 hc1 x0 x1 xs0)]
  unfold kernelRun1_B
  dsimp only
  sl_unfold_words
  rw [View.canon_unit_zero hz1]
  simp only [View.readAt_eq_ld, h2.read_unread, h3.read_unread, h5.read_unread, View.ld_unit_zero (S := S1280x2048) hz1, View.ld_unit_zero (S := S2048x128) hz1, View.ld_unit_zero (S := S1280x128) hz1]

theorem sval1_A (c : Dev nD) (i : grid1.Coords) (a2 : Memref sig .tc .vmem S1280x2048 .bf16) (h2 : a2.IsWhole) (a3 : Memref sig .tc .vmem S2048x128 .bf16) (h3 : a3.IsWhole) (a4 : Memref sig .tc .vmem S1280x128 .f32) (h4 : a4.IsWhole) (a5 : Memref sig .tc .vmem S1280x128 .f32) (h5 : a5.IsWhole) (hc0 : cond1_0 i) (hc1 : ¬cond1_1 i)
    (x0 : Vec F S1280x2048 .bf16) (x1 : Vec F S2048x128 .bf16) :
    sout1_A_0 c i a2 h2 a3 h3 a4 h4 a5 h5 hc0 hc1 x0 x1 = k1_pay2 x0 x1 (k1_pay1 (F := F)) := by
  unfold sout1_A_0
  rw [View.read_writes_eq_canon _ _ _ (scover1_A_0 c i a2 h2 a3 h3 a4 h4 a5 h5 hc0 hc1 x0 x1)]
  unfold kernelRun1_A
  dsimp only
  sl_unfold_words
  rw [View.canon_cons_unit_zero (S := S1280x128) hz1]
  simp only [View.readAt_eq_ld, h2.read_unread, h3.read_unread, View.readCov_unit_zero (S := S1280x128) _ hz1, View.ld_unit_zero (S := S1280x2048) hz1, View.ld_unit_zero (S := S2048x128) hz1, View.ld_unit_zero (S := S1280x128) hz1]

theorem sval1_C (c : Dev nD) (i : grid1.Coords) (a2 : Memref sig .tc .vmem S1280x2048 .bf16) (h2 : a2.IsWhole) (a3 : Memref sig .tc .vmem S2048x128 .bf16) (h3 : a3.IsWhole) (a4 : Memref sig .tc .vmem S1280x128 .f32) (h4 : a4.IsWhole) (a5 : Memref sig .tc .vmem S1280x128 .f32) (h5 : a5.IsWhole) (hc0 : ¬cond1_0 i) (hc1 : cond1_1 i)
    (x0 : Vec F S1280x2048 .bf16) (x1 : Vec F S2048x128 .bf16) (xs0 : Vec F S1280x128 .f32) :
    sout1_C_0 c i a2 h2 a3 h3 a4 h4 a5 h5 hc0 hc1 x0 x1 xs0 = k1_pay2 x0 x1 xs0 := by
  unfold sout1_C_0
  rw [View.read_writes_eq_canon _ _ _ (scover1_C_0 c i a2 h2 a3 h3 a4 h4 a5 h5 hc0 hc1 x0 x1 xs0)]
  unfold kernelRun1_C
  dsimp only
  sl_unfold_words
  rw [View.canon_unit_zero hz1]
  simp only [View.readAt_eq_ld, h2.read_unread, h3.read_unread, h5.read_unread, View.ld_unit_zero (S := S1280x2048) hz1, View.ld_unit_zero (S := S2048x128) hz1, View.ld_unit_zero (S := S1280x128) hz1]

theorem oval1_C (c : Dev nD) (i : grid1.Coords) (a2 : Memref sig .tc .vmem S1280x2048 .bf16) (h2 : a2.IsWhole) (a3 : Memref sig .tc .vmem S2048x128 .bf16) (h3 : a3.IsWhole) (a4 : Memref sig .tc .vmem S1280x128 .f32) (h4 : a4.IsWhole) (a5 : Memref sig .tc .vmem S1280x128 .f32) (h5 : a5.IsWhole) (hc0 : ¬cond1_0 i) (hc1 : cond1_1 i)
    (x0 : Vec F S1280x2048 .bf16) (x1 : Vec F S2048x128 .bf16) (xs0 : Vec F S1280x128 .f32) :
    out1_C_2 c i a2 h2 a3 h3 a4 h4 a5 h5 hc0 hc1 x0 x1 xs0 = k1_pay2 x0 x1 xs0 := by
  unfold out1_C_2
  rw [View.read_writes_eq_canon _ _ _ (cover1_C_2 c i a2 h2 a3 h3 a4 h4 a5 h5 hc0 hc1 x0 x1 xs0)]
  unfold kernelRun1_C
  dsimp only
  sl_unfold_words
  rw [View.canon_unit_zero hz1]
  simp only [View.readAt_eq_ld, h2.read_unread, h3.read_unread, h5.read_unread, View.readCov_unit_zero (S := S1280x128) _ hz1, View.ld_unit_zero (S := S1280x2048) hz1, View.ld_unit_zero (S := S2048x128) hz1, View.ld_unit_zero (S := S1280x128) hz1]

end CaseValues

section PayloadAtIndex

theorem lhs1_0 (j : S1280x128.Idx) (k : dot_S1280x2048_S2048x128_S1280x128_1_0_0_1_n_n.contr.Idx) :
    (dot_S1280x2048_S2048x128_S1280x128_1_0_0_1_n_n.lhsIdx j k 0).val = (j 0).val := by
  unfold DotDims.lhsIdx
  rw [dif_neg (show ¬(0 : Fin S1280x2048.rank) ∈ dot_S1280x2048_S2048x128_S1280x128_1_0_0_1_n_n.lhsBatch by decide), dif_pos (show (0 : Fin S1280x2048.rank) ∈ dot_S1280x2048_S2048x128_S1280x128_1_0_0_1_n_n.lhsNonContracting by decide)]
  rfl

theorem lhs1_1 (j : S1280x128.Idx) (k : dot_S1280x2048_S2048x128_S1280x128_1_0_0_1_n_n.contr.Idx) :
    (dot_S1280x2048_S2048x128_S1280x128_1_0_0_1_n_n.lhsIdx j k 1).val = (k ⟨0, by decide⟩).val :=
  dot_S1280x2048_S2048x128_S1280x128_1_0_0_1_n_n.lhsIdx_val_of_single rfl j k

theorem rhs1_0 (j : S1280x128.Idx) (k : dot_S1280x2048_S2048x128_S1280x128_1_0_0_1_n_n.contr.Idx) :
    (dot_S1280x2048_S2048x128_S1280x128_1_0_0_1_n_n.rhsIdx j k 0).val = (k ⟨0, by decide⟩).val :=
  dot_S1280x2048_S2048x128_S1280x128_1_0_0_1_n_n.rhsIdx_val_of_single rfl j k

theorem rhs1_1 (j : S1280x128.Idx) (k : dot_S1280x2048_S2048x128_S1280x128_1_0_0_1_n_n.contr.Idx) :
    (dot_S1280x2048_S2048x128_S1280x128_1_0_0_1_n_n.rhsIdx j k 1).val = (j 1).val := by
  unfold DotDims.rhsIdx
  rw [dif_neg (show ¬(1 : Fin S2048x128.rank) ∈ dot_S1280x2048_S2048x128_S1280x128_1_0_0_1_n_n.rhsBatch by decide), dif_pos (show (1 : Fin S2048x128.rank) ∈ dot_S1280x2048_S2048x128_S1280x128_1_0_0_1_n_n.rhsNonContracting by decide)]
  rfl

theorem pay1_1_apply (j : S1280x128.Idx) : (k1_pay1 (F := Ideal)) j = (0 : EReal) := by
  unfold k1_pay1
  rw [shapeCast_self]
  exact Spec.ofBits_zero

theorem pay1_2_apply (x0 : Vec Ideal S1280x2048 .bf16) (x1 : Vec Ideal S2048x128 .bf16) (acc : Vec Ideal S1280x128 .f32)
    (p : Fin 1280) (q : Fin 128) :
    k1_pay2 x0 x1 acc (ix2 p q) = (acc (ix2 p q) + ∑ s : Fin 2048, x0 (ix2 p s) * x1 (ix2 s q) : EReal) := by
  unfold k1_pay2
  rw [shapeCast_self, shapeCast_self, shapeCast_self, addf_apply]
  simp only [matmul]
  rw [Ideal.matmul_constant_zero_apply, ← Equiv.sum_comp (contrEquiv1 dot_S1280x2048_S2048x128_S1280x128_1_0_0_1_n_n 2048 rfl rfl).symm]
  refine congrArg (acc (ix2 p q) + ·) (Finset.sum_congr rfl fun k _ => ?_)
  have hk := contrEquiv1_symm_val dot_S1280x2048_S2048x128_S1280x128_1_0_0_1_n_n 2048 rfl rfl k
  have el : dot_S1280x2048_S2048x128_S1280x128_1_0_0_1_n_n.lhsIdx (ix2 p q) ((contrEquiv1 dot_S1280x2048_S2048x128_S1280x128_1_0_0_1_n_n 2048 rfl rfl).symm k) = ix2 p k := funext fun a => Fin.ext (by
    match a with
    | ⟨0, _⟩ => exact lhs1_0 _ _
    | ⟨1, _⟩ => exact (lhs1_1 _ _).trans hk)
  have er : dot_S1280x2048_S2048x128_S1280x128_1_0_0_1_n_n.rhsIdx (ix2 p q) ((contrEquiv1 dot_S1280x2048_S2048x128_S1280x128_1_0_0_1_n_n 2048 rfl rfl).symm k) = ix2 k q := funext fun a => Fin.ext (by
    match a with
    | ⟨0, _⟩ => exact (rhs1_0 _ _).trans hk
    | ⟨1, _⟩ => exact rhs1_1 _ _)
  rw [el, er]

end PayloadAtIndex

theorem sum_range_blocks1 (f : ℕ → EReal) (n : ℕ) :
    ∀ K : ℕ, ∑ k ∈ Finset.range K, ∑ s ∈ Finset.range n, f (n * k + s) = ∑ s ∈ Finset.range (n * K), f s
  | 0 => by simp
  | K + 1 => by rw [Finset.sum_range_succ, sum_range_blocks1 f n K, Nat.mul_succ, Finset.sum_range_add]

theorem sum_blocks1 (f : ℕ → EReal) :
    ∑ k ∈ Finset.range 5, ∑ s : Fin 2048, f (2048 * k + s.val) = ∑ s : Fin 10240, f s.val := by
  have h := sum_range_blocks1 f 2048 5
  rw [show 2048 * 5 = 10240 from rfl] at h
  rw [Fin.sum_univ_eq_sum_range (fun s => f s) 10240, ← h]
  exact Finset.sum_congr rfl fun k _ => Fin.sum_univ_eq_sum_range (fun s => f (2048 * k + s)) 2048

variable (V : (c : Dev nD) → (b : Ref sig .tc) → Buf (Elt Ideal) ((c : Thread nD τ).loc b))

abbrev xblk1 (c : Dev nD) (t : Fin cfg1.N) : Vec Ideal S1280x2048 .bf16 := iblk1 V c 0 t
abbrev yblk1 (c : Dev nD) (t : Fin cfg1.N) : Vec Ideal S2048x128 .bf16 := iblk1 V c 1 t

abbrev amat1 (c : Dev nD) : Fin 10240 → Fin 10240 → EReal := Spec.mat2 (V c main_v12)
abbrev ytab1 (c : Dev nD) : Fin 10240 → Fin 128 → EReal := Spec.mat2 (V c main_v19)

theorem idx_facts1 : ∀ t : Fin cfg1.N,
    win1_0.index t (0 : Fin 2) = t.val / 5 ∧ win1_0.index t (1 : Fin 2) = t.val % 5
    ∧ win1_1.index t (0 : Fin 2) = t.val % 5 ∧ win1_1.index t (1 : Fin 2) = 0
    ∧ win1_2.index t (0 : Fin 2) = t.val / 5 ∧ win1_2.index t (1 : Fin 2) = 0 :=
  (by decide +kernel : ∀ t : Fin grid1.N, _)

theorem xblk1_apply (c : Dev nD) (t : Fin cfg1.N) (p : Fin 1280) (s : Fin 2048) (r s' : Fin 10240)
    (hr : r.val = 1280 * (t.val / 5) + p.val) (hs : s'.val = 2048 * (t.val % 5) + s.val) :
    xblk1 V c t (ix2 p s) = amat1 V c r s' := by
  obtain ⟨e0, e1, -⟩ := idx_facts1 t
  show V c main_v12 (((cfg1.win 0).blk t).view.emb (ix2 p s)) = V c main_v12 (ix2 r s')
  refine congrArg (V c main_v12) (funext fun a => Fin.ext ?_)
  match a with
  | ⟨0, _⟩ => show win1_0.index t (0 : Fin 2) * 1280 + 1 * p.val = r.val; omega
  | ⟨1, _⟩ => show win1_0.index t (1 : Fin 2) * 2048 + 1 * s.val = s'.val; omega

theorem yblk1_apply (c : Dev nD) (t : Fin cfg1.N) (s : Fin 2048) (q : Fin 128) (s' : Fin 10240)
    (hs : s'.val = 2048 * (t.val % 5) + s.val) :
    yblk1 V c t (ix2 s q) = ytab1 V c s' q := by
  obtain ⟨-, -, e2, e3, -⟩ := idx_facts1 t
  show V c main_v19 (((cfg1.win 1).blk t).view.emb (ix2 s q)) = V c main_v19 (ix2 s' q)
  refine congrArg (V c main_v19) (funext fun a => Fin.ext ?_)
  match a with
  | ⟨0, _⟩ => show win1_1.index t (0 : Fin 2) * 2048 + 1 * s.val = s'.val; omega
  | ⟨1, _⟩ => show win1_1.index t (1 : Fin 2) * 128 + 1 * q.val = q.val; omega

def term1 (c : Dev nD) (r : Fin 10240) (q : Fin 128) (s : ℕ) : EReal :=
  if h : s < 10240 then amat1 V c r ⟨s, h⟩ * ytab1 V c ⟨s, h⟩ q else 0

theorem blk1_term (c : Dev nD) (t : Fin cfg1.N) (a k : ℕ) (ht : t.val = 5 * a + k) (hk : k < 5) (p : Fin 1280) (q : Fin 128)
    (r : Fin 10240) (hr : r.val = 1280 * a + p.val) (s : Fin 2048) :
    (xblk1 V c t (ix2 p s) * yblk1 V c t (ix2 s q) : EReal) = term1 V c r q (2048 * k + s.val) := by
  have hlt : 2048 * k + s.val < 10240 := by have := s.isLt; omega
  unfold term1
  rw [dif_pos hlt, xblk1_apply V c t p s r ⟨2048 * k + s.val, hlt⟩ (by rw [hr]; omega) (by show 2048 * k + s.val = _; omega),
    yblk1_apply V c t s q ⟨2048 * k + s.val, hlt⟩ (by show 2048 * k + s.val = _; omega)]

theorem scratch1_A (c : Dev nD) (t : Fin cfg1.N) (h0 : t.val % 5 = 0) (h1 : ¬t.val % 5 = 4) (p : Fin 1280) (q : Fin 128) :
    ((outsAt1 V c t.val t.isLt).2 (ix2 p q) : EReal) = ∑ s : Fin 2048, xblk1 V c t (ix2 p s) * yblk1 V c t (ix2 s q) := by
  rw [outsAt1_A V c t h0 h1]
  dsimp only
  refine (congrFun (sval1_A (F := Ideal) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) (ix2 p q)).trans ?_
  refine (pay1_2_apply (xblk1 V c t) (yblk1 V c t) (k1_pay1 (F := Ideal)) p q).trans ?_
  rw [pay1_1_apply, zero_add]

theorem scratch1_B (c : Dev nD) (t : Fin cfg1.N) (h0 : ¬t.val % 5 = 0) (p : Fin 1280) (q : Fin 128) :
    ((outsAt1 V c t.val t.isLt).2 (ix2 p q) : EReal)
      = (outsAt1 V c (t.val - 1) (Nat.lt_of_le_of_lt (Nat.sub_le _ _) t.isLt)).2 (ix2 p q) + ∑ s : Fin 2048, xblk1 V c t (ix2 p s) * yblk1 V c t (ix2 s q) := by
  by_cases h1 : t.val % 5 = 4
  · rw [outsAt1_C V c t h0 h1]
    dsimp only
    refine (congrFun (sval1_C (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) (ix2 p q)).trans ?_
    exact pay1_2_apply (xblk1 V c t) (yblk1 V c t) (outsAt1 V c (t.val - 1) (Nat.lt_of_le_of_lt (Nat.sub_le _ _) t.isLt)).2 p q
  · rw [outsAt1_B V c t h0 h1]
    dsimp only
    refine (congrFun (sval1_B (F := Ideal) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) (ix2 p q)).trans ?_
    exact pay1_2_apply (xblk1 V c t) (yblk1 V c t) (outsAt1 V c (t.val - 1) (Nat.lt_of_le_of_lt (Nat.sub_le _ _) t.isLt)).2 p q

theorem out1_C (c : Dev nD) (t : Fin cfg1.N) (h0 : ¬t.val % 5 = 0) (h1 : t.val % 5 = 4) :
    (outsAt1 V c t.val t.isLt).1 = (outsAt1 V c t.val t.isLt).2 := by
  rw [outsAt1_C V c t h0 h1]
  dsimp only
  exact ((oval1_C (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2)).trans
    (sval1_C (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2).symm

theorem outsAt1_congr (c : Dev nD) {m m' : ℕ} (e : m = m') (h : m < cfg1.N) (h' : m' < cfg1.N) :
    outsAt1 V c m h = outsAt1 V c m' h' := by subst e; rfl

theorem scratch1_eq (c : Dev nD) (a : ℕ) (p : Fin 1280) (q : Fin 128) (r : Fin 10240) (hr : r.val = 1280 * a + p.val) :
    ∀ (k : ℕ) (hk : k < 5) (h : 5 * a + k < cfg1.N),
      ((outsAt1 V c (5 * a + k) h).2 (ix2 p q) : EReal)
        = ∑ k' ∈ Finset.range (k + 1), ∑ s : Fin 2048, term1 V c r q (2048 * k' + s.val)
  | 0, _, h => by
    rw [Finset.sum_range_one]
    refine (scratch1_A V c ⟨5 * a + 0, h⟩ (by dsimp only; omega) (by dsimp only; omega) p q).trans
      (Finset.sum_congr rfl fun s _ => ?_)
    exact blk1_term V c ⟨5 * a + 0, h⟩ a 0 rfl (by omega) p q r hr s
  | k + 1, hk, h => by
    rw [Finset.sum_range_succ, ← scratch1_eq c a p q r hr k (by omega) (by omega)]
    refine (scratch1_B V c ⟨5 * a + (k + 1), h⟩ (by dsimp only; omega) p q).trans ?_
    refine congrArg₂ (· + ·) ?_ (Finset.sum_congr rfl fun s _ => ?_)
    · exact congrArg (fun o : Vec Ideal S1280x128 .f32 × Vec Ideal S1280x128 .f32 => (o.2 (ix2 p q) : EReal))
        (outsAt1_congr V c (by dsimp only; omega) _ _)
    · exact blk1_term V c ⟨5 * a + (k + 1), h⟩ a (k + 1) rfl hk p q r hr s

theorem out1_val (c : Dev nD) (t : Fin cfg1.N) (h1 : t.val % 5 = 4) (p : Fin 1280) (q : Fin 128) (r : Fin 10240)
    (hr : r.val = 1280 * (t.val / 5) + p.val) :
    ((outsAt1 V c t.val t.isLt).1 (ix2 p q) : EReal) = ∑ s : Fin 10240, amat1 V c r s * ytab1 V c s q := by
  have hN : cfg1.N = 40 := N_1
  have ht := t.isLt
  have e : t.val = 5 * (t.val / 5) + 4 := by omega
  have h' : 5 * (t.val / 5) + 4 < cfg1.N := by omega
  rw [out1_C V c t (by omega) h1]
  refine (congrArg (fun o : Vec Ideal S1280x128 .f32 × Vec Ideal S1280x128 .f32 => (o.2 (ix2 p q) : EReal))
    (outsAt1_congr V c e t.isLt h')).trans ?_
  refine (scratch1_eq V c (t.val / 5) p q r hr 4 (by omega) h').trans ?_
  refine (sum_blocks1 (term1 V c r q)).trans (Finset.sum_congr rfl fun s _ => ?_)
  unfold term1
  rw [dif_pos s.isLt]

abbrev G1 (c : Dev nD) : Buf (Elt Ideal) ((c : Thread nD τ).loc main_v20) :=
  fun i => (∑ s : Fin 10240, Spec.mat2 (V c main_v12) (i 0) s * Spec.mat2 (V c main_v19) s (i 1) : EReal)

theorem flushed1_eq (c : Dev nD) (t : Fin cfg1.N) (hf : (cfg1.win 2).flush t = true) :
    (dat1 V c).flushed 2 t = ((cfg1.win 2).blk t).view.read (Elt Ideal) (G1 V c) := by
  have h1 : t.val % 5 = 4 := (flush1_2 t).mp hf
  obtain ⟨-, -, -, -, e4, e5⟩ := idx_facts1 t
  show (cfg1.win 2).cut (grid1.coords t) ((dat1 V c).after 2 t) = _
  rw [after1_2]
  have key : ∀ y : S1280x128.Idx,
      ((outsAt1 V c t.val t.isLt).1 y : EReal) = G1 V c (((cfg1.win 2).blk t).view.emb y) := fun y => by
    obtain ⟨p, q, rfl⟩ : ∃ (p : Fin 1280) (q : Fin 128), y = ix2 p q := ⟨y 0, y 1, eq_ix2 y⟩
    have eq : (((cfg1.win 2).blk t).view.emb (ix2 p q)) 1 = q :=
      Fin.ext (by show win1_2.index t (1 : Fin 2) * 128 + 1 * q.val = q.val; omega)
    refine (out1_val V c t h1 p q ((((cfg1.win 2).blk t).view.emb (ix2 p q)) 0)
      (by show win1_2.index t (0 : Fin 2) * 1280 + 1 * p.val = _; omega)).trans ?_
    show _ = ∑ s : Fin 10240, Spec.mat2 (V c main_v12) ((((cfg1.win 2).blk t).view.emb (ix2 p q)) 0) s
      * Spec.mat2 (V c main_v19) s ((((cfg1.win 2).blk t).view.emb (ix2 p q)) 1)
    rw [eq]
  funext y
  exact key y

theorem mem_blk1 (t : Fin cfg1.N) (i : S10240x128.Idx) :
    i ∈ ((cfg1.win 2).blk t).view.set ↔ ∀ a : Fin 2, win1_2.index t a * S1280x128.size a ≤ (i a).val ∧ (i a).val < win1_2.index t a * S1280x128.size a + S1280x128.size a := by
  show i ∈ ((View.whole main_v20).slice (win1_2.rect t)).set ↔ _
  rw [View.set_slice_whole, Rect.mem_set_unit]
  exact Iff.rfl

theorem cover1 (i : S10240x128.Idx) :
    ∃ t : Fin cfg1.N, (cfg1.win 2).flush t = true ∧ i ∈ ((cfg1.win 2).blk t).view.set := by
  have hN : cfg1.N = 40 := N_1
  have hi0 : (i 0).val < 10240 := (i 0).isLt
  have hi1 : (i 1).val < 128 := (i 1).isLt
  have ht : 5 * ((i 0).val / 1280) + 4 < cfg1.N := by omega
  refine ⟨⟨5 * ((i 0).val / 1280) + 4, ht⟩, (flush1_2 _).mpr (by dsimp only; omega), ?_⟩
  obtain ⟨-, -, -, -, e4, e5⟩ := idx_facts1 ⟨5 * ((i 0).val / 1280) + 4, ht⟩
  have e4' : win1_2.index ⟨5 * ((i 0).val / 1280) + 4, ht⟩ (0 : Fin 2) = (i 0).val / 1280 := by rw [e4]; dsimp only; omega
  rw [mem_blk1]
  intro a
  match a with
  | ⟨0, _⟩ => show win1_2.index ⟨5 * ((i 0).val / 1280) + 4, ht⟩ (0 : Fin 2) * 1280 ≤ (i 0).val ∧ (i 0).val < win1_2.index ⟨5 * ((i 0).val / 1280) + 4, ht⟩ (0 : Fin 2) * 1280 + 1280; omega
  | ⟨1, _⟩ => show win1_2.index ⟨5 * ((i 0).val / 1280) + 4, ht⟩ (1 : Fin 2) * 128 ≤ (i 1).val ∧ (i 1).val < win1_2.index ⟨5 * ((i 0).val / 1280) + 4, ht⟩ (1 : Fin 2) * 128 + 128; omega

theorem arrAt1_val (c : Dev nD) :
    (dat1 (F := Ideal) V c).arrAt 2 cfg1.N
      = (fun i => (∑ s : Fin 10240, Spec.mat2 (V c main_v12) (i 0) s * Spec.mat2 (V c main_v19) s (i 1) : EReal)
          : Buf (Elt Ideal) ((c : Thread nD τ).loc main_v20)) :=
  (dat1 V c).arrAt_eq_of_cover 2 (G1 V c) (flushed1_eq V c) (fun i => cover1 i)

end Cert.KernelIdeal.Hand

end
-- ==== Proof.KI.Val2.lean ====
import proofs.«403197_j58634893525189_3_alg».proof.Proof.KI.Reg2
import proofs.«403197_j58634893525189_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

namespace Val2

section Layout
variable {α : Type}

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : Nat) = 1 then 0 else c.val
    rw [if_pos rfl]

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem concatenate_cols_apply (u v : S1280x128.Idx → α) (p : Fin 1280) (k : Fin 256) :
    concatenate S1280x256 1 [⟨S1280x128, u⟩, ⟨S1280x128, v⟩] concatenates_S1280x128_S1280x128_S1280x256_d1 (ix2 p k)
      = if h : k.val < 128 then u (ix2 p ⟨k.val, h⟩) else v (ix2 p ⟨k.val - 128, by omega⟩) := by
  by_cases h : k.val < 128
  · rw [dif_pos h]
    exact concatenate_pair_apply_left 1 u v _ (ix2 p k) rfl (ix2 p ⟨k.val, h⟩) (fun b => match b with
      | ⟨0, _⟩ => rfl
      | ⟨1, _⟩ => rfl)
  · rw [dif_neg h]
    exact concatenate_pair_apply_right 1 u v _ (ix2 p k) rfl rfl (ix2 p ⟨k.val - 128, by omega⟩) (fun b hb => match b with
      | ⟨0, _⟩ => rfl
      | ⟨1, _⟩ => absurd rfl hb) (by show k.val - 128 + 128 = k.val; omega)

end Layout

theorem lhs_dot_upd_0 (i : S1280x128.Idx) (q : dot_S1280x256_S256x128_S1280x128_1_0_0_1_n_n.contr.Idx) :
    (dot_S1280x256_S256x128_S1280x128_1_0_0_1_n_n.lhsIdx i q 0).val = (i 0).val := by
  unfold DotDims.lhsIdx
  rw [dif_neg (show ¬(0 : Fin S1280x256.rank) ∈ dot_S1280x256_S256x128_S1280x128_1_0_0_1_n_n.lhsBatch by decide), dif_pos (show (0 : Fin S1280x256.rank) ∈ dot_S1280x256_S256x128_S1280x128_1_0_0_1_n_n.lhsNonContracting by decide)]
  rfl
theorem lhs_dot_upd_1 (i : S1280x128.Idx) (q : dot_S1280x256_S256x128_S1280x128_1_0_0_1_n_n.contr.Idx) :
    (dot_S1280x256_S256x128_S1280x128_1_0_0_1_n_n.lhsIdx i q 1).val = (q ⟨0, by decide⟩).val :=
  dot_S1280x256_S256x128_S1280x128_1_0_0_1_n_n.lhsIdx_val_of_single rfl i q
theorem rhs_dot_upd_0 (i : S1280x128.Idx) (q : dot_S1280x256_S256x128_S1280x128_1_0_0_1_n_n.contr.Idx) :
    (dot_S1280x256_S256x128_S1280x128_1_0_0_1_n_n.rhsIdx i q 0).val = (q ⟨0, by decide⟩).val :=
  dot_S1280x256_S256x128_S1280x128_1_0_0_1_n_n.rhsIdx_val_of_single rfl i q
theorem rhs_dot_upd_1 (i : S1280x128.Idx) (q : dot_S1280x256_S256x128_S1280x128_1_0_0_1_n_n.contr.Idx) :
    (dot_S1280x256_S256x128_S1280x128_1_0_0_1_n_n.rhsIdx i q 1).val = (i 1).val := by
  unfold DotDims.rhsIdx
  rw [dif_neg (show ¬(1 : Fin S256x128.rank) ∈ dot_S1280x256_S256x128_S1280x128_1_0_0_1_n_n.rhsBatch by decide), dif_pos (show (1 : Fin S256x128.rank) ∈ dot_S1280x256_S256x128_S1280x128_1_0_0_1_n_n.rhsNonContracting by decide)]
  rfl

theorem matmul_upd_apply (l : FVec Ideal S1280x256 .bf16) (r : FVec Ideal S256x128 .bf16) (p : Fin 1280) (q : Fin 128) :
    matmul dot_S1280x256_S256x128_S1280x128_1_0_0_1_n_n none l r (constant (F := Ideal) S1280x128 .f32 0x00000000#32) (ix2 p q)
      = ∑ k : Fin 256, l (ix2 p k) * r (ix2 k q) := by
  simp only [matmul]
  rw [Ideal.matmul_constant_zero_apply, ← Equiv.sum_comp (contrEquiv1 dot_S1280x256_S256x128_S1280x128_1_0_0_1_n_n 256 rfl rfl).symm]
  refine Finset.sum_congr rfl fun k _ => ?_
  have hk := contrEquiv1_symm_val dot_S1280x256_S256x128_S1280x128_1_0_0_1_n_n 256 rfl rfl k
  have el : dot_S1280x256_S256x128_S1280x128_1_0_0_1_n_n.lhsIdx (ix2 p q) ((contrEquiv1 dot_S1280x256_S256x128_S1280x128_1_0_0_1_n_n 256 rfl rfl).symm k) = ix2 p k := funext fun a => Fin.ext (by
    match a with
    | ⟨0, _⟩ => exact lhs_dot_upd_0 _ _
    | ⟨1, _⟩ => exact (lhs_dot_upd_1 _ _).trans hk)
  have er : dot_S1280x256_S256x128_S1280x128_1_0_0_1_n_n.rhsIdx (ix2 p q) ((contrEquiv1 dot_S1280x256_S256x128_S1280x128_1_0_0_1_n_n 256 rfl rfl).symm k) = ix2 k q := funext fun a => Fin.ext (by
    match a with
    | ⟨0, _⟩ => exact (rhs_dot_upd_0 _ _).trans hk
    | ⟨1, _⟩ => exact rhs_dot_upd_1 _ _)
  rw [el, er]

theorem rowSum_apply (src : FVec Ideal S1280x128 .f32) (hacc : (0x00000000#32 : BitVec 32) = 0x00000000#32) (p : Fin 1280) :
    multiReduction (F := Ideal) .add [1] S1280 src 0x00000000#32 reduces_S1280x128_S1280 (.inl rfl) hacc (ix1 p)
      = ∑ k : Fin 128, src (ix2 p k) := by
  refine (Ideal.multiReduction_add_single src 0x00000000#32 reduces_S1280x128_S1280 (.inl rfl) hacc (ix1 p)).trans ?_
  refine Finset.sum_congr rfl fun k _ => ?_
  exact congrArg src (funext fun a => Fin.ext (by match a with | ⟨0, _⟩ => rfl | ⟨1, _⟩ => rfl))

theorem hz : (![0, 0] : Fin 2 → Nat) = fun _ => 0 := funext fun a => by fin_cases a <;> rfl

theorem sqrt_apply {s : Shape} {φ : FTy} (a : FVec Ideal s φ) (i : s.Idx) : sqrt a i = Ideal.sqrt (a i) := rfl

def meanBlk (x1 : Vec Ideal S1280x128 .f32) (x2 : Vec Ideal S1280x1 .f32) : FVec Ideal S1280x128 .f32 :=
  divf x1 (broadcastTo S1280x128 (maximumf x2 (broadcast S1280x1 (Scalar.ofBits .f32 0x3F800000#32))) broadcasts_S1280x1_S1280x128)

def hidBlk (x0 x1 : Vec Ideal S1280x128 .f32) (x2 : Vec Ideal S1280x1 .f32) (x3 : Vec Ideal S256x128 .f32) (x4 : Vec Ideal S1x128 .f32) :
    FVec Ideal S1280x128 .f32 :=
  maximumf
    (addf
      (matmul dot_S1280x256_S256x128_S1280x128_1_0_0_1_n_n none
        (truncf .bf16 (concatenate S1280x256 1 [⟨S1280x128, x0⟩, ⟨S1280x128, meanBlk x1 x2⟩] concatenates_S1280x128_S1280x128_S1280x256_d1) bitsLt_bf16_f32)
        (truncf .bf16 x3 bitsLt_bf16_f32) (constant S1280x128 .f32 0x00000000#32))
      (broadcastTo S1280x128 x4 broadcasts_S1x128_S1280x128))
    (broadcast S1280x128 (Scalar.ofBits .f32 0x00000000#32))

theorem k2_pay1_eq (x0 x1 : Vec Ideal S1280x128 .f32) (x2 : Vec Ideal S1280x1 .f32) (x3 : Vec Ideal S256x128 .f32) (x4 : Vec Ideal S1x128 .f32) :
    k2_pay1 x0 x1 x2 x3 x4
      = divf (hidBlk x0 x1 x2 x3 x4)
          (broadcastTo S1280x128
            (maximumf
              (sqrt (shapeCast S1280x1
                (multiReduction .add [1] S1280 (mulf (hidBlk x0 x1 x2 x3 x4) (hidBlk x0 x1 x2 x3 x4)) 0x00000000#32 reduces_S1280x128_S1280 (.inl rfl) rfl)
                shapeCasts_S1280_S1280x1))
              (broadcast S1280x1 (Scalar.ofBits .f32 0x2B8CBCCC#32)))
            broadcasts_S1280x1_S1280x128) := by
  unfold k2_pay1 hidBlk meanBlk
  dsimp only
  rw [shapeCast_self x0, shapeCast_self x1, shapeCast_self x2, shapeCast_self x4]

theorem meanBlk_apply (x1 : Vec Ideal S1280x128 .f32) (x2 : Vec Ideal S1280x1 .f32) (p : Fin 1280) (k : Fin 128) :
    meanBlk x1 x2 (ix2 p k) = Ideal.div (x1 (ix2 p k)) (max (x2 (ix2 p 0)) (Ideal.ofBits .f32 0x3F800000#32)) := by
  unfold meanBlk
  rw [divf_apply, broadcastTo_a1_ab_apply, maximumf_apply, broadcast_apply]
  rfl

theorem hidBlk_apply (x0 x1 : Vec Ideal S1280x128 .f32) (x2 : Vec Ideal S1280x1 .f32) (x3 : Vec Ideal S256x128 .f32) (x4 : Vec Ideal S1x128 .f32)
    (p : Fin 1280) (j : Fin 128) :
    hidBlk x0 x1 x2 x3 x4 (ix2 p j)
      = Spec.lin (Spec.mat2 x3) (Spec.row2 x4 0)
          (Spec.cat (Spec.row2 x0 p) (fun k => Ideal.div (x1 (ix2 p k)) (max (x2 (ix2 p 0)) (Ideal.ofBits .f32 0x3F800000#32)))) j := by
  unfold hidBlk Spec.lin
  rw [maximumf_apply, addf_apply, matmul_upd_apply, broadcastTo_1b_ab_apply, broadcast_apply]
  have hs : ∀ k : Fin 256,
      (truncf .bf16 (concatenate S1280x256 1 [⟨S1280x128, x0⟩, ⟨S1280x128, meanBlk x1 x2⟩] concatenates_S1280x128_S1280x128_S1280x256_d1) bitsLt_bf16_f32 : FVec Ideal S1280x256 .bf16) (ix2 p k)
          * (truncf .bf16 x3 bitsLt_bf16_f32 : FVec Ideal S256x128 .bf16) (ix2 k j)
        = Spec.cat (Spec.row2 x0 p) (fun k => Ideal.div (x1 (ix2 p k)) (max (x2 (ix2 p 0)) (Ideal.ofBits .f32 0x3F800000#32))) k * Spec.mat2 x3 k j := by
    intro k
    rw [truncf_apply, truncf_apply, concatenate_cols_apply]
    unfold Spec.cat
    by_cases h : k.val < 128
    · rw [dif_pos h, dif_pos h]
    · rw [dif_neg h, dif_neg h, meanBlk_apply]
  rw [Finset.sum_congr rfl (fun k _ => hs k)]
  show max (_ + _) (Ideal.ofBits .f32 0x00000000#32) = _
  rw [Ideal.ofBits_zero_f32]

theorem out2_5_apply (x0 x1 : Vec Ideal S1280x128 .f32) (x2 : Vec Ideal S1280x1 .f32) (x3 : Vec Ideal S256x128 .f32) (x4 : Vec Ideal S1x128 .f32)
    (p : Fin 1280) (q : Fin 128) :
    out2_5 x0 x1 x2 x3 x4 (ix2 p q)
      = Spec.upd (Ideal.ofBits .f32 0x3F800000#32) (Ideal.ofBits .f32 0x2B8CBCCC#32) (Spec.mat2 x3) (Spec.row2 x4 0)
          (Spec.row2 x0 p) (Spec.row2 x1 p) (x2 (ix2 p 0)) q := by
  unfold out2_5
  rw [View.canon_unit_zero hz]
  simp only [View.ld_unit_zero (S := S1280x128) hz, View.ld_unit_zero (S := S1280x1) hz, View.ld_unit_zero (S := S256x128) hz, View.ld_unit_zero (S := S1x128) hz]
  rw [k2_pay1_eq]
  unfold Spec.upd
  rw [divf_apply, broadcastTo_a1_ab_apply, maximumf_apply, broadcast_apply, sqrt_apply, shapeCast_a_a1_apply, rowSum_apply, hidBlk_apply]
  simp only [mulf_apply, hidBlk_apply]
  rfl

theorem out2_5_of_rows (x0 x1 : Vec Ideal S1280x128 .f32) (x2 : Vec Ideal S1280x1 .f32) (x3 : Vec Ideal S256x128 .f32) (x4 : Vec Ideal S1x128 .f32)
    (A0 A1 : S10240x128.Idx → EReal) (A2 : S10240x1.Idx → EReal) (A3 : S256x128.Idx → EReal) (A4 : S1x128.Idx → EReal)
    (p : Fin 1280) (r : Fin 10240) (q : Fin 128)
    (h0 : ∀ k : Fin 128, x0 (ix2 p k) = A0 (ix2 r k)) (h1 : ∀ k : Fin 128, x1 (ix2 p k) = A1 (ix2 r k))
    (h2 : x2 (ix2 p 0) = A2 (ix2 r 0)) (h3 : ∀ (k : Fin 256) (j : Fin 128), x3 (ix2 k j) = A3 (ix2 k j))
    (h4 : ∀ j : Fin 128, x4 (ix2 0 j) = A4 (ix2 0 j)) :
    out2_5 x0 x1 x2 x3 x4 (ix2 p q)
      = Spec.upd (Ideal.ofBits .f32 0x3F800000#32) (Ideal.ofBits .f32 0x2B8CBCCC#32) (Spec.mat2 A3) (Spec.row2 A4 0)
          (Spec.row2 A0 r) (Spec.row2 A1 r) (A2 (ix2 r 0)) q := by
  rw [out2_5_apply]
  have e3 : Spec.mat2 x3 = Spec.mat2 A3 := funext fun k => funext fun j => h3 k j
  have e4 : Spec.row2 x4 0 = Spec.row2 A4 0 := funext h4
  have e0 : Spec.row2 x0 p = Spec.row2 A0 r := funext h0
  have e1 : Spec.row2 x1 p = Spec.row2 A1 r := funext h1
  rw [e3, e4, e0, e1, h2]

theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt2 (t : Fin cfg2.N) : t.val < 8 := by have h : cfg2.N = 8 := N_2; have := t.isLt; omega

def rowAt2 (t : Fin cfg2.N) (p : Fin 1280) : Fin 10240 := ⟨1280 * t.val + p.val, by have := point_lt2 t; have := p.isLt; omega⟩

theorem emb2_0 (t : Fin cfg2.N) (p : Fin 1280) (q : Fin 128) : ((cfg2.win 0).blk t).view.emb (ix2 p q) = ix2 (rowAt2 t p) q := by
  obtain ⟨e00, e01, -⟩ := index_facts2 t
  funext a; apply Fin.ext
  match a with
  | ⟨0, _⟩ => show win2_0.index t (0 : Fin 2) * 1280 + 1 * p.val = 1280 * t.val + p.val; omega
  | ⟨1, _⟩ => show win2_0.index t (1 : Fin 2) * 128 + 1 * q.val = q.val; omega
theorem emb2_1 (t : Fin cfg2.N) (p : Fin 1280) (q : Fin 128) : ((cfg2.win 1).blk t).view.emb (ix2 p q) = ix2 (rowAt2 t p) q := by
  obtain ⟨-, -, e10, e11, -⟩ := index_facts2 t
  funext a; apply Fin.ext
  match a with
  | ⟨0, _⟩ => show win2_1.index t (0 : Fin 2) * 1280 + 1 * p.val = 1280 * t.val + p.val; omega
  | ⟨1, _⟩ => show win2_1.index t (1 : Fin 2) * 128 + 1 * q.val = q.val; omega
theorem emb2_2 (t : Fin cfg2.N) (p : Fin 1280) (u : Fin 1) : ((cfg2.win 2).blk t).view.emb (ix2 p u) = ix2 (rowAt2 t p) u := by
  obtain ⟨-, -, -, -, e20, e21, -⟩ := index_facts2 t
  funext a; apply Fin.ext
  match a with
  | ⟨0, _⟩ => show win2_2.index t (0 : Fin 2) * 1280 + 1 * p.val = 1280 * t.val + p.val; omega
  | ⟨1, _⟩ => show win2_2.index t (1 : Fin 2) * 1 + 1 * u.val = u.val; omega
theorem emb2_3 (t : Fin cfg2.N) (k : Fin 256) (j : Fin 128) : ((cfg2.win 3).blk t).view.emb (ix2 k j) = ix2 k j := by
  obtain ⟨-, -, -, -, -, -, e30, e31, -⟩ := index_facts2 t
  funext a; apply Fin.ext
  match a with
  | ⟨0, _⟩ => show win2_3.index t (0 : Fin 2) * 256 + 1 * k.val = k.val; omega
  | ⟨1, _⟩ => show win2_3.index t (1 : Fin 2) * 128 + 1 * j.val = j.val; omega
theorem emb2_4 (t : Fin cfg2.N) (u : Fin 1) (j : Fin 128) : ((cfg2.win 4).blk t).view.emb (ix2 u j) = ix2 u j := by
  obtain ⟨-, -, -, -, -, -, -, -, e40, e41, -⟩ := index_facts2 t
  funext a; apply Fin.ext
  match a with
  | ⟨0, _⟩ => show win2_4.index t (0 : Fin 2) * 1 + 1 * u.val = u.val; omega
  | ⟨1, _⟩ => show win2_4.index t (1 : Fin 2) * 128 + 1 * j.val = j.val; omega
theorem emb2_5 (t : Fin cfg2.N) (p : Fin 1280) (q : Fin 128) : ((cfg2.win 5).blk t).view.emb (ix2 p q) = ix2 (rowAt2 t p) q := by
  obtain ⟨-, -, -, -, -, -, -, -, -, -, e50, e51⟩ := index_facts2 t
  funext a; apply Fin.ext
  match a with
  | ⟨0, _⟩ => show win2_5.index t (0 : Fin 2) * 1280 + 1 * p.val = 1280 * t.val + p.val; omega
  | ⟨1, _⟩ => show win2_5.index t (1 : Fin 2) * 128 + 1 * q.val = q.val; omega

variable (V : (c : Dev nD) → (b : Ref sig .tc) → Buf (Elt Ideal) ((c : Thread nD τ).loc b))

abbrev updArr2 (c : Dev nD) : Buf (Elt Ideal) ((c : Thread nD τ).loc main_v22) :=
  (fun i => Spec.upd (Ideal.ofBits .f32 0x3F800000#32) (Ideal.ofBits .f32 0x2B8CBCCC#32) (Spec.mat2 (V c main_arg4)) (Spec.row2 (V c main_v21) 0)
            (Spec.row2 (V c main_v17) (i 0)) (Spec.row2 (V c main_v20) (i 0)) (V c main_v16 (ix2 (i 0) 0)) (i 1)
          : Buf (Elt Ideal) ((c : Thread nD τ).loc main_v22))

theorem flushed2_eq (c : Dev nD) (t : Fin cfg2.N) :
    (dat2 (F := Ideal) V c).flushed 5 t = ((cfg2.win 5).blk t).view.read (Elt Ideal) (updArr2 V c) := by
  show (cfg2.win 5).cut (grid2.coords t) ((dat2 V c).after 5 t) = _
  rw [after2_5]
  funext j
  obtain ⟨p, q, rfl⟩ : ∃ (p : Fin 1280) (q : Fin 128), j = ix2 p q := ⟨j 0, j 1, eq_ix2 j⟩
  show out2_5 (iblk2 V c 0 t) (iblk2 V c 1 t) (iblk2 V c 2 t) (iblk2 V c 3 t) (iblk2 V c 4 t) (ix2 p q)
    = updArr2 V c (((cfg2.win 5).blk t).view.emb (ix2 p q))
  rw [emb2_5 t p q]
  refine out2_5_of_rows (iblk2 V c 0 t) (iblk2 V c 1 t) (iblk2 V c 2 t) (iblk2 V c 3 t) (iblk2 V c 4 t)
    (V c main_v17) (V c main_v20) (V c main_v16) (V c main_arg4) (V c main_v21) p (rowAt2 t p) q ?_ ?_ ?_ ?_ ?_
  · intro k
    show V c main_v17 (((cfg2.win 0).blk t).view.emb (ix2 p k)) = _
    rw [emb2_0 t p k]
  · intro k
    show V c main_v20 (((cfg2.win 1).blk t).view.emb (ix2 p k)) = _
    rw [emb2_1 t p k]
  · show V c main_v16 (((cfg2.win 2).blk t).view.emb (ix2 p 0)) = _
    rw [emb2_2 t p 0]
  · intro k j
    show V c main_arg4 (((cfg2.win 3).blk t).view.emb (ix2 k j)) = _
    rw [emb2_3 t k j]
  · intro j
    show V c main_v21 (((cfg2.win 4).blk t).view.emb (ix2 0 j)) = _
    rw [emb2_4 t 0 j]

theorem mem_blk2 (t : Fin cfg2.N) (i : S10240x128.Idx) :
    i ∈ ((cfg2.win 5).blk t).view.set ↔ ∀ a : Fin 2, win2_5.index t a * S1280x128.size a ≤ (i a).val ∧ (i a).val < win2_5.index t a * S1280x128.size a + S1280x128.size a := by
  show i ∈ ((View.whole main_v22).slice (win2_5.rect t)).set ↔ _
  rw [View.set_slice_whole, Rect.mem_set_unit]
  exact Iff.rfl

theorem cover2 (i : S10240x128.Idx) : ∃ t : Fin cfg2.N, (cfg2.win 5).flush t = true ∧ i ∈ ((cfg2.win 5).blk t).view.set := by
  have hi0 : (i 0).val < 10240 := (i 0).isLt
  have hi1 : (i 1).val < 128 := (i 1).isLt
  have hN : cfg2.N = 8 := N_2
  obtain ⟨t, ht⟩ : ∃ t : Fin cfg2.N, t.val = (i 0).val / 1280 := ⟨⟨(i 0).val / 1280, by rw [hN]; omega⟩, rfl⟩
  obtain ⟨-, -, -, -, -, -, -, -, -, -, e50, e51⟩ := index_facts2 t
  refine ⟨t, flush2_5 t, ?_⟩
  rw [mem_blk2]
  intro a
  match a with
  | ⟨0, _⟩ => show win2_5.index t (0 : Fin 2) * 1280 ≤ (i 0).val ∧ (i 0).val < win2_5.index t (0 : Fin 2) * 1280 + 1280; omega
  | ⟨1, _⟩ => show win2_5.index t (1 : Fin 2) * 128 ≤ (i 1).val ∧ (i 1).val < win2_5.index t (1 : Fin 2) * 128 + 128; omega

end Val2

open Val2

variable (V : (c : Dev nD) → (b : Ref sig .tc) → Buf (Elt Ideal) ((c : Thread nD τ).loc b))

theorem arrAt2_val (c : Dev nD) :
    (dat2 (F := Ideal) V c).arrAt 5 cfg2.N
      = (fun i => Spec.upd (Ideal.ofBits .f32 0x3F800000#32) (Ideal.ofBits .f32 0x2B8CBCCC#32) (Spec.mat2 (V c main_arg4)) (Spec.row2 (V c main_v21) 0)
            (Spec.row2 (V c main_v17) (i 0)) (Spec.row2 (V c main_v20) (i 0)) (V c main_v16 (ix2 (i 0) 0)) (i 1)
          : Buf (Elt Ideal) ((c : Thread nD τ).loc main_v22)) := by
  exact (dat2 (F := Ideal) V c).arrAt_eq_of_cover 5 (updArr2 V c) (fun t _ => flushed2_eq V c t) cover2

end Cert.KernelIdeal.Hand

end
-- ==== Proof.KI.Val3.lean ====
import proofs.«403197_j58634893525189_3_alg».proof.Proof.KI.Reg3
import proofs.«403197_j58634893525189_3_alg».proof.Proof.KI.Val0

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem iblk3_0_row (c : Dev nD) (t : Fin cfg3.N) (p : Fin 1280) (r : Fin 10240) (hr : r.val = t.val * 1280 + p.val) :
    Spec.row2 (iblk3 V c 0 t : Vec Ideal S1280x128 .f32) p = Spec.row2 (V c main_v22 : S10240x128.Idx → EReal) r := by
  obtain ⟨e0, e1, -⟩ := idx_facts3 t
  funext k
  show iblk3 V c 0 t (ix2 p k) = V c main_v22 (ix2 r k)
  unfold iblk3
  rw [View.read_apply]
  show V c main_v22 _ = V c main_v22 _
  congr 1
  funext a
  apply Fin.ext
  match a with
  | ⟨0, _⟩ => show win3_0.index t (0 : Fin 2) * 1280 + 1 * p.val = r.val; rw [e0, hr]; omega
  | ⟨1, _⟩ => show win3_0.index t (1 : Fin 2) * 128 + 1 * k.val = k.val; rw [e1]; omega

theorem iblk3_1_eq (c : Dev nD) (t : Fin cfg3.N) :
    (iblk3 V c 1 t : Vec Ideal S128x128 .f32) = (V c main_arg6 : S128x128.Idx → EReal) := by
  obtain ⟨-, -, e0, e1, -⟩ := idx_facts3 t
  funext j
  unfold iblk3
  rw [View.read_apply]
  show V c main_arg6 _ = V c main_arg6 j
  congr 1
  funext a
  apply Fin.ext
  match a with
  | ⟨0, _⟩ => show win3_1.index t (0 : Fin 2) * 128 + 1 * (j 0).val = (j 0).val; rw [e0]; omega
  | ⟨1, _⟩ => show win3_1.index t (1 : Fin 2) * 128 + 1 * (j 1).val = (j 1).val; rw [e1]; omega

theorem iblk3_2_eq (c : Dev nD) (t : Fin cfg3.N) :
    (iblk3 V c 2 t : Vec Ideal S1x128 .f32) = (V c main_v23 : S1x128.Idx → EReal) := by
  obtain ⟨-, -, -, -, e0, e1, -⟩ := idx_facts3 t
  funext j
  unfold iblk3
  rw [View.read_apply]
  show V c main_v23 _ = V c main_v23 j
  congr 1
  funext a
  apply Fin.ext
  match a with
  | ⟨0, _⟩ => show win3_2.index t (0 : Fin 2) * 1 + 1 * (j 0).val = (j 0).val; rw [e0]; omega
  | ⟨1, _⟩ => show win3_2.index t (1 : Fin 2) * 128 + 1 * (j 1).val = (j 1).val; rw [e1]; omega

abbrev lin3 (c : Dev nD) : Buf (Elt Ideal) ((c : Thread nD τ).loc main_v24) :=
  fun i => Spec.lin (Spec.mat2 (V c main_arg6)) (Spec.row2 (V c main_v23) 0) (Spec.row2 (V c main_v22) (i 0)) (i 1)

theorem flushed3_eq (c : Dev nD) (t : Fin cfg3.N) :
    (dat3 (F := Ideal) V c).flushed 3 t = ((cfg3.win 3).blk t).view.read (Elt Ideal) (lin3 V c) := by
  show (cfg3.win 3).cut (grid3.coords t) ((dat3 V c).after 3 t) = _
  rw [after3_3]
  obtain ⟨-, -, -, -, -, -, e0, e1⟩ := idx_facts3 t
  have hN : cfg3.N = 8 := N_3
  funext j
  have hj0 : (j 0).val < 1280 := (j 0).isLt
  have hp : t.val * 1280 + (j 0).val < 10240 := by have := t.isLt; omega
  have hemb : ((cfg3.win 3).blk t).view.emb j = ix2 (⟨t.val * 1280 + (j 0).val, hp⟩ : Fin 10240) (j 1) := by
    funext a
    apply Fin.ext
    match a with
    | ⟨0, _⟩ => show win3_3.index t (0 : Fin 2) * 1280 + 1 * (j 0).val = t.val * 1280 + (j 0).val; rw [e0]; omega
    | ⟨1, _⟩ => show win3_3.index t (1 : Fin 2) * 128 + 1 * (j 1).val = (j 1).val; rw [e1]; omega
  refine ((congrArg (out0_3 (iblk3 V c 0 t) (iblk3 V c 1 t) (iblk3 V c 2 t)) (eq_ix2 j)).trans
    (out0_3_apply (iblk3 V c 0 t) (iblk3 V c 1 t) (iblk3 V c 2 t) (j 0) (j 1))).trans ?_
  rw [View.read_apply]
  show _ = lin3 V c (((cfg3.win 3).blk t).view.emb j)
  rw [hemb, iblk3_1_eq V c t, iblk3_2_eq V c t, iblk3_0_row V c t (j 0) ⟨t.val * 1280 + (j 0).val, hp⟩ rfl]
  rfl

theorem mem_blk3 (t : Fin cfg3.N) (i : S10240x128.Idx) :
    i ∈ ((cfg3.win 3).blk t).view.set ↔ ∀ a : Fin 2, win3_3.index t a * S1280x128.size a ≤ (i a).val ∧ (i a).val < win3_3.index t a * S1280x128.size a + S1280x128.size a := by
  show i ∈ ((View.whole main_v24).slice (win3_3.rect t)).set ↔ _
  rw [View.set_slice_whole, Rect.mem_set_unit]
  exact Iff.rfl

theorem cover3 (i : S10240x128.Idx) :
    ∃ t : Fin cfg3.N, (cfg3.win 3).flush t = true ∧ i ∈ ((cfg3.win 3).blk t).view.set := by
  have hi0 : (i 0).val < 10240 := (i 0).isLt
  have hi1 : (i 1).val < 128 := (i 1).isLt
  have hN : cfg3.N = 8 := N_3
  have ht : (i 0).val / 1280 < cfg3.N := by rw [hN]; omega
  obtain ⟨-, -, -, -, -, -, e0, e1⟩ := idx_facts3 ⟨(i 0).val / 1280, ht⟩
  refine ⟨⟨(i 0).val / 1280, ht⟩, flush3_3 _, ?_⟩
  rw [mem_blk3]
  intro a
  match a with
  | ⟨0, _⟩ =>
    show win3_3.index ⟨(i 0).val / 1280, ht⟩ (0 : Fin 2) * 1280 ≤ (i 0).val ∧ (i 0).val < win3_3.index ⟨(i 0).val / 1280, ht⟩ (0 : Fin 2) * 1280 + 1280
    rw [e0]
    show (i 0).val / 1280 * 1280 ≤ (i 0).val ∧ (i 0).val < (i 0).val / 1280 * 1280 + 1280
    omega
  | ⟨1, _⟩ =>
    show win3_3.index ⟨(i 0).val / 1280, ht⟩ (1 : Fin 2) * 128 ≤ (i 1).val ∧ (i 1).val < win3_3.index ⟨(i 0).val / 1280, ht⟩ (1 : Fin 2) * 128 + 128
    rw [e1]
    omega

theorem arrAt3_val (c : Dev nD) :
    (dat3 (F := Ideal) V c).arrAt 3 cfg3.N
      = (fun i => Spec.lin (Spec.mat2 (V c main_arg6)) (Spec.row2 (V c main_v23) 0) (Spec.row2 (V c main_v22) (i 0)) (i 1)
          : Buf (Elt Ideal) ((c : Thread nD τ).loc main_v24)) :=
  (dat3 (F := Ideal) V c).arrAt_eq_of_cover 3 (lin3 V c) (fun t _ => flushed3_eq V c t) cover3

end Cert.KernelIdeal.Hand

end
-- ==== Proof.KI.Val4.lean ====
import proofs.«403197_j58634893525189_3_alg».proof.Proof.KI.Reg4
import proofs.«403197_j58634893525189_3_alg».proof.Proof.KI.Val1

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

open Idealize.ShloMosaic.Tactic

section CaseValues
variable {F : FTy → Type} [FloatOps F]

theorem sval4_B (c : Dev nD) (i : grid4.Coords) (a2 : Memref sig .tc .vmem S1280x2048 .bf16) (h2 : a2.IsWhole) (a3 : Memref sig .tc .vmem S2048x128 .bf16) (h3 : a3.IsWhole) (a4 : Memref sig .tc .vmem S1280x128 .f32) (h4 : a4.IsWhole) (a5 : Memref sig .tc .vmem S1280x128 .f32) (h5 : a5.IsWhole) (hc0 : ¬cond4_0 i) (hc1 : ¬cond4_1 i)
    (x0 : Vec F S1280x2048 .bf16) (x1 : Vec F S2048x128 .bf16) (xs0 : Vec F S1280x128 .f32) :
    sout4_B_0 c i a2 h2 a3 h3 a4 h4 a5 h5 hc0 hc1 x0 x1 xs0 = k1_pay2 x0 x1 xs0 := by
  unfold sout4_B_0
  rw [View.read_writes_eq_canon _ _ _ (scover4_B_0 c i a2 h2 a3 h3 a4 h4 a5 h5 hc0 hc1 x0 x1 xs0)]
  unfold kernelRun1_B
  dsimp only
  sl_unfold_words
  rw [View.canon_unit_zero hz1]
  simp only [View.readAt_eq_ld, h2.read_unread, h3.read_unread, h5.read_unread, View.ld_unit_zero (S := S1280x2048) hz1, View.ld_unit_zero (S := S2048x128) hz1, View.ld_unit_zero (S := S1280x128) hz1]

theorem sval4_A (c : Dev nD) (i : grid4.Coords) (a2 : Memref sig .tc .vmem S1280x2048 .bf16) (h2 : a2.IsWhole) (a3 : Memref sig .tc .vmem S2048x128 .bf16) (h3 : a3.IsWhole) (a4 : Memref sig .tc .vmem S1280x128 .f32) (h4 : a4.IsWhole) (a5 : Memref sig .tc .vmem S1280x128 .f32) (h5 : a5.IsWhole) (hc0 : cond4_0 i) (hc1 : ¬cond4_1 i)
    (x0 : Vec F S1280x2048 .bf16) (x1 : Vec F S2048x128 .bf16) :
    sout4_A_0 c i a2 h2 a3 h3 a4 h4 a5 h5 hc0 hc1 x0 x1 = k1_pay2 x0 x1 (k1_pay1 (F := F)) := by
  unfold sout4_A_0
  rw [View.read_writes_eq_canon _ _ _ (scover4_A_0 c i a2 h2 a3 h3 a4 h4 a5 h5 hc0 hc1 x0 x1)]
  unfold kernelRun1_A
  dsimp only
  sl_unfold_words
  rw [View.canon_cons_unit_zero (S := S1280x128) hz1]
  simp only [View.readAt_eq_ld, h2.read_unread, h3.read_unread, View.readCov_unit_zero (S := S1280x128) _ hz1, View.ld_unit_zero (S := S1280x2048) hz1, View.ld_unit_zero (S := S2048x128) hz1, View.ld_unit_zero (S := S1280x128) hz1]

theorem sval4_C (c : Dev nD) (i : grid4.Coords) (a2 : Memref sig .tc .vmem S1280x2048 .bf16) (h2 : a2.IsWhole) (a3 : Memref sig .tc .vmem S2048x128 .bf16) (h3 : a3.IsWhole) (a4 : Memref sig .tc .vmem S1280x128 .f32) (h4 : a4.IsWhole) (a5 : Memref sig .tc .vmem S1280x128 .f32) (h5 : a5.IsWhole) (hc0 : ¬cond4_0 i) (hc1 : cond4_1 i)
    (x0 : Vec F S1280x2048 .bf16) (x1 : Vec F S2048x128 .bf16) (xs0 : Vec F S1280x128 .f32) :
    sout4_C_0 c i a2 h2 a3 h3 a4 h4 a5 h5 hc0 hc1 x0 x1 xs0 = k1_pay2 x0 x1 xs0 := by
  unfold sout4_C_0
  rw [View.read_writes_eq_canon _ _ _ (scover4_C_0 c i a2 h2 a3 h3 a4 h4 a5 h5 hc0 hc1 x0 x1 xs0)]
  unfold kernelRun1_C
  dsimp only
  sl_unfold_words
  rw [View.canon_unit_zero hz1]
  simp only [View.readAt_eq_ld, h2.read_unread, h3.read_unread, h5.read_unread, View.ld_unit_zero (S := S1280x2048) hz1, View.ld_unit_zero (S := S2048x128) hz1, View.ld_unit_zero (S := S1280x128) hz1]

theorem oval4_C (c : Dev nD) (i : grid4.Coords) (a2 : Memref sig .tc .vmem S1280x2048 .bf16) (h2 : a2.IsWhole) (a3 : Memref sig .tc .vmem S2048x128 .bf16) (h3 : a3.IsWhole) (a4 : Memref sig .tc .vmem S1280x128 .f32) (h4 : a4.IsWhole) (a5 : Memref sig .tc .vmem S1280x128 .f32) (h5 : a5.IsWhole) (hc0 : ¬cond4_0 i) (hc1 : cond4_1 i)
    (x0 : Vec F S1280x2048 .bf16) (x1 : Vec F S2048x128 .bf16) (xs0 : Vec F S1280x128 .f32) :
    out4_C_2 c i a2 h2 a3 h3 a4 h4 a5 h5 hc0 hc1 x0 x1 xs0 = k1_pay2 x0 x1 xs0 := by
  unfold out4_C_2
  rw [View.read_writes_eq_canon _ _ _ (cover4_C_2 c i a2 h2 a3 h3 a4 h4 a5 h5 hc0 hc1 x0 x1 xs0)]
  unfold kernelRun1_C
  dsimp only
  sl_unfold_words
  rw [View.canon_unit_zero hz1]
  simp only [View.readAt_eq_ld, h2.read_unread, h3.read_unread, h5.read_unread, View.readCov_unit_zero (S := S1280x128) _ hz1, View.ld_unit_zero (S := S1280x2048) hz1, View.ld_unit_zero (S := S2048x128) hz1, View.ld_unit_zero (S := S1280x128) hz1]

end CaseValues

variable (V : (c : Dev nD) → (b : Ref sig .tc) → Buf (Elt Ideal) ((c : Thread nD τ).loc b))

abbrev xblk4 (c : Dev nD) (t : Fin cfg4.N) : Vec Ideal S1280x2048 .bf16 := iblk4 V c 0 t
abbrev yblk4 (c : Dev nD) (t : Fin cfg4.N) : Vec Ideal S2048x128 .bf16 := iblk4 V c 1 t

abbrev amat4 (c : Dev nD) : Fin 10240 → Fin 10240 → EReal := Spec.mat2 (V c main_v12)
abbrev ytab4 (c : Dev nD) : Fin 10240 → Fin 128 → EReal := Spec.mat2 (V c main_v24)

theorem idx_facts4 : ∀ t : Fin cfg4.N,
    win4_0.index t (0 : Fin 2) = t.val / 5 ∧ win4_0.index t (1 : Fin 2) = t.val % 5
    ∧ win4_1.index t (0 : Fin 2) = t.val % 5 ∧ win4_1.index t (1 : Fin 2) = 0
    ∧ win4_2.index t (0 : Fin 2) = t.val / 5 ∧ win4_2.index t (1 : Fin 2) = 0 :=
  (by decide +kernel : ∀ t : Fin grid4.N, _)

theorem xblk4_apply (c : Dev nD) (t : Fin cfg4.N) (p : Fin 1280) (s : Fin 2048) (r s' : Fin 10240)
    (hr : r.val = 1280 * (t.val / 5) + p.val) (hs : s'.val = 2048 * (t.val % 5) + s.val) :
    xblk4 V c t (ix2 p s) = amat4 V c r s' := by
  obtain ⟨e0, e1, -⟩ := idx_facts4 t
  show V c main_v12 (((cfg4.win 0).blk t).view.emb (ix2 p s)) = V c main_v12 (ix2 r s')
  refine congrArg (V c main_v12) (funext fun a => Fin.ext ?_)
  match a with
  | ⟨0, _⟩ => show win4_0.index t (0 : Fin 2) * 1280 + 1 * p.val = r.val; omega
  | ⟨1, _⟩ => show win4_0.index t (1 : Fin 2) * 2048 + 1 * s.val = s'.val; omega

theorem yblk4_apply (c : Dev nD) (t : Fin cfg4.N) (s : Fin 2048) (q : Fin 128) (s' : Fin 10240)
    (hs : s'.val = 2048 * (t.val % 5) + s.val) :
    yblk4 V c t (ix2 s q) = ytab4 V c s' q := by
  obtain ⟨-, -, e2, e3, -⟩ := idx_facts4 t
  show V c main_v24 (((cfg4.win 1).blk t).view.emb (ix2 s q)) = V c main_v24 (ix2 s' q)
  refine congrArg (V c main_v24) (funext fun a => Fin.ext ?_)
  match a with
  | ⟨0, _⟩ => show win4_1.index t (0 : Fin 2) * 2048 + 1 * s.val = s'.val; omega
  | ⟨1, _⟩ => show win4_1.index t (1 : Fin 2) * 128 + 1 * q.val = q.val; omega

def term4 (c : Dev nD) (r : Fin 10240) (q : Fin 128) (s : ℕ) : EReal :=
  if h : s < 10240 then amat4 V c r ⟨s, h⟩ * ytab4 V c ⟨s, h⟩ q else 0

theorem blk4_term (c : Dev nD) (t : Fin cfg4.N) (a k : ℕ) (ht : t.val = 5 * a + k) (hk : k < 5) (p : Fin 1280) (q : Fin 128)
    (r : Fin 10240) (hr : r.val = 1280 * a + p.val) (s : Fin 2048) :
    (xblk4 V c t (ix2 p s) * yblk4 V c t (ix2 s q) : EReal) = term4 V c r q (2048 * k + s.val) := by
  have hlt : 2048 * k + s.val < 10240 := by have := s.isLt; omega
  unfold term4
  rw [dif_pos hlt, xblk4_apply V c t p s r ⟨2048 * k + s.val, hlt⟩ (by rw [hr]; omega) (by show 2048 * k + s.val = _; omega),
    yblk4_apply V c t s q ⟨2048 * k + s.val, hlt⟩ (by show 2048 * k + s.val = _; omega)]

theorem scratch4_A (c : Dev nD) (t : Fin cfg4.N) (h0 : t.val % 5 = 0) (h1 : ¬t.val % 5 = 4) (p : Fin 1280) (q : Fin 128) :
    ((outsAt4 V c t.val t.isLt).2 (ix2 p q) : EReal) = ∑ s : Fin 2048, xblk4 V c t (ix2 p s) * yblk4 V c t (ix2 s q) := by
  rw [outsAt4_A V c t h0 h1]
  dsimp only
  refine (congrFun (sval4_A (F := Ideal) c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) (ix2 p q)).trans ?_
  refine (pay1_2_apply (xblk4 V c t) (yblk4 V c t) (k1_pay1 (F := Ideal)) p q).trans ?_
  rw [pay1_1_apply, zero_add]

theorem scratch4_B (c : Dev nD) (t : Fin cfg4.N) (h0 : ¬t.val % 5 = 0) (p : Fin 1280) (q : Fin 128) :
    ((outsAt4 V c t.val t.isLt).2 (ix2 p q) : EReal)
      = (outsAt4 V c (t.val - 1) (Nat.lt_of_le_of_lt (Nat.sub_le _ _) t.isLt)).2 (ix2 p q) + ∑ s : Fin 2048, xblk4 V c t (ix2 p s) * yblk4 V c t (ix2 s q) := by
  by_cases h1 : t.val % 5 = 4
  · rw [outsAt4_C V c t h0 h1]
    dsimp only
    refine (congrFun (sval4_C (F := Ideal) c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) (ix2 p q)).trans ?_
    exact pay1_2_apply (xblk4 V c t) (yblk4 V c t) (outsAt4 V c (t.val - 1) (Nat.lt_of_le_of_lt (Nat.sub_le _ _) t.isLt)).2 p q
  · rw [outsAt4_B V c t h0 h1]
    dsimp only
    refine (congrFun (sval4_B (F := Ideal) c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) (ix2 p q)).trans ?_
    exact pay1_2_apply (xblk4 V c t) (yblk4 V c t) (outsAt4 V c (t.val - 1) (Nat.lt_of_le_of_lt (Nat.sub_le _ _) t.isLt)).2 p q

theorem out4_C (c : Dev nD) (t : Fin cfg4.N) (h0 : ¬t.val % 5 = 0) (h1 : t.val % 5 = 4) :
    (outsAt4 V c t.val t.isLt).1 = (outsAt4 V c t.val t.isLt).2 := by
  rw [outsAt4_C V c t h0 h1]
  dsimp only
  exact ((oval4_C (F := Ideal) c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2)).trans
    (sval4_C (F := Ideal) c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2).symm

theorem outsAt4_congr (c : Dev nD) {m m' : ℕ} (e : m = m') (h : m < cfg4.N) (h' : m' < cfg4.N) :
    outsAt4 V c m h = outsAt4 V c m' h' := by subst e; rfl

theorem scratch4_eq (c : Dev nD) (a : ℕ) (p : Fin 1280) (q : Fin 128) (r : Fin 10240) (hr : r.val = 1280 * a + p.val) :
    ∀ (k : ℕ) (hk : k < 5) (h : 5 * a + k < cfg4.N),
      ((outsAt4 V c (5 * a + k) h).2 (ix2 p q) : EReal)
        = ∑ k' ∈ Finset.range (k + 1), ∑ s : Fin 2048, term4 V c r q (2048 * k' + s.val)
  | 0, _, h => by
    rw [Finset.sum_range_one]
    refine (scratch4_A V c ⟨5 * a + 0, h⟩ (by dsimp only; omega) (by dsimp only; omega) p q).trans
      (Finset.sum_congr rfl fun s _ => ?_)
    exact blk4_term V c ⟨5 * a + 0, h⟩ a 0 rfl (by omega) p q r hr s
  | k + 1, hk, h => by
    rw [Finset.sum_range_succ, ← scratch4_eq c a p q r hr k (by omega) (by omega)]
    refine (scratch4_B V c ⟨5 * a + (k + 1), h⟩ (by dsimp only; omega) p q).trans ?_
    refine congrArg₂ (· + ·) ?_ (Finset.sum_congr rfl fun s _ => ?_)
    · exact congrArg (fun o : Vec Ideal S1280x128 .f32 × Vec Ideal S1280x128 .f32 => (o.2 (ix2 p q) : EReal))
        (outsAt4_congr V c (by dsimp only; omega) _ _)
    · exact blk4_term V c ⟨5 * a + (k + 1), h⟩ a (k + 1) rfl hk p q r hr s

theorem out4_val (c : Dev nD) (t : Fin cfg4.N) (h1 : t.val % 5 = 4) (p : Fin 1280) (q : Fin 128) (r : Fin 10240)
    (hr : r.val = 1280 * (t.val / 5) + p.val) :
    ((outsAt4 V c t.val t.isLt).1 (ix2 p q) : EReal) = ∑ s : Fin 10240, amat4 V c r s * ytab4 V c s q := by
  have hN : cfg4.N = 40 := N_4
  have ht := t.isLt
  have e : t.val = 5 * (t.val / 5) + 4 := by omega
  have h' : 5 * (t.val / 5) + 4 < cfg4.N := by omega
  rw [out4_C V c t (by omega) h1]
  refine (congrArg (fun o : Vec Ideal S1280x128 .f32 × Vec Ideal S1280x128 .f32 => (o.2 (ix2 p q) : EReal))
    (outsAt4_congr V c e t.isLt h')).trans ?_
  refine (scratch4_eq V c (t.val / 5) p q r hr 4 (by omega) h').trans ?_
  refine (sum_blocks1 (term4 V c r q)).trans (Finset.sum_congr rfl fun s _ => ?_)
  unfold term4
  rw [dif_pos s.isLt]

abbrev G4 (c : Dev nD) : Buf (Elt Ideal) ((c : Thread nD τ).loc main_v25) :=
  fun i => (∑ s : Fin 10240, Spec.mat2 (V c main_v12) (i 0) s * Spec.mat2 (V c main_v24) s (i 1) : EReal)

theorem flushed4_eq (c : Dev nD) (t : Fin cfg4.N) (hf : (cfg4.win 2).flush t = true) :
    (dat4 V c).flushed 2 t = ((cfg4.win 2).blk t).view.read (Elt Ideal) (G4 V c) := by
  have h1 : t.val % 5 = 4 := (flush4_2 t).mp hf
  obtain ⟨-, -, -, -, e4, e5⟩ := idx_facts4 t
  show (cfg4.win 2).cut (grid4.coords t) ((dat4 V c).after 2 t) = _
  rw [after4_2]
  have key : ∀ y : S1280x128.Idx,
      ((outsAt4 V c t.val t.isLt).1 y : EReal) = G4 V c (((cfg4.win 2).blk t).view.emb y) := fun y => by
    obtain ⟨p, q, rfl⟩ : ∃ (p : Fin 1280) (q : Fin 128), y = ix2 p q := ⟨y 0, y 1, eq_ix2 y⟩
    have eq : (((cfg4.win 2).blk t).view.emb (ix2 p q)) 1 = q :=
      Fin.ext (by show win4_2.index t (1 : Fin 2) * 128 + 1 * q.val = q.val; omega)
    refine (out4_val V c t h1 p q ((((cfg4.win 2).blk t).view.emb (ix2 p q)) 0)
      (by show win4_2.index t (0 : Fin 2) * 1280 + 1 * p.val = _; omega)).trans ?_
    show _ = ∑ s : Fin 10240, Spec.mat2 (V c main_v12) ((((cfg4.win 2).blk t).view.emb (ix2 p q)) 0) s
      * Spec.mat2 (V c main_v24) s ((((cfg4.win 2).blk t).view.emb (ix2 p q)) 1)
    rw [eq]
  funext y
  exact key y

theorem mem_blk4 (t : Fin cfg4.N) (i : S10240x128.Idx) :
    i ∈ ((cfg4.win 2).blk t).view.set ↔ ∀ a : Fin 2, win4_2.index t a * S1280x128.size a ≤ (i a).val ∧ (i a).val < win4_2.index t a * S1280x128.size a + S1280x128.size a := by
  show i ∈ ((View.whole main_v25).slice (win4_2.rect t)).set ↔ _
  rw [View.set_slice_whole, Rect.mem_set_unit]
  exact Iff.rfl

theorem cover4 (i : S10240x128.Idx) :
    ∃ t : Fin cfg4.N, (cfg4.win 2).flush t = true ∧ i ∈ ((cfg4.win 2).blk t).view.set := by
  have hN : cfg4.N = 40 := N_4
  have hi0 : (i 0).val < 10240 := (i 0).isLt
  have hi1 : (i 1).val < 128 := (i 1).isLt
  have ht : 5 * ((i 0).val / 1280) + 4 < cfg4.N := by omega
  refine ⟨⟨5 * ((i 0).val / 1280) + 4, ht⟩, (flush4_2 _).mpr (by dsimp only; omega), ?_⟩
  obtain ⟨-, -, -, -, e4, e5⟩ := idx_facts4 ⟨5 * ((i 0).val / 1280) + 4, ht⟩
  have e4' : win4_2.index ⟨5 * ((i 0).val / 1280) + 4, ht⟩ (0 : Fin 2) = (i 0).val / 1280 := by rw [e4]; dsimp only; omega
  rw [mem_blk4]
  intro a
  match a with
  | ⟨0, _⟩ => show win4_2.index ⟨5 * ((i 0).val / 1280) + 4, ht⟩ (0 : Fin 2) * 1280 ≤ (i 0).val ∧ (i 0).val < win4_2.index ⟨5 * ((i 0).val / 1280) + 4, ht⟩ (0 : Fin 2) * 1280 + 1280; omega
  | ⟨1, _⟩ => show win4_2.index ⟨5 * ((i 0).val / 1280) + 4, ht⟩ (1 : Fin 2) * 128 ≤ (i 1).val ∧ (i 1).val < win4_2.index ⟨5 * ((i 0).val / 1280) + 4, ht⟩ (1 : Fin 2) * 128 + 128; omega

theorem arrAt4_val (c : Dev nD) :
    (dat4 (F := Ideal) V c).arrAt 2 cfg4.N
      = (fun i => (∑ s : Fin 10240, Spec.mat2 (V c main_v12) (i 0) s * Spec.mat2 (V c main_v24) s (i 1) : EReal)
          : Buf (Elt Ideal) ((c : Thread nD τ).loc main_v25)) :=
  (dat4 V c).arrAt_eq_of_cover 2 (G4 V c) (flushed4_eq V c) (fun i => cover4 i)

end Cert.KernelIdeal.Hand

end
-- ==== Proof.KI.Val5.lean ====
import proofs.«403197_j58634893525189_3_alg».proof.Proof.KI.Reg5
import proofs.«403197_j58634893525189_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

namespace Val5

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem rowBroadcast_apply {α : Type} {a b : ℕ} (v : (⟨2, ![1, b]⟩ : Shape).Idx → α)
    (h0 : (⟨2, ![1, b]⟩ : Shape).ShapeCasts ⟨2, ![1, b]⟩) (h : (⟨2, ![1, b]⟩ : Shape).Broadcasts ⟨2, ![a, b]⟩)
    (p : Fin a) (c : Fin b) :
    broadcastTo ⟨2, ![a, b]⟩ (shapeCast ⟨2, ![1, b]⟩ v h0) h (ix2 p c) = v (ix2 (0 : Fin 1) c) := by
  rw [shapeCast_self]; exact broadcastTo_1b_ab_apply v h p c

theorem concat_apply (a b : FVec Ideal S1280x128 .f32) (p : Fin 1280) (k : Fin 256) :
    concatenate S1280x256 1 [⟨S1280x128, a⟩, ⟨S1280x128, b⟩] concatenates_S1280x128_S1280x128_S1280x256_d1 (ix2 p k)
      = Spec.cat (fun k' => a (ix2 p k')) (fun k' => b (ix2 p k')) k := by
  unfold Spec.cat
  by_cases hk : k.val < 128
  · rw [dif_pos hk]
    exact concatenate_pair_apply_left (1 : Fin 2) a b _ (ix2 p k) rfl (ix2 p ⟨k.val, hk⟩)
      (fun ax => by match ax with | ⟨0, _⟩ => rfl | ⟨1, _⟩ => rfl)
  · rw [dif_neg hk]
    exact concatenate_pair_apply_right (1 : Fin 2) a b _ (ix2 p k) rfl rfl (ix2 p ⟨k.val - 128, by omega⟩)
      (fun ax hax => by match ax with | ⟨0, _⟩ => rfl | ⟨1, _⟩ => exact absurd rfl hax)
      (by show (k.val - 128) + 128 = k.val; omega)

theorem rowSum128_apply (v : FVec Ideal S1280x128 .f32) (hφ : FTy.f32 = FTy.f32 ∨ FTy.f32 = FTy.bf16)
    (hacc : (0x00000000#32 : BitVec 32) = 0x00000000#32) (p : Fin 1280) :
    multiReduction (F := Ideal) .add [1] S1280 v 0x00000000#32 reduces_S1280x128_S1280 hφ hacc (ix1 p)
      = ∑ k : Fin 128, v (ix2 p k) :=
  (Ideal.multiReduction_add_single v 0x00000000#32 reduces_S1280x128_S1280 hφ hacc (ix1 p)).trans
    (Finset.sum_congr rfl fun k _ => congrArg v (funext fun ax => Fin.ext (by match ax with | ⟨0, _⟩ => rfl | ⟨1, _⟩ => rfl)))

theorem rowSum64_apply (v : FVec Ideal S1280x64 .f32) (hφ : FTy.f32 = FTy.f32 ∨ FTy.f32 = FTy.bf16)
    (hacc : (0x00000000#32 : BitVec 32) = 0x00000000#32) (p : Fin 1280) :
    multiReduction (F := Ideal) .add [1] S1280 v 0x00000000#32 reduces_S1280x64_S1280 hφ hacc (ix1 p)
      = ∑ k : Fin 64, v (ix2 p k) :=
  (Ideal.multiReduction_add_single v 0x00000000#32 reduces_S1280x64_S1280 hφ hacc (ix1 p)).trans
    (Finset.sum_congr rfl fun k _ => congrArg v (funext fun ax => Fin.ext (by match ax with | ⟨0, _⟩ => rfl | ⟨1, _⟩ => rfl)))

theorem rowMax64_apply (v : FVec Ideal S1280x64 .f32) (hφ : FTy.f32 = FTy.f32 ∨ FTy.f32 = FTy.bf16)
    (hacc : (0xFF800000#32 : BitVec 32) = 0xFF800000#32) (p : Fin 1280) :
    multiReduction (F := Ideal) .maximumf [1] S1280 v 0xFF800000#32 reduces_S1280x64_S1280 hφ hacc (ix1 p)
      = Finset.univ.sup (fun k : Fin 64 => v (ix2 p k)) := by
  refine (Ideal.multiReduction_maximumf_single v 0xFF800000#32 reduces_S1280x64_S1280 hφ hacc (ix1 p)).trans ?_
  have hf : (v ∘ reduces_S1280x64_S1280.lift (ix1 p)) = fun k : Fin 64 => v (ix2 p k) :=
    funext fun k => congrArg v (funext fun ax => Fin.ext (by match ax with | ⟨0, _⟩ => rfl | ⟨1, _⟩ => rfl))
  rw [hf]
  show Finset.univ.fold max (Ideal.ofBits .f32 0xFF800000#32) (fun k : Fin 64 => v (ix2 p k)) = _
  rw [Spec.ofBits_neg_inf]
  rfl

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

theorem lhs_cat_0 (i : S1280x128.Idx) (q : dot_S1280x256_S256x128_S1280x128_1_0_0_1_n_n.contr.Idx) :
    (dot_S1280x256_S256x128_S1280x128_1_0_0_1_n_n.lhsIdx i q 0).val = (i 0).val := by
  unfold DotDims.lhsIdx
  rw [dif_neg (show ¬(0 : Fin S1280x256.rank) ∈ dot_S1280x256_S256x128_S1280x128_1_0_0_1_n_n.lhsBatch by decide), dif_pos (show (0 : Fin S1280x256.rank) ∈ dot_S1280x256_S256x128_S1280x128_1_0_0_1_n_n.lhsNonContracting by decide)]
  rfl
theorem lhs_cat_1 (i : S1280x128.Idx) (q : dot_S1280x256_S256x128_S1280x128_1_0_0_1_n_n.contr.Idx) :
    (dot_S1280x256_S256x128_S1280x128_1_0_0_1_n_n.lhsIdx i q 1).val = (q ⟨0, by decide⟩).val :=
  dot_S1280x256_S256x128_S1280x128_1_0_0_1_n_n.lhsIdx_val_of_single rfl i q
theorem rhs_cat_0 (i : S1280x128.Idx) (q : dot_S1280x256_S256x128_S1280x128_1_0_0_1_n_n.contr.Idx) :
    (dot_S1280x256_S256x128_S1280x128_1_0_0_1_n_n.rhsIdx i q 0).val = (q ⟨0, by decide⟩).val :=
  dot_S1280x256_S256x128_S1280x128_1_0_0_1_n_n.rhsIdx_val_of_single rfl i q
theorem rhs_cat_1 (i : S1280x128.Idx) (q : dot_S1280x256_S256x128_S1280x128_1_0_0_1_n_n.contr.Idx) :
    (dot_S1280x256_S256x128_S1280x128_1_0_0_1_n_n.rhsIdx i q 1).val = (i 1).val := by
  unfold DotDims.rhsIdx
  rw [dif_neg (show ¬(1 : Fin S256x128.rank) ∈ dot_S1280x256_S256x128_S1280x128_1_0_0_1_n_n.rhsBatch by decide), dif_pos (show (1 : Fin S256x128.rank) ∈ dot_S1280x256_S256x128_S1280x128_1_0_0_1_n_n.rhsNonContracting by decide)]
  rfl

theorem matmul_cat_apply (a : FVec Ideal S1280x256 .bf16) (w : FVec Ideal S256x128 .bf16) (p : Fin 1280) (q : Fin 128) :
    matmul dot_S1280x256_S256x128_S1280x128_1_0_0_1_n_n none a w (constant (F := Ideal) S1280x128 .f32 0x00000000#32) (ix2 p q)
      = ∑ k : Fin 256, a (ix2 p k) * w (ix2 k q) := by
  simp only [matmul]
  rw [Ideal.matmul_constant_zero_apply, ← Equiv.sum_comp (ValueIdx.contrEquiv1 dot_S1280x256_S256x128_S1280x128_1_0_0_1_n_n 256 rfl rfl).symm]
  refine Finset.sum_congr rfl fun k _ => ?_
  have hk := ValueIdx.contrEquiv1_symm_val dot_S1280x256_S256x128_S1280x128_1_0_0_1_n_n 256 rfl rfl k
  have el : dot_S1280x256_S256x128_S1280x128_1_0_0_1_n_n.lhsIdx (ix2 p q) ((ValueIdx.contrEquiv1 dot_S1280x256_S256x128_S1280x128_1_0_0_1_n_n 256 rfl rfl).symm k) = ix2 p k := funext fun ax => Fin.ext (by
    match ax with
    | ⟨0, _⟩ => exact lhs_cat_0 _ _
    | ⟨1, _⟩ => exact (lhs_cat_1 _ _).trans hk)
  have er : dot_S1280x256_S256x128_S1280x128_1_0_0_1_n_n.rhsIdx (ix2 p q) ((ValueIdx.contrEquiv1 dot_S1280x256_S256x128_S1280x128_1_0_0_1_n_n 256 rfl rfl).symm k) = ix2 k q := funext fun ax => Fin.ext (by
    match ax with
    | ⟨0, _⟩ => exact (rhs_cat_0 _ _).trans hk
    | ⟨1, _⟩ => exact rhs_cat_1 _ _)
  rw [el, er]

theorem lhs_sq_0 (i : S1280x128.Idx) (q : dot_S1280x128_S128x128_S1280x128_1_0_0_1_n_n.contr.Idx) :
    (dot_S1280x128_S128x128_S1280x128_1_0_0_1_n_n.lhsIdx i q 0).val = (i 0).val := by
  unfold DotDims.lhsIdx
  rw [dif_neg (show ¬(0 : Fin S1280x128.rank) ∈ dot_S1280x128_S128x128_S1280x128_1_0_0_1_n_n.lhsBatch by decide), dif_pos (show (0 : Fin S1280x128.rank) ∈ dot_S1280x128_S128x128_S1280x128_1_0_0_1_n_n.lhsNonContracting by decide)]
  rfl
theorem lhs_sq_1 (i : S1280x128.Idx) (q : dot_S1280x128_S128x128_S1280x128_1_0_0_1_n_n.contr.Idx) :
    (dot_S1280x128_S128x128_S1280x128_1_0_0_1_n_n.lhsIdx i q 1).val = (q ⟨0, by decide⟩).val :=
  dot_S1280x128_S128x128_S1280x128_1_0_0_1_n_n.lhsIdx_val_of_single rfl i q
theorem rhs_sq_0 (i : S1280x128.Idx) (q : dot_S1280x128_S128x128_S1280x128_1_0_0_1_n_n.contr.Idx) :
    (dot_S1280x128_S128x128_S1280x128_1_0_0_1_n_n.rhsIdx i q 0).val = (q ⟨0, by decide⟩).val :=
  dot_S1280x128_S128x128_S1280x128_1_0_0_1_n_n.rhsIdx_val_of_single rfl i q
theorem rhs_sq_1 (i : S1280x128.Idx) (q : dot_S1280x128_S128x128_S1280x128_1_0_0_1_n_n.contr.Idx) :
    (dot_S1280x128_S128x128_S1280x128_1_0_0_1_n_n.rhsIdx i q 1).val = (i 1).val := by
  unfold DotDims.rhsIdx
  rw [dif_neg (show ¬(1 : Fin S128x128.rank) ∈ dot_S1280x128_S128x128_S1280x128_1_0_0_1_n_n.rhsBatch by decide), dif_pos (show (1 : Fin S128x128.rank) ∈ dot_S1280x128_S128x128_S1280x128_1_0_0_1_n_n.rhsNonContracting by decide)]
  rfl

theorem matmul_sq_apply (a : FVec Ideal S1280x128 .bf16) (w : FVec Ideal S128x128 .bf16) (p : Fin 1280) (q : Fin 128) :
    matmul dot_S1280x128_S128x128_S1280x128_1_0_0_1_n_n none a w (constant (F := Ideal) S1280x128 .f32 0x00000000#32) (ix2 p q)
      = ∑ k : Fin 128, a (ix2 p k) * w (ix2 k q) := by
  simp only [matmul]
  rw [Ideal.matmul_constant_zero_apply, ← Equiv.sum_comp (ValueIdx.contrEquiv1 dot_S1280x128_S128x128_S1280x128_1_0_0_1_n_n 128 rfl rfl).symm]
  refine Finset.sum_congr rfl fun k _ => ?_
  have hk := ValueIdx.contrEquiv1_symm_val dot_S1280x128_S128x128_S1280x128_1_0_0_1_n_n 128 rfl rfl k
  have el : dot_S1280x128_S128x128_S1280x128_1_0_0_1_n_n.lhsIdx (ix2 p q) ((ValueIdx.contrEquiv1 dot_S1280x128_S128x128_S1280x128_1_0_0_1_n_n 128 rfl rfl).symm k) = ix2 p k := funext fun ax => Fin.ext (by
    match ax with
    | ⟨0, _⟩ => exact lhs_sq_0 _ _
    | ⟨1, _⟩ => exact (lhs_sq_1 _ _).trans hk)
  have er : dot_S1280x128_S128x128_S1280x128_1_0_0_1_n_n.rhsIdx (ix2 p q) ((ValueIdx.contrEquiv1 dot_S1280x128_S128x128_S1280x128_1_0_0_1_n_n 128 rfl rfl).symm k) = ix2 k q := funext fun ax => Fin.ext (by
    match ax with
    | ⟨0, _⟩ => exact (rhs_sq_0 _ _).trans hk
    | ⟨1, _⟩ => exact rhs_sq_1 _ _)
  rw [el, er]

theorem lhs_out_0 (i : S1280x64.Idx) (q : dot_S1280x128_S128x64_S1280x64_1_0_0_1_n_n.contr.Idx) :
    (dot_S1280x128_S128x64_S1280x64_1_0_0_1_n_n.lhsIdx i q 0).val = (i 0).val := by
  unfold DotDims.lhsIdx
  rw [dif_neg (show ¬(0 : Fin S1280x128.rank) ∈ dot_S1280x128_S128x64_S1280x64_1_0_0_1_n_n.lhsBatch by decide), dif_pos (show (0 : Fin S1280x128.rank) ∈ dot_S1280x128_S128x64_S1280x64_1_0_0_1_n_n.lhsNonContracting by decide)]
  rfl
theorem lhs_out_1 (i : S1280x64.Idx) (q : dot_S1280x128_S128x64_S1280x64_1_0_0_1_n_n.contr.Idx) :
    (dot_S1280x128_S128x64_S1280x64_1_0_0_1_n_n.lhsIdx i q 1).val = (q ⟨0, by decide⟩).val :=
  dot_S1280x128_S128x64_S1280x64_1_0_0_1_n_n.lhsIdx_val_of_single rfl i q
theorem rhs_out_0 (i : S1280x64.Idx) (q : dot_S1280x128_S128x64_S1280x64_1_0_0_1_n_n.contr.Idx) :
    (dot_S1280x128_S128x64_S1280x64_1_0_0_1_n_n.rhsIdx i q 0).val = (q ⟨0, by decide⟩).val :=
  dot_S1280x128_S128x64_S1280x64_1_0_0_1_n_n.rhsIdx_val_of_single rfl i q
theorem rhs_out_1 (i : S1280x64.Idx) (q : dot_S1280x128_S128x64_S1280x64_1_0_0_1_n_n.contr.Idx) :
    (dot_S1280x128_S128x64_S1280x64_1_0_0_1_n_n.rhsIdx i q 1).val = (i 1).val := by
  unfold DotDims.rhsIdx
  rw [dif_neg (show ¬(1 : Fin S128x64.rank) ∈ dot_S1280x128_S128x64_S1280x64_1_0_0_1_n_n.rhsBatch by decide), dif_pos (show (1 : Fin S128x64.rank) ∈ dot_S1280x128_S128x64_S1280x64_1_0_0_1_n_n.rhsNonContracting by decide)]
  rfl

theorem matmul_out_apply (a : FVec Ideal S1280x128 .bf16) (w : FVec Ideal S128x64 .bf16) (p : Fin 1280) (q : Fin 64) :
    matmul dot_S1280x128_S128x64_S1280x64_1_0_0_1_n_n none a w (constant (F := Ideal) S1280x64 .f32 0x00000000#32) (ix2 p q)
      = ∑ k : Fin 128, a (ix2 p k) * w (ix2 k q) := by
  simp only [matmul]
  rw [Ideal.matmul_constant_zero_apply, ← Equiv.sum_comp (ValueIdx.contrEquiv1 dot_S1280x128_S128x64_S1280x64_1_0_0_1_n_n 128 rfl rfl).symm]
  refine Finset.sum_congr rfl fun k _ => ?_
  have hk := ValueIdx.contrEquiv1_symm_val dot_S1280x128_S128x64_S1280x64_1_0_0_1_n_n 128 rfl rfl k
  have el : dot_S1280x128_S128x64_S1280x64_1_0_0_1_n_n.lhsIdx (ix2 p q) ((ValueIdx.contrEquiv1 dot_S1280x128_S128x64_S1280x64_1_0_0_1_n_n 128 rfl rfl).symm k) = ix2 p k := funext fun ax => Fin.ext (by
    match ax with
    | ⟨0, _⟩ => exact lhs_out_0 _ _
    | ⟨1, _⟩ => exact (lhs_out_1 _ _).trans hk)
  have er : dot_S1280x128_S128x64_S1280x64_1_0_0_1_n_n.rhsIdx (ix2 p q) ((ValueIdx.contrEquiv1 dot_S1280x128_S128x64_S1280x64_1_0_0_1_n_n 128 rfl rfl).symm k) = ix2 k q := funext fun ax => Fin.ext (by
    match ax with
    | ⟨0, _⟩ => exact (rhs_out_0 _ _).trans hk
    | ⟨1, _⟩ => exact rhs_out_1 _ _)
  rw [el, er]

theorem pay2_apply (x0 x1 : Vec Ideal S1280x128 .f32) (x2 : Vec Ideal S1280x1 .f32) (x3 : Vec Ideal S256x128 .f32)
    (x4 : Vec Ideal S1x128 .f32) (x5 : Vec Ideal S128x128 .f32) (x6 : Vec Ideal S1x128 .f32) (p : Fin 1280) (q : Fin 128) :
    k5_pay2 x0 x1 x2 x3 x4 x5 x6 (ix2 p q)
      = Spec.aff (Spec.mat2 x5) (Spec.row2 x6 0)
          (Spec.upd (Ideal.ofBits .f32 0x3F800000#32) (Ideal.ofBits .f32 0x2B8CBCCC#32) (Spec.mat2 x3) (Spec.row2 x4 0)
            (Spec.row2 x0 p) (Spec.row2 x1 p) (x2 (ix2 p 0))) q := by
  unfold k5_pay2
  simp only [truncf_apply, addf_apply, mulf_apply, divf_apply, maximumf_apply, broadcast_apply, shapeCast_self,
    matmul_sq_apply, matmul_cat_apply, broadcastTo_1b_ab_apply, broadcastTo_a1_ab_apply, shapeCast_a_a1_apply,
    sqrt_apply, concat_apply, Ideal.ofBits_def, Ideal.ofBits_zero_f32]
  rw [rowSum128_apply]
  simp only [truncf_apply, addf_apply, mulf_apply, divf_apply, maximumf_apply, broadcast_apply, shapeCast_self,
    matmul_cat_apply, broadcastTo_1b_ab_apply, broadcastTo_a1_ab_apply,
    concat_apply, Ideal.ofBits_def, Ideal.ofBits_zero_f32]
  rfl

theorem pay1_apply (h : FVec Ideal S1280x128 .bf16) (x7 : Vec Ideal S128x64 .f32) (x8 : Vec Ideal S1x64 .f32)
    (p : Fin 1280) (q : Fin 64) :
    k5_pay1 h x7 x8 (ix2 p q)
      = Spec.lsm (Spec.aff (Spec.mat2 x7) (Spec.row2 x8 0) (fun k => h (ix2 p k))) q := by
  unfold k5_pay1
  simp only [truncf_apply, addf_apply, subf_apply, shapeCast_self, matmul_out_apply, broadcastTo_1b_ab_apply,
    broadcastTo_a1_ab_apply, shapeCast_a_a1_apply, exp_apply, log_apply]
  rw [rowSum64_apply, rowMax64_apply]
  simp only [truncf_apply, addf_apply, subf_apply, shapeCast_self, matmul_out_apply, broadcastTo_1b_ab_apply,
    broadcastTo_a1_ab_apply, shapeCast_a_a1_apply, exp_apply, log_apply]
  rw [rowMax64_apply]
  simp only [truncf_apply, addf_apply, subf_apply, shapeCast_self, matmul_out_apply, broadcastTo_1b_ab_apply]
  rfl

theorem hz : (![0, 0] : Fin 2 → Nat) = fun _ => 0 := funext fun a => by fin_cases a <;> rfl

theorem out5_9_apply (x0 x1 : Vec Ideal S1280x128 .f32) (x2 : Vec Ideal S1280x1 .f32) (x3 : Vec Ideal S256x128 .f32)
    (x4 : Vec Ideal S1x128 .f32) (x5 : Vec Ideal S128x128 .f32) (x6 : Vec Ideal S1x128 .f32) (x7 : Vec Ideal S128x64 .f32)
    (x8 : Vec Ideal S1x64 .f32) (p : Fin 1280) (q : Fin 64) :
    out5_9 x0 x1 x2 x3 x4 x5 x6 x7 x8 (ix2 p q)
      = Spec.head (Spec.mat2 x5) (Spec.row2 x6 0) (Spec.mat2 x7) (Spec.row2 x8 0)
          (Spec.upd (Ideal.ofBits .f32 0x3F800000#32) (Ideal.ofBits .f32 0x2B8CBCCC#32) (Spec.mat2 x3) (Spec.row2 x4 0)
            (Spec.row2 x0 p) (Spec.row2 x1 p) (x2 (ix2 p 0))) q := by
  unfold out5_9
  rw [View.canon_unit_zero hz]
  simp only [View.ld_unit_zero (S := S1280x128) hz, View.ld_unit_zero (S := S1280x1) hz, View.ld_unit_zero (S := S256x128) hz,
    View.ld_unit_zero (S := S1x128) hz, View.ld_unit_zero (S := S128x128) hz, View.ld_unit_zero (S := S128x64) hz,
    View.ld_unit_zero (S := S1x64) hz]
  rw [pay1_apply]
  simp only [pay2_apply]
  rfl

theorem head_upd_congr {one eps : EReal} {w1 w1' : Fin 128 → Fin 128 → EReal} {b1 b1' : Fin 128 → EReal}
    {w2 w2' : Fin 128 → Fin 64 → EReal} {b2 b2' : Fin 64 → EReal} {w w' : Fin 256 → Fin 128 → EReal} {b b' : Fin 128 → EReal}
    {x x' s s' : Fin 128 → EReal} {cnt cnt' : EReal} {q q' : Fin 64}
    (h1 : w1 = w1') (h2 : b1 = b1') (h3 : w2 = w2') (h4 : b2 = b2') (h5 : w = w') (h6 : b = b') (h7 : x = x') (h8 : s = s')
    (h9 : cnt = cnt') (h10 : q = q') :
    Spec.head w1 b1 w2 b2 (Spec.upd one eps w b x s cnt) q = Spec.head w1' b1' w2' b2' (Spec.upd one eps w' b' x' s' cnt') q' := by
  subst h1 h2 h3 h4 h5 h6 h7 h8 h9 h10; rfl

end Val5

variable (V : (c : Dev nD) → (b : Ref sig .tc) → Buf (Elt Ideal) ((c : Thread nD τ).loc b))

namespace Val5

abbrev G5 (c : Dev nD) : Buf (Elt Ideal) ((c : Thread nD τ).loc main_v29) :=
  fun i => Spec.head (Spec.mat2 (V c main_arg10)) (Spec.row2 (V c main_v27) 0) (Spec.mat2 (V c main_arg12)) (Spec.row2 (V c main_v28) 0)
            (Spec.upd (Ideal.ofBits .f32 0x3F800000#32) (Ideal.ofBits .f32 0x2B8CBCCC#32) (Spec.mat2 (V c main_arg8)) (Spec.row2 (V c main_v26) 0)
              (Spec.row2 (V c main_v22) (i 0)) (Spec.row2 (V c main_v25) (i 0)) (V c main_v16 (ix2 (i 0) 0))) (i 1)

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = t.val ∧ win5_9.index t (1 : Fin 2) = 0 :=
  (by decide +kernel : ∀ t : Fin grid5.N, _)

theorem idx_onto5 : ∀ b : Fin 8, ∃ t : Fin cfg5.N, win5_9.index t = ![b.val, 0] :=
  (by decide +kernel : ∀ b : Fin 8, ∃ t : Fin grid5.N, win5_9.index t = ![b.val, 0])

theorem flushed5_eq (c : Dev nD) (t : Fin cfg5.N) :
    (dat5 (F := Ideal) V c).flushed 9 t = ((cfg5.win 9).blk t).view.read (Elt Ideal) (G5 V c) := by
  show (cfg5.win 9).cut (grid5.coords t) ((dat5 (F := Ideal) V c).after 9 t) = _
  rw [after5_9]
  obtain ⟨e00, e01, e10, e11, e20, e21, e30, e31, e40, e41, e50, e51, e60, e61, e70, e71, e80, e81, e90, e91⟩ := idx_facts5 t
  funext j
  obtain ⟨p, q, rfl⟩ : ∃ (p : Fin 1280) (q : Fin 64), j = ix2 p q := ⟨j 0, j 1, eq_ix2 j⟩
  refine (out5_9_apply _ _ _ _ _ _ _ _ _ p q).trans ?_
  have hp : p.val < 1280 := p.isLt
  have hq : q.val < 64 := q.isLt
  show _ = G5 V c (((cfg5.win 9).blk t).view.emb (ix2 p q))
  refine head_upd_congr ?_ ?_ ?_ ?_ ?_ ?_ ?_ ?_ ?_ ?_
  · funext k l
    show V c main_arg10 (((cfg5.win 5).blk t).view.emb (ix2 k l)) = V c main_arg10 (ix2 k l)
    refine congrArg _ (funext fun a => Fin.ext ?_)
    match a with
    | ⟨0, _⟩ => show win5_5.index t (0 : Fin 2) * 128 + 1 * k.val = k.val; omega
    | ⟨1, _⟩ => show win5_5.index t (1 : Fin 2) * 128 + 1 * l.val = l.val; omega
  · funext l
    show V c main_v27 (((cfg5.win 6).blk t).view.emb (ix2 0 l)) = V c main_v27 (ix2 0 l)
    refine congrArg _ (funext fun a => Fin.ext ?_)
    match a with
    | ⟨0, _⟩ => show win5_6.index t (0 : Fin 2) * 1 + 1 * 0 = 0; omega
    | ⟨1, _⟩ => show win5_6.index t (1 : Fin 2) * 128 + 1 * l.val = l.val; omega
  · funext k l
    show V c main_arg12 (((cfg5.win 7).blk t).view.emb (ix2 k l)) = V c main_arg12 (ix2 k l)
    refine congrArg _ (funext fun a => Fin.ext ?_)
    match a with
    | ⟨0, _⟩ => show win5_7.index t (0 : Fin 2) * 128 + 1 * k.val = k.val; omega
    | ⟨1, _⟩ => show win5_7.index t (1 : Fin 2) * 64 + 1 * l.val = l.val; omega
  · funext l
    show V c main_v28 (((cfg5.win 8).blk t).view.emb (ix2 0 l)) = V c main_v28 (ix2 0 l)
    refine congrArg _ (funext fun a => Fin.ext ?_)
    match a with
    | ⟨0, _⟩ => show win5_8.index t (0 : Fin 2) * 1 + 1 * 0 = 0; omega
    | ⟨1, _⟩ => show win5_8.index t (1 : Fin 2) * 64 + 1 * l.val = l.val; omega
  · funext k l
    show V c main_arg8 (((cfg5.win 3).blk t).view.emb (ix2 k l)) = V c main_arg8 (ix2 k l)
    refine congrArg _ (funext fun a => Fin.ext ?_)
    match a with
    | ⟨0, _⟩ => show win5_3.index t (0 : Fin 2) * 256 + 1 * k.val = k.val; omega
    | ⟨1, _⟩ => show win5_3.index t (1 : Fin 2) * 128 + 1 * l.val = l.val; omega
  · funext l
    show V c main_v26 (((cfg5.win 4).blk t).view.emb (ix2 0 l)) = V c main_v26 (ix2 0 l)
    refine congrArg _ (funext fun a => Fin.ext ?_)
    match a with
    | ⟨0, _⟩ => show win5_4.index t (0 : Fin 2) * 1 + 1 * 0 = 0; omega
    | ⟨1, _⟩ => show win5_4.index t (1 : Fin 2) * 128 + 1 * l.val = l.val; omega
  · funext l
    show V c main_v22 (((cfg5.win 0).blk t).view.emb (ix2 p l)) = V c main_v22 (ix2 ((((cfg5.win 9).blk t).view.emb (ix2 p q)) 0) l)
    refine congrArg _ (funext fun a => Fin.ext ?_)
    match a with
    | ⟨0, _⟩ => show win5_0.index t (0 : Fin 2) * 1280 + 1 * p.val = win5_9.index t (0 : Fin 2) * 1280 + 1 * p.val; omega
    | ⟨1, _⟩ => show win5_0.index t (1 : Fin 2) * 128 + 1 * l.val = l.val; omega
  · funext l
    show V c main_v25 (((cfg5.win 1).blk t).view.emb (ix2 p l)) = V c main_v25 (ix2 ((((cfg5.win 9).blk t).view.emb (ix2 p q)) 0) l)
    refine congrArg _ (funext fun a => Fin.ext ?_)
    match a with
    | ⟨0, _⟩ => show win5_1.index t (0 : Fin 2) * 1280 + 1 * p.val = win5_9.index t (0 : Fin 2) * 1280 + 1 * p.val; omega
    | ⟨1, _⟩ => show win5_1.index t (1 : Fin 2) * 128 + 1 * l.val = l.val; omega
  · show V c main_v16 (((cfg5.win 2).blk t).view.emb (ix2 p 0)) = V c main_v16 (ix2 ((((cfg5.win 9).blk t).view.emb (ix2 p q)) 0) 0)
    refine congrArg _ (funext fun a => Fin.ext ?_)
    match a with
    | ⟨0, _⟩ => show win5_2.index t (0 : Fin 2) * 1280 + 1 * p.val = win5_9.index t (0 : Fin 2) * 1280 + 1 * p.val; omega
    | ⟨1, _⟩ => show win5_2.index t (1 : Fin 2) * 1 + 1 * 0 = 0; omega
  · refine Fin.ext ?_
    show q.val = win5_9.index t (1 : Fin 2) * 64 + 1 * q.val; omega

theorem mem_blk5 (t : Fin cfg5.N) (i : S10240x64.Idx) :
    i ∈ ((cfg5.win 9).blk t).view.set ↔ ∀ a : Fin 2, win5_9.index t a * S1280x64.size a ≤ (i a).val ∧ (i a).val < win5_9.index t a * S1280x64.size a + S1280x64.size a := by
  show i ∈ ((View.whole main_v29).slice (win5_9.rect t)).set ↔ _
  rw [View.set_slice_whole, Rect.mem_set_unit]
  exact Iff.rfl

theorem cover5 (i : S10240x64.Idx) :
    ∃ t : Fin cfg5.N, (cfg5.win 9).flush t = true ∧ i ∈ ((cfg5.win 9).blk t).view.set := by
  have hi0 : (i 0).val < 10240 := (i 0).isLt
  have hi1 : (i 1).val < 64 := (i 1).isLt
  obtain ⟨t, ht⟩ := idx_onto5 ⟨(i 0).val / 1280, by omega⟩
  have q0 : win5_9.index t (0 : Fin 2) = (i 0).val / 1280 := congrFun ht 0
  have q1 : win5_9.index t (1 : Fin 2) = 0 := congrFun ht 1
  refine ⟨t, flush5_9 t, ?_⟩
  rw [mem_blk5]
  intro a
  match a with
  | ⟨0, _⟩ => show win5_9.index t (0 : Fin 2) * 1280 ≤ (i 0).val ∧ (i 0).val < win5_9.index t (0 : Fin 2) * 1280 + 1280; omega
  | ⟨1, _⟩ => show win5_9.index t (1 : Fin 2) * 64 ≤ (i 1).val ∧ (i 1).val < win5_9.index t (1 : Fin 2) * 64 + 64; omega

end Val5

theorem arrAt5_val (c : Dev nD) :
    (dat5 (F := Ideal) V c).arrAt 9 cfg5.N
      = (fun i => Spec.head (Spec.mat2 (V c main_arg10)) (Spec.row2 (V c main_v27) 0) (Spec.mat2 (V c main_arg12)) (Spec.row2 (V c main_v28) 0)
            (Spec.upd (Ideal.ofBits .f32 0x3F800000#32) (Ideal.ofBits .f32 0x2B8CBCCC#32) (Spec.mat2 (V c main_arg8)) (Spec.row2 (V c main_v26) 0)
              (Spec.row2 (V c main_v22) (i 0)) (Spec.row2 (V c main_v25) (i 0)) (V c main_v16 (ix2 (i 0) 0))) (i 1)
          : Buf (Elt Ideal) ((c : Thread nD τ).loc main_v29)) := by
  exact (dat5 (F := Ideal) V c).arrAt_eq_of_cover 9 (Val5.G5 V c) (fun t _ => Val5.flushed5_eq V c t) (fun i => Val5.cover5 i)

end Cert.KernelIdeal.Hand

end
-- ==== Proof.KI.KVal.lean ====
import proofs.«403197_j58634893525189_3_alg».proof.Proof.KI.KHostA
import proofs.«403197_j58634893525189_3_alg».proof.Proof.KI.KHostB
import proofs.«403197_j58634893525189_3_alg».proof.Proof.KI.Val0
import proofs.«403197_j58634893525189_3_alg».proof.Proof.KI.Val1
import proofs.«403197_j58634893525189_3_alg».proof.Proof.KI.Val2
import proofs.«403197_j58634893525189_3_alg».proof.Proof.KI.Val3
import proofs.«403197_j58634893525189_3_alg».proof.Proof.KI.Val4
import proofs.«403197_j58634893525189_3_alg».proof.Proof.KI.Val5

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)
variable (h : Spec.InRange (m ((c : Thread nD τ).loc main_arg1)))

theorem o19_val (s : Fin 10240) (k : Fin 128) :
    o19 m c (ix2 s k) = Spec.lin (Spec.mat2 (m ((c : Thread nD τ).loc main_arg2))) (Spec.vec1 (m ((c : Thread nD τ).loc main_arg3))) (Spec.pad (Spec.mat2 (m ((c : Thread nD τ).loc main_arg0))) s) k := by
  have e := congrFun (arrAt0_val (U3 m) c) (ix2 s k)
  have e2 : Spec.mat2 (U3 m c main_arg2) = Spec.mat2 (m ((c : Thread nD τ).loc main_arg2)) := by rw [U3_arg2 m c]
  have e18 : Spec.row2 (U3 m c main_v18) 0 = Spec.vec1 (m ((c : Thread nD τ).loc main_arg3)) := funext fun j => v18_val m c j
  have e17 : Spec.row2 (U3 m c main_v17) s = Spec.pad (Spec.mat2 (m ((c : Thread nD τ).loc main_arg0))) s := funext fun k' => v17_val m c s k'
  unfold o19
  refine e.trans ?_
  show Spec.lin (Spec.mat2 (U3 m c main_arg2)) (Spec.row2 (U3 m c main_v18) 0) (Spec.row2 (U3 m c main_v17) s) k = _
  rw [e2, e18, e17]

theorem o20_val (d : Fin 10240) (k : Fin 128) :
    o20 m c (ix2 d k) = ∑ s : Fin 10240, Spec.adj (Ideal.ofBits .f32 0x3F800000#32) (Spec.node (m ((c : Thread nD τ).loc main_arg1)) h 0) (Spec.node (m ((c : Thread nD τ).loc main_arg1)) h 1) d s * Spec.lin (Spec.mat2 (m ((c : Thread nD τ).loc main_arg2))) (Spec.vec1 (m ((c : Thread nD τ).loc main_arg3))) (Spec.pad (Spec.mat2 (m ((c : Thread nD τ).loc main_arg0))) s) k := by
  have e := congrFun (arrAt1_val (U4 m) c) (ix2 d k)
  unfold o20
  refine e.trans ?_
  show (∑ s : Fin 10240, Spec.mat2 (U4 m c main_v12) d s * Spec.mat2 (U4 m c main_v19) s k : EReal) = _
  rw [U4_v12 m c, U4_v19 m c]
  refine Finset.sum_congr rfl fun s _ => ?_
  exact congrArg₂ (· * ·) (v12_val m c h d s) (o19_val m c s k)

theorem o22_val (d : Fin 10240) (k : Fin 128) :
    o22 m c (ix2 d k) = Spec.layerK (Ideal.ofBits .f32 0x3F800000#32) (Ideal.ofBits .f32 0x2B8CBCCC#32) (Spec.node (m ((c : Thread nD τ).loc main_arg1)) h 0) (Spec.node (m ((c : Thread nD τ).loc main_arg1)) h 1) (Spec.mat2 (m ((c : Thread nD τ).loc main_arg2))) (Spec.vec1 (m ((c : Thread nD τ).loc main_arg3))) (Spec.mat2 (m ((c : Thread nD τ).loc main_arg4))) (Spec.vec1 (m ((c : Thread nD τ).loc main_arg5))) (Spec.pad (Spec.mat2 (m ((c : Thread nD τ).loc main_arg0)))) d k := by
  have e := congrFun (arrAt2_val (U6 m) c) (ix2 d k)
  have e4 : Spec.mat2 (U6 m c main_arg4) = Spec.mat2 (m ((c : Thread nD τ).loc main_arg4)) := by rw [U6_arg4 m c]
  have e21 : Spec.row2 (U6 m c main_v21) 0 = Spec.vec1 (m ((c : Thread nD τ).loc main_arg5)) := funext fun j => v21_val m c j
  have e17 : Spec.row2 (U6 m c main_v17) d = Spec.pad (Spec.mat2 (m ((c : Thread nD τ).loc main_arg0))) d := by
    rw [U6_v17 m c]; exact funext fun k' => v17_val m c d k'
  have e20 : Spec.row2 (U6 m c main_v20) d = fun j => ∑ s : Fin 10240, Spec.adj (Ideal.ofBits .f32 0x3F800000#32) (Spec.node (m ((c : Thread nD τ).loc main_arg1)) h 0) (Spec.node (m ((c : Thread nD τ).loc main_arg1)) h 1) d s * Spec.lin (Spec.mat2 (m ((c : Thread nD τ).loc main_arg2))) (Spec.vec1 (m ((c : Thread nD τ).loc main_arg3))) (Spec.pad (Spec.mat2 (m ((c : Thread nD τ).loc main_arg0))) s) j := by
    rw [U6_v20 m c]; exact funext fun j => o20_val m c h d j
  have e16 : U6 m c main_v16 (ix2 d 0) = Spec.cntK (Ideal.ofBits .f32 0x3F800000#32) (Spec.node (m ((c : Thread nD τ).loc main_arg1)) h 1) d := by
    rw [U6_v16 m c]; exact v16_val m c h d
  unfold o22
  refine e.trans ?_
  show Spec.upd (Ideal.ofBits .f32 0x3F800000#32) (Ideal.ofBits .f32 0x2B8CBCCC#32) (Spec.mat2 (U6 m c main_arg4)) (Spec.row2 (U6 m c main_v21) 0)
      (Spec.row2 (U6 m c main_v17) d) (Spec.row2 (U6 m c main_v20) d) (U6 m c main_v16 (ix2 d 0)) k = _
  rw [e4, e21, e17, e20, e16]
  rfl

theorem o24_val (s : Fin 10240) (k : Fin 128) :
    o24 m c (ix2 s k) = Spec.lin (Spec.mat2 (m ((c : Thread nD τ).loc main_arg6))) (Spec.vec1 (m ((c : Thread nD τ).loc main_arg7))) (Spec.layerK (Ideal.ofBits .f32 0x3F800000#32) (Ideal.ofBits .f32 0x2B8CBCCC#32) (Spec.node (m ((c : Thread nD τ).loc main_arg1)) h 0) (Spec.node (m ((c : Thread nD τ).loc main_arg1)) h 1) (Spec.mat2 (m ((c : Thread nD τ).loc main_arg2))) (Spec.vec1 (m ((c : Thread nD τ).loc main_arg3))) (Spec.mat2 (m ((c : Thread nD τ).loc main_arg4))) (Spec.vec1 (m ((c : Thread nD τ).loc main_arg5))) (Spec.pad (Spec.mat2 (m ((c : Thread nD τ).loc main_arg0)))) s) k := by
  have e := congrFun (arrAt3_val (U8 m) c) (ix2 s k)
  have e6 : Spec.mat2 (U8 m c main_arg6) = Spec.mat2 (m ((c : Thread nD τ).loc main_arg6)) := by rw [U8_arg6 m c]
  have e23 : Spec.row2 (U8 m c main_v23) 0 = Spec.vec1 (m ((c : Thread nD τ).loc main_arg7)) := funext fun j => v23_val m c j
  have e22 : Spec.row2 (U8 m c main_v22) s = Spec.layerK (Ideal.ofBits .f32 0x3F800000#32) (Ideal.ofBits .f32 0x2B8CBCCC#32) (Spec.node (m ((c : Thread nD τ).loc main_arg1)) h 0) (Spec.node (m ((c : Thread nD τ).loc main_arg1)) h 1) (Spec.mat2 (m ((c : Thread nD τ).loc main_arg2))) (Spec.vec1 (m ((c : Thread nD τ).loc main_arg3))) (Spec.mat2 (m ((c : Thread nD τ).loc main_arg4))) (Spec.vec1 (m ((c : Thread nD τ).loc main_arg5))) (Spec.pad (Spec.mat2 (m ((c : Thread nD τ).loc main_arg0)))) s := by
    rw [U8_v22 m c]; exact funext fun k' => o22_val m c h s k'
  unfold o24
  refine e.trans ?_
  show Spec.lin (Spec.mat2 (U8 m c main_arg6)) (Spec.row2 (U8 m c main_v23) 0) (Spec.row2 (U8 m c main_v22) s) k = _
  rw [e6, e23, e22]

theorem o25_val (d : Fin 10240) (k : Fin 128) :
    o25 m c (ix2 d k) = ∑ s : Fin 10240, Spec.adj (Ideal.ofBits .f32 0x3F800000#32) (Spec.node (m ((c : Thread nD τ).loc main_arg1)) h 0) (Spec.node (m ((c : Thread nD τ).loc main_arg1)) h 1) d s * Spec.lin (Spec.mat2 (m ((c : Thread nD τ).loc main_arg6))) (Spec.vec1 (m ((c : Thread nD τ).loc main_arg7))) (Spec.layerK (Ideal.ofBits .f32 0x3F800000#32) (Ideal.ofBits .f32 0x2B8CBCCC#32) (Spec.node (m ((c : Thread nD τ).loc main_arg1)) h 0) (Spec.node (m ((c : Thread nD τ).loc main_arg1)) h 1) (Spec.mat2 (m ((c : Thread nD τ).loc main_arg2))) (Spec.vec1 (m ((c : Thread nD τ).loc main_arg3))) (Spec.mat2 (m ((c : Thread nD τ).loc main_arg4))) (Spec.vec1 (m ((c : Thread nD τ).loc main_arg5))) (Spec.pad (Spec.mat2 (m ((c : Thread nD τ).loc main_arg0)))) s) k := by
  have e := congrFun (arrAt4_val (U9 m) c) (ix2 d k)
  unfold o25
  refine e.trans ?_
  show (∑ s : Fin 10240, Spec.mat2 (U9 m c main_v12) d s * Spec.mat2 (U9 m c main_v24) s k : EReal) = _
  rw [U9_v12 m c, U9_v24 m c]
  refine Finset.sum_congr rfl fun s _ => ?_
  exact congrArg₂ (· * ·) (v12_val m c h d s) (o24_val m c h s k)

theorem o29_val (d : Fin 10240) (j : Fin 64) :
    o29 m c (ix2 d j)
      = Spec.modelK (Ideal.ofBits .f32 0x3F800000#32) (Ideal.ofBits .f32 0x2B8CBCCC#32)
          (Spec.node (m ((c : Thread nD τ).loc main_arg1)) h 0) (Spec.node (m ((c : Thread nD τ).loc main_arg1)) h 1)
          (Spec.mat2 (m ((c : Thread nD τ).loc main_arg2))) (Spec.vec1 (m ((c : Thread nD τ).loc main_arg3))) (Spec.mat2 (m ((c : Thread nD τ).loc main_arg4))) (Spec.vec1 (m ((c : Thread nD τ).loc main_arg5)))
          (Spec.mat2 (m ((c : Thread nD τ).loc main_arg6))) (Spec.vec1 (m ((c : Thread nD τ).loc main_arg7))) (Spec.mat2 (m ((c : Thread nD τ).loc main_arg8))) (Spec.vec1 (m ((c : Thread nD τ).loc main_arg9)))
          (Spec.mat2 (m ((c : Thread nD τ).loc main_arg10))) (Spec.vec1 (m ((c : Thread nD τ).loc main_arg11))) (Spec.mat2 (m ((c : Thread nD τ).loc main_arg12))) (Spec.vec1 (m ((c : Thread nD τ).loc main_arg13)))
          (Spec.mat2 (m ((c : Thread nD τ).loc main_arg0))) d j := by
  have e := congrFun (arrAt5_val (U11 m) c) (ix2 d j)
  have e10 : Spec.mat2 (U11 m c main_arg10) = Spec.mat2 (m ((c : Thread nD τ).loc main_arg10)) := by rw [U11_arg10 m c]
  have e27 : Spec.row2 (U11 m c main_v27) 0 = Spec.vec1 (m ((c : Thread nD τ).loc main_arg11)) := funext fun j' => v27_val m c j'
  have e12 : Spec.mat2 (U11 m c main_arg12) = Spec.mat2 (m ((c : Thread nD τ).loc main_arg12)) := by rw [U11_arg12 m c]
  have e28 : Spec.row2 (U11 m c main_v28) 0 = Spec.vec1 (m ((c : Thread nD τ).loc main_arg13)) := funext fun j' => v28_val m c j'
  have e8 : Spec.mat2 (U11 m c main_arg8) = Spec.mat2 (m ((c : Thread nD τ).loc main_arg8)) := by rw [U11_arg8 m c]
  have e26 : Spec.row2 (U11 m c main_v26) 0 = Spec.vec1 (m ((c : Thread nD τ).loc main_arg9)) := funext fun j' => v26_val m c j'
  have e22 : Spec.row2 (U11 m c main_v22) d = Spec.layerK (Ideal.ofBits .f32 0x3F800000#32) (Ideal.ofBits .f32 0x2B8CBCCC#32) (Spec.node (m ((c : Thread nD τ).loc main_arg1)) h 0) (Spec.node (m ((c : Thread nD τ).loc main_arg1)) h 1) (Spec.mat2 (m ((c : Thread nD τ).loc main_arg2))) (Spec.vec1 (m ((c : Thread nD τ).loc main_arg3))) (Spec.mat2 (m ((c : Thread nD τ).loc main_arg4))) (Spec.vec1 (m ((c : Thread nD τ).loc main_arg5))) (Spec.pad (Spec.mat2 (m ((c : Thread nD τ).loc main_arg0)))) d := by
    rw [U11_v22 m c]; exact funext fun k' => o22_val m c h d k'
  have e25 : Spec.row2 (U11 m c main_v25) d = fun k => ∑ s : Fin 10240, Spec.adj (Ideal.ofBits .f32 0x3F800000#32) (Spec.node (m ((c : Thread nD τ).loc main_arg1)) h 0) (Spec.node (m ((c : Thread nD τ).loc main_arg1)) h 1) d s * Spec.lin (Spec.mat2 (m ((c : Thread nD τ).loc main_arg6))) (Spec.vec1 (m ((c : Thread nD τ).loc main_arg7))) (Spec.layerK (Ideal.ofBits .f32 0x3F800000#32) (Ideal.ofBits .f32 0x2B8CBCCC#32) (Spec.node (m ((c : Thread nD τ).loc main_arg1)) h 0) (Spec.node (m ((c : Thread nD τ).loc main_arg1)) h 1) (Spec.mat2 (m ((c : Thread nD τ).loc main_arg2))) (Spec.vec1 (m ((c : Thread nD τ).loc main_arg3))) (Spec.mat2 (m ((c : Thread nD τ).loc main_arg4))) (Spec.vec1 (m ((c : Thread nD τ).loc main_arg5))) (Spec.pad (Spec.mat2 (m ((c : Thread nD τ).loc main_arg0)))) s) k := by
    rw [U11_v25 m c]; exact funext fun k => o25_val m c h d k
  have e16 : U11 m c main_v16 (ix2 d 0) = Spec.cntK (Ideal.ofBits .f32 0x3F800000#32) (Spec.node (m ((c : Thread nD τ).loc main_arg1)) h 1) d := by
    rw [U11_v16 m c]; exact v16_val m c h d
  unfold o29
  refine e.trans ?_
  show Spec.head (Spec.mat2 (U11 m c main_arg10)) (Spec.row2 (U11 m c main_v27) 0) (Spec.mat2 (U11 m c main_arg12)) (Spec.row2 (U11 m c main_v28) 0)
      (Spec.upd (Ideal.ofBits .f32 0x3F800000#32) (Ideal.ofBits .f32 0x2B8CBCCC#32) (Spec.mat2 (U11 m c main_arg8)) (Spec.row2 (U11 m c main_v26) 0)
        (Spec.row2 (U11 m c main_v22) d) (Spec.row2 (U11 m c main_v25) d) (U11 m c main_v16 (ix2 d 0))) j = _
  rw [e10, e27, e12, e28, e8, e26, e22, e25, e16]
  rfl

theorem kernel_val (d : Fin 10000) (j : Fin 64) :
    W13 m c main_v30 (ix2 d j)
      = Spec.modelK (Ideal.ofBits .f32 0x3F800000#32) (Ideal.ofBits .f32 0x2B8CBCCC#32)
          (Spec.node (m ((c : Thread nD τ).loc main_arg1)) h 0) (Spec.node (m ((c : Thread nD τ).loc main_arg1)) h 1)
          (Spec.mat2 (m ((c : Thread nD τ).loc main_arg2))) (Spec.vec1 (m ((c : Thread nD τ).loc main_arg3))) (Spec.mat2 (m ((c : Thread nD τ).loc main_arg4))) (Spec.vec1 (m ((c : Thread nD τ).loc main_arg5)))
          (Spec.mat2 (m ((c : Thread nD τ).loc main_arg6))) (Spec.vec1 (m ((c : Thread nD τ).loc main_arg7))) (Spec.mat2 (m ((c : Thread nD τ).loc main_arg8))) (Spec.vec1 (m ((c : Thread nD τ).loc main_arg9)))
          (Spec.mat2 (m ((c : Thread nD τ).loc main_arg10))) (Spec.vec1 (m ((c : Thread nD τ).loc main_arg11))) (Spec.mat2 (m ((c : Thread nD τ).loc main_arg12))) (Spec.vec1 (m ((c : Thread nD τ).loc main_arg13)))
          (Spec.mat2 (m ((c : Thread nD τ).loc main_arg0))) (Fin.castLE (by norm_num) d) j := by
  rw [v30_val m c d j]
  exact o29_val m c h (Fin.castLE (by norm_num) d) j

end Cert.KernelIdeal.Hand

end
-- ==== Proof.RefRead.lean ====
import proofs.«403197_j58634893525189_3_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S2x640000, .i32⟩ : BufTy).Contents (Elt F)) : (⟨S1x640000, .i32⟩ : BufTy).Contents (Elt F) :=
  extractStridedSlice S1x640000 ![0, 0] (x1) slices_S2x640000_S1x640000_0_0
abbrev idx_main_v0 (i : S1x640000.Idx) : S2x640000.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v0_apply (x1 : (⟨S2x640000, .i32⟩ : BufTy).Contents (Elt F)) (i : S1x640000.Idx) :
    val_main_v0 (F := F) x1 i = x1 (idx_main_v0 i) := by
  unfold val_main_v0
  exact extractStridedSlice_apply ![0, 0] x1 slices_S2x640000_S1x640000_0_0 i (idx_main_v0 i) (fun a => match a with
    | ⟨0, _⟩ => by show (i 0).val = 0 + (i 0).val; omega
    | ⟨1, _⟩ => by show (i 1).val = 0 + (i 1).val; omega)

def val_main_v1 (x1 : (⟨S2x640000, .i32⟩ : BufTy).Contents (Elt F)) : (⟨S640000, .i32⟩ : BufTy).Contents (Elt F) :=
  shapeCast _ (val_main_v0 (F := F) x1) shapeCasts_S1x640000_S640000
abbrev idx_main_v1 (i : S640000.Idx) : S1x640000.Idx := fun a => match a with
  | ⟨0, _⟩ => ⟨0, Nat.one_pos⟩
  | ⟨1, _⟩ => ⟨((i 0).val) % 640000, by have h0 : (i 0).val < 640000 := (i 0).isLt; show ((i 0).val) % 640000 < 640000; omega⟩
theorem val_main_v1_apply (x1 : (⟨S2x640000, .i32⟩ : BufTy).Contents (Elt F)) (i : S640000.Idx) :
    val_main_v1 (F := F) x1 i = val_main_v0 (F := F) x1 (idx_main_v1 i) := by
  unfold val_main_v1
  generalize val_main_v0 (F := F) x1 = y
  exact shapeCast_apply y shapeCasts_S1x640000_S640000 i (idx_main_v1 i)
    (by rewrite [Shape.rowMajor_val_two, Shape.rowMajor_val_one]; have h0 : (i 0).val < 640000 := (i 0).isLt; show 0 * 640000 + ((i 0).val) % 640000 = (i 0).val; omega)

def val_main_v2 (x1 : (⟨S2x640000, .i32⟩ : BufTy).Contents (Elt F)) : (⟨S1x640000, .i32⟩ : BufTy).Contents (Elt F) :=
  extractStridedSlice S1x640000 ![1, 0] (x1) slices_S2x640000_S1x640000_1_0
abbrev idx_main_v2 (i : S1x640000.Idx) : S2x640000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v2_apply (x1 : (⟨S2x640000, .i32⟩ : BufTy).Contents (Elt F)) (i : S1x640000.Idx) :
    val_main_v2 (F := F) x1 i = x1 (idx_main_v2 i) := by
  unfold val_main_v2
  exact extractStridedSlice_apply ![1, 0] x1 slices_S2x640000_S1x640000_1_0 i (idx_main_v2 i) (fun a => match a with
    | ⟨0, _⟩ => by show 1 + (i 0).val = 1 + (i 0).val; omega
    | ⟨1, _⟩ => by show (i 1).val = 0 + (i 1).val; omega)

def val_main_v3 (x1 : (⟨S2x640000, .i32⟩ : BufTy).Contents (Elt F)) : (⟨S640000, .i32⟩ : BufTy).Contents (Elt F) :=
  shapeCast _ (val_main_v2 (F := F) x1) shapeCasts_S1x640000_S640000
abbrev idx_main_v3 (i : S640000.Idx) : S1x640000.Idx := fun a => match a with
  | ⟨0, _⟩ => ⟨0, Nat.one_pos⟩
  | ⟨1, _⟩ => ⟨((i 0).val) % 640000, by have h0 : (i 0).val < 640000 := (i 0).isLt; show ((i 0).val) % 640000 < 640000; omega⟩
theorem val_main_v3_apply (x1 : (⟨S2x640000, .i32⟩ : BufTy).Contents (Elt F)) (i : S640000.Idx) :
    val_main_v3 (F := F) x1 i = val_main_v2 (F := F) x1 (idx_main_v3 i) := by
  unfold val_main_v3
  generalize val_main_v2 (F := F) x1 = y
  exact shapeCast_apply y shapeCasts_S1x640000_S640000 i (idx_main_v3 i)
    (by rewrite [Shape.rowMajor_val_two, Shape.rowMajor_val_one]; have h0 : (i 0).val < 640000 := (i 0).isLt; show 0 * 640000 + ((i 0).val) % 640000 = (i 0).val; omega)

def val_main_c : (⟨S_, .i32⟩ : BufTy).Contents (Elt F) :=
  constantI S_ 32 0#32
theorem val_main_c_apply (i : S_.Idx) :
    val_main_c (F := F) i = 0#32 := rfl

def val_main_v4 : (⟨S640000, .i32⟩ : BufTy).Contents (Elt F) :=
  broadcastInDim S640000 ![] bcast_S_S640000 (val_main_c (F := F))
abbrev idx_main_v4 (i : S640000.Idx) : S_.Idx := fun a => a.elim0
theorem val_main_v4_apply (i : S640000.Idx) :
    val_main_v4 (F := F) i = val_main_c (F := F) (idx_main_v4 i) := by
  unfold val_main_v4
  generalize val_main_c (F := F) = y
  exact broadcastInDim_apply _ bcast_S_S640000 y i (idx_main_v4 i) (fun a => a.elim0)

def val_main_v5 (x1 : (⟨S2x640000, .i32⟩ : BufTy).Contents (Elt F)) : (⟨S640000, .i1⟩ : BufTy).Contents (Elt F) :=
  cmpi .slt (val_main_v1 (F := F) x1) (val_main_v4 (F := F))
theorem val_main_v5_apply (x1 : (⟨S2x640000, .i32⟩ : BufTy).Contents (Elt F)) (i : S640000.Idx) :
    val_main_v5 (F := F) x1 i = IntOp.cmpi .slt (val_main_v1 (F := F) x1 i) (val_main_v4 (F := F) i) := rfl

def val_main_c_0 : (⟨S_, .i32⟩ : BufTy).Contents (Elt F) :=
  constantI S_ 32 10000#32
theorem val_main_c_0_apply (i : S_.Idx) :
    val_main_c_0 (F := F) i = 10000#32 := rfl

def val_main_v6 : (⟨S640000, .i32⟩ : BufTy).Contents (Elt F) :=
  broadcastInDim S640000 ![] bcast_S_S640000 (val_main_c_0 (F := F))
abbrev idx_main_v6 (i : S640000.Idx) : S_.Idx := fun a => a.elim0
theorem val_main_v6_apply (i : S640000.Idx) :
    val_main_v6 (F := F) i = val_main_c_0 (F := F) (idx_main_v6 i) := by
  unfold val_main_v6
  generalize val_main_c_0 (F := F) = y
  exact broadcastInDim_apply _ bcast_S_S640000 y i (idx_main_v6 i) (fun a => a.elim0)

def val_main_v7 (x1 : (⟨S2x640000, .i32⟩ : BufTy).Contents (Elt F)) : (⟨S640000, .i32⟩ : BufTy).Contents (Elt F) :=
  addi (val_main_v1 (F := F) x1) (val_main_v6 (F := F))
theorem val_main_v7_apply (x1 : (⟨S2x640000, .i32⟩ : BufTy).Contents (Elt F)) (i : S640000.Idx) :
    val_main_v7 (F := F) x1 i = IntOp.addi (val_main_v1 (F := F) x1 i) (val_main_v6 (F := F) i) := rfl

def val_main_v8 (x1 : (⟨S2x640000, .i32⟩ : BufTy).Contents (Elt F)) : (⟨S640000, .i32⟩ : BufTy).Contents (Elt F) :=
  select (val_main_v5 (F := F) x1) (val_main_v7 (F := F) x1) (val_main_v1 (F := F) x1)
theorem val_main_v8_apply (x1 : (⟨S2x640000, .i32⟩ : BufTy).Contents (Elt F)) (i : S640000.Idx) :
    val_main_v8 (F := F) x1 i = Scalar.select (val_main_v5 (F := F) x1 i) (val_main_v7 (F := F) x1 i) (val_main_v1 (F := F) x1 i) := rfl

def val_main_v9 (x1 : (⟨S2x640000, .i32⟩ : BufTy).Contents (Elt F)) : (⟨S640000x1, .i32⟩ : BufTy).Contents (Elt F) :=
  broadcastInDim S640000x1 ![0] bcast_S640000_S640000x1_0 (val_main_v8 (F := F) x1)
abbrev idx_main_v9 (i : S640000x1.Idx) : S640000.Idx := fun a => match a with
  | ⟨0, _⟩ => ⟨(i 0).val, (i 0).isLt⟩
theorem val_main_v9_apply (x1 : (⟨S2x640000, .i32⟩ : BufTy).Contents (Elt F)) (i : S640000x1.Idx) :
    val_main_v9 (F := F) x1 i = val_main_v8 (F := F) x1 (idx_main_v9 i) := by
  unfold val_main_v9
  generalize val_main_v8 (F := F) x1 = y
  exact broadcastInDim_apply _ bcast_S640000_S640000x1_0 y i (idx_main_v9 i) (fun a => match a with
    | ⟨0, _⟩ => by show (i 0).val = if (640000 : Nat) = 1 then 0 else (i 0).val; rw [if_neg (by decide)])

def val_main_v10 (x0 : (⟨S10000x128, .f32⟩ : BufTy).Contents (Elt F)) (x1 : (⟨S2x640000, .i32⟩ : BufTy).Contents (Elt F)) : (⟨S640000x128, .f32⟩ : BufTy).Contents (Elt F) :=
  Host.gather gather_S10000x128_S640000x1_S640000x128_1_0_n_n_0_1_1128 (x0) (val_main_v9 (F := F) x1)

def val_main_v11 (x0 : (⟨S10000x128, .f32⟩ : BufTy).Contents (Elt F)) (x1 : (⟨S2x640000, .i32⟩ : BufTy).Contents (Elt F)) (x2 : (⟨S128x128, .f32⟩ : BufTy).Contents (Elt F)) : (⟨S640000x128, .f32⟩ : BufTy).Contents (Elt F) :=
  Host.dotGeneral dot_S640000x128_S128x128_S640000x128_1_0_0_1_n_n none (val_main_v10 (F := F) x0 x1) (x2)
theorem lhs_main_v11_0 (i : S640000x128.Idx) (q : dot_S640000x128_S128x128_S640000x128_1_0_0_1_n_n.contr.Idx) :
    (dot_S640000x128_S128x128_S640000x128_1_0_0_1_n_n.lhsIdx i q 0).val = (i 0).val := by
  unfold DotDims.lhsIdx
  rw [dif_neg (show ¬(0 : Fin S640000x128.rank) ∈ dot_S640000x128_S128x128_S640000x128_1_0_0_1_n_n.lhsBatch by decide), dif_pos (show (0 : Fin S640000x128.rank) ∈ dot_S640000x128_S128x128_S640000x128_1_0_0_1_n_n.lhsNonContracting by decide)]
  rfl
theorem lhs_main_v11_1 (i : S640000x128.Idx) (q : dot_S640000x128_S128x128_S640000x128_1_0_0_1_n_n.contr.Idx) :
    (dot_S640000x128_S128x128_S640000x128_1_0_0_1_n_n.lhsIdx i q 1).val = (q ⟨0, by decide⟩).val :=
  dot_S640000x128_S128x128_S640000x128_1_0_0_1_n_n.lhsIdx_val_of_single rfl i q
theorem rhs_main_v11_0 (i : S640000x128.Idx) (q : dot_S640000x128_S128x128_S640000x128_1_0_0_1_n_n.contr.Idx) :
    (dot_S640000x128_S128x128_S640000x128_1_0_0_1_n_n.rhsIdx i q 0).val = (q ⟨0, by decide⟩).val :=
  dot_S640000x128_S128x128_S640000x128_1_0_0_1_n_n.rhsIdx_val_of_single rfl i q
theorem rhs_main_v11_1 (i : S640000x128.Idx) (q : dot_S640000x128_S128x128_S640000x128_1_0_0_1_n_n.contr.Idx) :
    (dot_S640000x128_S128x128_S640000x128_1_0_0_1_n_n.rhsIdx i q 1).val = (i 1).val := by
  unfold DotDims.rhsIdx
  rw [dif_neg (show ¬(1 : Fin S128x128.rank) ∈ dot_S640000x128_S128x128_S640000x128_1_0_0_1_n_n.rhsBatch by decide), dif_pos (show (1 : Fin S128x128.rank) ∈ dot_S640000x128_S128x128_S640000x128_1_0_0_1_n_n.rhsNonContracting by decide)]
  rfl
abbrev lidx_main_v11 (i : S640000x128.Idx) (k : Fin 128) : S640000x128.Idx := fun a => match a with
  | ⟨0, _⟩ => ⟨(i 0).val, (i 0).isLt⟩
  | ⟨1, _⟩ => ⟨k.val, k.isLt⟩
abbrev ridx_main_v11 (i : S640000x128.Idx) (k : Fin 128) : S128x128.Idx := fun a => match a with
  | ⟨0, _⟩ => ⟨k.val, k.isLt⟩
  | ⟨1, _⟩ => ⟨(i 1).val, (i 1).isLt⟩

theorem val_main_v11_apply (x0 : (⟨S10000x128, .f32⟩ : BufTy).Contents (Elt Ideal)) (x1 : (⟨S2x640000, .i32⟩ : BufTy).Contents (Elt Ideal)) (x2 : (⟨S128x128, .f32⟩ : BufTy).Contents (Elt Ideal)) (i : S640000x128.Idx) :
    val_main_v11 (F := Ideal) x0 x1 x2 i = ∑ k : Fin 128, (val_main_v10 (F := Ideal) x0 x1) (lidx_main_v11 i k) * x2 (ridx_main_v11 i k) := by
  unfold val_main_v11
  generalize val_main_v10 (F := Ideal) x0 x1 = y0
  simp only [Host.dotGeneral]
  rw [Ideal.dotGeneral_apply, ← Equiv.sum_comp (ValueIdx.contrEquiv1 dot_S640000x128_S128x128_S640000x128_1_0_0_1_n_n 128 rfl rfl).symm]
  refine Finset.sum_congr rfl fun k _ => ?_
  have hk := ValueIdx.contrEquiv1_symm_val dot_S640000x128_S128x128_S640000x128_1_0_0_1_n_n 128 rfl rfl k
  have el : dot_S640000x128_S128x128_S640000x128_1_0_0_1_n_n.lhsIdx i ((ValueIdx.contrEquiv1 dot_S640000x128_S128x128_S640000x128_1_0_0_1_n_n 128 rfl rfl).symm k) = lidx_main_v11 i k := funext fun a => Fin.ext (by
    match a with
    | ⟨0, _⟩ => exact lhs_main_v11_0 _ _
    | ⟨1, _⟩ => exact (lhs_main_v11_1 _ _).trans hk)
  have er : dot_S640000x128_S128x128_S640000x128_1_0_0_1_n_n.rhsIdx i ((ValueIdx.contrEquiv1 dot_S640000x128_S128x128_S640000x128_1_0_0_1_n_n 128 rfl rfl).symm k) = ridx_main_v11 i k := funext fun a => Fin.ext (by
    match a with
    | ⟨0, _⟩ => exact (rhs_main_v11_0 _ _).trans hk
    | ⟨1, _⟩ => exact rhs_main_v11_1 _ _)
  rw [el, er]

def val_main_v12 (x3 : (⟨S128, .f32⟩ : BufTy).Contents (Elt F)) : (⟨S1x128, .f32⟩ : BufTy).Contents (Elt F) :=
  broadcastInDim S1x128 ![1] bcast_S128_S1x128_1 (x3)
abbrev idx_main_v12 (i : S1x128.Idx) : S128.Idx := fun a => match a with
  | ⟨0, _⟩ => ⟨(i 1).val, (i 1).isLt⟩
theorem val_main_v12_apply (x3 : (⟨S128, .f32⟩ : BufTy).Contents (Elt F)) (i : S1x128.Idx) :
    val_main_v12 (F := F) x3 i = x3 (idx_main_v12 i) := by
  unfold val_main_v12
  exact broadcastInDim_apply _ bcast_S128_S1x128_1 x3 i (idx_main_v12 i) (fun a => match a with
    | ⟨0, _⟩ => by show (i 1).val = if (128 : Nat) = 1 then 0 else (i 1).val; rw [if_neg (by decide)])

def val_main_v13 (x3 : (⟨S128, .f32⟩ : BufTy).Contents (Elt F)) : (⟨S640000x128, .f32⟩ : BufTy).Contents (Elt F) :=
  broadcastInDim S640000x128 ![0, 1] bcast_S1x128_S640000x128_0_1 (val_main_v12 (F := F) x3)
abbrev idx_main_v13 (i : S640000x128.Idx) : S1x128.Idx := fun a => match a with
  | ⟨0, _⟩ => ⟨0, Nat.one_pos⟩
  | ⟨1, _⟩ => ⟨(i 1).val, (i 1).isLt⟩
theorem val_main_v13_apply (x3 : (⟨S128, .f32⟩ : BufTy).Contents (Elt F)) (i : S640000x128.Idx) :
    val_main_v13 (F := F) x3 i = val_main_v12 (F := F) x3 (idx_main_v13 i) := by
  unfold val_main_v13
  generalize val_main_v12 (F := F) x3 = y
  exact broadcastInDim_apply _ bcast_S1x128_S640000x128_0_1 y i (idx_main_v13 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v14 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) : (⟨S640000x128, .f32⟩ : BufTy).Contents (Elt F) :=
  addf (val_main_v11 (F := F) x0 x1 x2) (val_main_v13 (F := F) x3)
theorem val_main_v14_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (i : S640000x128.Idx) :
    val_main_v14 (F := F) x0 x1 x2 x3 i = FloatOps.addf (val_main_v11 (F := F) x0 x1 x2 i) (val_main_v13 (F := F) x3 i) := rfl

def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

def val_main_call0_v0 : (⟨S640000x128, .f32⟩ : BufTy).Contents (Elt F) :=
  broadcastInDim S640000x128 ![] bcast_S_S640000x128 (val_main_call0_cst (F := F))
abbrev idx_main_call0_v0 (i : S640000x128.Idx) : S_.Idx := fun a => a.elim0
theorem val_main_call0_v0_apply (i : S640000x128.Idx) :
    val_main_call0_v0 (F := F) i = val_main_call0_cst (F := F) (idx_main_call0_v0 i) := by
  unfold val_main_call0_v0
  generalize val_main_call0_cst (F := F) = y
  exact broadcastInDim_apply _ bcast_S_S640000x128 y i (idx_main_call0_v0 i) (fun a => a.elim0)

def val_main_v15 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) : (⟨S640000x128, .f32⟩ : BufTy).Contents (Elt F) :=
  maximumf (val_main_v14 (F := F) x0 x1 x2 x3) (val_main_call0_v0 (F := F))
theorem val_main_v15_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (i : S640000x128.Idx) :
    val_main_v15 (F := F) x0 x1 x2 x3 i = FloatOps.maximumf (val_main_v14 (F := F) x0 x1 x2 x3 i) (val_main_call0_v0 (F := F) i) := rfl

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v16 : (⟨S10000x128, .f32⟩ : BufTy).Contents (Elt F) :=
  broadcastInDim S10000x128 ![] bcast_S_S10000x128 (val_main_cst (F := F))
abbrev idx_main_v16 (i : S10000x128.Idx) : S_.Idx := fun a => a.elim0
theorem val_main_v16_apply (i : S10000x128.Idx) :
    val_main_v16 (F := F) i = val_main_cst (F := F) (idx_main_v16 i) := by
  unfold val_main_v16
  generalize val_main_cst (F := F) = y
  exact broadcastInDim_apply _ bcast_S_S10000x128 y i (idx_main_v16 i) (fun a => a.elim0)

def val_main_v17 (x1 : (⟨S2x640000, .i32⟩ : BufTy).Contents (Elt F)) : (⟨S640000x1, .i32⟩ : BufTy).Contents (Elt F) :=
  broadcastInDim S640000x1 ![0] bcast_S640000_S640000x1_0 (val_main_v3 (F := F) x1)
abbrev idx_main_v17 (i : S640000x1.Idx) : S640000.Idx := fun a => match a with
  | ⟨0, _⟩ => ⟨(i 0).val, (i 0).isLt⟩
theorem val_main_v17_apply (x1 : (⟨S2x640000, .i32⟩ : BufTy).Contents (Elt F)) (i : S640000x1.Idx) :
    val_main_v17 (F := F) x1 i = val_main_v3 (F := F) x1 (idx_main_v17 i) := by
  unfold val_main_v17
  generalize val_main_v3 (F := F) x1 = y
  exact broadcastInDim_apply _ bcast_S640000_S640000x1_0 y i (idx_main_v17 i) (fun a => match a with
    | ⟨0, _⟩ => by show (i 0).val = if (640000 : Nat) = 1 then 0 else (i 0).val; rw [if_neg (by decide)])

def val_main_v18 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) : (⟨S10000x128, .f32⟩ : BufTy).Contents (Elt F) :=
  Host.scatterAdd scatter_S10000x128_S640000x1_S640000x128_1_0_0_1 (val_main_v16 (F := F)) (val_main_v17 (F := F) x1) (val_main_v15 (F := F) x0 x1 x2 x3)

def val_main_cst_1 : (⟨S_, .f32⟩ : BufTy).Contents (Elt F) :=
  constant S_ .f32 0x3F800000#32
theorem val_main_cst_1_apply (i : S_.Idx) :
    val_main_cst_1 (F := F) i = FloatOps.ofBits .f32 0x3F800000#32 := rfl

def val_main_v19 : (⟨S640000, .f32⟩ : BufTy).Contents (Elt F) :=
  broadcastInDim S640000 ![] bcast_S_S640000 (val_main_cst_1 (F := F))
abbrev idx_main_v19 (i : S640000.Idx) : S_.Idx := fun a => a.elim0
theorem val_main_v19_apply (i : S640000.Idx) :
    val_main_v19 (F := F) i = val_main_cst_1 (F := F) (idx_main_v19 i) := by
  unfold val_main_v19
  generalize val_main_cst_1 (F := F) = y
  exact broadcastInDim_apply _ bcast_S_S640000 y i (idx_main_v19 i) (fun a => a.elim0)

def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

def val_main_v20 : (⟨S10000, .f32⟩ : BufTy).Contents (Elt F) :=
  broadcastInDim S10000 ![] bcast_S_S10000 (val_main_cst_2 (F := F))
abbrev idx_main_v20 (i : S10000.Idx) : S_.Idx := fun a => a.elim0
theorem val_main_v20_apply (i : S10000.Idx) :
    val_main_v20 (F := F) i = val_main_cst_2 (F := F) (idx_main_v20 i) := by
  unfold val_main_v20
  generalize val_main_cst_2 (F := F) = y
  exact broadcastInDim_apply _ bcast_S_S10000 y i (idx_main_v20 i) (fun a => a.elim0)

def val_main_v21 (x1 : (⟨S2x640000, .i32⟩ : BufTy).Contents (Elt F)) : (⟨S640000x1, .i32⟩ : BufTy).Contents (Elt F) :=
  broadcastInDim S640000x1 ![0] bcast_S640000_S640000x1_0 (val_main_v3 (F := F) x1)
abbrev idx_main_v21 (i : S640000x1.Idx) : S640000.Idx := fun a => match a with
  | ⟨0, _⟩ => ⟨(i 0).val, (i 0).isLt⟩
theorem val_main_v21_apply (x1 : (⟨S2x640000, .i32⟩ : BufTy).Contents (Elt F)) (i : S640000x1.Idx) :
    val_main_v21 (F := F) x1 i = val_main_v3 (F := F) x1 (idx_main_v21 i) := by
  unfold val_main_v21
  generalize val_main_v3 (F := F) x1 = y
  exact broadcastInDim_apply _ bcast_S640000_S640000x1_0 y i (idx_main_v21 i) (fun a => match a with
    | ⟨0, _⟩ => by show (i 0).val = if (640000 : Nat) = 1 then 0 else (i 0).val; rw [if_neg (by decide)])

def val_main_v22 (x1 : (⟨S2x640000, .i32⟩ : BufTy).Contents (Elt F)) : (⟨S10000, .f32⟩ : BufTy).Contents (Elt F) :=
  Host.scatterAdd scatter_S10000_S640000x1_S640000_n_0_0_1 (val_main_v20 (F := F)) (val_main_v21 (F := F) x1) (val_main_v19 (F := F))

def val_main_cst_3 : (⟨S_, .f32⟩ : BufTy).Contents (Elt F) :=
  constant S_ .f32 0x3F800000#32
theorem val_main_cst_3_apply (i : S_.Idx) :
    val_main_cst_3 (F := F) i = FloatOps.ofBits .f32 0x3F800000#32 := rfl

def val_main_v23 : (⟨S10000, .f32⟩ : BufTy).Contents (Elt F) :=
  broadcastInDim S10000 ![] bcast_S_S10000 (val_main_cst_3 (F := F))
abbrev idx_main_v23 (i : S10000.Idx) : S_.Idx := fun a => a.elim0
theorem val_main_v23_apply (i : S10000.Idx) :
    val_main_v23 (F := F) i = val_main_cst_3 (F := F) (idx_main_v23 i) := by
  unfold val_main_v23
  generalize val_main_cst_3 (F := F) = y
  exact broadcastInDim_apply _ bcast_S_S10000 y i (idx_main_v23 i) (fun a => a.elim0)

def val_main_v24 (x1 : (⟨S2x640000, .i32⟩ : BufTy).Contents (Elt F)) : (⟨S10000, .f32⟩ : BufTy).Contents (Elt F) :=
  maximumf (val_main_v22 (F := F) x1) (val_main_v23 (F := F))
theorem val_main_v24_apply (x1 : (⟨S2x640000, .i32⟩ : BufTy).Contents (Elt F)) (i : S10000.Idx) :
    val_main_v24 (F := F) x1 i = FloatOps.maximumf (val_main_v22 (F := F) x1 i) (val_main_v23 (F := F) i) := rfl

def val_main_v25 (x1 : (⟨S2x640000, .i32⟩ : BufTy).Contents (Elt F)) : (⟨S10000x1, .f32⟩ : BufTy).Contents (Elt F) :=
  broadcastInDim S10000x1 ![0] bcast_S10000_S10000x1_0 (val_main_v24 (F := F) x1)
abbrev idx_main_v25 (i : S10000x1.Idx) : S10000.Idx := fun a => match a with
  | ⟨0, _⟩ => ⟨(i 0).val, (i 0).isLt⟩
theorem val_main_v25_apply (x1 : (⟨S2x640000, .i32⟩ : BufTy).Contents (Elt F)) (i : S10000x1.Idx) :
    val_main_v25 (F := F) x1 i = val_main_v24 (F := F) x1 (idx_main_v25 i) := by
  unfold val_main_v25
  generalize val_main_v24 (F := F) x1 = y
  exact broadcastInDim_apply _ bcast_S10000_S10000x1_0 y i (idx_main_v25 i) (fun a => match a with
    | ⟨0, _⟩ => by show (i 0).val = if (10000 : Nat) = 1 then 0 else (i 0).val; rw [if_neg (by decide)])

def val_main_v26 (x1 : (⟨S2x640000, .i32⟩ : BufTy).Contents (Elt F)) : (⟨S10000x128, .f32⟩ : BufTy).Contents (Elt F) :=
  broadcastInDim S10000x128 ![0, 1] bcast_S10000x1_S10000x128_0_1 (val_main_v25 (F := F) x1)
abbrev idx_main_v26 (i : S10000x128.Idx) : S10000x1.Idx := fun a => match a with
  | ⟨0, _⟩ => ⟨(i 0).val, (i 0).isLt⟩
  | ⟨1, _⟩ => ⟨0, Nat.one_pos⟩
theorem val_main_v26_apply (x1 : (⟨S2x640000, .i32⟩ : BufTy).Contents (Elt F)) (i : S10000x128.Idx) :
    val_main_v26 (F := F) x1 i = val_main_v25 (F := F) x1 (idx_main_v26 i) := by
  unfold val_main_v26
  generalize val_main_v25 (F := F) x1 = y
  exact broadcastInDim_apply _ bcast_S10000x1_S10000x128_0_1 y i (idx_main_v26 i) (fun a => match a with
    | ⟨0, _⟩ => by show (i 0).val = if (10000 : Nat) = 1 then 0 else (i 0).val; rw [if_neg (by decide)]
    | ⟨1, _⟩ => by show 0 = if (1 : Nat) = 1 then 0 else (i 1).val; rw [if_pos rfl])

def val_main_v27 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) : (⟨S10000x128, .f32⟩ : BufTy).Contents (Elt F) :=
  Host.divf (val_main_v18 (F := F) x0 x1 x2 x3) (val_main_v26 (F := F) x1)
theorem val_main_v27_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (i : S10000x128.Idx) :
    val_main_v27 (F := F) x0 x1 x2 x3 i = FloatOps.hostDivf (val_main_v18 (F := F) x0 x1 x2 x3 i) (val_main_v26 (F := F) x1 i) := rfl

def val_main_v28 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) : (⟨S10000x256, .f32⟩ : BufTy).Contents (Elt F) :=
  concatenate S10000x256 1 [⟨S10000x128, (x0)⟩, ⟨S10000x128, (val_main_v27 (F := F) x0 x1 x2 x3)⟩] concatenates_S10000x128_S10000x128_S10000x256_d1

def val_main_v29 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) : (⟨S10000x128, .f32⟩ : BufTy).Contents (Elt F) :=
  Host.dotGeneral dot_S10000x256_S256x128_S10000x128_1_0_0_1_n_n none (val_main_v28 (F := F) x0 x1 x2 x3) (x4)
theorem lhs_main_v29_0 (i : S10000x128.Idx) (q : dot_S10000x256_S256x128_S10000x128_1_0_0_1_n_n.contr.Idx) :
    (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
theorem lhs_main_v29_1 (i : S10000x128.Idx) (q : dot_S10000x256_S256x128_S10000x128_1_0_0_1_n_n.contr.Idx) :
    (dot_S10000x256_S256x128_S10000x128_1_0_0_1_n_n.lhsIdx i q 1).val = (q ⟨0, by decide⟩).val :=
  dot_S10000x256_S256x128_S10000x128_1_0_0_1_n_n.lhsIdx_val_of_single rfl i q
theorem rhs_main_v29_0 (i : S10000x128.Idx) (q : dot_S10000x256_S256x128_S10000x128_1_0_0_1_n_n.contr.Idx) :
    (dot_S10000x256_S256x128_S10000x128_1_0_0_1_n_n.rhsIdx i q 0).val = (q ⟨0, by decide⟩).val :=
  dot_S10000x256_S256x128_S10000x128_1_0_0_1_n_n.rhsIdx_val_of_single rfl i q
theorem rhs_main_v29_1 (i : S10000x128.Idx) (q : dot_S10000x256_S256x128_S10000x128_1_0_0_1_n_n.contr.Idx) :
    (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl
abbrev lidx_main_v29 (i : S10000x128.Idx) (k : Fin 256) : S10000x256.Idx := fun a => match a with
  | ⟨0, _⟩ => ⟨(i 0).val, (i 0).isLt⟩
  | ⟨1, _⟩ => ⟨k.val, k.isLt⟩
abbrev ridx_main_v29 (i : S10000x128.Idx) (k : Fin 256) : S256x128.Idx := fun a => match a with
  | ⟨0, _⟩ => ⟨k.val, k.isLt⟩
  | ⟨1, _⟩ => ⟨(i 1).val, (i 1).isLt⟩

theorem val_main_v29_apply (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (i : S10000x128.Idx) :
    val_main_v29 (F := Ideal) x0 x1 x2 x3 x4 i = ∑ k : Fin 256, (val_main_v28 (F := Ideal) x0 x1 x2 x3) (lidx_main_v29 i k) * x4 (ridx_main_v29 i k) := by
  unfold val_main_v29
  generalize val_main_v28 (F := Ideal) x0 x1 x2 x3 = y0
  simp only [Host.dotGeneral]
  rw [Ideal.dotGeneral_apply, ← Equiv.sum_comp (ValueIdx.contrEquiv1 dot_S10000x256_S256x128_S10000x128_1_0_0_1_n_n 256 rfl rfl).symm]
  refine Finset.sum_congr rfl fun k _ => ?_
  have hk := ValueIdx.contrEquiv1_symm_val dot_S10000x256_S256x128_S10000x128_1_0_0_1_n_n 256 rfl rfl k
  have el : dot_S10000x256_S256x128_S10000x128_1_0_0_1_n_n.lhsIdx i ((ValueIdx.contrEquiv1 dot_S10000x256_S256x128_S10000x128_1_0_0_1_n_n 256 rfl rfl).symm k) = lidx_main_v29 i k := funext fun a => Fin.ext (by
    match a with
    | ⟨0, _⟩ => exact lhs_main_v29_0 _ _
    | ⟨1, _⟩ => exact (lhs_main_v29_1 _ _).trans hk)
  have er : dot_S10000x256_S256x128_S10000x128_1_0_0_1_n_n.rhsIdx i ((ValueIdx.contrEquiv1 dot_S10000x256_S256x128_S10000x128_1_0_0_1_n_n 256 rfl rfl).symm k) = ridx_main_v29 i k := funext fun a => Fin.ext (by
    match a with
    | ⟨0, _⟩ => exact (rhs_main_v29_0 _ _).trans hk
    | ⟨1, _⟩ => exact rhs_main_v29_1 _ _)
  rw [el, er]

def val_main_v30 (x5 : (⟨S128, .f32⟩ : BufTy).Contents (Elt F)) : (⟨S1x128, .f32⟩ : BufTy).Contents (Elt F) :=
  broadcastInDim S1x128 ![1] bcast_S128_S1x128_1 (x5)
abbrev idx_main_v30 (i : S1x128.Idx) : S128.Idx := fun a => match a with
  | ⟨0, _⟩ => ⟨(i 1).val, (i 1).isLt⟩
theorem val_main_v30_apply (x5 : (⟨S128, .f32⟩ : BufTy).Contents (Elt F)) (i : S1x128.Idx) :
    val_main_v30 (F := F) x5 i = x5 (idx_main_v30 i) := by
  unfold val_main_v30
  exact broadcastInDim_apply _ bcast_S128_S1x128_1 x5 i (idx_main_v30 i) (fun a => match a with
    | ⟨0, _⟩ => by show (i 1).val = if (128 : Nat) = 1 then 0 else (i 1).val; rw [if_neg (by decide)])

def val_main_v31 (x5 : (⟨S128, .f32⟩ : BufTy).Contents (Elt F)) : (⟨S10000x128, .f32⟩ : BufTy).Contents (Elt F) :=
  broadcastInDim S10000x128 ![0, 1] bcast_S1x128_S10000x128_0_1 (val_main_v30 (F := F) x5)
abbrev idx_main_v31 (i : S10000x128.Idx) : S1x128.Idx := fun a => match a with
  | ⟨0, _⟩ => ⟨0, Nat.one_pos⟩
  | ⟨1, _⟩ => ⟨(i 1).val, (i 1).isLt⟩
theorem val_main_v31_apply (x5 : (⟨S128, .f32⟩ : BufTy).Contents (Elt F)) (i : S10000x128.Idx) :
    val_main_v31 (F := F) x5 i = val_main_v30 (F := F) x5 (idx_main_v31 i) := by
  unfold val_main_v31
  generalize val_main_v30 (F := F) x5 = y
  exact broadcastInDim_apply _ bcast_S1x128_S10000x128_0_1 y i (idx_main_v31 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v32 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) : (⟨S10000x128, .f32⟩ : BufTy).Contents (Elt F) :=
  addf (val_main_v29 (F := F) x0 x1 x2 x3 x4) (val_main_v31 (F := F) x5)
theorem val_main_v32_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (i : S10000x128.Idx) :
    val_main_v32 (F := F) x0 x1 x2 x3 x4 x5 i = FloatOps.addf (val_main_v29 (F := F) x0 x1 x2 x3 x4 i) (val_main_v31 (F := F) x5 i) := rfl

def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S10000x128, .f32⟩ : BufTy).Contents (Elt F) :=
  broadcastInDim S10000x128 ![] bcast_S_S10000x128 (val_main_call1_cst (F := F))
abbrev idx_main_call1_v0 (i : S10000x128.Idx) : S_.Idx := fun a => a.elim0
theorem val_main_call1_v0_apply (i : S10000x128.Idx) :
    val_main_call1_v0 (F := F) i = val_main_call1_cst (F := F) (idx_main_call1_v0 i) := by
  unfold val_main_call1_v0
  generalize val_main_call1_cst (F := F) = y
  exact broadcastInDim_apply _ bcast_S_S10000x128 y i (idx_main_call1_v0 i) (fun a => a.elim0)

def val_main_v33 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) : (⟨S10000x128, .f32⟩ : BufTy).Contents (Elt F) :=
  maximumf (val_main_v32 (F := F) x0 x1 x2 x3 x4 x5) (val_main_call1_v0 (F := F))
theorem val_main_v33_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (i : S10000x128.Idx) :
    val_main_v33 (F := F) x0 x1 x2 x3 x4 x5 i = FloatOps.maximumf (val_main_v32 (F := F) x0 x1 x2 x3 x4 x5 i) (val_main_call1_v0 (F := F) i) := rfl

def val_main_call2_v0 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) : (⟨S10000x128, .f32⟩ : BufTy).Contents (Elt F) :=
  mulf (val_main_v33 (F := F) x0 x1 x2 x3 x4 x5) (val_main_v33 (F := F) x0 x1 x2 x3 x4 x5)
theorem val_main_call2_v0_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (i : S10000x128.Idx) :
    val_main_call2_v0 (F := F) x0 x1 x2 x3 x4 x5 i = FloatOps.mulf (val_main_v33 (F := F) x0 x1 x2 x3 x4 x5 i) (val_main_v33 (F := F) x0 x1 x2 x3 x4 x5 i) := rfl

def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl

def val_main_call2_v1 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) : (⟨S10000, .f32⟩ : BufTy).Contents (Elt F) :=
  Host.reduceAdd (val_main_call2_v0 (F := F) x0 x1 x2 x3 x4 x5) (val_main_call2_cst (F := F)) reducesTo_S10000x128_S10000_d1 h_S_
abbrev idx_main_call2_v1 (i : S10000.Idx) (k : Fin 128) : S10000x128.Idx := fun a => match a with
  | ⟨0, _⟩ => ⟨(i 0).val, (i 0).isLt⟩
  | ⟨1, _⟩ => ⟨k.val, k.isLt⟩

theorem val_main_call2_v1_apply (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (i : S10000.Idx) :
    val_main_call2_v1 (F := Ideal) x0 x1 x2 x3 x4 x5 i = (val_main_call2_cst (F := Ideal)) (Shape.Idx.first h_S_) + ∑ k : Fin 128, (val_main_call2_v0 (F := Ideal) x0 x1 x2 x3 x4 x5) (idx_main_call2_v1 i k) := by
  unfold val_main_call2_v1
  generalize val_main_call2_v0 (F := Ideal) x0 x1 x2 x3 x4 x5 = y0
  simp only [Host.reduceAdd, Ideal.hostReduceAdd_def]
  rw [Ideal.hostReduceAdd_single reducesTo_S10000x128_S10000_d1 (by decide)]
  refine congrArg (_ + ·) (Finset.sum_congr rfl fun k _ => ?_)
  exact congrArg y0 (funext fun a => Fin.ext (by match a with | ⟨0, _⟩ => rfl | ⟨1, _⟩ => rfl))

def val_main_call2_v2 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) : (⟨S10000x1, .f32⟩ : BufTy).Contents (Elt F) :=
  broadcastInDim S10000x1 ![0] bcast_S10000_S10000x1_0 (val_main_call2_v1 (F := F) x0 x1 x2 x3 x4 x5)
abbrev idx_main_call2_v2 (i : S10000x1.Idx) : S10000.Idx := fun a => match a with
  | ⟨0, _⟩ => ⟨(i 0).val, (i 0).isLt⟩
theorem val_main_call2_v2_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (i : S10000x1.Idx) :
    val_main_call2_v2 (F := F) x0 x1 x2 x3 x4 x5 i = val_main_call2_v1 (F := F) x0 x1 x2 x3 x4 x5 (idx_main_call2_v2 i) := by
  unfold val_main_call2_v2
  generalize val_main_call2_v1 (F := F) x0 x1 x2 x3 x4 x5 = y
  exact broadcastInDim_apply _ bcast_S10000_S10000x1_0 y i (idx_main_call2_v2 i) (fun a => match a with
    | ⟨0, _⟩ => by show (i 0).val = if (10000 : Nat) = 1 then 0 else (i 0).val; rw [if_neg (by decide)])

def val_main_v34 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) : (⟨S10000x1, .f32⟩ : BufTy).Contents (Elt F) :=
  Host.sqrt (val_main_call2_v2 (F := F) x0 x1 x2 x3 x4 x5)
theorem val_main_v34_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (i : S10000x1.Idx) :
    val_main_v34 (F := F) x0 x1 x2 x3 x4 x5 i = FloatOps.hostUnary .sqrt (val_main_call2_v2 (F := F) x0 x1 x2 x3 x4 x5 i) := rfl

def val_main_cst_4 : (⟨S_, .f32⟩ : BufTy).Contents (Elt F) :=
  constant S_ .f32 0x2B8CBCCC#32
theorem val_main_cst_4_apply (i : S_.Idx) :
    val_main_cst_4 (F := F) i = FloatOps.ofBits .f32 0x2B8CBCCC#32 := rfl

def val_main_v35 : (⟨S10000x1, .f32⟩ : BufTy).Contents (Elt F) :=
  broadcastInDim S10000x1 ![] bcast_S_S10000x1 (val_main_cst_4 (F := F))
abbrev idx_main_v35 (i : S10000x1.Idx) : S_.Idx := fun a => a.elim0
theorem val_main_v35_apply (i : S10000x1.Idx) :
    val_main_v35 (F := F) i = val_main_cst_4 (F := F) (idx_main_v35 i) := by
  unfold val_main_v35
  generalize val_main_cst_4 (F := F) = y
  exact broadcastInDim_apply _ bcast_S_S10000x1 y i (idx_main_v35 i) (fun a => a.elim0)

def val_main_v36 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) : (⟨S10000x1, .f32⟩ : BufTy).Contents (Elt F) :=
  maximumf (val_main_v34 (F := F) x0 x1 x2 x3 x4 x5) (val_main_v35 (F := F))
theorem val_main_v36_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (i : S10000x1.Idx) :
    val_main_v36 (F := F) x0 x1 x2 x3 x4 x5 i = FloatOps.maximumf (val_main_v34 (F := F) x0 x1 x2 x3 x4 x5 i) (val_main_v35 (F := F) i) := rfl

def val_main_v37 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) : (⟨S10000x128, .f32⟩ : BufTy).Contents (Elt F) :=
  broadcastInDim S10000x128 ![0, 1] bcast_S10000x1_S10000x128_0_1 (val_main_v36 (F := F) x0 x1 x2 x3 x4 x5)
abbrev idx_main_v37 (i : S10000x128.Idx) : S10000x1.Idx := fun a => match a with
  | ⟨0, _⟩ => ⟨(i 0).val, (i 0).isLt⟩
  | ⟨1, _⟩ => ⟨0, Nat.one_pos⟩
theorem val_main_v37_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (i : S10000x128.Idx) :
    val_main_v37 (F := F) x0 x1 x2 x3 x4 x5 i = val_main_v36 (F := F) x0 x1 x2 x3 x4 x5 (idx_main_v37 i) := by
  unfold val_main_v37
  generalize val_main_v36 (F := F) x0 x1 x2 x3 x4 x5 = y
  exact broadcastInDim_apply _ bcast_S10000x1_S10000x128_0_1 y i (idx_main_v37 i) (fun a => match a with
    | ⟨0, _⟩ => by show (i 0).val = if (10000 : Nat) = 1 then 0 else (i 0).val; rw [if_neg (by decide)]
    | ⟨1, _⟩ => by show 0 = if (1 : Nat) = 1 then 0 else (i 1).val; rw [if_pos rfl])

def val_main_v38 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) : (⟨S10000x128, .f32⟩ : BufTy).Contents (Elt F) :=
  Host.divf (val_main_v33 (F := F) x0 x1 x2 x3 x4 x5) (val_main_v37 (F := F) x0 x1 x2 x3 x4 x5)
theorem val_main_v38_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (i : S10000x128.Idx) :
    val_main_v38 (F := F) x0 x1 x2 x3 x4 x5 i = FloatOps.hostDivf (val_main_v33 (F := F) x0 x1 x2 x3 x4 x5 i) (val_main_v37 (F := F) x0 x1 x2 x3 x4 x5 i) := rfl

def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl

def val_main_call3_v0 : (⟨S10000x128, .f32⟩ : BufTy).Contents (Elt F) :=
  broadcastInDim S10000x128 ![] bcast_S_S10000x128 (val_main_call3_cst (F := F))
abbrev idx_main_call3_v0 (i : S10000x128.Idx) : S_.Idx := fun a => a.elim0
theorem val_main_call3_v0_apply (i : S10000x128.Idx) :
    val_main_call3_v0 (F := F) i = val_main_call3_cst (F := F) (idx_main_call3_v0 i) := by
  unfold val_main_call3_v0
  generalize val_main_call3_cst (F := F) = y
  exact broadcastInDim_apply _ bcast_S_S10000x128 y i (idx_main_call3_v0 i) (fun a => a.elim0)

def val_main_v39 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) : (⟨S10000x128, .f32⟩ : BufTy).Contents (Elt F) :=
  maximumf (val_main_v38 (F := F) x0 x1 x2 x3 x4 x5) (val_main_call3_v0 (F := F))
theorem val_main_v39_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (i : S10000x128.Idx) :
    val_main_v39 (F := F) x0 x1 x2 x3 x4 x5 i = FloatOps.maximumf (val_main_v38 (F := F) x0 x1 x2 x3 x4 x5 i) (val_main_call3_v0 (F := F) i) := rfl

def val_main_c_5 : (⟨S_, .i32⟩ : BufTy).Contents (Elt F) :=
  constantI S_ 32 0#32
theorem val_main_c_5_apply (i : S_.Idx) :
    val_main_c_5 (F := F) i = 0#32 := rfl

def val_main_v40 : (⟨S640000, .i32⟩ : BufTy).Contents (Elt F) :=
  broadcastInDim S640000 ![] bcast_S_S640000 (val_main_c_5 (F := F))
abbrev idx_main_v40 (i : S640000.Idx) : S_.Idx := fun a => a.elim0
theorem val_main_v40_apply (i : S640000.Idx) :
    val_main_v40 (F := F) i = val_main_c_5 (F := F) (idx_main_v40 i) := by
  unfold val_main_v40
  generalize val_main_c_5 (F := F) = y
  exact broadcastInDim_apply _ bcast_S_S640000 y i (idx_main_v40 i) (fun a => a.elim0)

def val_main_v41 (x1 : (⟨S2x640000, .i32⟩ : BufTy).Contents (Elt F)) : (⟨S640000, .i1⟩ : BufTy).Contents (Elt F) :=
  cmpi .slt (val_main_v1 (F := F) x1) (val_main_v40 (F := F))
theorem val_main_v41_apply (x1 : (⟨S2x640000, .i32⟩ : BufTy).Contents (Elt F)) (i : S640000.Idx) :
    val_main_v41 (F := F) x1 i = IntOp.cmpi .slt (val_main_v1 (F := F) x1 i) (val_main_v40 (F := F) i) := rfl

def val_main_c_6 : (⟨S_, .i32⟩ : BufTy).Contents (Elt F) :=
  constantI S_ 32 10000#32
theorem val_main_c_6_apply (i : S_.Idx) :
    val_main_c_6 (F := F) i = 10000#32 := rfl

def val_main_v42 : (⟨S640000, .i32⟩ : BufTy).Contents (Elt F) :=
  broadcastInDim S640000 ![] bcast_S_S640000 (val_main_c_6 (F := F))
abbrev idx_main_v42 (i : S640000.Idx) : S_.Idx := fun a => a.elim0
theorem val_main_v42_apply (i : S640000.Idx) :
    val_main_v42 (F := F) i = val_main_c_6 (F := F) (idx_main_v42 i) := by
  unfold val_main_v42
  generalize val_main_c_6 (F := F) = y
  exact broadcastInDim_apply _ bcast_S_S640000 y i (idx_main_v42 i) (fun a => a.elim0)

def val_main_v43 (x1 : (⟨S2x640000, .i32⟩ : BufTy).Contents (Elt F)) : (⟨S640000, .i32⟩ : BufTy).Contents (Elt F) :=
  addi (val_main_v1 (F := F) x1) (val_main_v42 (F := F))
theorem val_main_v43_apply (x1 : (⟨S2x640000, .i32⟩ : BufTy).Contents (Elt F)) (i : S640000.Idx) :
    val_main_v43 (F := F) x1 i = IntOp.addi (val_main_v1 (F := F) x1 i) (val_main_v42 (F := F) i) := rfl

def val_main_v44 (x1 : (⟨S2x640000, .i32⟩ : BufTy).Contents (Elt F)) : (⟨S640000, .i32⟩ : BufTy).Contents (Elt F) :=
  select (val_main_v41 (F := F) x1) (val_main_v43 (F := F) x1) (val_main_v1 (F := F) x1)
theorem val_main_v44_apply (x1 : (⟨S2x640000, .i32⟩ : BufTy).Contents (Elt F)) (i : S640000.Idx) :
    val_main_v44 (F := F) x1 i = Scalar.select (val_main_v41 (F := F) x1 i) (val_main_v43 (F := F) x1 i) (val_main_v1 (F := F) x1 i) := rfl

def val_main_v45 (x1 : (⟨S2x640000, .i32⟩ : BufTy).Contents (Elt F)) : (⟨S640000x1, .i32⟩ : BufTy).Contents (Elt F) :=
  broadcastInDim S640000x1 ![0] bcast_S640000_S640000x1_0 (val_main_v44 (F := F) x1)
abbrev idx_main_v45 (i : S640000x1.Idx) : S640000.Idx := fun a => match a with
  | ⟨0, _⟩ => ⟨(i 0).val, (i 0).isLt⟩
theorem val_main_v45_apply (x1 : (⟨S2x640000, .i32⟩ : BufTy).Contents (Elt F)) (i : S640000x1.Idx) :
    val_main_v45 (F := F) x1 i = val_main_v44 (F := F) x1 (idx_main_v45 i) := by
  unfold val_main_v45
  generalize val_main_v44 (F := F) x1 = y
  exact broadcastInDim_apply _ bcast_S640000_S640000x1_0 y i (idx_main_v45 i) (fun a => match a with
    | ⟨0, _⟩ => by show (i 0).val = if (640000 : Nat) = 1 then 0 else (i 0).val; rw [if_neg (by decide)])

def val_main_v46 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) : (⟨S640000x128, .f32⟩ : BufTy).Contents (Elt F) :=
  Host.gather gather_S10000x128_S640000x1_S640000x128_1_0_n_n_0_1_1128 (val_main_v39 (F := F) x0 x1 x2 x3 x4 x5) (val_main_v45 (F := F) x1)

def val_main_v47 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) : (⟨S640000x128, .f32⟩ : BufTy).Contents (Elt F) :=
  Host.dotGeneral dot_S640000x128_S128x128_S640000x128_1_0_0_1_n_n none (val_main_v46 (F := F) x0 x1 x2 x3 x4 x5) (x6)
theorem lhs_main_v47_0 (i : S640000x128.Idx) (q : dot_S640000x128_S128x128_S640000x128_1_0_0_1_n_n.contr.Idx) :
    (dot_S640000x128_S128x128_S640000x128_1_0_0_1_n_n.lhsIdx i q 0).val = (i 0).val := by
  unfold DotDims.lhsIdx
  rw [dif_neg (show ¬(0 : Fin S640000x128.rank) ∈ dot_S640000x128_S128x128_S640000x128_1_0_0_1_n_n.lhsBatch by decide), dif_pos (show (0 : Fin S640000x128.rank) ∈ dot_S640000x128_S128x128_S640000x128_1_0_0_1_n_n.lhsNonContracting by decide)]
  rfl
theorem lhs_main_v47_1 (i : S640000x128.Idx) (q : dot_S640000x128_S128x128_S640000x128_1_0_0_1_n_n.contr.Idx) :
    (dot_S640000x128_S128x128_S640000x128_1_0_0_1_n_n.lhsIdx i q 1).val = (q ⟨0, by decide⟩).val :=
  dot_S640000x128_S128x128_S640000x128_1_0_0_1_n_n.lhsIdx_val_of_single rfl i q
theorem rhs_main_v47_0 (i : S640000x128.Idx) (q : dot_S640000x128_S128x128_S640000x128_1_0_0_1_n_n.contr.Idx) :
    (dot_S640000x128_S128x128_S640000x128_1_0_0_1_n_n.rhsIdx i q 0).val = (q ⟨0, by decide⟩).val :=
  dot_S640000x128_S128x128_S640000x128_1_0_0_1_n_n.rhsIdx_val_of_single rfl i q
theorem rhs_main_v47_1 (i : S640000x128.Idx) (q : dot_S640000x128_S128x128_S640000x128_1_0_0_1_n_n.contr.Idx) :
    (dot_S640000x128_S128x128_S640000x128_1_0_0_1_n_n.rhsIdx i q 1).val = (i 1).val := by
  unfold DotDims.rhsIdx
  rw [dif_neg (show ¬(1 : Fin S128x128.rank) ∈ dot_S640000x128_S128x128_S640000x128_1_0_0_1_n_n.rhsBatch by decide), dif_pos (show (1 : Fin S128x128.rank) ∈ dot_S640000x128_S128x128_S640000x128_1_0_0_1_n_n.rhsNonContracting by decide)]
  rfl
abbrev lidx_main_v47 (i : S640000x128.Idx) (k : Fin 128) : S640000x128.Idx := fun a => match a with
  | ⟨0, _⟩ => ⟨(i 0).val, (i 0).isLt⟩
  | ⟨1, _⟩ => ⟨k.val, k.isLt⟩
abbrev ridx_main_v47 (i : S640000x128.Idx) (k : Fin 128) : S128x128.Idx := fun a => match a with
  | ⟨0, _⟩ => ⟨k.val, k.isLt⟩
  | ⟨1, _⟩ => ⟨(i 1).val, (i 1).isLt⟩

theorem val_main_v47_apply (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (i : S640000x128.Idx) :
    val_main_v47 (F := Ideal) x0 x1 x2 x3 x4 x5 x6 i = ∑ k : Fin 128, (val_main_v46 (F := Ideal) x0 x1 x2 x3 x4 x5) (lidx_main_v47 i k) * x6 (ridx_main_v47 i k) := by
  unfold val_main_v47
  generalize val_main_v46 (F := Ideal) x0 x1 x2 x3 x4 x5 = y0
  simp only [Host.dotGeneral]
  rw [Ideal.dotGeneral_apply, ← Equiv.sum_comp (ValueIdx.contrEquiv1 dot_S640000x128_S128x128_S640000x128_1_0_0_1_n_n 128 rfl rfl).symm]
  refine Finset.sum_congr rfl fun k _ => ?_
  have hk := ValueIdx.contrEquiv1_symm_val dot_S640000x128_S128x128_S640000x128_1_0_0_1_n_n 128 rfl rfl k
  have el : dot_S640000x128_S128x128_S640000x128_1_0_0_1_n_n.lhsIdx i ((ValueIdx.contrEquiv1 dot_S640000x128_S128x128_S640000x128_1_0_0_1_n_n 128 rfl rfl).symm k) = lidx_main_v47 i k := funext fun a => Fin.ext (by
    match a with
    | ⟨0, _⟩ => exact lhs_main_v47_0 _ _
    | ⟨1, _⟩ => exact (lhs_main_v47_1 _ _).trans hk)
  have er : dot_S640000x128_S128x128_S640000x128_1_0_0_1_n_n.rhsIdx i ((ValueIdx.contrEquiv1 dot_S640000x128_S128x128_S640000x128_1_0_0_1_n_n 128 rfl rfl).symm k) = ridx_main_v47 i k := funext fun a => Fin.ext (by
    match a with
    | ⟨0, _⟩ => exact (rhs_main_v47_0 _ _).trans hk
    | ⟨1, _⟩ => exact rhs_main_v47_1 _ _)
  rw [el, er]

def val_main_v48 (x7 : (⟨S128, .f32⟩ : BufTy).Contents (Elt F)) : (⟨S1x128, .f32⟩ : BufTy).Contents (Elt F) :=
  broadcastInDim S1x128 ![1] bcast_S128_S1x128_1 (x7)
abbrev idx_main_v48 (i : S1x128.Idx) : S128.Idx := fun a => match a with
  | ⟨0, _⟩ => ⟨(i 1).val, (i 1).isLt⟩
theorem val_main_v48_apply (x7 : (⟨S128, .f32⟩ : BufTy).Contents (Elt F)) (i : S1x128.Idx) :
    val_main_v48 (F := F) x7 i = x7 (idx_main_v48 i) := by
  unfold val_main_v48
  exact broadcastInDim_apply _ bcast_S128_S1x128_1 x7 i (idx_main_v48 i) (fun a => match a with
    | ⟨0, _⟩ => by show (i 1).val = if (128 : Nat) = 1 then 0 else (i 1).val; rw [if_neg (by decide)])

def val_main_v49 (x7 : (⟨S128, .f32⟩ : BufTy).Contents (Elt F)) : (⟨S640000x128, .f32⟩ : BufTy).Contents (Elt F) :=
  broadcastInDim S640000x128 ![0, 1] bcast_S1x128_S640000x128_0_1 (val_main_v48 (F := F) x7)
abbrev idx_main_v49 (i : S640000x128.Idx) : S1x128.Idx := fun a => match a with
  | ⟨0, _⟩ => ⟨0, Nat.one_pos⟩
  | ⟨1, _⟩ => ⟨(i 1).val, (i 1).isLt⟩
theorem val_main_v49_apply (x7 : (⟨S128, .f32⟩ : BufTy).Contents (Elt F)) (i : S640000x128.Idx) :
    val_main_v49 (F := F) x7 i = val_main_v48 (F := F) x7 (idx_main_v49 i) := by
  unfold val_main_v49
  generalize val_main_v48 (F := F) x7 = y
  exact broadcastInDim_apply _ bcast_S1x128_S640000x128_0_1 y i (idx_main_v49 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v50 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) : (⟨S640000x128, .f32⟩ : BufTy).Contents (Elt F) :=
  addf (val_main_v47 (F := F) x0 x1 x2 x3 x4 x5 x6) (val_main_v49 (F := F) x7)
theorem val_main_v50_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (i : S640000x128.Idx) :
    val_main_v50 (F := F) x0 x1 x2 x3 x4 x5 x6 x7 i = FloatOps.addf (val_main_v47 (F := F) x0 x1 x2 x3 x4 x5 x6 i) (val_main_v49 (F := F) x7 i) := rfl

def val_main_call4_cst : (⟨S_, .f32⟩ : BufTy).Contents (Elt F) :=
  constant S_ .f32 0x00000000#32
theorem val_main_call4_cst_apply (i : S_.Idx) :
    val_main_call4_cst (F := F) i = FloatOps.ofBits .f32 0x00000000#32 := rfl

def val_main_call4_v0 : (⟨S640000x128, .f32⟩ : BufTy).Contents (Elt F) :=
  broadcastInDim S640000x128 ![] bcast_S_S640000x128 (val_main_call4_cst (F := F))
abbrev idx_main_call4_v0 (i : S640000x128.Idx) : S_.Idx := fun a => a.elim0
theorem val_main_call4_v0_apply (i : S640000x128.Idx) :
    val_main_call4_v0 (F := F) i = val_main_call4_cst (F := F) (idx_main_call4_v0 i) := by
  unfold val_main_call4_v0
  generalize val_main_call4_cst (F := F) = y
  exact broadcastInDim_apply _ bcast_S_S640000x128 y i (idx_main_call4_v0 i) (fun a => a.elim0)

def val_main_v51 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) : (⟨S640000x128, .f32⟩ : BufTy).Contents (Elt F) :=
  maximumf (val_main_v50 (F := F) x0 x1 x2 x3 x4 x5 x6 x7) (val_main_call4_v0 (F := F))
theorem val_main_v51_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (i : S640000x128.Idx) :
    val_main_v51 (F := F) x0 x1 x2 x3 x4 x5 x6 x7 i = FloatOps.maximumf (val_main_v50 (F := F) x0 x1 x2 x3 x4 x5 x6 x7 i) (val_main_call4_v0 (F := F) i) := rfl

def val_main_cst_7 : (⟨S_, .f32⟩ : BufTy).Contents (Elt F) :=
  constant S_ .f32 0x00000000#32
theorem val_main_cst_7_apply (i : S_.Idx) :
    val_main_cst_7 (F := F) i = FloatOps.ofBits .f32 0x00000000#32 := rfl

def val_main_v52 : (⟨S10000x128, .f32⟩ : BufTy).Contents (Elt F) :=
  broadcastInDim S10000x128 ![] bcast_S_S10000x128 (val_main_cst_7 (F := F))
abbrev idx_main_v52 (i : S10000x128.Idx) : S_.Idx := fun a => a.elim0
theorem val_main_v52_apply (i : S10000x128.Idx) :
    val_main_v52 (F := F) i = val_main_cst_7 (F := F) (idx_main_v52 i) := by
  unfold val_main_v52
  generalize val_main_cst_7 (F := F) = y
  exact broadcastInDim_apply _ bcast_S_S10000x128 y i (idx_main_v52 i) (fun a => a.elim0)

def val_main_v53 (x1 : (⟨S2x640000, .i32⟩ : BufTy).Contents (Elt F)) : (⟨S640000x1, .i32⟩ : BufTy).Contents (Elt F) :=
  broadcastInDim S640000x1 ![0] bcast_S640000_S640000x1_0 (val_main_v3 (F := F) x1)
abbrev idx_main_v53 (i : S640000x1.Idx) : S640000.Idx := fun a => match a with
  | ⟨0, _⟩ => ⟨(i 0).val, (i 0).isLt⟩
theorem val_main_v53_apply (x1 : (⟨S2x640000, .i32⟩ : BufTy).Contents (Elt F)) (i : S640000x1.Idx) :
    val_main_v53 (F := F) x1 i = val_main_v3 (F := F) x1 (idx_main_v53 i) := by
  unfold val_main_v53
  generalize val_main_v3 (F := F) x1 = y
  exact broadcastInDim_apply _ bcast_S640000_S640000x1_0 y i (idx_main_v53 i) (fun a => match a with
    | ⟨0, _⟩ => by show (i 0).val = if (640000 : Nat) = 1 then 0 else (i 0).val; rw [if_neg (by decide)])

def val_main_v54 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) : (⟨S10000x128, .f32⟩ : BufTy).Contents (Elt F) :=
  Host.scatterAdd scatter_S10000x128_S640000x1_S640000x128_1_0_0_1 (val_main_v52 (F := F)) (val_main_v53 (F := F) x1) (val_main_v51 (F := F) x0 x1 x2 x3 x4 x5 x6 x7)

def val_main_cst_8 : (⟨S_, .f32⟩ : BufTy).Contents (Elt F) :=
  constant S_ .f32 0x3F800000#32
theorem val_main_cst_8_apply (i : S_.Idx) :
    val_main_cst_8 (F := F) i = FloatOps.ofBits .f32 0x3F800000#32 := rfl

def val_main_v55 : (⟨S640000, .f32⟩ : BufTy).Contents (Elt F) :=
  broadcastInDim S640000 ![] bcast_S_S640000 (val_main_cst_8 (F := F))
abbrev idx_main_v55 (i : S640000.Idx) : S_.Idx := fun a => a.elim0
theorem val_main_v55_apply (i : S640000.Idx) :
    val_main_v55 (F := F) i = val_main_cst_8 (F := F) (idx_main_v55 i) := by
  unfold val_main_v55
  generalize val_main_cst_8 (F := F) = y
  exact broadcastInDim_apply _ bcast_S_S640000 y i (idx_main_v55 i) (fun a => a.elim0)

def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

def val_main_v56 : (⟨S10000, .f32⟩ : BufTy).Contents (Elt F) :=
  broadcastInDim S10000 ![] bcast_S_S10000 (val_main_cst_9 (F := F))
abbrev idx_main_v56 (i : S10000.Idx) : S_.Idx := fun a => a.elim0
theorem val_main_v56_apply (i : S10000.Idx) :
    val_main_v56 (F := F) i = val_main_cst_9 (F := F) (idx_main_v56 i) := by
  unfold val_main_v56
  generalize val_main_cst_9 (F := F) = y
  exact broadcastInDim_apply _ bcast_S_S10000 y i (idx_main_v56 i) (fun a => a.elim0)

def val_main_v57 (x1 : (⟨S2x640000, .i32⟩ : BufTy).Contents (Elt F)) : (⟨S640000x1, .i32⟩ : BufTy).Contents (Elt F) :=
  broadcastInDim S640000x1 ![0] bcast_S640000_S640000x1_0 (val_main_v3 (F := F) x1)
abbrev idx_main_v57 (i : S640000x1.Idx) : S640000.Idx := fun a => match a with
  | ⟨0, _⟩ => ⟨(i 0).val, (i 0).isLt⟩
theorem val_main_v57_apply (x1 : (⟨S2x640000, .i32⟩ : BufTy).Contents (Elt F)) (i : S640000x1.Idx) :
    val_main_v57 (F := F) x1 i = val_main_v3 (F := F) x1 (idx_main_v57 i) := by
  unfold val_main_v57
  generalize val_main_v3 (F := F) x1 = y
  exact broadcastInDim_apply _ bcast_S640000_S640000x1_0 y i (idx_main_v57 i) (fun a => match a with
    | ⟨0, _⟩ => by show (i 0).val = if (640000 : Nat) = 1 then 0 else (i 0).val; rw [if_neg (by decide)])

def val_main_v58 (x1 : (⟨S2x640000, .i32⟩ : BufTy).Contents (Elt F)) : (⟨S10000, .f32⟩ : BufTy).Contents (Elt F) :=
  Host.scatterAdd scatter_S10000_S640000x1_S640000_n_0_0_1 (val_main_v56 (F := F)) (val_main_v57 (F := F) x1) (val_main_v55 (F := F))

def val_main_cst_10 : (⟨S_, .f32⟩ : BufTy).Contents (Elt F) :=
  constant S_ .f32 0x3F800000#32
theorem val_main_cst_10_apply (i : S_.Idx) :
    val_main_cst_10 (F := F) i = FloatOps.ofBits .f32 0x3F800000#32 := rfl

def val_main_v59 : (⟨S10000, .f32⟩ : BufTy).Contents (Elt F) :=
  broadcastInDim S10000 ![] bcast_S_S10000 (val_main_cst_10 (F := F))
abbrev idx_main_v59 (i : S10000.Idx) : S_.Idx := fun a => a.elim0
theorem val_main_v59_apply (i : S10000.Idx) :
    val_main_v59 (F := F) i = val_main_cst_10 (F := F) (idx_main_v59 i) := by
  unfold val_main_v59
  generalize val_main_cst_10 (F := F) = y
  exact broadcastInDim_apply _ bcast_S_S10000 y i (idx_main_v59 i) (fun a => a.elim0)

def val_main_v60 (x1 : (⟨S2x640000, .i32⟩ : BufTy).Contents (Elt F)) : (⟨S10000, .f32⟩ : BufTy).Contents (Elt F) :=
  maximumf (val_main_v58 (F := F) x1) (val_main_v59 (F := F))
theorem val_main_v60_apply (x1 : (⟨S2x640000, .i32⟩ : BufTy).Contents (Elt F)) (i : S10000.Idx) :
    val_main_v60 (F := F) x1 i = FloatOps.maximumf (val_main_v58 (F := F) x1 i) (val_main_v59 (F := F) i) := rfl

def val_main_v61 (x1 : (⟨S2x640000, .i32⟩ : BufTy).Contents (Elt F)) : (⟨S10000x1, .f32⟩ : BufTy).Contents (Elt F) :=
  broadcastInDim S10000x1 ![0] bcast_S10000_S10000x1_0 (val_main_v60 (F := F) x1)
abbrev idx_main_v61 (i : S10000x1.Idx) : S10000.Idx := fun a => match a with
  | ⟨0, _⟩ => ⟨(i 0).val, (i 0).isLt⟩
theorem val_main_v61_apply (x1 : (⟨S2x640000, .i32⟩ : BufTy).Contents (Elt F)) (i : S10000x1.Idx) :
    val_main_v61 (F := F) x1 i = val_main_v60 (F := F) x1 (idx_main_v61 i) := by
  unfold val_main_v61
  generalize val_main_v60 (F := F) x1 = y
  exact broadcastInDim_apply _ bcast_S10000_S10000x1_0 y i (idx_main_v61 i) (fun a => match a with
    | ⟨0, _⟩ => by show (i 0).val = if (10000 : Nat) = 1 then 0 else (i 0).val; rw [if_neg (by decide)])

def val_main_v62 (x1 : (⟨S2x640000, .i32⟩ : BufTy).Contents (Elt F)) : (⟨S10000x128, .f32⟩ : BufTy).Contents (Elt F) :=
  broadcastInDim S10000x128 ![0, 1] bcast_S10000x1_S10000x128_0_1 (val_main_v61 (F := F) x1)
abbrev idx_main_v62 (i : S10000x128.Idx) : S10000x1.Idx := fun a => match a with
  | ⟨0, _⟩ => ⟨(i 0).val, (i 0).isLt⟩
  | ⟨1, _⟩ => ⟨0, Nat.one_pos⟩
theorem val_main_v62_apply (x1 : (⟨S2x640000, .i32⟩ : BufTy).Contents (Elt F)) (i : S10000x128.Idx) :
    val_main_v62 (F := F) x1 i = val_main_v61 (F := F) x1 (idx_main_v62 i) := by
  unfold val_main_v62
  generalize val_main_v61 (F := F) x1 = y
  exact broadcastInDim_apply _ bcast_S10000x1_S10000x128_0_1 y i (idx_main_v62 i) (fun a => match a with
    | ⟨0, _⟩ => by show (i 0).val = if (10000 : Nat) = 1 then 0 else (i 0).val; rw [if_neg (by decide)]
    | ⟨1, _⟩ => by show 0 = if (1 : Nat) = 1 then 0 else (i 1).val; rw [if_pos rfl])

def val_main_v63 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) : (⟨S10000x128, .f32⟩ : BufTy).Contents (Elt F) :=
  Host.divf (val_main_v54 (F := F) x0 x1 x2 x3 x4 x5 x6 x7) (val_main_v62 (F := F) x1)
theorem val_main_v63_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (i : S10000x128.Idx) :
    val_main_v63 (F := F) x0 x1 x2 x3 x4 x5 x6 x7 i = FloatOps.hostDivf (val_main_v54 (F := F) x0 x1 x2 x3 x4 x5 x6 x7 i) (val_main_v62 (F := F) x1 i) := rfl

def val_main_v64 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) : (⟨S10000x256, .f32⟩ : BufTy).Contents (Elt F) :=
  concatenate S10000x256 1 [⟨S10000x128, (val_main_v39 (F := F) x0 x1 x2 x3 x4 x5)⟩, ⟨S10000x128, (val_main_v63 (F := F) x0 x1 x2 x3 x4 x5 x6 x7)⟩] concatenates_S10000x128_S10000x128_S10000x256_d1

def val_main_v65 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) : (⟨S10000x128, .f32⟩ : BufTy).Contents (Elt F) :=
  Host.dotGeneral dot_S10000x256_S256x128_S10000x128_1_0_0_1_n_n none (val_main_v64 (F := F) x0 x1 x2 x3 x4 x5 x6 x7) (x8)
theorem lhs_main_v65_0 (i : S10000x128.Idx) (q : dot_S10000x256_S256x128_S10000x128_1_0_0_1_n_n.contr.Idx) :
    (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
theorem lhs_main_v65_1 (i : S10000x128.Idx) (q : dot_S10000x256_S256x128_S10000x128_1_0_0_1_n_n.contr.Idx) :
    (dot_S10000x256_S256x128_S10000x128_1_0_0_1_n_n.lhsIdx i q 1).val = (q ⟨0, by decide⟩).val :=
  dot_S10000x256_S256x128_S10000x128_1_0_0_1_n_n.lhsIdx_val_of_single rfl i q
theorem rhs_main_v65_0 (i : S10000x128.Idx) (q : dot_S10000x256_S256x128_S10000x128_1_0_0_1_n_n.contr.Idx) :
    (dot_S10000x256_S256x128_S10000x128_1_0_0_1_n_n.rhsIdx i q 0).val = (q ⟨0, by decide⟩).val :=
  dot_S10000x256_S256x128_S10000x128_1_0_0_1_n_n.rhsIdx_val_of_single rfl i q
theorem rhs_main_v65_1 (i : S10000x128.Idx) (q : dot_S10000x256_S256x128_S10000x128_1_0_0_1_n_n.contr.Idx) :
    (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl
abbrev lidx_main_v65 (i : S10000x128.Idx) (k : Fin 256) : S10000x256.Idx := fun a => match a with
  | ⟨0, _⟩ => ⟨(i 0).val, (i 0).isLt⟩
  | ⟨1, _⟩ => ⟨k.val, k.isLt⟩
abbrev ridx_main_v65 (i : S10000x128.Idx) (k : Fin 256) : S256x128.Idx := fun a => match a with
  | ⟨0, _⟩ => ⟨k.val, k.isLt⟩
  | ⟨1, _⟩ => ⟨(i 1).val, (i 1).isLt⟩

theorem val_main_v65_apply (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x128, .f32⟩ : BufTy).Contents (Elt Ideal)) (i : S10000x128.Idx) :
    val_main_v65 (F := Ideal) x0 x1 x2 x3 x4 x5 x6 x7 x8 i = ∑ k : Fin 256, (val_main_v64 (F := Ideal) x0 x1 x2 x3 x4 x5 x6 x7) (lidx_main_v65 i k) * x8 (ridx_main_v65 i k) := by
  unfold val_main_v65
  generalize val_main_v64 (F := Ideal) x0 x1 x2 x3 x4 x5 x6 x7 = y0
  simp only [Host.dotGeneral]
  rw [Ideal.dotGeneral_apply, ← Equiv.sum_comp (ValueIdx.contrEquiv1 dot_S10000x256_S256x128_S10000x128_1_0_0_1_n_n 256 rfl rfl).symm]
  refine Finset.sum_congr rfl fun k _ => ?_
  have hk := ValueIdx.contrEquiv1_symm_val dot_S10000x256_S256x128_S10000x128_1_0_0_1_n_n 256 rfl rfl k
  have el : dot_S10000x256_S256x128_S10000x128_1_0_0_1_n_n.lhsIdx i ((ValueIdx.contrEquiv1 dot_S10000x256_S256x128_S10000x128_1_0_0_1_n_n 256 rfl rfl).symm k) = lidx_main_v65 i k := funext fun a => Fin.ext (by
    match a with
    | ⟨0, _⟩ => exact lhs_main_v65_0 _ _
    | ⟨1, _⟩ => exact (lhs_main_v65_1 _ _).trans hk)
  have er : dot_S10000x256_S256x128_S10000x128_1_0_0_1_n_n.rhsIdx i ((ValueIdx.contrEquiv1 dot_S10000x256_S256x128_S10000x128_1_0_0_1_n_n 256 rfl rfl).symm k) = ridx_main_v65 i k := funext fun a => Fin.ext (by
    match a with
    | ⟨0, _⟩ => exact (rhs_main_v65_0 _ _).trans hk
    | ⟨1, _⟩ => exact rhs_main_v65_1 _ _)
  rw [el, er]

def val_main_v66 (x9 : (⟨S128, .f32⟩ : BufTy).Contents (Elt F)) : (⟨S1x128, .f32⟩ : BufTy).Contents (Elt F) :=
  broadcastInDim S1x128 ![1] bcast_S128_S1x128_1 (x9)
abbrev idx_main_v66 (i : S1x128.Idx) : S128.Idx := fun a => match a with
  | ⟨0, _⟩ => ⟨(i 1).val, (i 1).isLt⟩
theorem val_main_v66_apply (x9 : (⟨S128, .f32⟩ : BufTy).Contents (Elt F)) (i : S1x128.Idx) :
    val_main_v66 (F := F) x9 i = x9 (idx_main_v66 i) := by
  unfold val_main_v66
  exact broadcastInDim_apply _ bcast_S128_S1x128_1 x9 i (idx_main_v66 i) (fun a => match a with
    | ⟨0, _⟩ => by show (i 1).val = if (128 : Nat) = 1 then 0 else (i 1).val; rw [if_neg (by decide)])

def val_main_v67 (x9 : (⟨S128, .f32⟩ : BufTy).Contents (Elt F)) : (⟨S10000x128, .f32⟩ : BufTy).Contents (Elt F) :=
  broadcastInDim S10000x128 ![0, 1] bcast_S1x128_S10000x128_0_1 (val_main_v66 (F := F) x9)
abbrev idx_main_v67 (i : S10000x128.Idx) : S1x128.Idx := fun a => match a with
  | ⟨0, _⟩ => ⟨0, Nat.one_pos⟩
  | ⟨1, _⟩ => ⟨(i 1).val, (i 1).isLt⟩
theorem val_main_v67_apply (x9 : (⟨S128, .f32⟩ : BufTy).Contents (Elt F)) (i : S10000x128.Idx) :
    val_main_v67 (F := F) x9 i = val_main_v66 (F := F) x9 (idx_main_v67 i) := by
  unfold val_main_v67
  generalize val_main_v66 (F := F) x9 = y
  exact broadcastInDim_apply _ bcast_S1x128_S10000x128_0_1 y i (idx_main_v67 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v68 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) : (⟨S10000x128, .f32⟩ : BufTy).Contents (Elt F) :=
  addf (val_main_v65 (F := F) x0 x1 x2 x3 x4 x5 x6 x7 x8) (val_main_v67 (F := F) x9)
theorem val_main_v68_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (i : S10000x128.Idx) :
    val_main_v68 (F := F) x0 x1 x2 x3 x4 x5 x6 x7 x8 x9 i = FloatOps.addf (val_main_v65 (F := F) x0 x1 x2 x3 x4 x5 x6 x7 x8 i) (val_main_v67 (F := F) x9 i) := rfl

def val_main_call5_cst : (⟨S_, .f32⟩ : BufTy).Contents (Elt F) :=
  constant S_ .f32 0x00000000#32
theorem val_main_call5_cst_apply (i : S_.Idx) :
    val_main_call5_cst (F := F) i = FloatOps.ofBits .f32 0x00000000#32 := rfl

def val_main_call5_v0 : (⟨S10000x128, .f32⟩ : BufTy).Contents (Elt F) :=
  broadcastInDim S10000x128 ![] bcast_S_S10000x128 (val_main_call5_cst (F := F))
abbrev idx_main_call5_v0 (i : S10000x128.Idx) : S_.Idx := fun a => a.elim0
theorem val_main_call5_v0_apply (i : S10000x128.Idx) :
    val_main_call5_v0 (F := F) i = val_main_call5_cst (F := F) (idx_main_call5_v0 i) := by
  unfold val_main_call5_v0
  generalize val_main_call5_cst (F := F) = y
  exact broadcastInDim_apply _ bcast_S_S10000x128 y i (idx_main_call5_v0 i) (fun a => a.elim0)

def val_main_v69 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) : (⟨S10000x128, .f32⟩ : BufTy).Contents (Elt F) :=
  maximumf (val_main_v68 (F := F) x0 x1 x2 x3 x4 x5 x6 x7 x8 x9) (val_main_call5_v0 (F := F))
theorem val_main_v69_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (i : S10000x128.Idx) :
    val_main_v69 (F := F) x0 x1 x2 x3 x4 x5 x6 x7 x8 x9 i = FloatOps.maximumf (val_main_v68 (F := F) x0 x1 x2 x3 x4 x5 x6 x7 x8 x9 i) (val_main_call5_v0 (F := F) i) := rfl

def val_main_call6_v0 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) : (⟨S10000x128, .f32⟩ : BufTy).Contents (Elt F) :=
  mulf (val_main_v69 (F := F) x0 x1 x2 x3 x4 x5 x6 x7 x8 x9) (val_main_v69 (F := F) x0 x1 x2 x3 x4 x5 x6 x7 x8 x9)
theorem val_main_call6_v0_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (i : S10000x128.Idx) :
    val_main_call6_v0 (F := F) x0 x1 x2 x3 x4 x5 x6 x7 x8 x9 i = FloatOps.mulf (val_main_v69 (F := F) x0 x1 x2 x3 x4 x5 x6 x7 x8 x9 i) (val_main_v69 (F := F) x0 x1 x2 x3 x4 x5 x6 x7 x8 x9 i) := rfl

def val_main_call6_cst : (⟨S_, .f32⟩ : BufTy).Contents (Elt F) :=
  constant S_ .f32 0x00000000#32
theorem val_main_call6_cst_apply (i : S_.Idx) :
    val_main_call6_cst (F := F) i = FloatOps.ofBits .f32 0x00000000#32 := rfl

def val_main_call6_v1 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) : (⟨S10000, .f32⟩ : BufTy).Contents (Elt F) :=
  Host.reduceAdd (val_main_call6_v0 (F := F) x0 x1 x2 x3 x4 x5 x6 x7 x8 x9) (val_main_call6_cst (F := F)) reducesTo_S10000x128_S10000_d1 h_S_
abbrev idx_main_call6_v1 (i : S10000.Idx) (k : Fin 128) : S10000x128.Idx := fun a => match a with
  | ⟨0, _⟩ => ⟨(i 0).val, (i 0).isLt⟩
  | ⟨1, _⟩ => ⟨k.val, k.isLt⟩

theorem val_main_call6_v1_apply (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (i : S10000.Idx) :
    val_main_call6_v1 (F := Ideal) x0 x1 x2 x3 x4 x5 x6 x7 x8 x9 i = (val_main_call6_cst (F := Ideal)) (Shape.Idx.first h_S_) + ∑ k : Fin 128, (val_main_call6_v0 (F := Ideal) x0 x1 x2 x3 x4 x5 x6 x7 x8 x9) (idx_main_call6_v1 i k) := by
  unfold val_main_call6_v1
  generalize val_main_call6_v0 (F := Ideal) x0 x1 x2 x3 x4 x5 x6 x7 x8 x9 = y0
  simp only [Host.reduceAdd, Ideal.hostReduceAdd_def]
  rw [Ideal.hostReduceAdd_single reducesTo_S10000x128_S10000_d1 (by decide)]
  refine congrArg (_ + ·) (Finset.sum_congr rfl fun k _ => ?_)
  exact congrArg y0 (funext fun a => Fin.ext (by match a with | ⟨0, _⟩ => rfl | ⟨1, _⟩ => rfl))

def val_main_call6_v2 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) : (⟨S10000x1, .f32⟩ : BufTy).Contents (Elt F) :=
  broadcastInDim S10000x1 ![0] bcast_S10000_S10000x1_0 (val_main_call6_v1 (F := F) x0 x1 x2 x3 x4 x5 x6 x7 x8 x9)
abbrev idx_main_call6_v2 (i : S10000x1.Idx) : S10000.Idx := fun a => match a with
  | ⟨0, _⟩ => ⟨(i 0).val, (i 0).isLt⟩
theorem val_main_call6_v2_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (i : S10000x1.Idx) :
    val_main_call6_v2 (F := F) x0 x1 x2 x3 x4 x5 x6 x7 x8 x9 i = val_main_call6_v1 (F := F) x0 x1 x2 x3 x4 x5 x6 x7 x8 x9 (idx_main_call6_v2 i) := by
  unfold val_main_call6_v2
  generalize val_main_call6_v1 (F := F) x0 x1 x2 x3 x4 x5 x6 x7 x8 x9 = y
  exact broadcastInDim_apply _ bcast_S10000_S10000x1_0 y i (idx_main_call6_v2 i) (fun a => match a with
    | ⟨0, _⟩ => by show (i 0).val = if (10000 : Nat) = 1 then 0 else (i 0).val; rw [if_neg (by decide)])

def val_main_v70 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) : (⟨S10000x1, .f32⟩ : BufTy).Contents (Elt F) :=
  Host.sqrt (val_main_call6_v2 (F := F) x0 x1 x2 x3 x4 x5 x6 x7 x8 x9)
theorem val_main_v70_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (i : S10000x1.Idx) :
    val_main_v70 (F := F) x0 x1 x2 x3 x4 x5 x6 x7 x8 x9 i = FloatOps.hostUnary .sqrt (val_main_call6_v2 (F := F) x0 x1 x2 x3 x4 x5 x6 x7 x8 x9 i) := rfl

def val_main_cst_11 : (⟨S_, .f32⟩ : BufTy).Contents (Elt F) :=
  constant S_ .f32 0x2B8CBCCC#32
theorem val_main_cst_11_apply (i : S_.Idx) :
    val_main_cst_11 (F := F) i = FloatOps.ofBits .f32 0x2B8CBCCC#32 := rfl

def val_main_v71 : (⟨S10000x1, .f32⟩ : BufTy).Contents (Elt F) :=
  broadcastInDim S10000x1 ![] bcast_S_S10000x1 (val_main_cst_11 (F := F))
abbrev idx_main_v71 (i : S10000x1.Idx) : S_.Idx := fun a => a.elim0
theorem val_main_v71_apply (i : S10000x1.Idx) :
    val_main_v71 (F := F) i = val_main_cst_11 (F := F) (idx_main_v71 i) := by
  unfold val_main_v71
  generalize val_main_cst_11 (F := F) = y
  exact broadcastInDim_apply _ bcast_S_S10000x1 y i (idx_main_v71 i) (fun a => a.elim0)

def val_main_v72 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) : (⟨S10000x1, .f32⟩ : BufTy).Contents (Elt F) :=
  maximumf (val_main_v70 (F := F) x0 x1 x2 x3 x4 x5 x6 x7 x8 x9) (val_main_v71 (F := F))
theorem val_main_v72_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (i : S10000x1.Idx) :
    val_main_v72 (F := F) x0 x1 x2 x3 x4 x5 x6 x7 x8 x9 i = FloatOps.maximumf (val_main_v70 (F := F) x0 x1 x2 x3 x4 x5 x6 x7 x8 x9 i) (val_main_v71 (F := F) i) := rfl

def val_main_v73 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) : (⟨S10000x128, .f32⟩ : BufTy).Contents (Elt F) :=
  broadcastInDim S10000x128 ![0, 1] bcast_S10000x1_S10000x128_0_1 (val_main_v72 (F := F) x0 x1 x2 x3 x4 x5 x6 x7 x8 x9)
abbrev idx_main_v73 (i : S10000x128.Idx) : S10000x1.Idx := fun a => match a with
  | ⟨0, _⟩ => ⟨(i 0).val, (i 0).isLt⟩
  | ⟨1, _⟩ => ⟨0, Nat.one_pos⟩
theorem val_main_v73_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (i : S10000x128.Idx) :
    val_main_v73 (F := F) x0 x1 x2 x3 x4 x5 x6 x7 x8 x9 i = val_main_v72 (F := F) x0 x1 x2 x3 x4 x5 x6 x7 x8 x9 (idx_main_v73 i) := by
  unfold val_main_v73
  generalize val_main_v72 (F := F) x0 x1 x2 x3 x4 x5 x6 x7 x8 x9 = y
  exact broadcastInDim_apply _ bcast_S10000x1_S10000x128_0_1 y i (idx_main_v73 i) (fun a => match a with
    | ⟨0, _⟩ => by show (i 0).val = if (10000 : Nat) = 1 then 0 else (i 0).val; rw [if_neg (by decide)]
    | ⟨1, _⟩ => by show 0 = if (1 : Nat) = 1 then 0 else (i 1).val; rw [if_pos rfl])

def val_main_v74 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) : (⟨S10000x128, .f32⟩ : BufTy).Contents (Elt F) :=
  Host.divf (val_main_v69 (F := F) x0 x1 x2 x3 x4 x5 x6 x7 x8 x9) (val_main_v73 (F := F) x0 x1 x2 x3 x4 x5 x6 x7 x8 x9)
theorem val_main_v74_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (i : S10000x128.Idx) :
    val_main_v74 (F := F) x0 x1 x2 x3 x4 x5 x6 x7 x8 x9 i = FloatOps.hostDivf (val_main_v69 (F := F) x0 x1 x2 x3 x4 x5 x6 x7 x8 x9 i) (val_main_v73 (F := F) x0 x1 x2 x3 x4 x5 x6 x7 x8 x9 i) := rfl

def val_main_call7_cst : (⟨S_, .f32⟩ : BufTy).Contents (Elt F) :=
  constant S_ .f32 0x00000000#32
theorem val_main_call7_cst_apply (i : S_.Idx) :
    val_main_call7_cst (F := F) i = FloatOps.ofBits .f32 0x00000000#32 := rfl

def val_main_call7_v0 : (⟨S10000x128, .f32⟩ : BufTy).Contents (Elt F) :=
  broadcastInDim S10000x128 ![] bcast_S_S10000x128 (val_main_call7_cst (F := F))
abbrev idx_main_call7_v0 (i : S10000x128.Idx) : S_.Idx := fun a => a.elim0
theorem val_main_call7_v0_apply (i : S10000x128.Idx) :
    val_main_call7_v0 (F := F) i = val_main_call7_cst (F := F) (idx_main_call7_v0 i) := by
  unfold val_main_call7_v0
  generalize val_main_call7_cst (F := F) = y
  exact broadcastInDim_apply _ bcast_S_S10000x128 y i (idx_main_call7_v0 i) (fun a => a.elim0)

def val_main_v75 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) : (⟨S10000x128, .f32⟩ : BufTy).Contents (Elt F) :=
  maximumf (val_main_v74 (F := F) x0 x1 x2 x3 x4 x5 x6 x7 x8 x9) (val_main_call7_v0 (F := F))
theorem val_main_v75_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (i : S10000x128.Idx) :
    val_main_v75 (F := F) x0 x1 x2 x3 x4 x5 x6 x7 x8 x9 i = FloatOps.maximumf (val_main_v74 (F := F) x0 x1 x2 x3 x4 x5 x6 x7 x8 x9 i) (val_main_call7_v0 (F := F) i) := rfl

def val_main_v76 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) : (⟨S10000x128, .f32⟩ : BufTy).Contents (Elt F) :=
  Host.dotGeneral dot_S10000x128_S128x128_S10000x128_1_0_0_1_n_n none (val_main_v75 (F := F) x0 x1 x2 x3 x4 x5 x6 x7 x8 x9) (x10)
theorem lhs_main_v76_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_main_v76_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_main_v76_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_main_v76_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
abbrev lidx_main_v76 (i : S10000x128.Idx) (k : Fin 128) : S10000x128.Idx := fun a => match a with
  | ⟨0, _⟩ => ⟨(i 0).val, (i 0).isLt⟩
  | ⟨1, _⟩ => ⟨k.val, k.isLt⟩
abbrev ridx_main_v76 (i : S10000x128.Idx) (k : Fin 128) : S128x128.Idx := fun a => match a with
  | ⟨0, _⟩ => ⟨k.val, k.isLt⟩
  | ⟨1, _⟩ => ⟨(i 1).val, (i 1).isLt⟩

theorem val_main_v76_apply (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (i : S10000x128.Idx) :
    val_main_v76 (F := Ideal) x0 x1 x2 x3 x4 x5 x6 x7 x8 x9 x10 i = ∑ k : Fin 128, (val_main_v75 (F := Ideal) x0 x1 x2 x3 x4 x5 x6 x7 x8 x9) (lidx_main_v76 i k) * x10 (ridx_main_v76 i k) := by
  unfold val_main_v76
  generalize val_main_v75 (F := Ideal) x0 x1 x2 x3 x4 x5 x6 x7 x8 x9 = y0
  simp only [Host.dotGeneral]
  rw [Ideal.dotGeneral_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = lidx_main_v76 i k := funext fun a => Fin.ext (by
    match a with
    | ⟨0, _⟩ => exact lhs_main_v76_0 _ _
    | ⟨1, _⟩ => exact (lhs_main_v76_1 _ _).trans hk)
  have er : dot_S10000x128_S128x128_S10000x128_1_0_0_1_n_n.rhsIdx i ((ValueIdx.contrEquiv1 dot_S10000x128_S128x128_S10000x128_1_0_0_1_n_n 128 rfl rfl).symm k) = ridx_main_v76 i k := funext fun a => Fin.ext (by
    match a with
    | ⟨0, _⟩ => exact (rhs_main_v76_0 _ _).trans hk
    | ⟨1, _⟩ => exact rhs_main_v76_1 _ _)
  rw [el, er]

def val_main_v77 (x11 : (⟨S128, .f32⟩ : BufTy).Contents (Elt F)) : (⟨S1x128, .f32⟩ : BufTy).Contents (Elt F) :=
  broadcastInDim S1x128 ![1] bcast_S128_S1x128_1 (x11)
abbrev idx_main_v77 (i : S1x128.Idx) : S128.Idx := fun a => match a with
  | ⟨0, _⟩ => ⟨(i 1).val, (i 1).isLt⟩
theorem val_main_v77_apply (x11 : (⟨S128, .f32⟩ : BufTy).Contents (Elt F)) (i : S1x128.Idx) :
    val_main_v77 (F := F) x11 i = x11 (idx_main_v77 i) := by
  unfold val_main_v77
  exact broadcastInDim_apply _ bcast_S128_S1x128_1 x11 i (idx_main_v77 i) (fun a => match a with
    | ⟨0, _⟩ => by show (i 1).val = if (128 : Nat) = 1 then 0 else (i 1).val; rw [if_neg (by decide)])

def val_main_v78 (x11 : (⟨S128, .f32⟩ : BufTy).Contents (Elt F)) : (⟨S10000x128, .f32⟩ : BufTy).Contents (Elt F) :=
  broadcastInDim S10000x128 ![0, 1] bcast_S1x128_S10000x128_0_1 (val_main_v77 (F := F) x11)
abbrev idx_main_v78 (i : S10000x128.Idx) : S1x128.Idx := fun a => match a with
  | ⟨0, _⟩ => ⟨0, Nat.one_pos⟩
  | ⟨1, _⟩ => ⟨(i 1).val, (i 1).isLt⟩
theorem val_main_v78_apply (x11 : (⟨S128, .f32⟩ : BufTy).Contents (Elt F)) (i : S10000x128.Idx) :
    val_main_v78 (F := F) x11 i = val_main_v77 (F := F) x11 (idx_main_v78 i) := by
  unfold val_main_v78
  generalize val_main_v77 (F := F) x11 = y
  exact broadcastInDim_apply _ bcast_S1x128_S10000x128_0_1 y i (idx_main_v78 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v79 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) : (⟨S10000x128, .f32⟩ : BufTy).Contents (Elt F) :=
  addf (val_main_v76 (F := F) x0 x1 x2 x3 x4 x5 x6 x7 x8 x9 x10) (val_main_v78 (F := F) x11)
theorem val_main_v79_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (i : S10000x128.Idx) :
    val_main_v79 (F := F) x0 x1 x2 x3 x4 x5 x6 x7 x8 x9 x10 x11 i = FloatOps.addf (val_main_v76 (F := F) x0 x1 x2 x3 x4 x5 x6 x7 x8 x9 x10 i) (val_main_v78 (F := F) x11 i) := rfl

def val_main_v80 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) : (⟨S10000x64, .f32⟩ : BufTy).Contents (Elt F) :=
  Host.dotGeneral dot_S10000x128_S128x64_S10000x64_1_0_0_1_n_n none (val_main_v79 (F := F) x0 x1 x2 x3 x4 x5 x6 x7 x8 x9 x10 x11) (x12)
theorem lhs_main_v80_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_main_v80_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_main_v80_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_main_v80_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl
abbrev lidx_main_v80 (i : S10000x64.Idx) (k : Fin 128) : S10000x128.Idx := fun a => match a with
  | ⟨0, _⟩ => ⟨(i 0).val, (i 0).isLt⟩
  | ⟨1, _⟩ => ⟨k.val, k.isLt⟩
abbrev ridx_main_v80 (i : S10000x64.Idx) (k : Fin 128) : S128x64.Idx := fun a => match a with
  | ⟨0, _⟩ => ⟨k.val, k.isLt⟩
  | ⟨1, _⟩ => ⟨(i 1).val, (i 1).isLt⟩

theorem val_main_v80_apply (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x64, .f32⟩ : BufTy).Contents (Elt Ideal)) (i : S10000x64.Idx) :
    val_main_v80 (F := Ideal) x0 x1 x2 x3 x4 x5 x6 x7 x8 x9 x10 x11 x12 i = ∑ k : Fin 128, (val_main_v79 (F := Ideal) x0 x1 x2 x3 x4 x5 x6 x7 x8 x9 x10 x11) (lidx_main_v80 i k) * x12 (ridx_main_v80 i k) := by
  unfold val_main_v80
  generalize val_main_v79 (F := Ideal) x0 x1 x2 x3 x4 x5 x6 x7 x8 x9 x10 x11 = y0
  simp only [Host.dotGeneral]
  rw [Ideal.dotGeneral_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx i ((ValueIdx.contrEquiv1 dot_S10000x128_S128x64_S10000x64_1_0_0_1_n_n 128 rfl rfl).symm k) = lidx_main_v80 i k := funext fun a => Fin.ext (by
    match a with
    | ⟨0, _⟩ => exact lhs_main_v80_0 _ _
    | ⟨1, _⟩ => exact (lhs_main_v80_1 _ _).trans hk)
  have er : dot_S10000x128_S128x64_S10000x64_1_0_0_1_n_n.rhsIdx i ((ValueIdx.contrEquiv1 dot_S10000x128_S128x64_S10000x64_1_0_0_1_n_n 128 rfl rfl).symm k) = ridx_main_v80 i k := funext fun a => Fin.ext (by
    match a with
    | ⟨0, _⟩ => exact (rhs_main_v80_0 _ _).trans hk
    | ⟨1, _⟩ => exact rhs_main_v80_1 _ _)
  rw [el, er]

def val_main_v81 (x13 : (⟨S64, .f32⟩ : BufTy).Contents (Elt F)) : (⟨S1x64, .f32⟩ : BufTy).Contents (Elt F) :=
  broadcastInDim S1x64 ![1] bcast_S64_S1x64_1 (x13)
abbrev idx_main_v81 (i : S1x64.Idx) : S64.Idx := fun a => match a with
  | ⟨0, _⟩ => ⟨(i 1).val, (i 1).isLt⟩
theorem val_main_v81_apply (x13 : (⟨S64, .f32⟩ : BufTy).Contents (Elt F)) (i : S1x64.Idx) :
    val_main_v81 (F := F) x13 i = x13 (idx_main_v81 i) := by
  unfold val_main_v81
  exact broadcastInDim_apply _ bcast_S64_S1x64_1 x13 i (idx_main_v81 i) (fun a => match a with
    | ⟨0, _⟩ => by show (i 1).val = if (64 : Nat) = 1 then 0 else (i 1).val; rw [if_neg (by decide)])

def val_main_v82 (x13 : (⟨S64, .f32⟩ : BufTy).Contents (Elt F)) : (⟨S10000x64, .f32⟩ : BufTy).Contents (Elt F) :=
  broadcastInDim S10000x64 ![0, 1] bcast_S1x64_S10000x64_0_1 (val_main_v81 (F := F) x13)
abbrev idx_main_v82 (i : S10000x64.Idx) : S1x64.Idx := fun a => match a with
  | ⟨0, _⟩ => ⟨0, Nat.one_pos⟩
  | ⟨1, _⟩ => ⟨(i 1).val, (i 1).isLt⟩
theorem val_main_v82_apply (x13 : (⟨S64, .f32⟩ : BufTy).Contents (Elt F)) (i : S10000x64.Idx) :
    val_main_v82 (F := F) x13 i = val_main_v81 (F := F) x13 (idx_main_v82 i) := by
  unfold val_main_v82
  generalize val_main_v81 (F := F) x13 = y
  exact broadcastInDim_apply _ bcast_S1x64_S10000x64_0_1 y i (idx_main_v82 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v83 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) : (⟨S10000x64, .f32⟩ : BufTy).Contents (Elt F) :=
  addf (val_main_v80 (F := F) x0 x1 x2 x3 x4 x5 x6 x7 x8 x9 x10 x11 x12) (val_main_v82 (F := F) x13)
theorem val_main_v83_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (i : S10000x64.Idx) :
    val_main_v83 (F := F) x0 x1 x2 x3 x4 x5 x6 x7 x8 x9 x10 x11 x12 x13 i = FloatOps.addf (val_main_v80 (F := F) x0 x1 x2 x3 x4 x5 x6 x7 x8 x9 x10 x11 x12 i) (val_main_v82 (F := F) x13 i) := rfl

def val_main_call8_cst : (⟨S_, .f32⟩ : BufTy).Contents (Elt F) :=
  constant S_ .f32 0xFF800000#32
theorem val_main_call8_cst_apply (i : S_.Idx) :
    val_main_call8_cst (F := F) i = FloatOps.ofBits .f32 0xFF800000#32 := rfl

def val_main_call8_v0 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) : (⟨S10000, .f32⟩ : BufTy).Contents (Elt F) :=
  Host.reduce FloatOps.maximumf (val_main_v83 (F := F) x0 x1 x2 x3 x4 x5 x6 x7 x8 x9 x10 x11 x12 x13) (val_main_call8_cst (F := F)) reducesTo_S10000x64_S10000_d1 h_S_

def val_main_call8_cst_0 : (⟨S_, .f32⟩ : BufTy).Contents (Elt F) :=
  constant S_ .f32 0xFF800000#32
theorem val_main_call8_cst_0_apply (i : S_.Idx) :
    val_main_call8_cst_0 (F := F) i = FloatOps.ofBits .f32 0xFF800000#32 := rfl

def val_main_call8_v1 : (⟨S10000, .f32⟩ : BufTy).Contents (Elt F) :=
  broadcastInDim S10000 ![] bcast_S_S10000 (val_main_call8_cst_0 (F := F))
abbrev idx_main_call8_v1 (i : S10000.Idx) : S_.Idx := fun a => a.elim0
theorem val_main_call8_v1_apply (i : S10000.Idx) :
    val_main_call8_v1 (F := F) i = val_main_call8_cst_0 (F := F) (idx_main_call8_v1 i) := by
  unfold val_main_call8_v1
  generalize val_main_call8_cst_0 (F := F) = y
  exact broadcastInDim_apply _ bcast_S_S10000 y i (idx_main_call8_v1 i) (fun a => a.elim0)

def val_main_call8_v2 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) : (⟨S10000, .f32⟩ : BufTy).Contents (Elt F) :=
  maximumf (val_main_call8_v1 (F := F)) (val_main_call8_v0 (F := F) x0 x1 x2 x3 x4 x5 x6 x7 x8 x9 x10 x11 x12 x13)
theorem val_main_call8_v2_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (i : S10000.Idx) :
    val_main_call8_v2 (F := F) x0 x1 x2 x3 x4 x5 x6 x7 x8 x9 x10 x11 x12 x13 i = FloatOps.maximumf (val_main_call8_v1 (F := F) i) (val_main_call8_v0 (F := F) x0 x1 x2 x3 x4 x5 x6 x7 x8 x9 x10 x11 x12 x13 i) := rfl

def val_main_call8_v3 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) : (⟨S10000x1, .f32⟩ : BufTy).Contents (Elt F) :=
  broadcastInDim S10000x1 ![0] bcast_S10000_S10000x1_0 (val_main_call8_v2 (F := F) x0 x1 x2 x3 x4 x5 x6 x7 x8 x9 x10 x11 x12 x13)
abbrev idx_main_call8_v3 (i : S10000x1.Idx) : S10000.Idx := fun a => match a with
  | ⟨0, _⟩ => ⟨(i 0).val, (i 0).isLt⟩
theorem val_main_call8_v3_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (i : S10000x1.Idx) :
    val_main_call8_v3 (F := F) x0 x1 x2 x3 x4 x5 x6 x7 x8 x9 x10 x11 x12 x13 i = val_main_call8_v2 (F := F) x0 x1 x2 x3 x4 x5 x6 x7 x8 x9 x10 x11 x12 x13 (idx_main_call8_v3 i) := by
  unfold val_main_call8_v3
  generalize val_main_call8_v2 (F := F) x0 x1 x2 x3 x4 x5 x6 x7 x8 x9 x10 x11 x12 x13 = y
  exact broadcastInDim_apply _ bcast_S10000_S10000x1_0 y i (idx_main_call8_v3 i) (fun a => match a with
    | ⟨0, _⟩ => by show (i 0).val = if (10000 : Nat) = 1 then 0 else (i 0).val; rw [if_neg (by decide)])

def val_main_call8_v4 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) : (⟨S10000x64, .f32⟩ : BufTy).Contents (Elt F) :=
  broadcastInDim S10000x64 ![0, 1] bcast_S10000x1_S10000x64_0_1 (val_main_call8_v3 (F := F) x0 x1 x2 x3 x4 x5 x6 x7 x8 x9 x10 x11 x12 x13)
abbrev idx_main_call8_v4 (i : S10000x64.Idx) : S10000x1.Idx := fun a => match a with
  | ⟨0, _⟩ => ⟨(i 0).val, (i 0).isLt⟩
  | ⟨1, _⟩ => ⟨0, Nat.one_pos⟩
theorem val_main_call8_v4_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (i : S10000x64.Idx) :
    val_main_call8_v4 (F := F) x0 x1 x2 x3 x4 x5 x6 x7 x8 x9 x10 x11 x12 x13 i = val_main_call8_v3 (F := F) x0 x1 x2 x3 x4 x5 x6 x7 x8 x9 x10 x11 x12 x13 (idx_main_call8_v4 i) := by
  unfold val_main_call8_v4
  generalize val_main_call8_v3 (F := F) x0 x1 x2 x3 x4 x5 x6 x7 x8 x9 x10 x11 x12 x13 = y
  exact broadcastInDim_apply _ bcast_S10000x1_S10000x64_0_1 y i (idx_main_call8_v4 i) (fun a => match a with
    | ⟨0, _⟩ => by show (i 0).val = if (10000 : Nat) = 1 then 0 else (i 0).val; rw [if_neg (by decide)]
    | ⟨1, _⟩ => by show 0 = if (1 : Nat) = 1 then 0 else (i 1).val; rw [if_pos rfl])

def val_main_call8_v5 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) : (⟨S10000x64, .f32⟩ : BufTy).Contents (Elt F) :=
  subf (val_main_v83 (F := F) x0 x1 x2 x3 x4 x5 x6 x7 x8 x9 x10 x11 x12 x13) (val_main_call8_v4 (F := F) x0 x1 x2 x3 x4 x5 x6 x7 x8 x9 x10 x11 x12 x13)
theorem val_main_call8_v5_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (i : S10000x64.Idx) :
    val_main_call8_v5 (F := F) x0 x1 x2 x3 x4 x5 x6 x7 x8 x9 x10 x11 x12 x13 i = FloatOps.subf (val_main_v83 (F := F) x0 x1 x2 x3 x4 x5 x6 x7 x8 x9 x10 x11 x12 x13 i) (val_main_call8_v4 (F := F) x0 x1 x2 x3 x4 x5 x6 x7 x8 x9 x10 x11 x12 x13 i) := rfl

def val_main_call8_v6 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) : (⟨S10000x64, .f32⟩ : BufTy).Contents (Elt F) :=
  Host.exp (val_main_call8_v5 (F := F) x0 x1 x2 x3 x4 x5 x6 x7 x8 x9 x10 x11 x12 x13)
theorem val_main_call8_v6_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (i : S10000x64.Idx) :
    val_main_call8_v6 (F := F) x0 x1 x2 x3 x4 x5 x6 x7 x8 x9 x10 x11 x12 x13 i = FloatOps.hostUnary .exp (val_main_call8_v5 (F := F) x0 x1 x2 x3 x4 x5 x6 x7 x8 x9 x10 x11 x12 x13 i) := rfl

def val_main_call8_cst_1 : (⟨S_, .f32⟩ : BufTy).Contents (Elt F) :=
  constant S_ .f32 0x00000000#32
theorem val_main_call8_cst_1_apply (i : S_.Idx) :
    val_main_call8_cst_1 (F := F) i = FloatOps.ofBits .f32 0x00000000#32 := rfl

def val_main_call8_v7 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) : (⟨S10000, .f32⟩ : BufTy).Contents (Elt F) :=
  Host.reduceAdd (val_main_call8_v6 (F := F) x0 x1 x2 x3 x4 x5 x6 x7 x8 x9 x10 x11 x12 x13) (val_main_call8_cst_1 (F := F)) reducesTo_S10000x64_S10000_d1 h_S_
abbrev idx_main_call8_v7 (i : S10000.Idx) (k : Fin 64) : S10000x64.Idx := fun a => match a with
  | ⟨0, _⟩ => ⟨(i 0).val, (i 0).isLt⟩
  | ⟨1, _⟩ => ⟨k.val, k.isLt⟩

theorem val_main_call8_v7_apply (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (i : S10000.Idx) :
    val_main_call8_v7 (F := Ideal) x0 x1 x2 x3 x4 x5 x6 x7 x8 x9 x10 x11 x12 x13 i = (val_main_call8_cst_1 (F := Ideal)) (Shape.Idx.first h_S_) + ∑ k : Fin 64, (val_main_call8_v6 (F := Ideal) x0 x1 x2 x3 x4 x5 x6 x7 x8 x9 x10 x11 x12 x13) (idx_main_call8_v7 i k) := by
  unfold val_main_call8_v7
  generalize val_main_call8_v6 (F := Ideal) x0 x1 x2 x3 x4 x5 x6 x7 x8 x9 x10 x11 x12 x13 = y0
  simp only [Host.reduceAdd, Ideal.hostReduceAdd_def]
  rw [Ideal.hostReduceAdd_single reducesTo_S10000x64_S10000_d1 (by decide)]
  refine congrArg (_ + ·) (Finset.sum_congr rfl fun k _ => ?_)
  exact congrArg y0 (funext fun a => Fin.ext (by match a with | ⟨0, _⟩ => rfl | ⟨1, _⟩ => rfl))

def val_main_call8_v8 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) : (⟨S10000x1, .f32⟩ : BufTy).Contents (Elt F) :=
  broadcastInDim S10000x1 ![0] bcast_S10000_S10000x1_0 (val_main_call8_v7 (F := F) x0 x1 x2 x3 x4 x5 x6 x7 x8 x9 x10 x11 x12 x13)
abbrev idx_main_call8_v8 (i : S10000x1.Idx) : S10000.Idx := fun a => match a with
  | ⟨0, _⟩ => ⟨(i 0).val, (i 0).isLt⟩
theorem val_main_call8_v8_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (i : S10000x1.Idx) :
    val_main_call8_v8 (F := F) x0 x1 x2 x3 x4 x5 x6 x7 x8 x9 x10 x11 x12 x13 i = val_main_call8_v7 (F := F) x0 x1 x2 x3 x4 x5 x6 x7 x8 x9 x10 x11 x12 x13 (idx_main_call8_v8 i) := by
  unfold val_main_call8_v8
  generalize val_main_call8_v7 (F := F) x0 x1 x2 x3 x4 x5 x6 x7 x8 x9 x10 x11 x12 x13 = y
  exact broadcastInDim_apply _ bcast_S10000_S10000x1_0 y i (idx_main_call8_v8 i) (fun a => match a with
    | ⟨0, _⟩ => by show (i 0).val = if (10000 : Nat) = 1 then 0 else (i 0).val; rw [if_neg (by decide)])

def val_main_call8_v9 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) : (⟨S10000x1, .f32⟩ : BufTy).Contents (Elt F) :=
  Host.log (val_main_call8_v8 (F := F) x0 x1 x2 x3 x4 x5 x6 x7 x8 x9 x10 x11 x12 x13)
theorem val_main_call8_v9_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (i : S10000x1.Idx) :
    val_main_call8_v9 (F := F) x0 x1 x2 x3 x4 x5 x6 x7 x8 x9 x10 x11 x12 x13 i = FloatOps.hostUnary .log (val_main_call8_v8 (F := F) x0 x1 x2 x3 x4 x5 x6 x7 x8 x9 x10 x11 x12 x13 i) := rfl

def val_main_call8_v10 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) : (⟨S10000x64, .f32⟩ : BufTy).Contents (Elt F) :=
  broadcastInDim S10000x64 ![0, 1] bcast_S10000x1_S10000x64_0_1 (val_main_call8_v9 (F := F) x0 x1 x2 x3 x4 x5 x6 x7 x8 x9 x10 x11 x12 x13)
abbrev idx_main_call8_v10 (i : S10000x64.Idx) : S10000x1.Idx := fun a => match a with
  | ⟨0, _⟩ => ⟨(i 0).val, (i 0).isLt⟩
  | ⟨1, _⟩ => ⟨0, Nat.one_pos⟩
theorem val_main_call8_v10_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (i : S10000x64.Idx) :
    val_main_call8_v10 (F := F) x0 x1 x2 x3 x4 x5 x6 x7 x8 x9 x10 x11 x12 x13 i = val_main_call8_v9 (F := F) x0 x1 x2 x3 x4 x5 x6 x7 x8 x9 x10 x11 x12 x13 (idx_main_call8_v10 i) := by
  unfold val_main_call8_v10
  generalize val_main_call8_v9 (F := F) x0 x1 x2 x3 x4 x5 x6 x7 x8 x9 x10 x11 x12 x13 = y
  exact broadcastInDim_apply _ bcast_S10000x1_S10000x64_0_1 y i (idx_main_call8_v10 i) (fun a => match a with
    | ⟨0, _⟩ => by show (i 0).val = if (10000 : Nat) = 1 then 0 else (i 0).val; rw [if_neg (by decide)]
    | ⟨1, _⟩ => by show 0 = if (1 : Nat) = 1 then 0 else (i 1).val; rw [if_pos rfl])

def val_main_v84 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) : (⟨S10000x64, .f32⟩ : BufTy).Contents (Elt F) :=
  subf (val_main_call8_v5 (F := F) x0 x1 x2 x3 x4 x5 x6 x7 x8 x9 x10 x11 x12 x13) (val_main_call8_v10 (F := F) x0 x1 x2 x3 x4 x5 x6 x7 x8 x9 x10 x11 x12 x13)
theorem val_main_v84_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (i : S10000x64.Idx) :
    val_main_v84 (F := F) x0 x1 x2 x3 x4 x5 x6 x7 x8 x9 x10 x11 x12 x13 i = FloatOps.subf (val_main_call8_v5 (F := F) x0 x1 x2 x3 x4 x5 x6 x7 x8 x9 x10 x11 x12 x13 i) (val_main_call8_v10 (F := F) x0 x1 x2 x3 x4 x5 x6 x7 x8 x9 x10 x11 x12 x13 i) := rfl

end Cert.ReferenceIdeal.Read

end
-- ==== Proof.ScatterLaw.lean ====
import Idealize.ShloMosaic.Lib.ValueIdx
import Idealize.ShloMosaic.PureOps.Ideal
import Idealize.ShloMosaic.PureOps.Ideal.Laws

noncomputable section

namespace Cert.RefScatter

open Idealize.ShloMosaic Idealize.ShloMosaic.ValueIdx

theorem ix2_eq_iff {n0 n1 : ℕ} (a a' : Fin n0) (b b' : Fin n1) : ix2 a b = ix2 a' b' ↔ a = a' ∧ b = b' :=
  ⟨fun h => ⟨congrFun h 0, congrFun h 1⟩, fun ⟨ha, hb⟩ => by rw [ha, hb]⟩

theorem ix1_eq_iff {n : ℕ} (a a' : Fin n) : ix1 a = ix1 a' ↔ a = a' :=
  ⟨fun h => congrFun h 0, fun h => by rw [h]⟩

def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

theorem fin2_cases (a : Fin 2) : a = 0 ∨ a = 1 := by
  match a with
  | ⟨0, _⟩ => exact Or.inl rfl
  | ⟨1, _⟩ => exact Or.inr rfl

section Rows
variable {N E C w : ℕ}

abbrev rowDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

abbrev rowIdx {E C : ℕ} (j : (⟨2, ![E, C]⟩ : Shape).Idx) : (⟨2, ![E, 1]⟩ : Shape).Idx :=
  fun a => match a with | ⟨0, _⟩ => ⟨(j 0).val, idx2_lt0 j⟩ | ⟨1, _⟩ => ⟨0, Nat.one_pos⟩

theorem rowDims_start0 (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowDims N E C wf).start j idx 0 = (idx (rowIdx j)).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = rowIdx j := by
    funext b; refine Fin.ext ?_
    match b with
    | ⟨0, _⟩ => rfl
    | ⟨1, _⟩ => rfl
  rw [hsi]

theorem rowDims_start1 (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from by
    show ¬ (1 : Fin 2) ∈ ([0] : List (Fin 2)); decide)]

theorem rowDims_window0 (wf : ScatterDims.WF ⟨2, ![N, C]⟩ ⟨2, ![E, 1]⟩ ⟨2, ![E, C]⟩ [1] [0] [0] 1)
    (j : (⟨2, ![E, C]⟩ : Shape).Idx) : (rowDims N E C wf).window j 0 = 0 := by
  unfold ScatterDims.window
  rw [dif_neg (show ¬ (0 : Fin 2) ∈ (rowDims N E C wf).sKept from by
    show ¬ (0 : Fin 2) ∈ (List.finRange 2).filter (· ∉ ([0] : List (Fin 2))); decide)]

theorem rowDims_window1 (wf : ScatterDims.WF ⟨2, ![N, C]⟩ ⟨2, ![E, 1]⟩ ⟨2, ![E, C]⟩ [1] [0] [0] 1)
    (j : (⟨2, ![E, C]⟩ : Shape).Idx) : (rowDims N E C wf).window j 1 = (j 1).val := by
  unfold ScatterDims.window
  rw [dif_pos (show (1 : Fin 2) ∈ (rowDims N E C wf).sKept from by
    show (1 : Fin 2) ∈ (List.finRange 2).filter (· ∉ ([0] : List (Fin 2))); decide)]
  rfl

theorem rowDims_resultIdx (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (r : Fin N) (hr : (idx (rowIdx j)).toInt = (r.val : ℤ)) :
    (rowDims N E C wf).resultIdx? j idx = some (ix2 r (j 1)) := by
  have hs0 := rowDims_start0 wf j idx
  have hs1 := rowDims_start1 wf j idx
  have hw0 := rowDims_window0 wf j
  have hw1 := rowDims_window1 wf j
  have hr' := r.isLt
  have hj1 : (j 1).val < C := idx2_lt1 j
  have hz0 : ((⟨2, ![N, C]⟩ : Shape).size 0) = N := rfl
  have hz1 : ((⟨2, ![N, C]⟩ : Shape).size 1) = C := rfl
  unfold ScatterDims.resultIdx?
  have hall : ∀ a, 0 ≤ (rowDims N E C wf).start j idx a + ((rowDims N E C wf).window j a : ℤ)
      ∧ (rowDims N E C wf).start j idx a + ((rowDims N E C wf).window j a : ℤ) < ((⟨2, ![N, C]⟩ : Shape).size a : ℤ) := by
    intro a
    rcases fin2_cases a with rfl | rfl
    · rw [hs0, hw0, hr, hz0]; omega
    · rw [hs1, hw1, hz1]; omega
  rw [dif_pos hall]
  congr 1
  funext a
  refine Fin.ext ?_
  rcases fin2_cases a with rfl | rfl
  · show ((rowDims N E C wf).start j idx 0 + ((rowDims N E C wf).window j 0 : ℤ)).toNat = r.val
    rw [hs0, hw0, hr]; omega
  · show ((rowDims N E C wf).start j idx 1 + ((rowDims N E C wf).window j 1 : ℤ)).toNat = (j 1).val
    rw [hs1, hw1]; omega

theorem rowScatterAdd_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (dst : Fin E → Fin N) (hdst : ∀ e : Fin E, (idx (ix2 e 0)).toInt = ((dst e).val : ℤ)) (d : Fin N) (k : Fin C) :
    Ideal.hostScatterAdd (rowDims N E C wf) x idx upd (ix2 d k)
      = x (ix2 d k) + ∑ e ∈ Finset.univ.filter (fun e => dst e = d), upd (ix2 e k) := by
  classical
  have hres : ∀ (e : Fin E) (b : Fin C), (rowDims N E C wf).resultIdx? (ix2 e b) idx = some (ix2 (dst e) b) := by
    intro e b
    have := rowDims_resultIdx wf (ix2 e b) idx (dst e) (by
      rw [← hdst e]; exact congrArg (fun i => (idx i).toInt) (funext fun a => by
        match a with
        | ⟨0, _⟩ => rfl
        | ⟨1, _⟩ => rfl))
    exact this
  unfold Ideal.hostScatterAdd
  congr 1
  rw [Finset.sum_filter, sum_idx2, Finset.sum_filter]
  refine Finset.sum_congr rfl fun e _ => ?_
  by_cases he : dst e = d
  · rw [if_pos he]
    rw [Finset.sum_eq_single k]
    · rw [if_pos (by rw [hres, he])]
    · intro b _ hb
      rw [if_neg]
      rw [hres]
      intro h
      exact hb ((ix2_eq_iff _ _ _ _).mp (Option.some.inj h)).2
    · intro h; exact absurd (Finset.mem_univ k) h
  · rw [if_neg he]
    refine Finset.sum_eq_zero fun b _ => ?_
    rw [if_neg]
    rw [hres]
    intro h
    exact he ((ix2_eq_iff _ _ _ _).mp (Option.some.inj h)).1

end Rows

section Count
variable {N E w : ℕ}

abbrev cntDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

abbrev cntIdx {E : ℕ} (j : (⟨1, ![E]⟩ : Shape).Idx) : (⟨2, ![E, 1]⟩ : Shape).Idx :=
  fun a => match a with | ⟨0, _⟩ => ⟨(j 0).val, (j 0).isLt⟩ | ⟨1, _⟩ => ⟨0, Nat.one_pos⟩

theorem cntDims_start0 (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (cntDims N E wf).start j idx 0 = (idx (cntIdx j)).toInt := by
  unfold ScatterDims.start
  rw [dif_pos (show (0 : Fin 1) ∈ (cntDims N E wf).scatterDimsToOperandDims from List.mem_singleton.mpr rfl)]
  have hsi : (cntDims N E wf).siIdx j ⟨List.idxOf (0 : Fin 1) (cntDims N E wf).scatterDimsToOperandDims,
      List.idxOf_lt_length_iff.2 (List.mem_singleton.mpr rfl)⟩ = cntIdx j := by
    funext b; refine Fin.ext ?_
    match b with
    | ⟨0, _⟩ => rfl
    | ⟨1, _⟩ => rfl
  rw [hsi]

theorem cntDims_window0 (wf : ScatterDims.WF ⟨1, ![N]⟩ ⟨2, ![E, 1]⟩ ⟨1, ![E]⟩ [] [0] [0] 1)
    (j : (⟨1, ![E]⟩ : Shape).Idx) : (cntDims N E wf).window j 0 = 0 := by
  unfold ScatterDims.window
  rw [dif_neg (show ¬ (0 : Fin 1) ∈ (cntDims N E wf).sKept from by
    show ¬ (0 : Fin 1) ∈ (List.finRange 1).filter (· ∉ ([0] : List (Fin 1))); decide)]

theorem cntDims_resultIdx (wf : ScatterDims.WF ⟨1, ![N]⟩ ⟨2, ![E, 1]⟩ ⟨1, ![E]⟩ [] [0] [0] 1)
    (j : (⟨1, ![E]⟩ : Shape).Idx) (idx : IVec ⟨2, ![E, 1]⟩ w) (r : Fin N) (hr : (idx (cntIdx j)).toInt = (r.val : ℤ)) :
    (cntDims N E wf).resultIdx? j idx = some (ix1 r) := by
  have hs0 := cntDims_start0 wf j idx
  have hw0 := cntDims_window0 wf j
  have hr' := r.isLt
  have hz0 : ((⟨1, ![N]⟩ : Shape).size 0) = N := rfl
  unfold ScatterDims.resultIdx?
  have hall : ∀ a, 0 ≤ (cntDims N E wf).start j idx a + ((cntDims N E wf).window j a : ℤ)
      ∧ (cntDims N E wf).start j idx a + ((cntDims N E wf).window j a : ℤ) < ((⟨1, ![N]⟩ : Shape).size a : ℤ) := by
    intro a
    obtain rfl : a = 0 := Subsingleton.elim _ _
    rw [hs0, hw0, hr, hz0]; omega
  rw [dif_pos hall]
  congr 1
  funext a
  refine Fin.ext ?_
  obtain rfl : a = 0 := Subsingleton.elim _ _
  show ((cntDims N E wf).start j idx 0 + ((cntDims N E wf).window j 0 : ℤ)).toNat = r.val
  rw [hs0, hw0, hr]; omega

theorem cntScatterAdd_apply (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (dst : Fin E → Fin N) (hdst : ∀ e : Fin E, (idx (ix2 e 0)).toInt = ((dst e).val : ℤ)) (d : Fin N) :
    Ideal.hostScatterAdd (cntDims N E wf) x idx upd (ix1 d)
      = x (ix1 d) + ∑ e ∈ Finset.univ.filter (fun e => dst e = d), upd (ix1 e) := by
  classical
  have hres : ∀ e : Fin E, (cntDims N E wf).resultIdx? (ix1 e) idx = some (ix1 (dst e)) := by
    intro e
    exact cntDims_resultIdx wf (ix1 e) idx (dst e) (by
      rw [← hdst e]; exact congrArg (fun i => (idx i).toInt) (funext fun a => by
        match a with
        | ⟨0, _⟩ => rfl
        | ⟨1, _⟩ => rfl))
  unfold Ideal.hostScatterAdd
  congr 1
  rw [Finset.sum_filter, sum_idx1, Finset.sum_filter]
  refine Finset.sum_congr rfl fun e _ => ?_
  rw [hres]
  by_cases he : dst e = d
  · rw [if_pos he, if_pos (by rw [he])]
  · rw [if_neg he, if_neg (fun h => he ((ix1_eq_iff _ _).mp (Option.some.inj h)))]

end Count

end Cert.RefScatter

end
-- ==== Proof.RefOps.lean ====
import proofs.«403197_j58634893525189_3_alg».proof.Proof.Gen.ReferenceIdeal
import proofs.«403197_j58634893525189_3_alg».proof.Proof.Model
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem

theorem slt_zero_of_nonneg {s : BitVec 32} (h : 0 ≤ s.toInt) : IntOp.cmpi .slt s 0#32 = 0#1 := by
  unfold IntOp.cmpi
  have z : (0#32 : BitVec 32).toInt = 0 := by decide
  have hs : s.slt 0#32 = false := by
    unfold BitVec.slt
    rw [z]
    exact decide_eq_false (by omega)
  simp only [hs]
  rfl

theorem select_wrap_of_nonneg (s : BitVec 32) (h : 0 ≤ s.toInt) :
    Scalar.select (IntOp.cmpi .slt s 0#32) (IntOp.addi s 10000#32) s = s := by
  rw [slt_zero_of_nonneg h, select_zero]

section Gather
variable {α : Type}

theorem gather_rows_apply (x : S10000x128.Idx → α) (idx : IVec S640000x1 32) (e : Fin 640000) (k : Fin 128) :
    Host.gather gather_S10000x128_S640000x1_S640000x128_1_0_n_n_0_1_1128 x idx (ix2 e k)
      = x (ix2 ⟨min (idx (ix2 e 0)).toInt.toNat 9999, by omega⟩ k) := by
  unfold Host.gather
  congr 1
  funext a
  refine Fin.ext ?_
  match a with
  | ⟨0, _⟩ =>
    show gather_S10000x128_S640000x1_S640000x128_1_0_n_n_0_1_1128.start (ix2 e k) idx 0
        + gather_S10000x128_S640000x1_S640000x128_1_0_n_n_0_1_1128.batchCoord (ix2 e k) 0
        + gather_S10000x128_S640000x1_S640000x128_1_0_n_n_0_1_1128.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S640000x1_S640000x128_1_0_n_n_0_1_1128.startIndexMap from List.mem_singleton.mpr rfl)]
    have hsi : gather_S10000x128_S640000x1_S640000x128_1_0_n_n_0_1_1128.siIdx (ix2 e k)
        ⟨List.idxOf (0 : Fin 2) gather_S10000x128_S640000x1_S640000x128_1_0_n_n_0_1_1128.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gather_S10000x128_S640000x1_S640000x128_1_0_n_n_0_1_1128.start (ix2 e k) idx 1
        + gather_S10000x128_S640000x1_S640000x128_1_0_n_n_0_1_1128.batchCoord (ix2 e k) 1
        + gather_S10000x128_S640000x1_S640000x128_1_0_n_n_0_1_1128.offCoord (ix2 e k) 1 = k.val
    rw [GatherDims.batchCoord_eq_zero _ _ _ List.not_mem_nil]
    unfold GatherDims.start
    rw [dif_neg (show ¬ (1 : Fin 2) ∈ gather_S10000x128_S640000x1_S640000x128_1_0_n_n_0_1_1128.startIndexMap by decide)]
    unfold GatherDims.offCoord
    rw [dif_pos (show (1 : Fin 2) ∈ gather_S10000x128_S640000x1_S640000x128_1_0_n_n_0_1_1128.sKept by decide)]
    simp only [Nat.zero_add]
    rfl

theorem gather_rows_node (x : S10000x128.Idx → α) (idx : IVec S640000x1 32) (e : Fin 640000) (k : Fin 128)
    (n : Fin 10000) (hn : ((n.val : ℕ) : ℤ) = (idx (ix2 e 0)).toInt) :
    Host.gather gather_S10000x128_S640000x1_S640000x128_1_0_n_n_0_1_1128 x idx (ix2 e k) = x (ix2 n k) := by
  rw [gather_rows_apply]
  congr 2
  refine Fin.ext ?_
  show min (idx (ix2 e 0)).toInt.toNat 9999 = n.val
  have := n.isLt
  omega

end Gather

section Concat
variable {α : Type}

theorem concat_cols_apply (a b : S10000x128.Idx → α) (d : Fin 10000) (k : Fin 256) :
    concatenate S10000x256 1 [⟨S10000x128, a⟩, ⟨S10000x128, b⟩] concatenates_S10000x128_S10000x128_S10000x256_d1 (ix2 d k)
      = if h : k.val < 128 then a (ix2 d ⟨k.val, h⟩) else b (ix2 d ⟨k.val - 128, by omega⟩) := by
  split
  · next h =>
    exact concatenate_pair_apply_left 1 a b concatenates_S10000x128_S10000x128_S10000x256_d1 (ix2 d k) rfl (ix2 d ⟨k.val, h⟩)
      (fun c => match c with | ⟨0, _⟩ => rfl | ⟨1, _⟩ => rfl)
  · next h =>
    exact concatenate_pair_apply_right 1 a b concatenates_S10000x128_S10000x128_S10000x256_d1 (ix2 d k) rfl rfl
      (ix2 d ⟨k.val - 128, by omega⟩)
      (fun c hc => match c, hc with | ⟨0, _⟩, _ => rfl | ⟨1, _⟩, hc => absurd rfl hc)
      (by show (k.val - 128) + 128 = k.val; omega)

theorem concat_cols_cat (a b : S10000x128.Idx → EReal) (d : Fin 10000) (k : Fin 256) :
    concatenate S10000x256 1 [⟨S10000x128, a⟩, ⟨S10000x128, b⟩] concatenates_S10000x128_S10000x128_S10000x256_d1 (ix2 d k)
      = Spec.cat (Spec.row2 a d) (Spec.row2 b d) k := by
  rw [concat_cols_apply]
  rfl

end Concat

end Cert.ReferenceIdeal.RefValue

end
-- ==== Proof.RefLayer1.lean ====
import proofs.«403197_j58634893525189_3_alg».proof.Proof.RefRead
import proofs.«403197_j58634893525189_3_alg».proof.Proof.Model
import proofs.«403197_j58634893525189_3_alg».proof.Proof.ScatterLaw
import proofs.«403197_j58634893525189_3_alg».proof.Proof.RefOps
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

theorem l1_src_word (x1 : (⟨S2x640000, .i32⟩ : BufTy).Contents (Elt Ideal)) (e : Fin 640000) :
    val_main_v1 (F := Ideal) x1 (ix1 e) = x1 (ix2 0 e) := by
  rw [val_main_v1_apply, val_main_v0_apply]
  exact congrArg x1 (funext fun a => Fin.ext (by
    have he := e.isLt
    match a with
    | ⟨0, _⟩ => rfl
    | ⟨1, _⟩ => show e.val % 640000 = e.val; omega))

theorem l1_dst_word (x1 : (⟨S2x640000, .i32⟩ : BufTy).Contents (Elt Ideal)) (e : Fin 640000) :
    val_main_v3 (F := Ideal) x1 (ix1 e) = x1 (ix2 1 e) := by
  rw [val_main_v3_apply, val_main_v2_apply]
  exact congrArg x1 (funext fun a => Fin.ext (by
    have he := e.isLt
    match a with
    | ⟨0, _⟩ => rfl
    | ⟨1, _⟩ => show e.val % 640000 = e.val; omega))

theorem l1_start_word (x1 : (⟨S2x640000, .i32⟩ : BufTy).Contents (Elt Ideal)) (h : Spec.InRange x1) (e : Fin 640000) :
    val_main_v9 (F := Ideal) x1 (ix2 e 0) = x1 (ix2 0 e) := by
  have hidx : idx_main_v9 (ix2 e (0 : Fin 1)) = ix1 e := funext fun a => Fin.ext (by match a with | ⟨0, _⟩ => rfl)
  rw [val_main_v9_apply, hidx, val_main_v8_apply, val_main_v5_apply, val_main_v4_apply, val_main_c_apply, l1_src_word]
  have hnot : ¬ IntOp.cmpi .slt (x1 (ix2 0 e)) 0#32 = 1#1 := by
    rw [IntOp.cmpi_slt]
    have := (h 0 e).1
    simp only [BitVec.toInt_zero] at *
    omega
  rw [eq_zero_of_ne_one hnot, select_zero]

theorem l1_v17_word (x1 : (⟨S2x640000, .i32⟩ : BufTy).Contents (Elt Ideal)) (h : Spec.InRange x1) (e : Fin 640000) :
    (val_main_v17 (F := Ideal) x1 (ix2 e 0)).toInt = ((Spec.node x1 h 1 e).val : ℤ) := by
  have hidx : idx_main_v17 (ix2 e (0 : Fin 1)) = ix1 e := funext fun a => Fin.ext (by match a with | ⟨0, _⟩ => rfl)
  rw [val_main_v17_apply, hidx, l1_dst_word, Spec.node_val]
theorem l1_v21_word (x1 : (⟨S2x640000, .i32⟩ : BufTy).Contents (Elt Ideal)) (h : Spec.InRange x1) (e : Fin 640000) :
    (val_main_v21 (F := Ideal) x1 (ix2 e 0)).toInt = ((Spec.node x1 h 1 e).val : ℤ) := by
  have hidx : idx_main_v21 (ix2 e (0 : Fin 1)) = ix1 e := funext fun a => Fin.ext (by match a with | ⟨0, _⟩ => rfl)
  rw [val_main_v21_apply, hidx, l1_dst_word, Spec.node_val]

theorem l1_gather (x0 : (⟨S10000x128, .f32⟩ : BufTy).Contents (Elt Ideal)) (x1 : (⟨S2x640000, .i32⟩ : BufTy).Contents (Elt Ideal)) (h : Spec.InRange x1) (e : Fin 640000) (k : Fin 128) :
    val_main_v10 (F := Ideal) x0 x1 (ix2 e k) = x0 (ix2 (Spec.node x1 h 0 e) k) := by
  unfold val_main_v10
  exact gather_rows_node _ _ e k (Spec.node x1 h 0 e) (by rw [l1_start_word x1 h e]; exact Spec.node_val x1 h 0 e)

theorem l1_concat (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (d : Fin 10000) (k : Fin 256) :
    val_main_v28 (F := Ideal) x0 x1 x2 x3 (ix2 d k)
      = Spec.cat (Spec.row2 x0 d) (fun k' => val_main_v27 (F := Ideal) x0 x1 x2 x3 (ix2 d k')) k := by
  unfold val_main_v28
  rw [concat_cols_cat]

theorem l1_rowDims_eq : scatter_S10000x128_S640000x1_S640000x128_1_0_0_1
    = RefScatter.rowDims 10000 640000 128 Facts₀.scatter_S10000x128_S640000x1_S640000x128_1_0_0_1_wf := rfl

theorem l1_cntDims_eq : scatter_S10000_S640000x1_S640000_n_0_0_1
    = RefScatter.cntDims 10000 640000 Facts₀.scatter_S10000_S640000x1_S640000_n_0_0_1_wf := rfl

theorem l1_scatterRows_eq (x : S10000x128.Idx → EReal) (idx : IVec S640000x1 32) (upd : S640000x128.Idx → EReal) (i : S10000x128.Idx) :
    Host.scatterAdd (F := Ideal) (φ := .f32) scatter_S10000x128_S640000x1_S640000x128_1_0_0_1 x idx upd i
      = Ideal.hostScatterAdd (RefScatter.rowDims 10000 640000 128 Facts₀.scatter_S10000x128_S640000x1_S640000x128_1_0_0_1_wf) x idx upd i := rfl

theorem l1_scatterCnt_eq (x : S10000.Idx → EReal) (idx : IVec S640000x1 32) (upd : S640000.Idx → EReal) (i : S10000.Idx) :
    Host.scatterAdd (F := Ideal) (φ := .f32) scatter_S10000_S640000x1_S640000_n_0_0_1 x idx upd i
      = Ideal.hostScatterAdd (RefScatter.cntDims 10000 640000 Facts₀.scatter_S10000_S640000x1_S640000_n_0_0_1_wf) x idx upd i := rfl

theorem l1_msg (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (h : Spec.InRange x1) (e : Fin 640000) (k : Fin 128) :
    val_main_v15 (F := Ideal) x0 x1 x2 x3 (ix2 e k)
      = Spec.lin (Spec.mat2 x2) (Spec.vec1 x3) (Spec.row2 x0 (Spec.node x1 h 0 e)) k := by
  have hl : ∀ k' : Fin 128, lidx_main_v11 (ix2 e k) k' = ix2 e k' := fun k' => funext fun a => Fin.ext (by
    match a with | ⟨0, _⟩ => rfl | ⟨1, _⟩ => rfl)
  have hr : ∀ k' : Fin 128, ridx_main_v11 (ix2 e k) k' = ix2 k' k := fun k' => funext fun a => Fin.ext (by
    match a with | ⟨0, _⟩ => rfl | ⟨1, _⟩ => rfl)
  have hb : idx_main_v12 (idx_main_v13 (ix2 e k)) = ix1 k := funext fun a => Fin.ext (by match a with | ⟨0, _⟩ => rfl)
  have hsum : ∑ k' : Fin 128, val_main_v10 (F := Ideal) x0 x1 (lidx_main_v11 (ix2 e k) k') * x2 (ridx_main_v11 (ix2 e k) k')
      = ∑ k' : Fin 128, x0 (ix2 (Spec.node x1 h 0 e) k') * x2 (ix2 k' k) :=
    Finset.sum_congr rfl fun k' _ => by rw [hl, hr, l1_gather x0 x1 h]
  rw [val_main_v15_apply, val_main_v14_apply, val_main_v11_apply, val_main_v13_apply, val_main_v12_apply,
    val_main_call0_v0_apply, val_main_call0_cst_apply, hb, hsum]
  simp only [Ideal.maximumf_def, Ideal.addf_def, Ideal.ofBits_def, Spec.ofBits_zero]
  unfold Spec.lin
  with_reducible rfl

theorem l1_seg (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (h : Spec.InRange x1) (d : Fin 10000) (k : Fin 128) :
    val_main_v18 (F := Ideal) x0 x1 x2 x3 (ix2 d k) = (Spec.segsum (Spec.node x1 h 1) (fun e => Spec.lin (Spec.mat2 x2) (Spec.vec1 x3) (Spec.row2 x0 (Spec.node x1 h 0 e))) d) k := by
  unfold val_main_v18
  rw [l1_scatterRows_eq,
    RefScatter.rowScatterAdd_apply _ _ _ _ (Spec.node x1 h 1) (l1_v17_word x1 h) d k,
    val_main_v16_apply, val_main_cst_apply, Ideal.ofBits_def, Spec.ofBits_zero, zero_add]
  unfold Spec.segsum
  exact Finset.sum_congr rfl fun e _ => l1_msg x0 x1 x2 x3 h e k

theorem l1_cnt (x1 : (⟨S2x640000, .i32⟩ : BufTy).Contents (Elt Ideal)) (h : Spec.InRange x1) (d : Fin 10000) :
    val_main_v22 (F := Ideal) x1 (ix1 d) = (Spec.cntR (Ideal.ofBits .f32 0x3F800000#32) (Spec.node x1 h 1) d) := by
  unfold val_main_v22
  rw [l1_scatterCnt_eq,
    RefScatter.cntScatterAdd_apply _ _ _ _ (Spec.node x1 h 1) (l1_v21_word x1 h) d,
    val_main_v20_apply, val_main_cst_2_apply, Ideal.ofBits_def, Spec.ofBits_zero, zero_add]
  unfold Spec.cntR
  refine Finset.sum_congr rfl fun e _ => ?_
  rw [val_main_v19_apply, val_main_cst_1_apply, Ideal.ofBits_def]

theorem l1_agg (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (h : Spec.InRange x1) (d : Fin 10000) (k : Fin 128) :
    val_main_v27 (F := Ideal) x0 x1 x2 x3 (ix2 d k) = Ideal.div ((Spec.segsum (Spec.node x1 h 1) (fun e => Spec.lin (Spec.mat2 x2) (Spec.vec1 x3) (Spec.row2 x0 (Spec.node x1 h 0 e))) d) k) (max (Spec.cntR (Ideal.ofBits .f32 0x3F800000#32) (Spec.node x1 h 1) d) (Ideal.ofBits .f32 0x3F800000#32)) := by
  have hi : idx_main_v25 (idx_main_v26 (ix2 d k)) = ix1 d := funext fun a => Fin.ext (by match a with | ⟨0, _⟩ => rfl)
  rw [val_main_v27_apply, val_main_v26_apply, val_main_v25_apply, hi, val_main_v24_apply, val_main_v23_apply,
    val_main_cst_3_apply, l1_seg x0 x1 x2 x3 h, l1_cnt x1 h]
  simp only [Ideal.hostDivf_def, Ideal.maximumf_def, Ideal.ofBits_def]

theorem l1_hrow (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (h : Spec.InRange x1) (d : Fin 10000) (j : Fin 128) :
    val_main_v33 (F := Ideal) x0 x1 x2 x3 x4 x5 (ix2 d j) = (Spec.lin (Spec.mat2 x4) (Spec.vec1 x5) (Spec.cat (Spec.row2 x0 d) (fun k => Ideal.div ((Spec.segsum (Spec.node x1 h 1) (fun e => Spec.lin (Spec.mat2 x2) (Spec.vec1 x3) (Spec.row2 x0 (Spec.node x1 h 0 e))) d) k) (max (Spec.cntR (Ideal.ofBits .f32 0x3F800000#32) (Spec.node x1 h 1) d) (Ideal.ofBits .f32 0x3F800000#32))))) j := by
  have hl : ∀ k' : Fin 256, lidx_main_v29 (ix2 d j) k' = ix2 d k' := fun k' => funext fun a => Fin.ext (by
    match a with | ⟨0, _⟩ => rfl | ⟨1, _⟩ => rfl)
  have hr : ∀ k' : Fin 256, ridx_main_v29 (ix2 d j) k' = ix2 k' j := fun k' => funext fun a => Fin.ext (by
    match a with | ⟨0, _⟩ => rfl | ⟨1, _⟩ => rfl)
  have hb : idx_main_v30 (idx_main_v31 (ix2 d j)) = ix1 j := funext fun a => Fin.ext (by match a with | ⟨0, _⟩ => rfl)
  have hagg : (fun k' => val_main_v27 (F := Ideal) x0 x1 x2 x3 (ix2 d k')) = (fun k => Ideal.div ((Spec.segsum (Spec.node x1 h 1) (fun e => Spec.lin (Spec.mat2 x2) (Spec.vec1 x3) (Spec.row2 x0 (Spec.node x1 h 0 e))) d) k) (max (Spec.cntR (Ideal.ofBits .f32 0x3F800000#32) (Spec.node x1 h 1) d) (Ideal.ofBits .f32 0x3F800000#32))) :=
    funext fun k' => l1_agg x0 x1 x2 x3 h d k'
  have hsum : ∑ k' : Fin 256, val_main_v28 (F := Ideal) x0 x1 x2 x3 (lidx_main_v29 (ix2 d j) k') * x4 (ridx_main_v29 (ix2 d j) k')
      = ∑ k' : Fin 256, Spec.cat (Spec.row2 x0 d) (fun k => Ideal.div ((Spec.segsum (Spec.node x1 h 1) (fun e => Spec.lin (Spec.mat2 x2) (Spec.vec1 x3) (Spec.row2 x0 (Spec.node x1 h 0 e))) d) k) (max (Spec.cntR (Ideal.ofBits .f32 0x3F800000#32) (Spec.node x1 h 1) d) (Ideal.ofBits .f32 0x3F800000#32))) k' * x4 (ix2 k' j) :=
    Finset.sum_congr rfl fun k' _ => by rw [hl, hr, l1_concat x0 x1 x2 x3, hagg]
  rw [val_main_v33_apply, val_main_v32_apply, val_main_v29_apply, val_main_v31_apply, val_main_v30_apply,
    val_main_call1_v0_apply, val_main_call1_cst_apply, hb, hsum]
  simp only [Ideal.maximumf_def, Ideal.addf_def, Ideal.ofBits_def, Spec.ofBits_zero]
  unfold Spec.lin
  with_reducible rfl

theorem l1_norm (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (h : Spec.InRange x1) (d : Fin 10000) :
    val_main_v36 (F := Ideal) x0 x1 x2 x3 x4 x5 (ix2 d 0)
      = max (Ideal.sqrt (∑ j' : Fin 128, (Spec.lin (Spec.mat2 x4) (Spec.vec1 x5) (Spec.cat (Spec.row2 x0 d) (fun k => Ideal.div ((Spec.segsum (Spec.node x1 h 1) (fun e => Spec.lin (Spec.mat2 x2) (Spec.vec1 x3) (Spec.row2 x0 (Spec.node x1 h 0 e))) d) k) (max (Spec.cntR (Ideal.ofBits .f32 0x3F800000#32) (Spec.node x1 h 1) d) (Ideal.ofBits .f32 0x3F800000#32))))) j' * (Spec.lin (Spec.mat2 x4) (Spec.vec1 x5) (Spec.cat (Spec.row2 x0 d) (fun k => Ideal.div ((Spec.segsum (Spec.node x1 h 1) (fun e => Spec.lin (Spec.mat2 x2) (Spec.vec1 x3) (Spec.row2 x0 (Spec.node x1 h 0 e))) d) k) (max (Spec.cntR (Ideal.ofBits .f32 0x3F800000#32) (Spec.node x1 h 1) d) (Ideal.ofBits .f32 0x3F800000#32))))) j')) (Ideal.ofBits .f32 0x2B8CBCCC#32) := by
  have hi : idx_main_call2_v2 (ix2 d (0 : Fin 1)) = ix1 d := funext fun a => Fin.ext (by match a with | ⟨0, _⟩ => rfl)
  have hk : ∀ k' : Fin 128, idx_main_call2_v1 (ix1 d) k' = ix2 d k' := fun k' => funext fun a => Fin.ext (by
    match a with | ⟨0, _⟩ => rfl | ⟨1, _⟩ => rfl)
  have hsum : ∑ k' : Fin 128, val_main_call2_v0 (F := Ideal) x0 x1 x2 x3 x4 x5 (idx_main_call2_v1 (ix1 d) k')
      = ∑ j' : Fin 128, (Spec.lin (Spec.mat2 x4) (Spec.vec1 x5) (Spec.cat (Spec.row2 x0 d) (fun k => Ideal.div ((Spec.segsum (Spec.node x1 h 1) (fun e => Spec.lin (Spec.mat2 x2) (Spec.vec1 x3) (Spec.row2 x0 (Spec.node x1 h 0 e))) d) k) (max (Spec.cntR (Ideal.ofBits .f32 0x3F800000#32) (Spec.node x1 h 1) d) (Ideal.ofBits .f32 0x3F800000#32))))) j' * (Spec.lin (Spec.mat2 x4) (Spec.vec1 x5) (Spec.cat (Spec.row2 x0 d) (fun k => Ideal.div ((Spec.segsum (Spec.node x1 h 1) (fun e => Spec.lin (Spec.mat2 x2) (Spec.vec1 x3) (Spec.row2 x0 (Spec.node x1 h 0 e))) d) k) (max (Spec.cntR (Ideal.ofBits .f32 0x3F800000#32) (Spec.node x1 h 1) d) (Ideal.ofBits .f32 0x3F800000#32))))) j' :=
    Finset.sum_congr rfl fun k' _ => by
      rw [hk, val_main_call2_v0_apply, l1_hrow x0 x1 x2 x3 x4 x5 h, Ideal.mulf_def]
  rw [val_main_v36_apply, val_main_v34_apply, val_main_call2_v2_apply, hi, val_main_call2_v1_apply,
    val_main_call2_cst_apply, val_main_v35_apply, val_main_cst_4_apply, hsum]
  simp only [Ideal.maximumf_def, Ideal.hostUnary_sqrt_def, Ideal.ofBits_def, Spec.ofBits_zero, zero_add]

theorem layer1_val (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (h : Spec.InRange x1) (d : Fin 10000) (j : Fin 128) :
    val_main_v39 (F := Ideal) x0 x1 x2 x3 x4 x5 (ix2 d j)
      = Spec.layerR (Ideal.ofBits .f32 0x3F800000#32) (Ideal.ofBits .f32 0x2B8CBCCC#32) (Spec.node x1 h 0) (Spec.node x1 h 1)
          (Spec.mat2 x2) (Spec.vec1 x3) (Spec.mat2 x4) (Spec.vec1 x5) (Spec.mat2 x0) d j := by
  have hi : idx_main_v37 (ix2 d j) = ix2 d 0 := funext fun a => Fin.ext (by match a with | ⟨0, _⟩ => rfl | ⟨1, _⟩ => rfl)
  rw [val_main_v39_apply, val_main_v38_apply, val_main_v37_apply, hi, val_main_call3_v0_apply, val_main_call3_cst_apply,
    l1_hrow x0 x1 x2 x3 x4 x5 h, l1_norm x0 x1 x2 x3 x4 x5 h]
  simp only [Ideal.maximumf_def, Ideal.hostDivf_def, Ideal.ofBits_def, Spec.ofBits_zero]
  unfold Spec.layerR Spec.upd
  with_reducible rfl

end Cert.ReferenceIdeal.RefValue

end
-- ==== Proof.RefLayer2.lean ====
import proofs.«403197_j58634893525189_3_alg».proof.Proof.RefRead
import proofs.«403197_j58634893525189_3_alg».proof.Proof.Model
import proofs.«403197_j58634893525189_3_alg».proof.Proof.RefOps
import proofs.«403197_j58634893525189_3_alg».proof.Proof.ScatterLaw
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

theorem hostScatterAdd_ideal {s si su : Shape} {φ : FTy} {w : Nat} (dd : ScatterDims s si su) (x : FVec Ideal s φ) (idx : IVec si w)
    (upd : FVec Ideal su φ) : Host.scatterAdd (F := Ideal) dd x idx upd = Ideal.hostScatterAdd dd x idx upd := rfl

section Layer2

variable (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal))

theorem l2_src_at (e : Fin 640000) : val_main_v1 (F := Ideal) x1 (ix1 e) = x1 (ix2 0 e) := by
  rw [val_main_v1_apply, val_main_v0_apply]
  congr 1
  funext a; refine Fin.ext ?_
  match a with
  | ⟨0, _⟩ => rfl
  | ⟨1, _⟩ => exact Nat.mod_eq_of_lt e.isLt

theorem l2_dst_at (e : Fin 640000) : val_main_v3 (F := Ideal) x1 (ix1 e) = x1 (ix2 1 e) := by
  rw [val_main_v3_apply, val_main_v2_apply]
  congr 1
  funext a; refine Fin.ext ?_
  match a with
  | ⟨0, _⟩ => rfl
  | ⟨1, _⟩ => exact Nat.mod_eq_of_lt e.isLt

theorem l2_v45_at (h : Spec.InRange x1) (e : Fin 640000) : val_main_v45 (F := Ideal) x1 (ix2 e 0) = x1 (ix2 0 e) := by
  rw [val_main_v45_apply, show idx_main_v45 (ix2 e (0 : Fin 1)) = ix1 e from funext fun a => Fin.ext (by match a with | ⟨0, _⟩ => rfl),
    val_main_v44_apply, val_main_v41_apply, val_main_v43_apply, val_main_v40_apply, val_main_v42_apply,
    val_main_c_5_apply, val_main_c_6_apply, l2_src_at]
  exact select_wrap_of_nonneg _ (h 0 e).1

theorem l2_v53_at (e : Fin 640000) : val_main_v53 (F := Ideal) x1 (ix2 e 0) = x1 (ix2 1 e) := by
  rw [val_main_v53_apply, show idx_main_v53 (ix2 e (0 : Fin 1)) = ix1 e from funext fun a => Fin.ext (by match a with | ⟨0, _⟩ => rfl), l2_dst_at]
theorem l2_v57_at (e : Fin 640000) : val_main_v57 (F := Ideal) x1 (ix2 e 0) = x1 (ix2 1 e) := by
  rw [val_main_v57_apply, show idx_main_v57 (ix2 e (0 : Fin 1)) = ix1 e from funext fun a => Fin.ext (by match a with | ⟨0, _⟩ => rfl), l2_dst_at]

theorem l2_v46_at (h : Spec.InRange x1) (e : Fin 640000) (k : Fin 128) :
    val_main_v46 (F := Ideal) x0 x1 x2 x3 x4 x5 (ix2 e k) = val_main_v39 (F := Ideal) x0 x1 x2 x3 x4 x5 (ix2 (Spec.node x1 h 0 e) k) := by
  unfold val_main_v46
  exact gather_rows_node _ _ e k (Spec.node x1 h 0 e) (by rw [l2_v45_at x1 h e]; exact Spec.node_val x1 h 0 e)

theorem l2_v51_at (h : Spec.InRange x1) (e : Fin 640000) (j : Fin 128) :
    val_main_v51 (F := Ideal) x0 x1 x2 x3 x4 x5 x6 x7 (ix2 e j)
      = Spec.lin (Spec.mat2 x6) (Spec.vec1 x7) (fun k => val_main_v39 (F := Ideal) x0 x1 x2 x3 x4 x5 (ix2 (Spec.node x1 h 0 e) k)) j := by
  have hl : ∀ k, lidx_main_v47 (ix2 e j) k = ix2 e k := fun k => funext fun a => Fin.ext (by match a with | ⟨0, _⟩ => rfl | ⟨1, _⟩ => rfl)
  have hr : ∀ k, ridx_main_v47 (ix2 e j) k = ix2 k j := fun k => funext fun a => Fin.ext (by match a with | ⟨0, _⟩ => rfl | ⟨1, _⟩ => rfl)
  have hb : idx_main_v48 (idx_main_v49 (ix2 e j)) = ix1 j := funext fun a => Fin.ext (by match a with | ⟨0, _⟩ => rfl)
  rw [val_main_v51_apply, val_main_v50_apply, val_main_v47_apply, val_main_v49_apply, val_main_v48_apply,
    val_main_call4_v0_apply, val_main_call4_cst_apply]
  simp only [hl, hr, hb, l2_v46_at x0 x1 x2 x3 x4 x5 h, Ideal.maximumf_def, Ideal.addf_def, Ideal.ofBits_def, Spec.ofBits_zero]
  unfold Spec.lin
  with_reducible_and_instances rfl

theorem l2_v54_at (h : Spec.InRange x1) (d : Fin 10000) (k : Fin 128) :
    val_main_v54 (F := Ideal) x0 x1 x2 x3 x4 x5 x6 x7 (ix2 d k) = (Spec.segsum (Spec.node x1 h 1) (fun e j' => val_main_v51 (F := Ideal) x0 x1 x2 x3 x4 x5 x6 x7 (ix2 e j')) d) k := by
  have e : val_main_v54 (F := Ideal) x0 x1 x2 x3 x4 x5 x6 x7
      = Ideal.hostScatterAdd (Cert.RefScatter.rowDims 10000 640000 128 Facts₀.scatter_S10000x128_S640000x1_S640000x128_1_0_0_1_wf)
          (val_main_v52 (F := Ideal)) (val_main_v53 (F := Ideal) x1) (val_main_v51 (F := Ideal) x0 x1 x2 x3 x4 x5 x6 x7) :=
    hostScatterAdd_ideal _ _ _ _
  rw [e, Cert.RefScatter.rowScatterAdd_apply _ _ _ _ (Spec.node x1 h 1)
    (fun e => by rw [l2_v53_at]; exact (Spec.node_val x1 h 1 e).symm) d k]
  rw [val_main_v52_apply, val_main_cst_7_apply, Ideal.ofBits_def, Spec.ofBits_zero, zero_add]
  unfold Spec.segsum
  with_reducible_and_instances rfl

theorem l2_v58_at (h : Spec.InRange x1) (d : Fin 10000) :
    val_main_v58 (F := Ideal) x1 (ix1 d) = (Spec.cntR (Ideal.ofBits .f32 0x3F800000#32) (Spec.node x1 h 1) d) := by
  have e : val_main_v58 (F := Ideal) x1
      = Ideal.hostScatterAdd (Cert.RefScatter.cntDims 10000 640000 Facts₀.scatter_S10000_S640000x1_S640000_n_0_0_1_wf)
          (val_main_v56 (F := Ideal)) (val_main_v57 (F := Ideal) x1) (val_main_v55 (F := Ideal)) :=
    hostScatterAdd_ideal _ _ _ _
  rw [e, Cert.RefScatter.cntScatterAdd_apply _ _ _ _ (Spec.node x1 h 1)
    (fun e => by rw [l2_v57_at]; exact (Spec.node_val x1 h 1 e).symm) d]
  simp only [val_main_v56_apply, val_main_cst_9_apply, val_main_v55_apply, val_main_cst_8_apply, Ideal.ofBits_def,
    Spec.ofBits_zero, zero_add]
  unfold Spec.cntR
  with_reducible_and_instances rfl

theorem l2_v63_at (h : Spec.InRange x1) (d : Fin 10000) (k : Fin 128) :
    val_main_v63 (F := Ideal) x0 x1 x2 x3 x4 x5 x6 x7 (ix2 d k) = (fun k' => Ideal.div ((Spec.segsum (Spec.node x1 h 1) (fun e j' => val_main_v51 (F := Ideal) x0 x1 x2 x3 x4 x5 x6 x7 (ix2 e j')) d) k') (max (Spec.cntR (Ideal.ofBits .f32 0x3F800000#32) (Spec.node x1 h 1) d) (Ideal.ofBits .f32 0x3F800000#32))) k := by
  rw [val_main_v63_apply, val_main_v62_apply, val_main_v61_apply, val_main_v60_apply, val_main_v59_apply,
    val_main_cst_10_apply, show idx_main_v61 (idx_main_v62 (ix2 d k)) = ix1 d from funext fun a => Fin.ext (by match a with | ⟨0, _⟩ => rfl),
    l2_v54_at x0 x1 x2 x3 x4 x5 x6 x7 h, l2_v58_at x1 h]
  simp only [Ideal.hostDivf_def, Ideal.maximumf_def, Ideal.ofBits_def]

theorem l2_v64_at (h : Spec.InRange x1) (d : Fin 10000) (k : Fin 256) :
    val_main_v64 (F := Ideal) x0 x1 x2 x3 x4 x5 x6 x7 (ix2 d k) = Spec.cat ((fun d' j' => val_main_v39 (F := Ideal) x0 x1 x2 x3 x4 x5 (ix2 d' j')) d) (fun k' => Ideal.div ((Spec.segsum (Spec.node x1 h 1) (fun e j' => val_main_v51 (F := Ideal) x0 x1 x2 x3 x4 x5 x6 x7 (ix2 e j')) d) k') (max (Spec.cntR (Ideal.ofBits .f32 0x3F800000#32) (Spec.node x1 h 1) d) (Ideal.ofBits .f32 0x3F800000#32))) k := by
  unfold val_main_v64
  rw [concat_cols_cat]
  exact congrArg (fun s => Spec.cat ((fun d' j' => val_main_v39 (F := Ideal) x0 x1 x2 x3 x4 x5 (ix2 d' j')) d) s k) (funext fun k' => l2_v63_at x0 x1 x2 x3 x4 x5 x6 x7 h d k')

theorem l2_v69_at (h : Spec.InRange x1) (d : Fin 10000) (j : Fin 128) :
    val_main_v69 (F := Ideal) x0 x1 x2 x3 x4 x5 x6 x7 x8 x9 (ix2 d j)
      = Spec.lin (Spec.mat2 x8) (Spec.vec1 x9) (Spec.cat ((fun d' j' => val_main_v39 (F := Ideal) x0 x1 x2 x3 x4 x5 (ix2 d' j')) d) (fun k' => Ideal.div ((Spec.segsum (Spec.node x1 h 1) (fun e j' => val_main_v51 (F := Ideal) x0 x1 x2 x3 x4 x5 x6 x7 (ix2 e j')) d) k') (max (Spec.cntR (Ideal.ofBits .f32 0x3F800000#32) (Spec.node x1 h 1) d) (Ideal.ofBits .f32 0x3F800000#32)))) j := by
  have hl : ∀ k, lidx_main_v65 (ix2 d j) k = ix2 d k := fun k => funext fun a => Fin.ext (by match a with | ⟨0, _⟩ => rfl | ⟨1, _⟩ => rfl)
  have hr : ∀ k, ridx_main_v65 (ix2 d j) k = ix2 k j := fun k => funext fun a => Fin.ext (by match a with | ⟨0, _⟩ => rfl | ⟨1, _⟩ => rfl)
  have hb : idx_main_v66 (idx_main_v67 (ix2 d j)) = ix1 j := funext fun a => Fin.ext (by match a with | ⟨0, _⟩ => rfl)
  rw [val_main_v69_apply, val_main_v68_apply, val_main_v65_apply, val_main_v67_apply, val_main_v66_apply,
    val_main_call5_v0_apply, val_main_call5_cst_apply]
  simp only [hl, hr, hb, l2_v64_at x0 x1 x2 x3 x4 x5 x6 x7 h, Ideal.maximumf_def, Ideal.addf_def, Ideal.ofBits_def, Spec.ofBits_zero]
  unfold Spec.lin
  with_reducible_and_instances rfl

end Layer2

theorem layer2_val (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (h : Spec.InRange x1) (d : Fin 10000) (j : Fin 128) :
    val_main_v75 (F := Ideal) x0 x1 x2 x3 x4 x5 x6 x7 x8 x9 (ix2 d j)
      = Spec.layerR (Ideal.ofBits .f32 0x3F800000#32) (Ideal.ofBits .f32 0x2B8CBCCC#32) (Spec.node x1 h 0) (Spec.node x1 h 1)
          (Spec.mat2 x6) (Spec.vec1 x7) (Spec.mat2 x8) (Spec.vec1 x9)
          (fun d' j' => val_main_v39 (F := Ideal) x0 x1 x2 x3 x4 x5 (ix2 d' j')) d j := by
  have h73 : idx_main_call6_v2 (idx_main_v73 (ix2 d j)) = ix1 d := funext fun a => Fin.ext (by match a with | ⟨0, _⟩ => rfl)
  have hk : ∀ k, idx_main_call6_v1 (ix1 d) k = ix2 d k := fun k => funext fun a => Fin.ext (by match a with | ⟨0, _⟩ => rfl | ⟨1, _⟩ => rfl)
  rw [val_main_v75_apply, val_main_v74_apply, val_main_v73_apply, val_main_v72_apply, val_main_v70_apply,
    val_main_call6_v2_apply, h73, val_main_call6_v1_apply, val_main_v71_apply, val_main_cst_11_apply,
    val_main_call7_v0_apply, val_main_call7_cst_apply, val_main_call6_cst_apply]
  simp only [hk, val_main_call6_v0_apply, l2_v69_at x0 x1 x2 x3 x4 x5 x6 x7 x8 x9 h, l2_v51_at x0 x1 x2 x3 x4 x5 x6 x7 h, Ideal.maximumf_def, Ideal.hostDivf_def,
    Ideal.hostUnary_sqrt_def, Ideal.mulf_def, Ideal.ofBits_def, Spec.ofBits_zero, zero_add]
  unfold Spec.layerR Spec.upd
  with_reducible_and_instances rfl

end Cert.ReferenceIdeal.RefValue

end
-- ==== Proof.RefHead.lean ====
import proofs.«403197_j58634893525189_3_alg».proof.Proof.RefRead
import proofs.«403197_j58634893525189_3_alg».proof.Proof.Model
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

theorem head_val (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (d : Fin 10000) (j : Fin 64) :
    val_main_v84 (F := Ideal) x0 x1 x2 x3 x4 x5 x6 x7 x8 x9 x10 x11 x12 x13 (ix2 d j)
      = Spec.head (Spec.mat2 x10) (Spec.vec1 x11) (Spec.mat2 x12) (Spec.vec1 x13)
          (fun k => val_main_v75 (F := Ideal) x0 x1 x2 x3 x4 x5 x6 x7 x8 x9 (ix2 d k)) j := by

  obtain ⟨h, hh⟩ : ∃ h : Fin 128 → EReal, h = fun k => val_main_v75 (F := Ideal) x0 x1 x2 x3 x4 x5 x6 x7 x8 x9 (ix2 d k) := ⟨_, rfl⟩
  rw [← hh]
  have hv : ∀ k : Fin 128, val_main_v75 (F := Ideal) x0 x1 x2 x3 x4 x5 x6 x7 x8 x9 (ix2 d k) = h k := fun k => by rw [hh]

  have h79 : ∀ k : Fin 128, val_main_v79 (F := Ideal) x0 x1 x2 x3 x4 x5 x6 x7 x8 x9 x10 x11 (ix2 d k)
      = Spec.aff (Spec.mat2 x10) (Spec.vec1 x11) h k := by
    intro k
    have el : ∀ k' : Fin 128, lidx_main_v76 (ix2 d k) k' = ix2 d k' := fun k' => funext fun a => Fin.ext (by match a with | ⟨0, _⟩ => rfl | ⟨1, _⟩ => rfl)
    have er : ∀ k' : Fin 128, ridx_main_v76 (ix2 d k) k' = ix2 k' k := fun k' => funext fun a => Fin.ext (by match a with | ⟨0, _⟩ => rfl | ⟨1, _⟩ => rfl)
    have eb : idx_main_v77 (idx_main_v78 (ix2 d k)) = ix1 k := funext fun a => Fin.ext (by match a with | ⟨0, _⟩ => rfl)
    rw [val_main_v79_apply, val_main_v76_apply, val_main_v78_apply, val_main_v77_apply, eb]
    simp only [Ideal.addf_def, el, er, hv]
    rfl

  have h83 : ∀ j' : Fin 64, val_main_v83 (F := Ideal) x0 x1 x2 x3 x4 x5 x6 x7 x8 x9 x10 x11 x12 x13 (ix2 d j')
      = Spec.aff (Spec.mat2 x12) (Spec.vec1 x13) (Spec.aff (Spec.mat2 x10) (Spec.vec1 x11) h) j' := by
    intro j'
    have el : ∀ k : Fin 128, lidx_main_v80 (ix2 d j') k = ix2 d k := fun k => funext fun a => Fin.ext (by match a with | ⟨0, _⟩ => rfl | ⟨1, _⟩ => rfl)
    have er : ∀ k : Fin 128, ridx_main_v80 (ix2 d j') k = ix2 k j' := fun k => funext fun a => Fin.ext (by match a with | ⟨0, _⟩ => rfl | ⟨1, _⟩ => rfl)
    have eb : idx_main_v81 (idx_main_v82 (ix2 d j')) = ix1 j' := funext fun a => Fin.ext (by match a with | ⟨0, _⟩ => rfl)
    rw [val_main_v83_apply, val_main_v80_apply, val_main_v82_apply, val_main_v81_apply, eb]
    simp only [Ideal.addf_def, el, er, h79]
    rfl

  have hred : S10000x64.Reduces [1] S10000 := by decide
  have hlift : ∀ k : Fin 64, hred.lift (ix1 d) k = ix2 d k := by
    intro k; funext c; apply Fin.ext; fin_cases c <;> rfl
  have hmax : val_main_call8_v2 (F := Ideal) x0 x1 x2 x3 x4 x5 x6 x7 x8 x9 x10 x11 x12 x13 (ix1 d)
      = Finset.univ.sup (Spec.aff (Spec.mat2 x12) (Spec.vec1 x13) (Spec.aff (Spec.mat2 x10) (Spec.vec1 x11) h)) := by
    have hf : (val_main_v83 (F := Ideal) x0 x1 x2 x3 x4 x5 x6 x7 x8 x9 x10 x11 x12 x13 ∘ hred.lift (ix1 d) : Fin 64 → EReal)
        = Spec.aff (Spec.mat2 x12) (Spec.vec1 x13) (Spec.aff (Spec.mat2 x10) (Spec.vec1 x11) h) := by
      funext k
      show val_main_v83 (F := Ideal) x0 x1 x2 x3 x4 x5 x6 x7 x8 x9 x10 x11 x12 x13 (hred.lift (ix1 d) k) = _
      rw [hlift, h83]
    rw [val_main_call8_v2_apply, val_main_call8_v1_apply, val_main_call8_cst_0_apply]
    unfold val_main_call8_v0
    rw [Host.reduce_eq_fold_single FloatOps.maximumf _ _ reducesTo_S10000x64_S10000_d1 hred h_S_,
      val_main_call8_cst_apply, Ideal.maximumf_def, Ideal.ofBits_def, Spec.ofBits_neg_inf, max_bot_left]
    exact congrArg (fun f : Fin 64 → EReal => Finset.fold max ⊥ f Finset.univ) hf

  have h5 : ∀ j' : Fin 64, val_main_call8_v5 (F := Ideal) x0 x1 x2 x3 x4 x5 x6 x7 x8 x9 x10 x11 x12 x13 (ix2 d j')
      = Spec.aff (Spec.mat2 x12) (Spec.vec1 x13) (Spec.aff (Spec.mat2 x10) (Spec.vec1 x11) h) j'
        - Finset.univ.sup (Spec.aff (Spec.mat2 x12) (Spec.vec1 x13) (Spec.aff (Spec.mat2 x10) (Spec.vec1 x11) h)) := by
    intro j'
    have e34 : idx_main_call8_v3 (idx_main_call8_v4 (ix2 d j')) = ix1 d := funext fun a => Fin.ext (by match a with | ⟨0, _⟩ => rfl)
    rw [val_main_call8_v5_apply, val_main_call8_v4_apply, val_main_call8_v3_apply, e34, hmax, h83]
    rfl

  have e810 : idx_main_call8_v8 (idx_main_call8_v10 (ix2 d j)) = ix1 d := funext fun a => Fin.ext (by match a with | ⟨0, _⟩ => rfl)
  have e7 : ∀ k : Fin 64, idx_main_call8_v7 (ix1 d) k = ix2 d k := fun k => funext fun a => Fin.ext (by match a with | ⟨0, _⟩ => rfl | ⟨1, _⟩ => rfl)
  rw [val_main_v84_apply, h5, val_main_call8_v10_apply, val_main_call8_v9_apply, val_main_call8_v8_apply, e810,
    val_main_call8_v7_apply, val_main_call8_cst_1_apply]
  simp only [e7, val_main_call8_v6_apply, h5, Ideal.subf_def, Ideal.hostUnary_exp_def, Ideal.hostUnary_log_def,
    Ideal.ofBits_def, Spec.ofBits_zero, zero_add]
  rfl

end Cert.ReferenceIdeal.RefValue

end
-- ==== Proof.RefValue.lean ====
import proofs.«403197_j58634893525189_3_alg».proof.Proof.RefLayer1
import proofs.«403197_j58634893525189_3_alg».proof.Proof.RefLayer2
import proofs.«403197_j58634893525189_3_alg».proof.Proof.RefHead

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

theorem ref_val (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (h : Spec.InRange x1) (d : Fin 10000) (j : Fin 64) :
    val_main_v84 (F := Ideal) x0 x1 x2 x3 x4 x5 x6 x7 x8 x9 x10 x11 x12 x13 (ix2 d j)
      = Spec.modelR (Ideal.ofBits .f32 0x3F800000#32) (Ideal.ofBits .f32 0x2B8CBCCC#32) (Spec.node x1 h 0) (Spec.node x1 h 1)
          (Spec.mat2 x2) (Spec.vec1 x3) (Spec.mat2 x4) (Spec.vec1 x5)
          (Spec.mat2 x6) (Spec.vec1 x7) (Spec.mat2 x8) (Spec.vec1 x9)
          (Spec.mat2 x10) (Spec.vec1 x11) (Spec.mat2 x12) (Spec.vec1 x13) (Spec.mat2 x0) d j := by
  rw [head_val]
  unfold Spec.modelR
  have e2 : (fun k => val_main_v75 (F := Ideal) x0 x1 x2 x3 x4 x5 x6 x7 x8 x9 (ix2 d k))
      = Spec.layerR (Ideal.ofBits .f32 0x3F800000#32) (Ideal.ofBits .f32 0x2B8CBCCC#32) (Spec.node x1 h 0) (Spec.node x1 h 1)
          (Spec.mat2 x6) (Spec.vec1 x7) (Spec.mat2 x8) (Spec.vec1 x9)
          (Spec.layerR (Ideal.ofBits .f32 0x3F800000#32) (Ideal.ofBits .f32 0x2B8CBCCC#32) (Spec.node x1 h 0) (Spec.node x1 h 1)
            (Spec.mat2 x2) (Spec.vec1 x3) (Spec.mat2 x4) (Spec.vec1 x5) (Spec.mat2 x0)) d := by
    funext k
    rw [layer2_val x0 x1 x2 x3 x4 x5 x6 x7 x8 x9 h d k]
    have e1 : (fun d' j' => val_main_v39 (F := Ideal) x0 x1 x2 x3 x4 x5 (ix2 d' j'))
        = Spec.layerR (Ideal.ofBits .f32 0x3F800000#32) (Ideal.ofBits .f32 0x2B8CBCCC#32) (Spec.node x1 h 0) (Spec.node x1 h 1)
            (Spec.mat2 x2) (Spec.vec1 x3) (Spec.mat2 x4) (Spec.vec1 x5) (Spec.mat2 x0) := by
      funext d' j'
      exact layer1_val x0 x1 x2 x3 x4 x5 h d' j'
    rw [e1]
  rw [e2]

end Cert.ReferenceIdeal.RefValue

end
-- ==== Proof.RefRun.lean ====
import proofs.«403197_j58634893525189_3_alg».proof.Proof.RefRead
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v1 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 10000#32),
    unary main_c_0 main_v6 (broadcastInDim S640000 ![] bcast_S_S640000 : (⟨S_, .i32⟩ : BufTy).Contents (Elt F) → (⟨S640000, .i32⟩ : BufTy).Contents (Elt F)),
    binary main_v1 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg0 main_v9 main_v10 ((fun x i => Host.gather gather_S10000x128_S640000x1_S640000x128_1_0_n_n_0_1_1128 x i) : (⟨S10000x128, .f32⟩ : BufTy).Contents (Elt F) → (⟨S640000x1, .i32⟩ : BufTy).Contents (Elt F) → (⟨S640000x128, .f32⟩ : BufTy).Contents (Elt F)),
    binary main_v10 main_arg2 main_v11 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg3 main_v12 (broadcastInDim S1x128 ![1] bcast_S128_S1x128_1 : (⟨S128, .f32⟩ : BufTy).Contents (Elt F) → (⟨S1x128, .f32⟩ : BufTy).Contents (Elt F)),
    unary main_v12 main_v13 (broadcastInDim S640000x128 ![0, 1] bcast_S1x128_S640000x128_0_1 : (⟨S1x128, .f32⟩ : BufTy).Contents (Elt F) → (⟨S640000x128, .f32⟩ : BufTy).Contents (Elt F)),
    binary main_v11 main_v13 main_v14 (addf : (⟨S640000x128, .f32⟩ : BufTy).Contents (Elt F) → (⟨S640000x128, .f32⟩ : BufTy).Contents (Elt F) → (⟨S640000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S640000x128, .f32⟩) main_call0_v0) (broadcastInDim S640000x128 ![] bcast_S_S640000x128),
    TRef.binary (TRef.of (T := ⟨S640000x128, .f32⟩) main_v14) (TRef.of (T := ⟨S640000x128, .f32⟩) main_call0_v0) (TRef.of (T := ⟨S640000x128, .f32⟩) main_v15) maximumf,
    nullary main_cst (constant S_ .f32 0x00000000#32),
    unary main_cst main_v16 (broadcastInDim S10000x128 ![] bcast_S_S10000x128 : (⟨S_, .f32⟩ : BufTy).Contents (Elt F) → (⟨S10000x128, .f32⟩ : BufTy).Contents (Elt F)),
    unary main_v3 main_v17 (broadcastInDim S640000x1 ![0] bcast_S640000_S640000x1_0 : (⟨S640000, .i32⟩ : BufTy).Contents (Elt F) → (⟨S640000x1, .i32⟩ : BufTy).Contents (Elt F)),
    ternary main_v16 main_v17 main_v15 main_v18 ((fun x i u => Host.scatterAdd scatter_S10000x128_S640000x1_S640000x128_1_0_0_1 x i u) : (⟨S10000x128, .f32⟩ : BufTy).Contents (Elt F) → (⟨S640000x1, .i32⟩ : BufTy).Contents (Elt F) → (⟨S640000x128, .f32⟩ : BufTy).Contents (Elt F) → (⟨S10000x128, .f32⟩ : BufTy).Contents (Elt F)),
    nullary main_cst_1 (constant S_ .f32 0x3F800000#32),
    unary main_cst_1 main_v19 (broadcastInDim S640000 ![] bcast_S_S640000 : (⟨S_, .f32⟩ : BufTy).Contents (Elt F) → (⟨S640000, .f32⟩ : BufTy).Contents (Elt F)),
    nullary main_cst_2 (constant S_ .f32 0x00000000#32),
    unary main_cst_2 main_v20 (broadcastInDim S10000 ![] bcast_S_S10000 : (⟨S_, .f32⟩ : BufTy).Contents (Elt F) → (⟨S10000, .f32⟩ : BufTy).Contents (Elt F)),
    unary main_v3 main_v21 (broadcastInDim S640000x1 ![0] bcast_S640000_S640000x1_0 : (⟨S640000, .i32⟩ : BufTy).Contents (Elt F) → (⟨S640000x1, .i32⟩ : BufTy).Contents (Elt F)),
    ternary main_v20 main_v21 main_v19 main_v22 ((fun x i u => Host.scatterAdd scatter_S10000_S640000x1_S640000_n_0_0_1 x i u) : (⟨S10000, .f32⟩ : BufTy).Contents (Elt F) → (⟨S640000x1, .i32⟩ : BufTy).Contents (Elt F) → (⟨S640000, .f32⟩ : BufTy).Contents (Elt F) → (⟨S10000, .f32⟩ : BufTy).Contents (Elt F)),
    nullary main_cst_3 (constant S_ .f32 0x3F800000#32),
    unary main_cst_3 main_v23 (broadcastInDim S10000 ![] bcast_S_S10000 : (⟨S_, .f32⟩ : BufTy).Contents (Elt F) → (⟨S10000, .f32⟩ : BufTy).Contents (Elt F)),
    binary main_v22 main_v23 main_v24 (maximumf : (⟨S10000, .f32⟩ : BufTy).Contents (Elt F) → (⟨S10000, .f32⟩ : BufTy).Contents (Elt F) → (⟨S10000, .f32⟩ : BufTy).Contents (Elt F)),
    unary main_v24 main_v25 (broadcastInDim S10000x1 ![0] bcast_S10000_S10000x1_0 : (⟨S10000, .f32⟩ : BufTy).Contents (Elt F) → (⟨S10000x1, .f32⟩ : BufTy).Contents (Elt F)),
    unary main_v25 main_v26 (broadcastInDim S10000x128 ![0, 1] bcast_S10000x1_S10000x128_0_1 : (⟨S10000x1, .f32⟩ : BufTy).Contents (Elt F) → (⟨S10000x128, .f32⟩ : BufTy).Contents (Elt F)),
    binary main_v18 main_v26 main_v27 (Host.divf : (⟨S10000x128, .f32⟩ : BufTy).Contents (Elt F) → (⟨S10000x128, .f32⟩ : BufTy).Contents (Elt F) → (⟨S10000x128, .f32⟩ : BufTy).Contents (Elt F)),
    binary main_arg0 main_v27 main_v28 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    binary main_v28 main_arg4 main_v29 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    unary main_arg5 main_v30 (broadcastInDim S1x128 ![1] bcast_S128_S1x128_1 : (⟨S128, .f32⟩ : BufTy).Contents (Elt F) → (⟨S1x128, .f32⟩ : BufTy).Contents (Elt F)),
    unary main_v30 main_v31 (broadcastInDim S10000x128 ![0, 1] bcast_S1x128_S10000x128_0_1 : (⟨S1x128, .f32⟩ : BufTy).Contents (Elt F) → (⟨S10000x128, .f32⟩ : BufTy).Contents (Elt F)),
    binary main_v29 main_v31 main_v32 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x128, .f32⟩) main_call1_v0) (broadcastInDim S10000x128 ![] bcast_S_S10000x128),
    TRef.binary (TRef.of (T := ⟨S10000x128, .f32⟩) main_v32) (TRef.of (T := ⟨S10000x128, .f32⟩) main_call1_v0) (TRef.of (T := ⟨S10000x128, .f32⟩) main_v33) maximumf,
    TRef.binary (TRef.of (T := ⟨S10000x128, .f32⟩) main_v33) (TRef.of (T := ⟨S10000x128, .f32⟩) main_v33) (TRef.of (T := ⟨S10000x128, .f32⟩) main_call2_v0) mulf,
    TRef.nullary (TRef.of (T := ⟨S_, .f32⟩) main_call2_cst) (constant S_ .f32 0x00000000#32),
    TRef.binary (TRef.of (T := ⟨S10000x128, .f32⟩) main_call2_v0) (TRef.of (T := ⟨S_, .f32⟩) main_call2_cst) (TRef.of (T := ⟨S10000, .f32⟩) main_call2_v1) (fun x v => Host.reduceAdd x v reducesTo_S10000x128_S10000_d1 h_S_),
    TRef.unary (TRef.of (T := ⟨S10000, .f32⟩) main_call2_v1) (TRef.of (T := ⟨S10000x1, .f32⟩) main_call2_v2) (broadcastInDim S10000x1 ![0] bcast_S10000_S10000x1_0),
    TRef.unary (TRef.of (T := ⟨S10000x1, .f32⟩) main_call2_v2) (TRef.of (T := ⟨S10000x1, .f32⟩) main_v34) Host.sqrt,
    nullary main_cst_4 (constant S_ .f32 0x2B8CBCCC#32),
    unary main_cst_4 main_v35 (broadcastInDim S10000x1 ![] bcast_S_S10000x1 : (⟨S_, .f32⟩ : BufTy).Contents (Elt F) → (⟨S10000x1, .f32⟩ : BufTy).Contents (Elt F)),
    binary main_v34 main_v35 main_v36 (maximumf : (⟨S10000x1, .f32⟩ : BufTy).Contents (Elt F) → (⟨S10000x1, .f32⟩ : BufTy).Contents (Elt F) → (⟨S10000x1, .f32⟩ : BufTy).Contents (Elt F)),
    unary main_v36 main_v37 (broadcastInDim S10000x128 ![0, 1] bcast_S10000x1_S10000x128_0_1 : (⟨S10000x1, .f32⟩ : BufTy).Contents (Elt F) → (⟨S10000x128, .f32⟩ : BufTy).Contents (Elt F)),
    binary main_v33 main_v37 main_v38 (Host.divf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S10000x128, .f32⟩) main_call3_v0) (broadcastInDim S10000x128 ![] bcast_S_S10000x128),
    TRef.binary (TRef.of (T := ⟨S10000x128, .f32⟩) main_v38) (TRef.of (T := ⟨S10000x128, .f32⟩) main_call3_v0) (TRef.of (T := ⟨S10000x128, .f32⟩) main_v39) maximumf,
    nullary main_c_5 (constantI S_ 32 0#32),
    unary main_c_5 main_v40 (broadcastInDim S640000 ![] bcast_S_S640000 : (⟨S_, .i32⟩ : BufTy).Contents (Elt F) → (⟨S640000, .i32⟩ : BufTy).Contents (Elt F)),
    binary main_v1 main_v40 main_v41 (cmpi .slt : (⟨S640000, .i32⟩ : BufTy).Contents (Elt F) → (⟨S640000, .i32⟩ : BufTy).Contents (Elt F) → (⟨S640000, .i1⟩ : BufTy).Contents (Elt F)),
    nullary main_c_6 (constantI S_ 32 10000#32),
    unary main_c_6 main_v42 (broadcastInDim S640000 ![] bcast_S_S640000 : (⟨S_, .i32⟩ : BufTy).Contents (Elt F) → (⟨S640000, .i32⟩ : BufTy).Contents (Elt F)),
    binary main_v1 main_v42 main_v43 (addi : (⟨S640000, .i32⟩ : BufTy).Contents (Elt F) → (⟨S640000, .i32⟩ : BufTy).Contents (Elt F) → (⟨S640000, .i32⟩ : BufTy).Contents (Elt F)),
    ternary main_v41 main_v43 main_v1 main_v44 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v44 main_v45 (broadcastInDim S640000x1 ![0] bcast_S640000_S640000x1_0 : (⟨S640000, .i32⟩ : BufTy).Contents (Elt F) → (⟨S640000x1, .i32⟩ : BufTy).Contents (Elt F)),
    binary main_v39 main_v45 main_v46 ((fun x i => Host.gather gather_S10000x128_S640000x1_S640000x128_1_0_n_n_0_1_1128 x i) : (⟨S10000x128, .f32⟩ : BufTy).Contents (Elt F) → (⟨S640000x1, .i32⟩ : BufTy).Contents (Elt F) → (⟨S640000x128, .f32⟩ : BufTy).Contents (Elt F)),
    binary main_v46 main_arg6 main_v47 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg7 main_v48 (broadcastInDim S1x128 ![1] bcast_S128_S1x128_1 : (⟨S128, .f32⟩ : BufTy).Contents (Elt F) → (⟨S1x128, .f32⟩ : BufTy).Contents (Elt F)),
    unary main_v48 main_v49 (broadcastInDim S640000x128 ![0, 1] bcast_S1x128_S640000x128_0_1 : (⟨S1x128, .f32⟩ : BufTy).Contents (Elt F) → (⟨S640000x128, .f32⟩ : BufTy).Contents (Elt F)),
    binary main_v47 main_v49 main_v50 (addf : (⟨S640000x128, .f32⟩ : BufTy).Contents (Elt F) → (⟨S640000x128, .f32⟩ : BufTy).Contents (Elt F) → (⟨S640000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S640000x128, .f32⟩) main_call4_v0) (broadcastInDim S640000x128 ![] bcast_S_S640000x128),
    TRef.binary (TRef.of (T := ⟨S640000x128, .f32⟩) main_v50) (TRef.of (T := ⟨S640000x128, .f32⟩) main_call4_v0) (TRef.of (T := ⟨S640000x128, .f32⟩) main_v51) maximumf,
    nullary main_cst_7 (constant S_ .f32 0x00000000#32),
    unary main_cst_7 main_v52 (broadcastInDim S10000x128 ![] bcast_S_S10000x128 : (⟨S_, .f32⟩ : BufTy).Contents (Elt F) → (⟨S10000x128, .f32⟩ : BufTy).Contents (Elt F)),
    unary main_v3 main_v53 (broadcastInDim S640000x1 ![0] bcast_S640000_S640000x1_0 : (⟨S640000, .i32⟩ : BufTy).Contents (Elt F) → (⟨S640000x1, .i32⟩ : BufTy).Contents (Elt F)),
    ternary main_v52 main_v53 main_v51 main_v54 ((fun x i u => Host.scatterAdd scatter_S10000x128_S640000x1_S640000x128_1_0_0_1 x i u) : (⟨S10000x128, .f32⟩ : BufTy).Contents (Elt F) → (⟨S640000x1, .i32⟩ : BufTy).Contents (Elt F) → (⟨S640000x128, .f32⟩ : BufTy).Contents (Elt F) → (⟨S10000x128, .f32⟩ : BufTy).Contents (Elt F)),
    nullary main_cst_8 (constant S_ .f32 0x3F800000#32),
    unary main_cst_8 main_v55 (broadcastInDim S640000 ![] bcast_S_S640000 : (⟨S_, .f32⟩ : BufTy).Contents (Elt F) → (⟨S640000, .f32⟩ : BufTy).Contents (Elt F)),
    nullary main_cst_9 (constant S_ .f32 0x00000000#32),
    unary main_cst_9 main_v56 (broadcastInDim S10000 ![] bcast_S_S10000 : (⟨S_, .f32⟩ : BufTy).Contents (Elt F) → (⟨S10000, .f32⟩ : BufTy).Contents (Elt F)),
    unary main_v3 main_v57 (broadcastInDim S640000x1 ![0] bcast_S640000_S640000x1_0 : (⟨S640000, .i32⟩ : BufTy).Contents (Elt F) → (⟨S640000x1, .i32⟩ : BufTy).Contents (Elt F)),
    ternary main_v56 main_v57 main_v55 main_v58 ((fun x i u => Host.scatterAdd scatter_S10000_S640000x1_S640000_n_0_0_1 x i u) : (⟨S10000, .f32⟩ : BufTy).Contents (Elt F) → (⟨S640000x1, .i32⟩ : BufTy).Contents (Elt F) → (⟨S640000, .f32⟩ : BufTy).Contents (Elt F) → (⟨S10000, .f32⟩ : BufTy).Contents (Elt F)),
    nullary main_cst_10 (constant S_ .f32 0x3F800000#32),
    unary main_cst_10 main_v59 (broadcastInDim S10000 ![] bcast_S_S10000 : (⟨S_, .f32⟩ : BufTy).Contents (Elt F) → (⟨S10000, .f32⟩ : BufTy).Contents (Elt F)),
    binary main_v58 main_v59 main_v60 (maximumf : (⟨S10000, .f32⟩ : BufTy).Contents (Elt F) → (⟨S10000, .f32⟩ : BufTy).Contents (Elt F) → (⟨S10000, .f32⟩ : BufTy).Contents (Elt F)),
    unary main_v60 main_v61 (broadcastInDim S10000x1 ![0] bcast_S10000_S10000x1_0 : (⟨S10000, .f32⟩ : BufTy).Contents (Elt F) → (⟨S10000x1, .f32⟩ : BufTy).Contents (Elt F)),
    unary main_v61 main_v62 (broadcastInDim S10000x128 ![0, 1] bcast_S10000x1_S10000x128_0_1 : (⟨S10000x1, .f32⟩ : BufTy).Contents (Elt F) → (⟨S10000x128, .f32⟩ : BufTy).Contents (Elt F)),
    binary main_v54 main_v62 main_v63 (Host.divf : (⟨S10000x128, .f32⟩ : BufTy).Contents (Elt F) → (⟨S10000x128, .f32⟩ : BufTy).Contents (Elt F) → (⟨S10000x128, .f32⟩ : BufTy).Contents (Elt F)),
    binary main_v39 main_v63 main_v64 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    binary main_v64 main_arg8 main_v65 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    unary main_arg9 main_v66 (broadcastInDim S1x128 ![1] bcast_S128_S1x128_1 : (⟨S128, .f32⟩ : BufTy).Contents (Elt F) → (⟨S1x128, .f32⟩ : BufTy).Contents (Elt F)),
    unary main_v66 main_v67 (broadcastInDim S10000x128 ![0, 1] bcast_S1x128_S10000x128_0_1 : (⟨S1x128, .f32⟩ : BufTy).Contents (Elt F) → (⟨S10000x128, .f32⟩ : BufTy).Contents (Elt F)),
    binary main_v65 main_v67 main_v68 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S10000x128, .f32⟩) main_call5_v0) (broadcastInDim S10000x128 ![] bcast_S_S10000x128),
    TRef.binary (TRef.of (T := ⟨S10000x128, .f32⟩) main_v68) (TRef.of (T := ⟨S10000x128, .f32⟩) main_call5_v0) (TRef.of (T := ⟨S10000x128, .f32⟩) main_v69) maximumf,
    TRef.binary (TRef.of (T := ⟨S10000x128, .f32⟩) main_v69) (TRef.of (T := ⟨S10000x128, .f32⟩) main_v69) (TRef.of (T := ⟨S10000x128, .f32⟩) main_call6_v0) mulf,
    TRef.nullary (TRef.of (T := ⟨S_, .f32⟩) main_call6_cst) (constant S_ .f32 0x00000000#32),
    TRef.binary (TRef.of (T := ⟨S10000x128, .f32⟩) main_call6_v0) (TRef.of (T := ⟨S_, .f32⟩) main_call6_cst) (TRef.of (T := ⟨S10000, .f32⟩) main_call6_v1) (fun x v => Host.reduceAdd x v reducesTo_S10000x128_S10000_d1 h_S_),
    TRef.unary (TRef.of (T := ⟨S10000, .f32⟩) main_call6_v1) (TRef.of (T := ⟨S10000x1, .f32⟩) main_call6_v2) (broadcastInDim S10000x1 ![0] bcast_S10000_S10000x1_0),
    TRef.unary (TRef.of (T := ⟨S10000x1, .f32⟩) main_call6_v2) (TRef.of (T := ⟨S10000x1, .f32⟩) main_v70) Host.sqrt,
    nullary main_cst_11 (constant S_ .f32 0x2B8CBCCC#32),
    unary main_cst_11 main_v71 (broadcastInDim S10000x1 ![] bcast_S_S10000x1 : (⟨S_, .f32⟩ : BufTy).Contents (Elt F) → (⟨S10000x1, .f32⟩ : BufTy).Contents (Elt F)),
    binary main_v70 main_v71 main_v72 (maximumf : (⟨S10000x1, .f32⟩ : BufTy).Contents (Elt F) → (⟨S10000x1, .f32⟩ : BufTy).Contents (Elt F) → (⟨S10000x1, .f32⟩ : BufTy).Contents (Elt F)),
    unary main_v72 main_v73 (broadcastInDim S10000x128 ![0, 1] bcast_S10000x1_S10000x128_0_1 : (⟨S10000x1, .f32⟩ : BufTy).Contents (Elt F) → (⟨S10000x128, .f32⟩ : BufTy).Contents (Elt F)),
    binary main_v69 main_v73 main_v74 (Host.divf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S10000x128, .f32⟩) main_call7_v0) (broadcastInDim S10000x128 ![] bcast_S_S10000x128),
    TRef.binary (TRef.of (T := ⟨S10000x128, .f32⟩) main_v74) (TRef.of (T := ⟨S10000x128, .f32⟩) main_call7_v0) (TRef.of (T := ⟨S10000x128, .f32⟩) main_v75) maximumf,
    binary main_v75 main_arg10 main_v76 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg11 main_v77 (broadcastInDim S1x128 ![1] bcast_S128_S1x128_1 : (⟨S128, .f32⟩ : BufTy).Contents (Elt F) → (⟨S1x128, .f32⟩ : BufTy).Contents (Elt F)),
    unary main_v77 main_v78 (broadcastInDim S10000x128 ![0, 1] bcast_S1x128_S10000x128_0_1 : (⟨S1x128, .f32⟩ : BufTy).Contents (Elt F) → (⟨S10000x128, .f32⟩ : BufTy).Contents (Elt F)),
    binary main_v76 main_v78 main_v79 (addf : (⟨S10000x128, .f32⟩ : BufTy).Contents (Elt F) → (⟨S10000x128, .f32⟩ : BufTy).Contents (Elt F) → (⟨S10000x128, .f32⟩ : BufTy).Contents (Elt F)),
    binary main_v79 main_arg12 main_v80 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    unary main_arg13 main_v81 (broadcastInDim S1x64 ![1] bcast_S64_S1x64_1 : (⟨S64, .f32⟩ : BufTy).Contents (Elt F) → (⟨S1x64, .f32⟩ : BufTy).Contents (Elt F)),
    unary main_v81 main_v82 (broadcastInDim S10000x64 ![0, 1] bcast_S1x64_S10000x64_0_1 : (⟨S1x64, .f32⟩ : BufTy).Contents (Elt F) → (⟨S10000x64, .f32⟩ : BufTy).Contents (Elt F)),
    binary main_v80 main_v82 main_v83 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call8_cst) (constant S_ .f32 0xFF800000#32),
    TRef.binary (TRef.of (T := ⟨S10000x64, .f32⟩) main_v83) (TRef.of (T := ⟨S_, .f32⟩) main_call8_cst) (TRef.of (T := ⟨S10000, .f32⟩) main_call8_v0) (fun x v => Host.reduce FloatOps.maximumf x v reducesTo_S10000x64_S10000_d1 h_S_),
    TRef.nullary (TRef.of (T := ⟨S_, .f32⟩) main_call8_cst_0) (constant S_ .f32 0xFF800000#32),
    TRef.unary (TRef.of (T := ⟨S_, .f32⟩) main_call8_cst_0) (TRef.of (T := ⟨S10000, .f32⟩) main_call8_v1) (broadcastInDim S10000 ![] bcast_S_S10000),
    TRef.binary (TRef.of (T := ⟨S10000, .f32⟩) main_call8_v1) (TRef.of (T := ⟨S10000, .f32⟩) main_call8_v0) (TRef.of (T := ⟨S10000, .f32⟩) main_call8_v2) maximumf,
    TRef.unary (TRef.of (T := ⟨S10000, .f32⟩) main_call8_v2) (TRef.of (T := ⟨S10000x1, .f32⟩) main_call8_v3) (broadcastInDim S10000x1 ![0] bcast_S10000_S10000x1_0),
    TRef.unary (TRef.of (T := ⟨S10000x1, .f32⟩) main_call8_v3) (TRef.of (T := ⟨S10000x64, .f32⟩) main_call8_v4) (broadcastInDim S10000x64 ![0, 1] bcast_S10000x1_S10000x64_0_1),
    TRef.binary (TRef.of (T := ⟨S10000x64, .f32⟩) main_v83) (TRef.of (T := ⟨S10000x64, .f32⟩) main_call8_v4) (TRef.of (T := ⟨S10000x64, .f32⟩) main_call8_v5) subf,
    TRef.unary (TRef.of (T := ⟨S10000x64, .f32⟩) main_call8_v5) (TRef.of (T := ⟨S10000x64, .f32⟩) main_call8_v6) Host.exp,
    TRef.nullary (TRef.of (T := ⟨S_, .f32⟩) main_call8_cst_1) (constant S_ .f32 0x00000000#32),
    TRef.binary (TRef.of (T := ⟨S10000x64, .f32⟩) main_call8_v6) (TRef.of (T := ⟨S_, .f32⟩) main_call8_cst_1) (TRef.of (T := ⟨S10000, .f32⟩) main_call8_v7) (fun x v => Host.reduceAdd x v reducesTo_S10000x64_S10000_d1 h_S_),
    TRef.unary (TRef.of (T := ⟨S10000, .f32⟩) main_call8_v7) (TRef.of (T := ⟨S10000x1, .f32⟩) main_call8_v8) (broadcastInDim S10000x1 ![0] bcast_S10000_S10000x1_0),
    TRef.unary (TRef.of (T := ⟨S10000x1, .f32⟩) main_call8_v8) (TRef.of (T := ⟨S10000x1, .f32⟩) main_call8_v9) Host.log,
    TRef.unary (TRef.of (T := ⟨S10000x1, .f32⟩) main_call8_v9) (TRef.of (T := ⟨S10000x64, .f32⟩) main_call8_v10) (broadcastInDim S10000x64 ![0, 1] bcast_S10000x1_S10000x64_0_1),
    TRef.binary (TRef.of (T := ⟨S10000x64, .f32⟩) main_call8_v5) (TRef.of (T := ⟨S10000x64, .f32⟩) main_call8_v10) (TRef.of (T := ⟨S10000x64, .f32⟩) main_v84) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 53200000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = Cert.ReferenceIdeal.Read.val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v84).trans (by after_results_simp <;> (try simp only [TRef.ofBuf, TRef.toBuf, cast_eq]) <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl)⟩)
    (run_seq scopedRefs_eq scopedSems_eq defs main (fun _ => ops) main_eq (fun _ => ops_sub) m ρ)

end Cert.ReferenceIdeal.Value

end
-- ==== Proof.PreDecode.lean ====
import proofs.«403197_j58634893525189_3_alg».proof.Pre_finite_inputs
import proofs.«403197_j58634893525189_3_alg».proof.Proof.Model
import Idealize.ShloMosaic.Lib.ReduceAll
import Idealize.ShloMosaic.Lib.StableHlo.Predicate
import Idealize.ShloMosaic.Lib.ValueIdx

noncomputable section

namespace Cert.Proof.PreDecode

open Idealize.ShloMosaic Idealize.ShloMosaic.ValueIdx
open Cert.Pre_finite_inputs

instance : Subsingleton S_.Idx := ⟨fun a b => funext fun d => d.elim0⟩

theorem toInt_nonneg_of_sge {x : BitVec 32} (h : IntOp.cmpi .sge x (0#32) = 1#1) : 0 ≤ x.toInt := by
  unfold IntOp.cmpi at h
  rw [StableHlo.Predicate.ofBool_eq_one_iff] at h
  have h' : (0#32).toInt ≤ x.toInt := of_decide_eq_true h
  have z : (0#32).toInt = 0 := by decide
  omega

theorem toInt_lt_of_slt {x : BitVec 32} (h : IntOp.cmpi .slt x (10000#32) = 1#1) : x.toInt < 10000 := by
  unfold IntOp.cmpi at h
  rw [StableHlo.Predicate.ofBool_eq_one_iff] at h
  have h' : x.toInt < (10000#32).toInt := of_decide_eq_true h
  have z : (10000#32).toInt = 10000 := by decide
  omega

variable [Facts] {F : FTy → Type} [FloatOps F]

theorem entry_of_pre (a0 : FVec F S10000x128 .f32) (a1 : IVec S2x640000 32) (a2 : FVec F S128x128 .f32) (a3 : FVec F S128 .f32)
    (a4 : FVec F S256x128 .f32) (a5 : FVec F S128 .f32) (a6 : FVec F S128x128 .f32) (a7 : FVec F S128 .f32)
    (a8 : FVec F S256x128 .f32) (a9 : FVec F S128 .f32) (a10 : FVec F S128x128 .f32) (a11 : FVec F S128 .f32)
    (a12 : FVec F S128x64 .f32) (a13 : FVec F S64 .f32)
    (h : Cert.Pre_finite_inputs.fn (F := F) a0 a1 a2 a3 a4 a5 a6 a7 a8 a9 a10 a11 a12 a13 = fun _ => 1#1)
    (i : S2x640000.Idx) : 0 ≤ (a1 i).toInt ∧ (a1 i).toInt < 10000 := by
  have e := congrFun h ix0
  dsimp only [Cert.Pre_finite_inputs.fn, fn_part1, fn_part2, fn_part3, fn_part4] at e

  obtain ⟨e67, e70⟩ := IntOp.andi_eq_one.1 e
  obtain ⟨-, e66⟩ := IntOp.andi_eq_one.1 e67
  have hge := Host.reduce_andi_all _ _ _ _ _ e66 i
  have hlt := Host.reduce_andi_all _ _ _ _ _ e70 i
  exact ⟨toInt_nonneg_of_sge hge, toInt_lt_of_slt hlt⟩

theorem inRange_of_pre (a0 : FVec F S10000x128 .f32) (a1 : IVec S2x640000 32) (a2 : FVec F S128x128 .f32) (a3 : FVec F S128 .f32)
    (a4 : FVec F S256x128 .f32) (a5 : FVec F S128 .f32) (a6 : FVec F S128x128 .f32) (a7 : FVec F S128 .f32)
    (a8 : FVec F S256x128 .f32) (a9 : FVec F S128 .f32) (a10 : FVec F S128x128 .f32) (a11 : FVec F S128 .f32)
    (a12 : FVec F S128x64 .f32) (a13 : FVec F S64 .f32)
    (h : Cert.Pre_finite_inputs.fn (F := F) a0 a1 a2 a3 a4 a5 a6 a7 a8 a9 a10 a11 a12 a13 = fun _ => 1#1) :
    Cert.Spec.InRange a1 := by
  intro r e
  exact entry_of_pre a0 a1 a2 a3 a4 a5 a6 a7 a8 a9 a10 a11 a12 a13 h (ix2 r e)

end Cert.Proof.PreDecode

end
-- ==== Proof.lean ====
import proofs.«403197_j58634893525189_3_alg».proof.Defs
import proofs.«403197_j58634893525189_3_alg».proof.Proof.Gen.Kernel
import proofs.«403197_j58634893525189_3_alg».proof.Proof.Gen.KernelIdeal
import proofs.«403197_j58634893525189_3_alg».proof.Proof.Gen.ReferenceIdeal
import proofs.«403197_j58634893525189_3_alg».proof.Proof.Gen.Pre_finite_inputs
import proofs.«403197_j58634893525189_3_alg».proof.Proof.K.Run
import proofs.«403197_j58634893525189_3_alg».proof.Proof.KI.Run
import proofs.«403197_j58634893525189_3_alg».proof.Proof.KI.KVal
import proofs.«403197_j58634893525189_3_alg».proof.Proof.RefValue
import proofs.«403197_j58634893525189_3_alg».proof.Proof.RefRun
import proofs.«403197_j58634893525189_3_alg».proof.Proof.PreDecode
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ =>
  (θ_run Cert.Kernel.defs _ _).mono (fun _ h c => (h c).2) (Cert.Kernel.Hand.run_full (F := Bits) m ρ)

theorem frame_ki : Cert.frame_KernelIdeal := fun m ρ _ =>
  (θ_run Cert.KernelIdeal.defs _ _).mono (fun _ h c => (h c).2) (Cert.KernelIdeal.Hand.run_full (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  have hIn : ∀ c : Dev Cert.KernelIdeal.nD, Cert.Spec.InRange (m ((c.tc : Thread Cert.KernelIdeal.nD Cert.KernelIdeal.τ).loc Cert.KernelIdeal.main_arg1)) := fun c =>
    Cert.Proof.PreDecode.inRange_of_pre (F := Ideal) _ _ _ _ _ _ _ _ _ _ _ _ _ _ (hpre c)
  refine ⟨fun c => Cert.KernelIdeal.Hand.W13 m c Cert.KernelIdeal.main_v30, Cert.KernelIdeal.Hand.run_full (F := Ideal) m ρ, ?_⟩
  refine (θ_run Cert.ReferenceIdeal.defs _ _).mono (fun _ hr c => ⟨(hr c).1.trans ?_, (hr c).2⟩)
    (Cert.ReferenceIdeal.Value.run (F := Ideal) m' ρ')
  obtain ⟨h0, h1, h2, h3, h4, h5, h6, h7, h8, h9, h10, h11, h12, h13⟩ := hagree c
  rw [h0, h1, h2, h3, h4, h5, h6, h7, h8, h9, h10, h11, h12, h13]
  funext i
  obtain ⟨d, j, rfl⟩ : ∃ (d : Fin 10000) (j : Fin 64), i = ix2 d j := ⟨i 0, i 1, eq_ix2 i⟩
  rw [Cert.ReferenceIdeal.RefValue.ref_val _ _ _ _ _ _ _ _ _ _ _ _ _ _ (hIn c) d j]
  beta_reduce
  rw [Cert.KernelIdeal.Hand.kernel_val m c (hIn c) d j]
  exact (congrFun (Cert.Spec.modelK_eq_modelR _ _ _ _ _ _ _ _ _ _ _ _ _ _ _ _ Cert.Spec.ofBits_one Cert.Spec.ofBits_eps_pos _ d) j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
